-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_v310) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S64x128 : Shape := ⟨2, ![64, 128]⟩
abbrev S64 : Shape := ⟨1, ![64]⟩
abbrev S2x64 : Shape := ⟨2, ![2, 64]⟩
abbrev S2 : Shape := ⟨1, ![2]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S4x64x64 : S_.BroadcastsInDim S4x64x64 (![] : Fin 0 → Fin S4x64x64.rank)
  reducesTo_S4x64x64_S_d0_1_2 : S4x64x64.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part7 {F : FTy → Type} [FloatOps F] (main_arg2 : IVec S1600000 32) (main_v115 : IVec S_ 1) (main_v117 : IVec S1600000 1) (main_v118 : IVec S1600000 32) : IVec S_ 1 :=
  let main_v119 : IVec S1600000 1 := cmpi .slt main_arg2 main_v118
  let main_v120 : IVec S1600000 1 := andi main_v117 main_v119
  let main_c_47 : IVec S_ 1 := constantI S_ 1 1#1
  let main_v121 : IVec S_ 1 := (fun x v => Host.reduce IntOp.andi x v reducesTo_S1600000_S_d0 h_S_) main_v120 main_c_47
  let main_v122 : IVec S_ 1 := andi main_v115 main_v121
  main_v122

def fn_part6 {F : FTy → Type} [FloatOps F] (main_arg2 : IVec S1600000 32) (main_arg3 : IVec S1600000 32) (main_arg25 : FVec F S1 .f32) (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S1600000 32 := broadcastInDim S1600000 ![] bcast_S_S1600000 main_c_42
  let main_v110 : IVec S1600000 1 := cmpi .sge main_arg3 main_v109
  let main_c_43 : IVec S_ 32 := constantI S_ 32 4#32
  let main_v111 : IVec S1600000 32 := broadcastInDim S1600000 ![] bcast_S_S1600000 main_c_43
  let main_v112 : IVec S1600000 1 := cmpi .slt main_arg3 main_v111
  let main_v113 : IVec S1600000 1 := andi main_v110 main_v112
  let main_c_44 : IVec S_ 1 := constantI S_ 1 1#1
  let main_v114 : IVec S_ 1 := (fun x v => Host.reduce IntOp.andi x v reducesTo_S1600000_S_d0 h_S_) main_v113 main_c_44
  let main_v115 : IVec S_ 1 := andi main_v108 main_v114
  let main_c_45 : IVec S_ 32 := constantI S_ 32 0#32
  let main_v116 : IVec S1600000 32 := broadcastInDim S1600000 ![] bcast_S_S1600000 main_c_45
  let main_v117 : IVec S1600000 1 := cmpi .sge main_arg2 main_v116
  let main_c_46 : IVec S_ 32 := constantI S_ 32 100000#32
  let main_v118 : IVec S1600000 32 := broadcastInDim S1600000 ![] bcast_S_S1600000 main_c_46
  fn_part7 (F := F) main_arg2 main_v115 main_v117 main_v118

def fn_part5 {F : FTy → Type} [FloatOps F] (main_arg2 : IVec S1600000 32) (main_arg3 : IVec S1600000 32) (main_arg22 : FVec F S64x64 .f32) (main_arg23 : FVec F S64 .f32) (main_arg24 : FVec F S1x64 .f32) (main_arg25 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S64x64 .f32 := Host.absf main_arg22
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1x64 .f32 := Host.absf main_arg24
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_arg2 main_arg3 main_arg25 main_v98 main_v101 main_c_39

def fn_part4 {F : FTy → Type} [FloatOps F] (main_arg2 : IVec S1600000 32) (main_arg3 : IVec S1600000 32) (main_arg18 : FVec F S64x128 .f32) (main_arg19 : FVec F S64 .f32) (main_arg20 : FVec F S1x64 .f32) (main_arg21 : FVec F S1 .f32) (main_arg22 : FVec F S64x64 .f32) (main_arg23 : FVec F S64 .f32) (main_arg24 : FVec F S1x64 .f32) (main_arg25 : FVec F S1 .f32) (main_v63 : IVec S_ 1) (main_v67 : IVec S_ 1) : IVec S_ 1 :=
  let main_v68 : IVec S_ 1 := andi main_v63 main_v67
  let main_v69 : FVec F S64x128 .f32 := Host.absf main_arg18
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S1x64 .f32 := Host.absf main_arg20
  let main_cst_30 : FVec F S_ .f32 := constant S_ .f32 0x7F800000#32
  let main_v80 : FVec F S1x64 .f32 := broadcastInDim S1x64 ![] bcast_S_S1x64 main_cst_30
  let main_v81 : IVec S1x64 1 := cmpf .olt main_v79 main_v80
  let main_c_31 : IVec S_ 1 := constantI S_ 1 1#1
  let main_v82 : IVec S_ 1 := (fun x v => Host.reduce IntOp.andi x v reducesTo_S1x64_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg2 main_arg3 main_arg22 main_arg23 main_arg24 main_arg25 main_v83 main_v84 main_cst_32

def fn_part3 {F : FTy → Type} [FloatOps F] (main_arg2 : IVec S1600000 32) (main_arg3 : IVec S1600000 32) (main_arg15 : FVec F S64 .f32) (main_arg16 : FVec F S2x64 .f32) (main_arg17 : FVec F S2 .f32) (main_arg18 : FVec F S64x128 .f32) (main_arg19 : FVec F S64 .f32) (main_arg20 : FVec F S1x64 .f32) (main_arg21 : FVec F S1 .f32) (main_arg22 : FVec F S64x64 .f32) (main_arg23 : FVec F S64 .f32) (main_arg24 : FVec F S1x64 .f32) (main_arg25 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S2x64 .f32 := Host.absf main_arg16
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg2 main_arg3 main_arg18 main_arg19 main_arg20 main_arg21 main_arg22 main_arg23 main_arg24 main_arg25 main_v63 main_v67

def fn_part2 {F : FTy → Type} [FloatOps F] (main_arg2 : IVec S1600000 32) (main_arg3 : IVec S1600000 32) (main_arg11 : FVec F S64 .f32) (main_arg12 : FVec F S2x64 .f32) (main_arg13 : FVec F S2 .f32) (main_arg14 : FVec F S64x64 .f32) (main_arg15 : FVec F S64 .f32) (main_arg16 : FVec F S2x64 .f32) (main_arg17 : FVec F S2 .f32) (main_arg18 : FVec F S64x128 .f32) (main_arg19 : FVec F S64 .f32) (main_arg20 : FVec F S1x64 .f32) (main_arg21 : FVec F S1 .f32) (main_arg22 : FVec F S64x64 .f32) (main_arg23 : FVec F S64 .f32) (main_arg24 : FVec F S1x64 .f32) (main_arg25 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x64 .f32 := Host.absf main_arg12
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2 .f32 := Host.absf main_arg13
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg2 main_arg3 main_arg15 main_arg16 main_arg17 main_arg18 main_arg19 main_arg20 main_arg21 main_arg22 main_arg23 main_arg24 main_arg25 main_v48 main_v49 main_v50

def fn_part1 {F : FTy → Type} [FloatOps F] (main_arg2 : IVec S1600000 32) (main_arg3 : IVec S1600000 32) (main_arg8 : FVec F S192 .f32) (main_arg9 : FVec F S192 .f32) (main_arg10 : FVec F S64x128 .f32) (main_arg11 : FVec F S64 .f32) (main_arg12 : FVec F S2x64 .f32) (main_arg13 : FVec F S2 .f32) (main_arg14 : FVec F S64x64 .f32) (main_arg15 : FVec F S64 .f32) (main_arg16 : FVec F S2x64 .f32) (main_arg17 : FVec F S2 .f32) (main_arg18 : FVec F S64x128 .f32) (main_arg19 : FVec F S64 .f32) (main_arg20 : FVec F S1x64 .f32) (main_arg21 : FVec F S1 .f32) (main_arg22 : FVec F S64x64 .f32) (main_arg23 : FVec F S64 .f32) (main_arg24 : FVec F S1x64 .f32) (main_arg25 : FVec F S1 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg8
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg9
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S64x128 .f32 := Host.absf main_arg10
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg2 main_arg3 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S100000 32) (main_arg1 : IVec S1600000 32) (main_arg2 : IVec S1600000 32) (main_arg3 : IVec S1600000 32) (main_arg4 : FVec F S4x64x64 .f32) (main_arg5 : FVec F S4x64 .f32) (main_arg6 : FVec F S192x64 .f32) (main_arg7 : FVec F S192x64 .f32) (main_arg8 : FVec F S192 .f32) (main_arg9 : FVec F S192 .f32) (main_arg10 : FVec F S64x128 .f32) (main_arg11 : FVec F S64 .f32) (main_arg12 : FVec F S2x64 .f32) (main_arg13 : FVec F S2 .f32) (main_arg14 : FVec F S64x64 .f32) (main_arg15 : FVec F S64 .f32) (main_arg16 : FVec F S2x64 .f32) (main_arg17 : FVec F S2 .f32) (main_arg18 : FVec F S64x128 .f32) (main_arg19 : FVec F S64 .f32) (main_arg20 : FVec F S1x64 .f32) (main_arg21 : FVec F S1 .f32) (main_arg22 : FVec F S64x64 .f32) (main_arg23 : FVec F S64 .f32) (main_arg24 : FVec F S1x64 .f32) (main_arg25 : FVec F S1 .f32) : IVec S_ 1 :=
  let main_v0 : FVec F S4x64x64 .f32 := Host.absf main_arg4
  let main_cst : FVec F S_ .f32 := constant S_ .f32 0x7F800000#32
  let main_v1 : FVec F S4x64x64 .f32 := broadcastInDim S4x64x64 ![] bcast_S_S4x64x64 main_cst
  let main_v2 : IVec S4x64x64 1 := cmpf .olt main_v0 main_v1
  let main_c : IVec S_ 1 := constantI S_ 1 1#1
  let main_v3 : IVec S_ 1 := (fun x v => Host.reduce IntOp.andi x v reducesTo_S4x64x64_S_d0_1_2 h_S_) main_v2 main_c
  let main_v4 : FVec F S4x64 .f32 := Host.absf main_arg5
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S192x64 .f32 := Host.absf main_arg6
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg7
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg2 main_arg3 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000 : Shape := ⟨1, ![100000]⟩
abbrev S1600000 : Shape := ⟨1, ![1600000]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S64x128 : Shape := ⟨2, ![64, 128]⟩
abbrev S64 : Shape := ⟨1, ![64]⟩
abbrev S2x64 : Shape := ⟨2, ![2, 64]⟩
abbrev S2 : Shape := ⟨1, ![2]⟩
abbrev S64x64 : Shape := ⟨2, ![64, 64]⟩
abbrev S1x64 : Shape := ⟨2, ![1, 64]⟩
abbrev S1 : Shape := ⟨1, ![1]⟩
abbrev S_ : Shape := ⟨0, ![]⟩
abbrev S100000x1 : Shape := ⟨2, ![100000, 1]⟩
abbrev S100000x64 : Shape := ⟨2, ![100000, 64]⟩
abbrev S256x64 : Shape := ⟨2, ![256, 64]⟩
abbrev S3x64x64 : Shape := ⟨3, ![3, 64, 64]⟩
abbrev S3x64 : Shape := ⟨2, ![3, 64]⟩
abbrev S1600000x1 : Shape := ⟨2, ![1600000, 1]⟩
abbrev S1x4 : Shape := ⟨2, ![1, 4]⟩
abbrev S1600000x4 : Shape := ⟨2, ![1600000, 4]⟩
abbrev S100000x4 : Shape := ⟨2, ![100000, 4]⟩
abbrev S1600000x64 : Shape := ⟨2, ![1600000, 64]⟩
abbrev S400000x64 : Shape := ⟨2, ![400000, 64]⟩
abbrev S100000x256 : Shape := ⟨2, ![100000, 256]⟩
abbrev S2000x64 : Shape := ⟨2, ![2000, 64]⟩
abbrev S2000x256 : Shape := ⟨2, ![2000, 256]⟩
abbrev S1x64x64 : Shape := ⟨3, ![1, 64, 64]⟩
abbrev S64x2 : Shape := ⟨2, ![64, 2]⟩
abbrev S64x1 : Shape := ⟨2, ![64, 1]⟩
abbrev S1x2 : Shape := ⟨2, ![1, 2]⟩
abbrev S1x1 : Shape := ⟨2, ![1, 1]⟩
abbrev S2000x2 : Shape := ⟨2, ![2000, 2]⟩
abbrev S2000x1 : Shape := ⟨2, ![2000, 1]⟩

abbrev nBuf : Space → Nat
  | .hbm => 179
  | .vmem => 78
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S1600000, .i32⟩
  | 4 => ⟨S4x64x64, .f32⟩
  | 5 => ⟨S4x64, .f32⟩
  | 6 => ⟨S192x64, .f32⟩
  | 7 => ⟨S192x64, .f32⟩
  | 8 => ⟨S192, .f32⟩
  | 9 => ⟨S192, .f32⟩
  | 10 => ⟨S64x128, .f32⟩
  | 11 => ⟨S64, .f32⟩
  | 12 => ⟨S2x64, .f32⟩
  | 13 => ⟨S2, .f32⟩
  | 14 => ⟨S64x64, .f32⟩
  | 15 => ⟨S64, .f32⟩
  | 16 => ⟨S2x64, .f32⟩
  | 17 => ⟨S2, .f32⟩
  | 18 => ⟨S64x128, .f32⟩
  | 19 => ⟨S64, .f32⟩
  | 20 => ⟨S1x64, .f32⟩
  | 21 => ⟨S1, .f32⟩
  | 22 => ⟨S64x64, .f32⟩
  | 23 => ⟨S64, .f32⟩
  | 24 => ⟨S1x64, .f32⟩
  | 25 => ⟨S1, .f32⟩
  | 26 => ⟨S64, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S64, .i32⟩
  | 34 => ⟨S64, .i32⟩
  | 35 => ⟨S_, .i32⟩
  | 36 => ⟨S64, .i32⟩
  | 37 => ⟨S64, .i1⟩
  | 38 => ⟨S_, .i32⟩
  | 39 => ⟨S64, .i32⟩
  | 40 => ⟨S64, .i1⟩
  | 41 => ⟨S_, .i32⟩
  | 42 => ⟨S_, .i1⟩
  | 43 => ⟨S64, .i1⟩
  | 44 => ⟨S64, .i1⟩
  | 45 => ⟨S64, .i1⟩
  | 46 => ⟨S64, .i32⟩
  | 47 => ⟨S64, .i32⟩
  | 48 => ⟨S64, .i32⟩
  | 49 => ⟨S1x64, .i32⟩
  | 50 => ⟨S100000x1, .i32⟩
  | 51 => ⟨S100000x64, .i32⟩
  | 52 => ⟨S100000x64, .i32⟩
  | 53 => ⟨S100000x64, .i1⟩
  | 54 => ⟨S100000x64, .f32⟩
  | 55 => ⟨S4x64x64, .f32⟩
  | 56 => ⟨S256x64, .f32⟩
  | 57 => ⟨S3x64x64, .f32⟩
  | 58 => ⟨S3x64x64, .f32⟩
  | 59 => ⟨S3x64x64, .f32⟩
  | 60 => ⟨S3x64x64, .f32⟩
  | 61 => ⟨S3x64, .f32⟩
  | 62 => ⟨S3x64, .f32⟩
  | 63 => ⟨S1600000x1, .i32⟩
  | 64 => ⟨S1x4, .i32⟩
  | 65 => ⟨S1600000x4, .i32⟩
  | 66 => ⟨S1600000x4, .i32⟩
  | 67 => ⟨S1600000x4, .i1⟩
  | 68 => ⟨S1600000x4, .f32⟩
  | 69 => ⟨S_, .f32⟩
  | 70 => ⟨S100000x4, .f32⟩
  | 71 => ⟨S1600000x1, .i32⟩
  | 72 => ⟨S100000x4, .f32⟩
  | 73 => ⟨S100000x64, .f32⟩
  | 74 => ⟨S_, .i32⟩
  | 75 => ⟨S1600000, .i32⟩
  | 76 => ⟨S1600000, .i32⟩
  | 77 => ⟨S1600000, .i32⟩
  | 78 => ⟨S100000x64, .bf16⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .bf16⟩
  | 88 => ⟨S1600000x64, .f32⟩
  | 89 => ⟨S_, .f32⟩
  | 90 => ⟨S400000x64, .f32⟩
  | 91 => ⟨S1600000x1, .i32⟩
  | 92 => ⟨S400000x64, .f32⟩
  | 93 => ⟨S100000x256, .f32⟩
  | 94 => ⟨S100000x64, .f32⟩
  | 95 => ⟨S100000x64, .bf16⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .bf16⟩
  | 105 => ⟨S1600000x64, .f32⟩
  | 106 => ⟨S_, .f32⟩
  | 107 => ⟨S400000x64, .f32⟩
  | 108 => ⟨S1600000x1, .i32⟩
  | 109 => ⟨S400000x64, .f32⟩
  | 110 => ⟨S100000x256, .f32⟩
  | 111 => ⟨S100000x64, .f32⟩
  | 112 => ⟨S100000x64, .bf16⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .bf16⟩
  | 122 => ⟨S1600000x64, .f32⟩
  | 123 => ⟨S_, .f32⟩
  | 124 => ⟨S400000x64, .f32⟩
  | 125 => ⟨S1600000x1, .i32⟩
  | 126 => ⟨S400000x64, .f32⟩
  | 127 => ⟨S100000x256, .f32⟩
  | _ => ⟨S100000, .i32⟩

abbrev hbmTy0_1 (i : Nat) : BufTy := match i % 128 with
  | 0 => ⟨S100000x64, .f32⟩
  | 1 => ⟨S100000x64, .bf16⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .bf16⟩
  | 11 => ⟨S1600000x64, .f32⟩
  | 12 => ⟨S_, .f32⟩
  | 13 => ⟨S400000x64, .f32⟩
  | 14 => ⟨S1600000x1, .i32⟩
  | 15 => ⟨S400000x64, .f32⟩
  | 16 => ⟨S100000x256, .f32⟩
  | 17 => ⟨S100000x64, .f32⟩
  | 18 => ⟨S64x64, .f32⟩
  | 19 => ⟨S64x64, .f32⟩
  | 20 => ⟨S64x64, .f32⟩
  | 21 => ⟨S64x64, .f32⟩
  | 22 => ⟨S64x2, .f32⟩
  | 23 => ⟨S64x64, .f32⟩
  | 24 => ⟨S64x64, .f32⟩
  | 25 => ⟨S64x64, .f32⟩
  | 26 => ⟨S64x64, .f32⟩
  | 27 => ⟨S64x1, .f32⟩
  | 28 => ⟨S64x64, .f32⟩
  | 29 => ⟨S64x2, .f32⟩
  | 30 => ⟨S64x64, .f32⟩
  | 31 => ⟨S64x1, .f32⟩
  | 32 => ⟨S1x2, .f32⟩
  | 33 => ⟨S1x1, .f32⟩
  | 34 => ⟨S2, .f32⟩
  | 35 => ⟨S1, .f32⟩
  | 36 => ⟨S_, .f32⟩
  | 37 => ⟨S_, .f32⟩
  | 38 => ⟨S_, .f32⟩
  | 39 => ⟨S_, .f32⟩
  | 40 => ⟨S1, .f32⟩
  | 41 => ⟨S2, .f32⟩
  | 42 => ⟨S2, .f32⟩
  | 43 => ⟨S2, .f32⟩
  | 44 => ⟨S_, .f32⟩
  | 45 => ⟨S_, .f32⟩
  | 46 => ⟨S1, .f32⟩
  | 47 => ⟨S1, .f32⟩
  | 48 => ⟨S2, .f32⟩
  | 49 => ⟨S2, .f32⟩
  | 50 => ⟨S1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x256, .f32⟩
  | .local _ .vmem, ⟨3, _⟩ => ⟨S2000x256, .f32⟩
  | .local _ .vmem, ⟨4, _⟩ => ⟨S2000x64, .f32⟩
  | .local _ .vmem, ⟨5, _⟩ => ⟨S2000x64, .f32⟩
  | .local _ .vmem, ⟨6, _⟩ => ⟨S256x64, .f32⟩
  | .local _ .vmem, ⟨7, _⟩ => ⟨S3x64x64, .f32⟩
  | .local _ .vmem, ⟨8, _⟩ => ⟨S3x64x64, .f32⟩
  | .local _ .vmem, ⟨9, _⟩ => ⟨S3x64, .f32⟩
  | .local _ .vmem, ⟨10, _⟩ => ⟨S3x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x256, .f32⟩
  | .local _ .vmem, ⟨16, _⟩ => ⟨S2000x256, .f32⟩
  | .local _ .vmem, ⟨17, _⟩ => ⟨S2000x64, .f32⟩
  | .local _ .vmem, ⟨18, _⟩ => ⟨S2000x64, .f32⟩
  | .local _ .vmem, ⟨19, _⟩ => ⟨S256x64, .f32⟩
  | .local _ .vmem, ⟨20, _⟩ => ⟨S3x64x64, .f32⟩
  | .local _ .vmem, ⟨21, _⟩ => ⟨S3x64x64, .f32⟩
  | .local _ .vmem, ⟨22, _⟩ => ⟨S3x64, .f32⟩
  | .local _ .vmem, ⟨23, _⟩ => ⟨S3x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x256, .f32⟩
  | .local _ .vmem, ⟨29, _⟩ => ⟨S2000x256, .f32⟩
  | .local _ .vmem, ⟨30, _⟩ => ⟨S2000x64, .f32⟩
  | .local _ .vmem, ⟨31, _⟩ => ⟨S2000x64, .f32⟩
  | .local _ .vmem, ⟨32, _⟩ => ⟨S256x64, .f32⟩
  | .local _ .vmem, ⟨33, _⟩ => ⟨S3x64x64, .f32⟩
  | .local _ .vmem, ⟨34, _⟩ => ⟨S3x64x64, .f32⟩
  | .local _ .vmem, ⟨35, _⟩ => ⟨S3x64, .f32⟩
  | .local _ .vmem, ⟨36, _⟩ => ⟨S3x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x256, .f32⟩
  | .local _ .vmem, ⟨42, _⟩ => ⟨S2000x256, .f32⟩
  | .local _ .vmem, ⟨43, _⟩ => ⟨S2000x64, .f32⟩
  | .local _ .vmem, ⟨44, _⟩ => ⟨S2000x64, .f32⟩
  | .local _ .vmem, ⟨45, _⟩ => ⟨S256x64, .f32⟩
  | .local _ .vmem, ⟨46, _⟩ => ⟨S3x64x64, .f32⟩
  | .local _ .vmem, ⟨47, _⟩ => ⟨S3x64x64, .f32⟩
  | .local _ .vmem, ⟨48, _⟩ => ⟨S3x64, .f32⟩
  | .local _ .vmem, ⟨49, _⟩ => ⟨S3x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S64x64, .f32⟩
  | .local _ .vmem, ⟨57, _⟩ => ⟨S64x64, .f32⟩
  | .local _ .vmem, ⟨58, _⟩ => ⟨S64, .f32⟩
  | .local _ .vmem, ⟨59, _⟩ => ⟨S64x2, .f32⟩
  | .local _ .vmem, ⟨60, _⟩ => ⟨S2, .f32⟩
  | .local _ .vmem, ⟨61, _⟩ => ⟨S64x64, .f32⟩
  | .local _ .vmem, ⟨62, _⟩ => ⟨S64, .f32⟩
  | .local _ .vmem, ⟨63, _⟩ => ⟨S64x2, .f32⟩
  | .local _ .vmem, ⟨64, _⟩ => ⟨S2, .f32⟩
  | .local _ .vmem, ⟨65, _⟩ => ⟨S64x64, .f32⟩
  | .local _ .vmem, ⟨66, _⟩ => ⟨S64x64, .f32⟩
  | .local _ .vmem, ⟨67, _⟩ => ⟨S64, .f32⟩
  | .local _ .vmem, ⟨68, _⟩ => ⟨S64x1, .f32⟩
  | .local _ .vmem, ⟨69, _⟩ => ⟨S1, .f32⟩
  | .local _ .vmem, ⟨70, _⟩ => ⟨S64x64, .f32⟩
  | .local _ .vmem, ⟨71, _⟩ => ⟨S64, .f32⟩
  | .local _ .vmem, ⟨72, _⟩ => ⟨S64x1, .f32⟩
  | .local _ .vmem, ⟨73, _⟩ => ⟨S1, .f32⟩
  | .local _ .vmem, ⟨74, _⟩ => ⟨S1x2, .f32⟩
  | .local _ .vmem, ⟨75, _⟩ => ⟨S1x1, .f32⟩
  | .local _ .vmem, ⟨76, _⟩ => ⟨S1x2, .f32⟩
  | .local _ .vmem, ⟨77, _⟩ => ⟨S1x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v16 : Ref sig .tc := ⟨.hbm, 68, rfl⟩
abbrev main_cst : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_c_0 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_c_1 : Ref sig .tc := ⟨.hbm, 79, rfl⟩
abbrev main_v25 : Ref sig .tc := ⟨.hbm, 80, rfl⟩
abbrev main_v26 : Ref sig .tc := ⟨.hbm, 81, rfl⟩
abbrev main_c_2 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_3 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_c_4 : Ref sig .tc := ⟨.hbm, 96, rfl⟩
abbrev main_v39 : Ref sig .tc := ⟨.hbm, 97, rfl⟩
abbrev main_v40 : Ref sig .tc := ⟨.hbm, 98, rfl⟩
abbrev main_c_5 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_6 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_7 : Ref sig .tc := ⟨.hbm, 113, rfl⟩
abbrev main_v53 : Ref sig .tc := ⟨.hbm, 114, rfl⟩
abbrev main_v54 : Ref sig .tc := ⟨.hbm, 115, rfl⟩
abbrev main_c_8 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_9 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_10 : Ref sig .tc := ⟨.hbm, 130, rfl⟩
abbrev main_v67 : Ref sig .tc := ⟨.hbm, 131, rfl⟩
abbrev main_v68 : Ref sig .tc := ⟨.hbm, 132, rfl⟩
abbrev main_c_11 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_12 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94_0 : Ref sig .tc := ⟨.hbm, 160, rfl⟩
abbrev main_v94_1 : Ref sig .tc := ⟨.hbm, 161, rfl⟩
abbrev main_v95 : Ref sig .tc := ⟨.hbm, 162, rfl⟩
abbrev main_v96 : Ref sig .tc := ⟨.hbm, 163, rfl⟩
abbrev main_call2_cst : Ref sig .tc := ⟨.hbm, 164, rfl⟩
abbrev main_call2_v0 : Ref sig .tc := ⟨.hbm, 165, rfl⟩
abbrev main_call2_cst_0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_cst_1 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_v97 : Ref sig .tc := ⟨.hbm, 177, rfl⟩
abbrev main_v98 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg8_0 : Ref sig .tc := ⟨.vmem, 62, rfl⟩
abbrev cc4_stg9_0 : Ref sig .tc := ⟨.vmem, 63, rfl⟩
abbrev cc4_stg10_0 : Ref sig .tc := ⟨.vmem, 64, rfl⟩
abbrev cc4_stg11_0 : Ref sig .tc := ⟨.vmem, 65, rfl⟩
abbrev cc4_stg12_0 : Ref sig .tc := ⟨.vmem, 66, rfl⟩
abbrev cc4_stg13_0 : Ref sig .tc := ⟨.vmem, 67, rfl⟩
abbrev cc4_stg14_0 : Ref sig .tc := ⟨.vmem, 68, rfl⟩
abbrev cc4_stg15_0 : Ref sig .tc := ⟨.vmem, 69, rfl⟩
abbrev cc4_stg16_0 : Ref sig .tc := ⟨.vmem, 70, rfl⟩
abbrev cc4_stg17_0 : Ref sig .tc := ⟨.vmem, 71, rfl⟩
abbrev cc4_stg18_0 : Ref sig .tc := ⟨.vmem, 72, rfl⟩
abbrev cc4_stg19_0 : Ref sig .tc := ⟨.vmem, 73, rfl⟩
abbrev cc4_stg20_0 : Ref sig .tc := ⟨.vmem, 74, rfl⟩
abbrev cc4_stg21_0 : Ref sig .tc := ⟨.vmem, 75, rfl⟩
abbrev cc4_scratch0 : Ref sig .tc := ⟨.vmem, 76, rfl⟩
abbrev cc4_scratch1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem8_0 : DmaSem sig := 62
abbrev cc4_sem9_0 : DmaSem sig := 63
abbrev cc4_sem10_0 : DmaSem sig := 64
abbrev cc4_sem11_0 : DmaSem sig := 65
abbrev cc4_sem12_0 : DmaSem sig := 66
abbrev cc4_sem13_0 : DmaSem sig := 67
abbrev cc4_sem14_0 : DmaSem sig := 68
abbrev cc4_sem15_0 : DmaSem sig := 69
abbrev cc4_sem16_0 : DmaSem sig := 70
abbrev cc4_sem17_0 : DmaSem sig := 71
abbrev cc4_sem18_0 : DmaSem sig := 72
abbrev cc4_sem19_0 : DmaSem sig := 73
abbrev cc4_sem20_0 : DmaSem sig := 74
abbrev cc4_sem21_0 : DmaSem sig := 75

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S3x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v109 : BitVec 1 := Scalar.cmpi .eq arg0 c49_i32
  let v110 : BitVec 32 := Scalar.extui v109
  let c0_i32_51 : BitVec 32 := 0#32
  let v111 : BitVec 1 := Scalar.cmpi .ne v110 c0_i32_51
  v111

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_20 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_21 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x2 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S2 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S64x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S64x64 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S64 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S64x1 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 1 → Memref sig .tc .vmem S1 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false]

abbrev stage4_20 : Fin 1 → Memref sig .tc .vmem S1x2 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))
abbrev reads4_20 : Fin grid4.rank → Bool := ![false]

abbrev stage4_21 : Fin 1 → Memref sig .tc .vmem S1x1 .f32 := fun | 0 => Memref.whole cc4_stg21_0 | ⟨_ + 1, h⟩ => absurd h (Nat.not_lt.2 (Nat.le_add_left _ _))
abbrev sem4_21 : Fin 1 → DmaSem sig := fun | 0 => cc4_sem21_0 | ⟨_ + 1, h⟩ => absurd h (Nat.not_lt.2 (Nat.le_add_left _ _))
abbrev reads4_21 : Fin grid4.rank → Bool := ![false]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S100000_S100000x1_0 : S100000.BroadcastsInDim S100000x1 (![0] : Fin 1 → Fin S100000x1.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  transposes_S4x64x64_S4x64x64_0_2_1 : S4x64x64.Transposes [0, 2, 1] S4x64x64
  shapeCasts_S4x64x64_S256x64 : S4x64x64.ShapeCasts S256x64
  shapeCasts_S192x64_S3x64x64 : S192x64.ShapeCasts S3x64x64
  transposes_S3x64x64_S3x64x64_0_2_1 : S3x64x64.Transposes [0, 2, 1] S3x64x64
  shapeCasts_S192_S3x64 : S192.ShapeCasts S3x64
  bcast_S1600000_S1600000x1_0 : S1600000.BroadcastsInDim S1600000x1 (![0] : Fin 1 → Fin S1600000x1.rank)
  bcast_S1600000x1_S1600000x4_0_1 : S1600000x1.BroadcastsInDim S1600000x4 (![0, 1] : Fin 2 → Fin S1600000x4.rank)
  bcast_S1x4_S1600000x4_0_1 : S1x4.BroadcastsInDim S1600000x4 (![0, 1] : Fin 2 → Fin S1600000x4.rank)
  bcast_S_S100000x4 : S_.BroadcastsInDim S100000x4 (![] : Fin 0 → Fin S100000x4.rank)
  bcast_S_S1600000 : S_.BroadcastsInDim S1600000 (![] : Fin 0 → Fin S1600000.rank)
  bitsLt_bf16_f32 : FTy.bits .bf16 < FTy.bits .f32
  bcast_S_S400000x64 : S_.BroadcastsInDim S400000x64 (![] : Fin 0 → Fin S400000x64.rank)
  shapeCasts_S400000x64_S100000x256 : S400000x64.ShapeCasts S100000x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  slices_S64x128_S64x64_0_0 : S64x128.Slices ![0, 0] S64x64
  transposes_S64x64_S64x64_1_0 : S64x64.Transposes [1, 0] S64x64
  slices_S64x128_S64x64_0_64 : S64x128.Slices ![0, 64] S64x64
  transposes_S2x64_S64x2_1_0 : S2x64.Transposes [1, 0] S64x2
  transposes_S1x64_S64x1_1_0 : S1x64.Transposes [1, 0] S64x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  reduces_S2000x2_S2 : S2000x2.Reduces [0] S2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  reduces_S2000x1_S1 : S2000x1.Reduces [0] S1
  shapeCasts_S1x2_S2 : S1x2.ShapeCasts S2
  shapeCasts_S1x1_S1 : S1x1.ShapeCasts S1
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  scatter_S100000x4_S1600000x1_S1600000x4_1_0_0_1_wf : ScatterDims.WF S100000x4 S1600000x1 S1600000x4 [1] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S400000x64_S1600000x1_S1600000x64_1_0_0_1_wf : ScatterDims.WF S400000x64 S1600000x1 S1600000x64 [1] [0] [0] 1
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x64.size a ≤ S3x64x64.size a
  hwx0_4 : ∀ i : grid0.Coords, EltTy.bits .f32 = 32 ∨ (Rect.block (s := S3x64x64) S3x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .f32 = 32 ∨ (Rect.block (s := S3x64x64) S3x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .f32 = 32 ∨ (Rect.block (s := S3x64) S3x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64x64.size a ≤ S3x64x64.size a
  hwx1_4 : ∀ i : grid1.Coords, EltTy.bits .f32 = 32 ∨ (Rect.block (s := S3x64x64) S3x64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64x64.size a ≤ S3x64x64.size a
  hwx1_5 : ∀ i : grid1.Coords, EltTy.bits .f32 = 32 ∨ (Rect.block (s := S3x64x64) S3x64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x64.size a ≤ S3x64.size a
  hwx1_6 : ∀ i : grid1.Coords, EltTy.bits .f32 = 32 ∨ (Rect.block (s := S3x64) S3x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x64.size a ≤ S3x64.size a
  hwx1_7 : ∀ i : grid1.Coords, EltTy.bits .f32 = 32 ∨ (Rect.block (s := S3x64) S3x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64x64.size a ≤ S3x64x64.size a
  hwx2_4 : ∀ i : grid2.Coords, EltTy.bits .f32 = 32 ∨ (Rect.block (s := S3x64x64) S3x64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x64x64.size a ≤ S3x64x64.size a
  hwx2_5 : ∀ i : grid2.Coords, EltTy.bits .f32 = 32 ∨ (Rect.block (s := S3x64x64) S3x64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x64.size a ≤ S3x64.size a
  hwx2_6 : ∀ i : grid2.Coords, EltTy.bits .f32 = 32 ∨ (Rect.block (s := S3x64) S3x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x64.size a ≤ S3x64.size a
  hwx2_7 : ∀ i : grid2.Coords, EltTy.bits .f32 = 32 ∨ (Rect.block (s := S3x64) S3x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S100000x64.size a
  hwx2_8 : ∀ i : grid2.Coords, EltTy.bits .f32 = 32 ∨ (Rect.block (s := S100000x64) S2000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x64x64.size a ≤ S3x64x64.size a
  hwx3_4 : ∀ i : grid3.Coords, EltTy.bits .f32 = 32 ∨ (Rect.block (s := S3x64x64) S3x64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x64x64.size a ≤ S3x64x64.size a
  hwx3_5 : ∀ i : grid3.Coords, EltTy.bits .f32 = 32 ∨ (Rect.block (s := S3x64x64) S3x64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3x64.size a ≤ S3x64.size a
  hwx3_6 : ∀ i : grid3.Coords, EltTy.bits .f32 = 32 ∨ (Rect.block (s := S3x64) S3x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S3x64.size a ≤ S3x64.size a
  hwx3_7 : ∀ i : grid3.Coords, EltTy.bits .f32 = 32 ∨ (Rect.block (s := S3x64) S3x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S100000x64.size a
  hwx3_8 : ∀ i : grid3.Coords, EltTy.bits .f32 = 32 ∨ (Rect.block (s := S100000x64) S2000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x2.size a ≤ S64x2.size a
  hwx4_5 : ∀ i : grid4.Coords, EltTy.bits .f32 = 32 ∨ (Rect.block (s := S64x2) S64x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2.size a ≤ S2.size a
  hwx4_6 : ∀ i : grid4.Coords, EltTy.bits .f32 = 32 ∨ (Rect.block (s := S2) S2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x2.size a ≤ S64x2.size a
  hwx4_9 : ∀ i : grid4.Coords, EltTy.bits .f32 = 32 ∨ (Rect.block (s := S64x2) S64x2.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S2.size a ≤ S2.size a
  hwx4_10 : ∀ i : grid4.Coords, EltTy.bits .f32 = 32 ∨ (Rect.block (s := S2) S2.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64x64.size a ≤ S64x64.size a
  hwx4_11 : ∀ i : grid4.Coords, EltTy.bits .f32 = 32 ∨ (Rect.block (s := S64x64) S64x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S64x64.size a ≤ S64x64.size a
  hwx4_12 : ∀ i : grid4.Coords, EltTy.bits .f32 = 32 ∨ (Rect.block (s := S64x64) S64x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S64.size a ≤ S64.size a
  hwx4_13 : ∀ i : grid4.Coords, EltTy.bits .f32 = 32 ∨ (Rect.block (s := S64) S64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x1.size a ≤ S64x1.size a
  hwx4_14 : ∀ i : grid4.Coords, EltTy.bits .f32 = 32 ∨ (Rect.block (s := S64x1) S64x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1.size a ≤ S1.size a
  hwx4_15 : ∀ i : grid4.Coords, EltTy.bits .f32 = 32 ∨ (Rect.block (s := S1) S1.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S64x64.size a ≤ S64x64.size a
  hwx4_16 : ∀ i : grid4.Coords, EltTy.bits .f32 = 32 ∨ (Rect.block (s := S64x64) S64x64.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S64.size a ≤ S64.size a
  hwx4_17 : ∀ i : grid4.Coords, EltTy.bits .f32 = 32 ∨ (Rect.block (s := S64) S64.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S64x1.size a ≤ S64x1.size a
  hwx4_18 : ∀ i : grid4.Coords, EltTy.bits .f32 = 32 ∨ (Rect.block (s := S64x1) S64x1.size (cc4_transform_18 i) (hinb4_18 i)).WholeWords (EltTy.packing .f32)
  hstage4_19 : ∀ j, (stage4_19 j).IsWhole
  nbuf4_19 : grid4.bufCount reads4_19 true = 1
  hreads4_19 : ∀ i i' : grid4.Coords, (∀ a, reads4_19 a = true → i a = i' a) → cc4_transform_19 i = cc4_transform_19 i'
  hinb4_19 : ∀ (i : grid4.Coords) a, (cc4_transform_19 i a + 1) * S1.size a ≤ S1.size a
  hwx4_19 : ∀ i : grid4.Coords, EltTy.bits .f32 = 32 ∨ (Rect.block (s := S1) S1.size (cc4_transform_19 i) (hinb4_19 i)).WholeWords (EltTy.packing .f32)
  hstage4_20 : ∀ j, (stage4_20 j).IsWhole
  nbuf4_20 : grid4.bufCount reads4_20 true = 1
  hreads4_20 : ∀ i i' : grid4.Coords, (∀ a, reads4_20 a = true → i a = i' a) → cc4_transform_20 i = cc4_transform_20 i'
  hinb4_20 : ∀ (i : grid4.Coords) a, (cc4_transform_20 i a + 1) * S1x2.size a ≤ S1x2.size a
  hwx4_20 : ∀ i : grid4.Coords, EltTy.bits .f32 = 32 ∨ (Rect.block (s := S1x2) S1x2.size (cc4_transform_20 i) (hinb4_20 i)).WholeWords (EltTy.packing .f32)
  hstage4_21 : ∀ j, (stage4_21 j).IsWhole
  nbuf4_21 : grid4.bufCount reads4_21 true = 1
  hreads4_21 : ∀ i i' : grid4.Coords, (∀ a, reads4_21 a = true → i a = i' a) → cc4_transform_21 i = cc4_transform_21 i'
  hinb4_21 : ∀ (i : grid4.Coords) a, (cc4_transform_21 i a + 1) * S1x1.size a ≤ S1x1.size a
  hwx4_21 : ∀ i : grid4.Coords, EltTy.bits .f32 = 32 ∨ (Rect.block (s := S1x1) S1x1.size (cc4_transform_21 i) (hinb4_21 i)).WholeWords (EltTy.packing .f32)

variable [Facts₀]

def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S400000x64_S1600000x1_S1600000x64_1_0_0_1 : ScatterDims S400000x64 S1600000x1 S1600000x64 where
  updateWindowDims := [1]
  insertedWindowDims := [0]
  scatterDimsToOperandDims := [0]
  indexVectorDim := 1
  wf := scatter_S400000x64_S1600000x1_S1600000x64_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v7) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S3x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S3x64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S3x64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S3x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S3x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v51) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S3x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S3x64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S3x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S3x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v65) S2000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v65) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S3x64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S3x64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v14) S3x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S3x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v7) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S64x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v90) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg15) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v91) S64x2.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg17) S2.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v86) S64x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v88) S64x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg19) S64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v89) S64x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg21) S1.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v92) S64x64.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_arg23) S64.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v93) S64x1.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_arg25) S1.size cc4_transform_19 reads4_19 false true 1 stage4_19 sem4_19
    hrank4 hreads4_19 hinb4_19 nbuf4_19 (Memref.isWhole_whole _) hwx4_19 hstage4_19

abbrev win4_20 : Pipeline.Window sig grid4 :=
  Pipeline.Window.ofSpec (Memref.whole main_v94_0) S1x2.size cc4_transform_20 reads4_20 true true 1 stage4_20 sem4_20
    hrank4 hreads4_20 hinb4_20 nbuf4_20 (Memref.isWhole_whole _) hwx4_20 hstage4_20

abbrev win4_21 : Pipeline.Window sig grid4 :=
  Pipeline.Window.ofSpec (Memref.whole main_v94_1) S1x1.size cc4_transform_21 reads4_21 true true 1 stage4_21 sem4_21
    hrank4 hreads4_21 hinb4_21 nbuf4_21 (Memref.isWhole_whole _) hwx4_21 hstage4_21

abbrev win4 : Fin 22 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | 21 => win4_21 | ⟨_ + 22, h⟩ => absurd h (Nat.not_lt.2 (Nat.le_add_left _ _))
abbrev spec4 : Fin 22 → Pipeline.WinSpec sig grid4.rank := fun w => (win4 w).toWinSpec

abbrev idle4 : Fin 22 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun i => !(k4_cond2 i == 1#1) | 21 => fun i => !(k4_cond2 i == 1#1) | ⟨_ + 22, h⟩ => absurd h (Nat.not_lt.2 (Nat.le_add_left _ _))

class Facts : Prop extends Facts₀ where

variable [Facts]
-- ==== ReferenceIdeal.lean ====
abbrev S100000 : Shape := ⟨1, ![100000]⟩
abbrev S1600000 : Shape := ⟨1, ![1600000]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S64x128 : Shape := ⟨2, ![64, 128]⟩
abbrev S64 : Shape := ⟨1, ![64]⟩
abbrev S2x64 : Shape := ⟨2, ![2, 64]⟩
abbrev S2 : Shape := ⟨1, ![2]⟩
abbrev S64x64 : Shape := ⟨2, ![64, 64]⟩
abbrev S1x64 : Shape := ⟨2, ![1, 64]⟩
abbrev S1 : Shape := ⟨1, ![1]⟩
abbrev S_ : Shape := ⟨0, ![]⟩
abbrev S100000x1 : Shape := ⟨2, ![100000, 1]⟩
abbrev S100000x64 : Shape := ⟨2, ![100000, 64]⟩
abbrev S4x64x100000 : Shape := ⟨3, ![4, 64, 100000]⟩
abbrev S4x100000x64 : Shape := ⟨3, ![4, 100000, 64]⟩
abbrev S4x1x64 : Shape := ⟨3, ![4, 1, 64]⟩
abbrev S1600000x1 : Shape := ⟨2, ![1600000, 1]⟩
abbrev S1600000x2 : Shape := ⟨2, ![1600000, 2]⟩
abbrev S1600000x64 : Shape := ⟨2, ![1600000, 64]⟩
abbrev S64x192 : Shape := ⟨2, ![64, 192]⟩
abbrev S100000x192 : Shape := ⟨2, ![100000, 192]⟩
abbrev S1x192 : Shape := ⟨2, ![1, 192]⟩
abbrev S100000x128 : Shape := ⟨2, ![100000, 128]⟩
abbrev S128x64 : Shape := ⟨2, ![128, 64]⟩
abbrev S64x2 : Shape := ⟨2, ![64, 2]⟩
abbrev S100000x2 : Shape := ⟨2, ![100000, 2]⟩
abbrev S1x2 : Shape := ⟨2, ![1, 2]⟩
abbrev S64x1 : Shape := ⟨2, ![64, 1]⟩
abbrev S1x1 : Shape := ⟨2, ![1, 1]⟩

abbrev nBuf : Space → Nat
  | .hbm => 417
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S1600000, .i32⟩
  | 4 => ⟨S4x64x64, .f32⟩
  | 5 => ⟨S4x64, .f32⟩
  | 6 => ⟨S192x64, .f32⟩
  | 7 => ⟨S192x64, .f32⟩
  | 8 => ⟨S192, .f32⟩
  | 9 => ⟨S192, .f32⟩
  | 10 => ⟨S64x128, .f32⟩
  | 11 => ⟨S64, .f32⟩
  | 12 => ⟨S2x64, .f32⟩
  | 13 => ⟨S2, .f32⟩
  | 14 => ⟨S64x64, .f32⟩
  | 15 => ⟨S64, .f32⟩
  | 16 => ⟨S2x64, .f32⟩
  | 17 => ⟨S2, .f32⟩
  | 18 => ⟨S64x128, .f32⟩
  | 19 => ⟨S64, .f32⟩
  | 20 => ⟨S1x64, .f32⟩
  | 21 => ⟨S1, .f32⟩
  | 22 => ⟨S64x64, .f32⟩
  | 23 => ⟨S64, .f32⟩
  | 24 => ⟨S1x64, .f32⟩
  | 25 => ⟨S1, .f32⟩
  | 26 => ⟨S64, .i32⟩
  | 27 => ⟨S1x64, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S1x64, .i32⟩
  | 35 => ⟨S1x64, .i32⟩
  | 36 => ⟨S_, .i32⟩
  | 37 => ⟨S1x64, .i32⟩
  | 38 => ⟨S1x64, .i1⟩
  | 39 => ⟨S_, .i32⟩
  | 40 => ⟨S1x64, .i32⟩
  | 41 => ⟨S1x64, .i1⟩
  | 42 => ⟨S_, .i32⟩
  | 43 => ⟨S_, .i1⟩
  | 44 => ⟨S1x64, .i1⟩
  | 45 => ⟨S1x64, .i1⟩
  | 46 => ⟨S1x64, .i1⟩
  | 47 => ⟨S1x64, .i32⟩
  | 48 => ⟨S1x64, .i32⟩
  | 49 => ⟨S1x64, .i32⟩
  | 50 => ⟨S100000x1, .i32⟩
  | 51 => ⟨S100000x64, .i32⟩
  | 52 => ⟨S100000x64, .i32⟩
  | 53 => ⟨S100000x64, .i1⟩
  | 54 => ⟨S100000x64, .f32⟩
  | 55 => ⟨S4x64x100000, .f32⟩
  | 56 => ⟨S4x100000x64, .f32⟩
  | 57 => ⟨S4x1x64, .f32⟩
  | 58 => ⟨S4x100000x64, .f32⟩
  | 59 => ⟨S4x100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x1, .i32⟩
  | 76 => ⟨S1600000x2, .i32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S64x192, .f32⟩
  | 83 => ⟨S100000x192, .f32⟩
  | 84 => ⟨S1x192, .f32⟩
  | 85 => ⟨S100000x192, .f32⟩
  | 86 => ⟨S100000x192, .f32⟩
  | 87 => ⟨S64x192, .f32⟩
  | 88 => ⟨S100000x192, .f32⟩
  | 89 => ⟨S1x192, .f32⟩
  | 90 => ⟨S100000x192, .f32⟩
  | 91 => ⟨S100000x192, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S4x64x100000, .f32⟩
  | 126 => ⟨S4x100000x64, .f32⟩
  | 127 => ⟨S4x1x64, .f32⟩
  | _ => ⟨S100000, .i32⟩

abbrev hbmTy0_1 (i : Nat) : BufTy := match i % 128 with
  | 0 => ⟨S4x100000x64, .f32⟩
  | 1 => ⟨S4x100000x64, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x1, .i32⟩
  | 18 => ⟨S1600000x2, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S64x192, .f32⟩
  | 25 => ⟨S100000x192, .f32⟩
  | 26 => ⟨S1x192, .f32⟩
  | 27 => ⟨S100000x192, .f32⟩
  | 28 => ⟨S100000x192, .f32⟩
  | 29 => ⟨S64x192, .f32⟩
  | 30 => ⟨S100000x192, .f32⟩
  | 31 => ⟨S1x192, .f32⟩
  | 32 => ⟨S100000x192, .f32⟩
  | 33 => ⟨S100000x192, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S4x64x100000, .f32⟩
  | 68 => ⟨S4x100000x64, .f32⟩
  | 69 => ⟨S4x1x64, .f32⟩
  | 70 => ⟨S4x100000x64, .f32⟩
  | 71 => ⟨S4x100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x1, .i32⟩
  | 88 => ⟨S1600000x2, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S64x192, .f32⟩
  | 95 => ⟨S100000x192, .f32⟩
  | 96 => ⟨S1x192, .f32⟩
  | 97 => ⟨S100000x192, .f32⟩
  | 98 => ⟨S100000x192, .f32⟩
  | 99 => ⟨S64x192, .f32⟩
  | 100 => ⟨S100000x192, .f32⟩
  | 101 => ⟨S1x192, .f32⟩
  | 102 => ⟨S100000x192, .f32⟩
  | 103 => ⟨S100000x192, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000, .i32⟩

abbrev hbmTy0_2 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S100000x64, .f32⟩
  | 8 => ⟨S100000x64, .f32⟩
  | 9 => ⟨S4x64x100000, .f32⟩
  | 10 => ⟨S4x100000x64, .f32⟩
  | 11 => ⟨S4x1x64, .f32⟩
  | 12 => ⟨S4x100000x64, .f32⟩
  | 13 => ⟨S4x100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x1, .i32⟩
  | 30 => ⟨S1600000x2, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S64x192, .f32⟩
  | 37 => ⟨S100000x192, .f32⟩
  | 38 => ⟨S1x192, .f32⟩
  | 39 => ⟨S100000x192, .f32⟩
  | 40 => ⟨S100000x192, .f32⟩
  | 41 => ⟨S64x192, .f32⟩
  | 42 => ⟨S100000x192, .f32⟩
  | 43 => ⟨S1x192, .f32⟩
  | 44 => ⟨S100000x192, .f32⟩
  | 45 => ⟨S100000x192, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S100000x128, .f32⟩
  | 80 => ⟨S128x64, .f32⟩
  | 81 => ⟨S100000x64, .f32⟩
  | 82 => ⟨S1x64, .f32⟩
  | 83 => ⟨S100000x64, .f32⟩
  | 84 => ⟨S100000x64, .f32⟩
  | 85 => ⟨S100000x64, .f32⟩
  | 86 => ⟨S64x2, .f32⟩
  | 87 => ⟨S100000x2, .f32⟩
  | 88 => ⟨S1x2, .f32⟩
  | 89 => ⟨S100000x2, .f32⟩
  | 90 => ⟨S100000x2, .f32⟩
  | 91 => ⟨S64x64, .f32⟩
  | 92 => ⟨S100000x64, .f32⟩
  | 93 => ⟨S1x64, .f32⟩
  | 94 => ⟨S100000x64, .f32⟩
  | 95 => ⟨S100000x64, .f32⟩
  | 96 => ⟨S100000x64, .f32⟩
  | 97 => ⟨S64x2, .f32⟩
  | 98 => ⟨S100000x2, .f32⟩
  | 99 => ⟨S1x2, .f32⟩
  | 100 => ⟨S100000x2, .f32⟩
  | 101 => ⟨S100000x2, .f32⟩
  | 102 => ⟨S100000x2, .f32⟩
  | 103 => ⟨S100000x2, .f32⟩
  | 104 => ⟨S_, .f32⟩
  | 105 => ⟨S100000x2, .f32⟩
  | 106 => ⟨S100000x2, .f32⟩
  | 107 => ⟨S_, .f32⟩
  | 108 => ⟨S100000x2, .f32⟩
  | 109 => ⟨S100000x2, .f32⟩
  | 110 => ⟨S100000x2, .f32⟩
  | 111 => ⟨S_, .f32⟩
  | 112 => ⟨S2, .f32⟩
  | 113 => ⟨S128x64, .f32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S64x1, .f32⟩
  | 120 => ⟨S100000x1, .f32⟩
  | 121 => ⟨S1x1, .f32⟩
  | 122 => ⟨S100000x1, .f32⟩
  | 123 => ⟨S100000x1, .f32⟩
  | 124 => ⟨S64x64, .f32⟩
  | 125 => ⟨S100000x64, .f32⟩
  | 126 => ⟨S1x64, .f32⟩
  | 127 => ⟨S100000x64, .f32⟩
  | _ => ⟨S100000, .i32⟩

abbrev hbmTy0_3 (i : Nat) : BufTy := match i % 128 with
  | 0 => ⟨S100000x64, .f32⟩
  | 1 => ⟨S100000x64, .f32⟩
  | 2 => ⟨S64x1, .f32⟩
  | 3 => ⟨S100000x1, .f32⟩
  | 4 => ⟨S1x1, .f32⟩
  | 5 => ⟨S100000x1, .f32⟩
  | 6 => ⟨S100000x1, .f32⟩
  | 7 => ⟨S100000x1, .f32⟩
  | 8 => ⟨S100000x1, .f32⟩
  | 9 => ⟨S_, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x1, .f32⟩
  | 16 => ⟨S_, .f32⟩
  | 17 => ⟨S1, .f32⟩
  | 18 => ⟨S_, .f32⟩
  | 19 => ⟨S_, .f32⟩
  | 20 => ⟨S_, .f32⟩
  | 21 => ⟨S_, .f32⟩
  | 22 => ⟨S1, .f32⟩
  | 23 => ⟨S2, .f32⟩
  | 24 => ⟨S2, .f32⟩
  | 25 => ⟨S2, .f32⟩
  | 26 => ⟨S_, .f32⟩
  | 27 => ⟨S_, .f32⟩
  | 28 => ⟨S1, .f32⟩
  | 29 => ⟨S1, .f32⟩
  | 30 => ⟨S2, .f32⟩
  | 31 => ⟨S2, .f32⟩
  | 32 => ⟨S1, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_c_0 : Ref sig .tc := ⟨.hbm, 60, rfl⟩
abbrev main_v13 : Ref sig .tc := ⟨.hbm, 61, rfl⟩
abbrev main_v14 : Ref sig .tc := ⟨.hbm, 62, rfl⟩
abbrev main_c_1 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_c_2 : Ref sig .tc := ⟨.hbm, 67, rfl⟩
abbrev main_v18 : Ref sig .tc := ⟨.hbm, 68, rfl⟩
abbrev main_v19 : Ref sig .tc := ⟨.hbm, 69, rfl⟩
abbrev main_c_3 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_4 : Ref sig .tc := ⟨.hbm, 101, rfl⟩
abbrev main_v49 : Ref sig .tc := ⟨.hbm, 102, rfl⟩
abbrev main_v50 : Ref sig .tc := ⟨.hbm, 103, rfl⟩
abbrev main_cst_5 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_6 : Ref sig .tc := ⟨.hbm, 110, rfl⟩
abbrev main_v56 : Ref sig .tc := ⟨.hbm, 111, rfl⟩
abbrev main_v57 : Ref sig .tc := ⟨.hbm, 112, rfl⟩
abbrev main_cst_7 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_8 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_9 : Ref sig .tc := ⟨.hbm, 130, rfl⟩
abbrev main_v73 : Ref sig .tc := ⟨.hbm, 131, rfl⟩
abbrev main_v74 : Ref sig .tc := ⟨.hbm, 132, rfl⟩
abbrev main_c_10 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_c_11 : Ref sig .tc := ⟨.hbm, 137, rfl⟩
abbrev main_v78 : Ref sig .tc := ⟨.hbm, 138, rfl⟩
abbrev main_v79 : Ref sig .tc := ⟨.hbm, 139, rfl⟩
abbrev main_c_12 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_13 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_14 : Ref sig .tc := ⟨.hbm, 171, rfl⟩
abbrev main_v109 : Ref sig .tc := ⟨.hbm, 172, rfl⟩
abbrev main_v110 : Ref sig .tc := ⟨.hbm, 173, rfl⟩
abbrev main_cst_15 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_16 : Ref sig .tc := ⟨.hbm, 180, rfl⟩
abbrev main_v116 : Ref sig .tc := ⟨.hbm, 181, rfl⟩
abbrev main_v117 : Ref sig .tc := ⟨.hbm, 182, rfl⟩
abbrev main_cst_17 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_18 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_19 : Ref sig .tc := ⟨.hbm, 200, rfl⟩
abbrev main_v133 : Ref sig .tc := ⟨.hbm, 201, rfl⟩
abbrev main_v134 : Ref sig .tc := ⟨.hbm, 202, rfl⟩
abbrev main_c_20 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_21 : Ref sig .tc := ⟨.hbm, 207, rfl⟩
abbrev main_v138 : Ref sig .tc := ⟨.hbm, 208, rfl⟩
abbrev main_v139 : Ref sig .tc := ⟨.hbm, 209, rfl⟩
abbrev main_c_22 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_23 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_cst_24 : Ref sig .tc := ⟨.hbm, 241, rfl⟩
abbrev main_v169 : Ref sig .tc := ⟨.hbm, 242, rfl⟩
abbrev main_v170 : Ref sig .tc := ⟨.hbm, 243, rfl⟩
abbrev main_cst_25 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_26 : Ref sig .tc := ⟨.hbm, 250, rfl⟩
abbrev main_v176 : Ref sig .tc := ⟨.hbm, 251, rfl⟩
abbrev main_v177 : Ref sig .tc := ⟨.hbm, 252, rfl⟩
abbrev main_cst_27 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_28 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_c_29 : Ref sig .tc := ⟨.hbm, 270, rfl⟩
abbrev main_v193 : Ref sig .tc := ⟨.hbm, 271, rfl⟩
abbrev main_v194 : Ref sig .tc := ⟨.hbm, 272, rfl⟩
abbrev main_c_30 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_c_31 : Ref sig .tc := ⟨.hbm, 277, rfl⟩
abbrev main_v198 : Ref sig .tc := ⟨.hbm, 278, rfl⟩
abbrev main_v199 : Ref sig .tc := ⟨.hbm, 279, rfl⟩
abbrev main_c_32 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_cst_33 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_cst_34 : Ref sig .tc := ⟨.hbm, 311, rfl⟩
abbrev main_v229 : Ref sig .tc := ⟨.hbm, 312, rfl⟩
abbrev main_v230 : Ref sig .tc := ⟨.hbm, 313, rfl⟩
abbrev main_cst_35 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_cst_36 : Ref sig .tc := ⟨.hbm, 320, rfl⟩
abbrev main_v236 : Ref sig .tc := ⟨.hbm, 321, rfl⟩
abbrev main_v237 : Ref sig .tc := ⟨.hbm, 322, rfl⟩
abbrev main_cst_37 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_cst_38 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_cst_39 : Ref sig .tc := ⟨.hbm, 360, rfl⟩
abbrev main_v273 : Ref sig .tc := ⟨.hbm, 361, rfl⟩
abbrev main_v274 : Ref sig .tc := ⟨.hbm, 362, rfl⟩
abbrev main_cst_40 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_cst_41 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_cst_42 : Ref sig .tc := ⟨.hbm, 393, rfl⟩
abbrev main_v303 : Ref sig .tc := ⟨.hbm, 394, rfl⟩
abbrev main_v304 : Ref sig .tc := ⟨.hbm, 395, rfl⟩
abbrev main_cst_43 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_cst_44 : Ref sig .tc := ⟨.hbm, 400, rfl⟩
abbrev main_v308 : Ref sig .tc := ⟨.hbm, 401, rfl⟩
abbrev main_call1_cst : Ref sig .tc := ⟨.hbm, 402, rfl⟩
abbrev main_call1_v0 : Ref sig .tc := ⟨.hbm, 403, rfl⟩
abbrev main_call1_cst_0 : Ref sig .tc := ⟨.hbm, 404, rfl⟩
abbrev main_call1_v1 : Ref sig .tc := ⟨.hbm, 405, rfl⟩
abbrev main_call1_v2 : Ref sig .tc := ⟨.hbm, 406, rfl⟩
abbrev main_call1_v3 : Ref sig .tc := ⟨.hbm, 407, rfl⟩
abbrev main_call1_v4 : Ref sig .tc := ⟨.hbm, 408, rfl⟩
abbrev main_call1_v5 : Ref sig .tc := ⟨.hbm, 409, rfl⟩
abbrev main_call1_cst_1 : Ref sig .tc := ⟨.hbm, 410, rfl⟩
abbrev main_call1_v6 : Ref sig .tc := ⟨.hbm, 411, rfl⟩
abbrev main_call1_v7 : Ref sig .tc := ⟨.hbm, 412, rfl⟩
abbrev main_call1_v8 : Ref sig .tc := ⟨.hbm, 413, rfl⟩
abbrev main_call1_v9 : Ref sig .tc := ⟨.hbm, 414, rfl⟩
abbrev main_v309 : Ref sig .tc := ⟨.hbm, 415, rfl⟩
abbrev main_v310 : Ref sig .tc := ⟨.hbm, 416, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S_S1x64 : S_.BroadcastsInDim S1x64 (![] : Fin 0 → Fin S1x64.rank)
  bcast_S100000_S100000x1_0 : S100000.BroadcastsInDim S100000x1 (![0] : Fin 1 → Fin S100000x1.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  transposes_S4x64x100000_S4x100000x64_0_2_1 : S4x64x100000.Transposes [0, 2, 1] S4x100000x64
  bcast_S4x64_S4x1x64_0_2 : S4x64.BroadcastsInDim S4x1x64 (![0, 2] : Fin 2 → Fin S4x1x64.rank)
  bcast_S4x1x64_S4x100000x64_0_1_2 : S4x1x64.BroadcastsInDim S4x100000x64 (![0, 1, 2] : Fin 3 → Fin S4x100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  concatenates_S100000x64_S100000x64_S100000x128_d1 : Shape.Concatenates [S100000x64, S100000x64] S100000x128 1
  transposes_S64x128_S128x64_1_0 : S64x128.Transposes [1, 0] S128x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  transposes_S64x64_S64x64_1_0 : S64x64.Transposes [1, 0] S64x64
  bcast_S_S100000x2 : S_.BroadcastsInDim S100000x2 (![] : Fin 0 → Fin S100000x2.rank)
  reducesTo_S100000x2_S2_d0 : S100000x2.ReducesTo [0] S2
  h_S_ : 0 < S_.numel
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  reducesTo_S100000x1_S1_d0 : S100000x1.ReducesTo [0] S1
  reducesTo_S2_S_d0 : S2.ReducesTo [0] S_
  bcast_S_S1 : S_.BroadcastsInDim S1 (![] : Fin 0 → Fin S1.rank)
  bcast_S1_S2_0 : S1.BroadcastsInDim S2 (![0] : Fin 1 → Fin S2.rank)
  dot_S4x64x64_S100000x64_S4x64x100000_2_1_01_0_n_n_wf : DotDims.WF S4x64x64 S100000x64 S4x64x100000 [2] [1] [0, 1] [0] [] []
  gather_S4x100000x64_S1600000x2_S1600000x64_1_01_n_n_01_1_1164_wf : GatherDims.WF S4x100000x64 S1600000x2 S1600000x64 [1] [0, 1] [] [0, 1] [] 1 ![1, 1, 64]
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S4x64x64_S100000x64_S4x64x100000_2_1_01_0_n_n : DotDims S4x64x64 S100000x64 S4x64x100000 where
  lhsContracting := [2]
  rhsContracting := [1]
  lhsNonContracting := [0, 1]
  rhsNonContracting := [0]
  lhsBatch := []
  rhsBatch := []
  wf := dot_S4x64x64_S100000x64_S4x64x100000_2_1_01_0_n_n_wf
def gather_S4x100000x64_S1600000x2_S1600000x64_1_01_n_n_01_1_1164 : GatherDims S4x100000x64 S1600000x2 S1600000x64 where
  offsetDims := [1]
  collapsedSliceDims := [0, 1]
  operandBatchingDims := []
  startIndicesBatchingDims := []
  startIndexMap := [0, 1]
  indexVectorDim := 1
  sliceSizes := ![1, 1, 64]
  wf := gather_S4x100000x64_S1600000x2_S1600000x64_1_01_n_n_01_1_1164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KB.Reg0.lean ====
import proofs.«412786_j57784490000510_2_alg».proof.Proof.Gen.Kernel.Launch
import proofs.«412786_j57784490000510_2_alg».proof.Proof.Gen.Kernel.Skeleton
import proofs.«412786_j57784490000510_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x64 := Rect.unit ![0, 0] S2000x64.size inb_S2000x64_S2000x64_0_0
abbrev r0_1 : Rect S2000x256 := Rect.unit ![0, 0] S2000x256.size inb_S2000x256_S2000x256_0_0
abbrev r0_2 : Rect S256x64 := Rect.unit ![0, 0] S256x64.size inb_S256x64_S256x64_0_0
abbrev r0_3 : Rect S3x64x64 := Rect.unit ![0, 0, 0] S1x64x64.size inb_S3x64x64_S1x64x64_0_0_0
abbrev r0_4 : Rect S3x64x64 := Rect.unit ![1, 0, 0] S1x64x64.size inb_S3x64x64_S1x64x64_1_0_0
abbrev r0_5 : Rect S3x64x64 := Rect.unit ![2, 0, 0] S1x64x64.size inb_S3x64x64_S1x64x64_2_0_0
abbrev r0_6 : Rect S3x64 := Rect.unit ![0, 0] S1x64.size inb_S3x64_S1x64_0_0
abbrev r0_7 : Rect S3x64 := Rect.unit ![1, 0] S1x64.size inb_S3x64_S1x64_1_0
abbrev r0_8 : Rect S3x64 := Rect.unit ![2, 0] S1x64.size inb_S3x64_S1x64_2_0

def out0_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r0_0, k0_pay1 (k0_pay2 (View.ld x1 r0_1) (View.ld x3 r0_2) (View.ld x2 r0_0))
      (k0_pay8 (k0_pay3 (View.ld x0 r0_0)) (k0_pay4 (View.ld x1 r0_1) (View.ld x3 r0_2) (View.ld x2 r0_0)) (k0_pay7 (View.ld x4 r0_4)) (View.ld x5 r0_4) (View.ld x6 r0_7) (View.ld x7 r0_7))
      (k0_pay9 (k0_pay3 (View.ld x0 r0_0)) (k0_pay4 (View.ld x1 r0_1) (View.ld x3 r0_2) (View.ld x2 r0_0)) (k0_pay5 (View.ld x0 r0_0) (View.ld x4 r0_3) (View.ld x6 r0_6)) (k0_pay6 (View.ld x1 r0_1) (View.ld x3 r0_2) (View.ld x2 r0_0) (View.ld x5 r0_3) (View.ld x7 r0_6)) (View.ld x4 r0_5) (View.ld x5 r0_5) (View.ld x6 r0_8) (View.ld x7 r0_8))⟩]

theorem sound_kernel0 {c : Dev nD} {E : Set ℕ} {i : grid0.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out0_8 x0 x1 x2 x3 x4 x5 x6 x7)) -∗ K ⟨⟩))
      ⊢ wp frame (wpE (defs₀ (F := F)) Variants.none c none) E (cc0__msg_gru_kernel i arg1 h1 arg2 h2 arg3 h3 arg4 h4 arg5 h5 arg6 h6 arg7 h7 arg8 h8 arg9 h9) K := by
  sl_unfold [cc0__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0 (c : Dev nD) : ∀ w : Fin cfg0.W, w ≠ 8 → ∀ (t : Fin cfg0.N) d, (dat0 V c).before w t d = (dat0 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat0]; rfl)

-- The body's triple at the eight input blocks, everything else framed.
theorem body_obligation0 (c : Dev nD) : BodyObligation (dat0 (F := F) V c) (defs₀ (F := F)) Variants.none () Set.univ := fun t => by
  rw [bigSep_W0, bigSep_W0]
  simp +decide only [before0 V c]
  dsimp only [dat0]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel0
  iframe H0 H1 H2 H3 H4 H5 H6 H7
  isplitl [H8]; · iexists _; iexact H8
  iintro H
  iframe
  iexact Ho

end Cert.Kernel.Gen

end
-- ==== Proof.KB.Reg1.lean ====
import proofs.«412786_j57784490000510_2_alg».proof.Proof.Gen.Kernel.Launch
import proofs.«412786_j57784490000510_2_alg».proof.Proof.Gen.Kernel.Skeleton
import proofs.«412786_j57784490000510_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit ![0, 0] S2000x64.size inb_S2000x64_S2000x64_0_0
abbrev r1_1 : Rect S2000x256 := Rect.unit ![0, 0] S2000x256.size inb_S2000x256_S2000x256_0_0
abbrev r1_2 : Rect S256x64 := Rect.unit ![0, 0] S256x64.size inb_S256x64_S256x64_0_0
abbrev r1_3 : Rect S3x64x64 := Rect.unit ![0, 0, 0] S1x64x64.size inb_S3x64x64_S1x64x64_0_0_0
abbrev r1_4 : Rect S3x64x64 := Rect.unit ![1, 0, 0] S1x64x64.size inb_S3x64x64_S1x64x64_1_0_0
abbrev r1_5 : Rect S3x64x64 := Rect.unit ![2, 0, 0] S1x64x64.size inb_S3x64x64_S1x64x64_2_0_0
abbrev r1_6 : Rect S3x64 := Rect.unit ![0, 0] S1x64.size inb_S3x64_S1x64_0_0
abbrev r1_7 : Rect S3x64 := Rect.unit ![1, 0] S1x64.size inb_S3x64_S1x64_1_0
abbrev r1_8 : Rect S3x64 := Rect.unit ![2, 0] S1x64.size inb_S3x64_S1x64_2_0

def out1_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r1_0, k1_pay1 (k1_pay2 (View.ld x1 r1_1) (View.ld x3 r1_2) (View.ld x2 r1_0))
      (k1_pay8 (k1_pay3 (View.ld x0 r1_0)) (k1_pay4 (View.ld x1 r1_1) (View.ld x3 r1_2) (View.ld x2 r1_0)) (k1_pay7 (View.ld x4 r1_4)) (View.ld x5 r1_4) (View.ld x6 r1_7) (View.ld x7 r1_7))
      (k1_pay9 (k1_pay3 (View.ld x0 r1_0)) (k1_pay4 (View.ld x1 r1_1) (View.ld x3 r1_2) (View.ld x2 r1_0)) (k1_pay5 (View.ld x0 r1_0) (View.ld x4 r1_3) (View.ld x6 r1_6)) (k1_pay6 (View.ld x1 r1_1) (View.ld x3 r1_2) (View.ld x2 r1_0) (View.ld x5 r1_3) (View.ld x7 r1_6)) (View.ld x4 r1_5) (View.ld x5 r1_5) (View.ld x6 r1_8) (View.ld x7 r1_8))⟩]

theorem sound_kernel1 {c : Dev nD} {E : Set ℕ} {i : grid1.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out1_8 x0 x1 x2 x3 x4 x5 x6 x7)) -∗ K ⟨⟩))
      ⊢ wp frame (wpE (defs₀ (F := F)) Variants.none c none) E (cc1__msg_gru_kernel i arg1 h1 arg2 h2 arg3 h3 arg4 h4 arg5 h5 arg6 h6 arg7 h7 arg8 h8 arg9 h9) K := by
  sl_unfold [cc1__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1 (c : Dev nD) : ∀ w : Fin cfg1.W, w ≠ 8 → ∀ (t : Fin cfg1.N) d, (dat1 V c).before w t d = (dat1 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat1]; rfl)

-- The body's triple at the eight input blocks, everything else framed.
theorem body_obligation1 (c : Dev nD) : BodyObligation (dat1 (F := F) V c) (defs₀ (F := F)) Variants.none () Set.univ := fun t => by
  rw [bigSep_W1, bigSep_W1]
  simp +decide only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1
  iframe H0 H1 H2 H3 H4 H5 H6 H7
  isplitl [H8]; · iexists _; iexact H8
  iintro H
  iframe
  iexact Ho

end Cert.Kernel.Gen

end
-- ==== Proof.KB.Reg2.lean ====
import proofs.«412786_j57784490000510_2_alg».proof.Proof.Gen.Kernel.Launch
import proofs.«412786_j57784490000510_2_alg».proof.Proof.Gen.Kernel.Skeleton
import proofs.«412786_j57784490000510_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit ![0, 0] S2000x64.size inb_S2000x64_S2000x64_0_0
abbrev r2_1 : Rect S2000x256 := Rect.unit ![0, 0] S2000x256.size inb_S2000x256_S2000x256_0_0
abbrev r2_2 : Rect S256x64 := Rect.unit ![0, 0] S256x64.size inb_S256x64_S256x64_0_0
abbrev r2_3 : Rect S3x64x64 := Rect.unit ![0, 0, 0] S1x64x64.size inb_S3x64x64_S1x64x64_0_0_0
abbrev r2_4 : Rect S3x64x64 := Rect.unit ![1, 0, 0] S1x64x64.size inb_S3x64x64_S1x64x64_1_0_0
abbrev r2_5 : Rect S3x64x64 := Rect.unit ![2, 0, 0] S1x64x64.size inb_S3x64x64_S1x64x64_2_0_0
abbrev r2_6 : Rect S3x64 := Rect.unit ![0, 0] S1x64.size inb_S3x64_S1x64_0_0
abbrev r2_7 : Rect S3x64 := Rect.unit ![1, 0] S1x64.size inb_S3x64_S1x64_1_0
abbrev r2_8 : Rect S3x64 := Rect.unit ![2, 0] S1x64.size inb_S3x64_S1x64_2_0

def out2_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r2_0, k2_pay1 (k2_pay2 (View.ld x1 r2_1) (View.ld x3 r2_2) (View.ld x2 r2_0))
      (k2_pay8 (k2_pay3 (View.ld x0 r2_0)) (k2_pay4 (View.ld x1 r2_1) (View.ld x3 r2_2) (View.ld x2 r2_0)) (k2_pay7 (View.ld x4 r2_4)) (View.ld x5 r2_4) (View.ld x6 r2_7) (View.ld x7 r2_7))
      (k2_pay9 (k2_pay3 (View.ld x0 r2_0)) (k2_pay4 (View.ld x1 r2_1) (View.ld x3 r2_2) (View.ld x2 r2_0)) (k2_pay5 (View.ld x0 r2_0) (View.ld x4 r2_3) (View.ld x6 r2_6)) (k2_pay6 (View.ld x1 r2_1) (View.ld x3 r2_2) (View.ld x2 r2_0) (View.ld x5 r2_3) (View.ld x7 r2_6)) (View.ld x4 r2_5) (View.ld x5 r2_5) (View.ld x6 r2_8) (View.ld x7 r2_8))⟩]

theorem sound_kernel2 {c : Dev nD} {E : Set ℕ} {i : grid2.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out2_8 x0 x1 x2 x3 x4 x5 x6 x7)) -∗ K ⟨⟩))
      ⊢ wp frame (wpE (defs₀ (F := F)) Variants.none c none) E (cc2__msg_gru_kernel i arg1 h1 arg2 h2 arg3 h3 arg4 h4 arg5 h5 arg6 h6 arg7 h7 arg8 h8 arg9 h9) K := by
  sl_unfold [cc2__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2 (c : Dev nD) : ∀ w : Fin cfg2.W, w ≠ 8 → ∀ (t : Fin cfg2.N) d, (dat2 V c).before w t d = (dat2 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat2]; rfl)

-- The body's triple at the eight input blocks, everything else framed.
theorem body_obligation2 (c : Dev nD) : BodyObligation (dat2 (F := F) V c) (defs₀ (F := F)) Variants.none () Set.univ := fun t => by
  rw [bigSep_W2, bigSep_W2]
  simp +decide only [before2 V c]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel2
  iframe H0 H1 H2 H3 H4 H5 H6 H7
  isplitl [H8]; · iexists _; iexact H8
  iintro H
  iframe
  iexact Ho

end Cert.Kernel.Gen

end
-- ==== Proof.KB.Reg3.lean ====
import proofs.«412786_j57784490000510_2_alg».proof.Proof.Gen.Kernel.Launch
import proofs.«412786_j57784490000510_2_alg».proof.Proof.Gen.Kernel.Skeleton
import proofs.«412786_j57784490000510_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit ![0, 0] S2000x64.size inb_S2000x64_S2000x64_0_0
abbrev r3_1 : Rect S2000x256 := Rect.unit ![0, 0] S2000x256.size inb_S2000x256_S2000x256_0_0
abbrev r3_2 : Rect S256x64 := Rect.unit ![0, 0] S256x64.size inb_S256x64_S256x64_0_0
abbrev r3_3 : Rect S3x64x64 := Rect.unit ![0, 0, 0] S1x64x64.size inb_S3x64x64_S1x64x64_0_0_0
abbrev r3_4 : Rect S3x64x64 := Rect.unit ![1, 0, 0] S1x64x64.size inb_S3x64x64_S1x64x64_1_0_0
abbrev r3_5 : Rect S3x64x64 := Rect.unit ![2, 0, 0] S1x64x64.size inb_S3x64x64_S1x64x64_2_0_0
abbrev r3_6 : Rect S3x64 := Rect.unit ![0, 0] S1x64.size inb_S3x64_S1x64_0_0
abbrev r3_7 : Rect S3x64 := Rect.unit ![1, 0] S1x64.size inb_S3x64_S1x64_1_0
abbrev r3_8 : Rect S3x64 := Rect.unit ![2, 0] S1x64.size inb_S3x64_S1x64_2_0

def out3_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r3_0, k3_pay1 (k3_pay2 (View.ld x1 r3_1) (View.ld x3 r3_2) (View.ld x2 r3_0))
      (k3_pay8 (k3_pay3 (View.ld x0 r3_0)) (k3_pay4 (View.ld x1 r3_1) (View.ld x3 r3_2) (View.ld x2 r3_0)) (k3_pay7 (View.ld x4 r3_4)) (View.ld x5 r3_4) (View.ld x6 r3_7) (View.ld x7 r3_7))
      (k3_pay9 (k3_pay3 (View.ld x0 r3_0)) (k3_pay4 (View.ld x1 r3_1) (View.ld x3 r3_2) (View.ld x2 r3_0)) (k3_pay5 (View.ld x0 r3_0) (View.ld x4 r3_3) (View.ld x6 r3_6)) (k3_pay6 (View.ld x1 r3_1) (View.ld x3 r3_2) (View.ld x2 r3_0) (View.ld x5 r3_3) (View.ld x7 r3_6)) (View.ld x4 r3_5) (View.ld x5 r3_5) (View.ld x6 r3_8) (View.ld x7 r3_8))⟩]

theorem sound_kernel3 {c : Dev nD} {E : Set ℕ} {i : grid3.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out3_8 x0 x1 x2 x3 x4 x5 x6 x7)) -∗ K ⟨⟩))
      ⊢ wp frame (wpE (defs₀ (F := F)) Variants.none c none) E (cc3__msg_gru_kernel i arg1 h1 arg2 h2 arg3 h3 arg4 h4 arg5 h5 arg6 h6 arg7 h7 arg8 h8 arg9 h9) K := by
  sl_unfold [cc3__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t
    = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3 (c : Dev nD) : ∀ w : Fin cfg3.W, w ≠ 8 → ∀ (t : Fin cfg3.N) d, (dat3 V c).before w t d = (dat3 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat3]; rfl)

-- The body's triple at the eight input blocks, everything else framed.
theorem body_obligation3 (c : Dev nD) : BodyObligation (dat3 (F := F) V c) (defs₀ (F := F)) Variants.none () Set.univ := fun t => by
  rw [bigSep_W3, bigSep_W3]
  simp +decide only [before3 V c]
  dsimp only [dat3]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel3
  iframe H0 H1 H2 H3 H4 H5 H6 H7
  isplitl [H8]; · iexists _; iexact H8
  iintro H
  iframe
  iexact Ho

end Cert.Kernel.Gen

end
-- ==== Proof.KB.Reg4Base.lean ====
import proofs.«412786_j57784490000510_2_alg».proof.Proof.Gen.Kernel.Launch
import proofs.«412786_j57784490000510_2_alg».proof.Proof.Gen.Kernel.Skeleton
import proofs.«412786_j57784490000510_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

abbrev cond4_1 (i : grid4.Coords) : Prop := k4_cond2 i = 1#1

theorem hcond4_1 : ∀ t : Fin cfg4.N, cond4_1 (grid4.coords t) ↔ t.val % 50 = 49 :=
  (by decide +kernel : ∀ t : Fin grid4.N, cond4_1 (grid4.coords t) ↔ t.val % 50 = 49)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem liveAt4_7 : ∀ t : Fin cfg4.N, cfg4.idle 7 (grid4.coords t) = false := by decide +kernel
theorem liveAt4_8 : ∀ t : Fin cfg4.N, cfg4.idle 8 (grid4.coords t) = false := by decide +kernel
theorem liveAt4_9 : ∀ t : Fin cfg4.N, cfg4.idle 9 (grid4.coords t) = false := by decide +kernel
theorem liveAt4_10 : ∀ t : Fin cfg4.N, cfg4.idle 10 (grid4.coords t) = false := by decide +kernel
theorem liveAt4_11 : ∀ t : Fin cfg4.N, cfg4.idle 11 (grid4.coords t) = false := by decide +kernel
theorem liveAt4_12 : ∀ t : Fin cfg4.N, cfg4.idle 12 (grid4.coords t) = false := by decide +kernel
theorem liveAt4_13 : ∀ t : Fin cfg4.N, cfg4.idle 13 (grid4.coords t) = false := by decide +kernel
theorem liveAt4_14 : ∀ t : Fin cfg4.N, cfg4.idle 14 (grid4.coords t) = false := by decide +kernel
theorem liveAt4_15 : ∀ t : Fin cfg4.N, cfg4.idle 15 (grid4.coords t) = false := by decide +kernel
theorem liveAt4_16 : ∀ t : Fin cfg4.N, cfg4.idle 16 (grid4.coords t) = false := by decide +kernel
theorem liveAt4_17 : ∀ t : Fin cfg4.N, cfg4.idle 17 (grid4.coords t) = false := by decide +kernel
theorem liveAt4_18 : ∀ t : Fin cfg4.N, cfg4.idle 18 (grid4.coords t) = false := by decide +kernel
theorem liveAt4_19 : ∀ t : Fin cfg4.N, cfg4.idle 19 (grid4.coords t) = false := by decide +kernel

theorem idleAt4_20 : ∀ t : Fin cfg4.N, ¬cond4_1 (grid4.coords t) → cfg4.idle 20 (grid4.coords t) = true := by decide +kernel

theorem noFlush4_20 : ∀ t : Fin cfg4.N, ¬cond4_1 (grid4.coords t) → (cfg4.win 20).flush t = false := by decide +kernel

theorem liveAt4_20_last : ∀ t : Fin cfg4.N, cond4_1 (grid4.coords t) → cfg4.idle 20 (grid4.coords t) = false := by decide +kernel

theorem idleAt4_21 : ∀ t : Fin cfg4.N, ¬cond4_1 (grid4.coords t) → cfg4.idle 21 (grid4.coords t) = true := by decide +kernel

theorem noFlush4_21 : ∀ t : Fin cfg4.N, ¬cond4_1 (grid4.coords t) → (cfg4.win 21).flush t = false := by decide +kernel

theorem liveAt4_21_last : ∀ t : Fin cfg4.N, cond4_1 (grid4.coords t) → cfg4.idle 21 (grid4.coords t) = false := by decide +kernel

abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x2 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S64x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S64x2 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S2 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S64x64 .f32 := win4_11.stage (cfg4.slots t 11)
abbrev hs4_11 (t : Fin cfg4.N) : (ms4_11 t).IsWhole := hstage4_11 ((cfg4.slots t 11).cast nbuf4_11)
abbrev ms4_12 (t : Fin cfg4.N) : Memref sig .tc .vmem S64x64 .f32 := win4_12.stage (cfg4.slots t 12)
abbrev hs4_12 (t : Fin cfg4.N) : (ms4_12 t).IsWhole := hstage4_12 ((cfg4.slots t 12).cast nbuf4_12)
abbrev ms4_13 (t : Fin cfg4.N) : Memref sig .tc .vmem S64 .f32 := win4_13.stage (cfg4.slots t 13)
abbrev hs4_13 (t : Fin cfg4.N) : (ms4_13 t).IsWhole := hstage4_13 ((cfg4.slots t 13).cast nbuf4_13)
abbrev ms4_14 (t : Fin cfg4.N) : Memref sig .tc .vmem S64x1 .f32 := win4_14.stage (cfg4.slots t 14)
abbrev hs4_14 (t : Fin cfg4.N) : (ms4_14 t).IsWhole := hstage4_14 ((cfg4.slots t 14).cast nbuf4_14)
abbrev ms4_15 (t : Fin cfg4.N) : Memref sig .tc .vmem S1 .f32 := win4_15.stage (cfg4.slots t 15)
abbrev hs4_15 (t : Fin cfg4.N) : (ms4_15 t).IsWhole := hstage4_15 ((cfg4.slots t 15).cast nbuf4_15)
abbrev ms4_16 (t : Fin cfg4.N) : Memref sig .tc .vmem S64x64 .f32 := win4_16.stage (cfg4.slots t 16)
abbrev hs4_16 (t : Fin cfg4.N) : (ms4_16 t).IsWhole := hstage4_16 ((cfg4.slots t 16).cast nbuf4_16)
abbrev ms4_17 (t : Fin cfg4.N) : Memref sig .tc .vmem S64 .f32 := win4_17.stage (cfg4.slots t 17)
abbrev hs4_17 (t : Fin cfg4.N) : (ms4_17 t).IsWhole := hstage4_17 ((cfg4.slots t 17).cast nbuf4_17)
abbrev ms4_18 (t : Fin cfg4.N) : Memref sig .tc .vmem S64x1 .f32 := win4_18.stage (cfg4.slots t 18)
abbrev hs4_18 (t : Fin cfg4.N) : (ms4_18 t).IsWhole := hstage4_18 ((cfg4.slots t 18).cast nbuf4_18)
abbrev ms4_19 (t : Fin cfg4.N) : Memref sig .tc .vmem S1 .f32 := win4_19.stage (cfg4.slots t 19)
abbrev hs4_19 (t : Fin cfg4.N) : (ms4_19 t).IsWhole := hstage4_19 ((cfg4.slots t 19).cast nbuf4_19)
abbrev ms4_20 (t : Fin cfg4.N) : Memref sig .tc .vmem S1x2 .f32 := win4_20.stage (cfg4.slots t 20)
abbrev hs4_20 (t : Fin cfg4.N) : (ms4_20 t).IsWhole := hstage4_20 ((cfg4.slots t 20).cast nbuf4_20)
abbrev ms4_21 (t : Fin cfg4.N) : Memref sig .tc .vmem S1x1 .f32 := win4_21.stage (cfg4.slots t 21)
abbrev hs4_21 (t : Fin cfg4.N) : (ms4_21 t).IsWhole := hstage4_21 ((cfg4.slots t 21).cast nbuf4_21)

abbrev scM4_0 : Memref sig .tc .vmem S1x2 .f32 := Memref.whole cc4_scratch0
abbrev scM4_1 : Memref sig .tc .vmem S1x1 .f32 := Memref.whole cc4_scratch1

abbrev VS4_0 : View sig .tc .vmem S1x2 .f32 := scM4_0.view
abbrev VS4_1 : View sig .tc .vmem S1x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Gen

end
-- ==== Proof.KB.Reg4RunA.lean ====
import proofs.«412786_j57784490000510_2_alg».proof.Proof.KB.Reg4Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : cond4_0 i) (hc1 : ¬cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) :
    Σ' (LS0 : List (View.Piece (Elt F) S1x2 .f32)), { LS1 : List (View.Piece (Elt F) S1x1 .f32) //
      ∀ (xi20 : Vec F S1x2 .f32) (xi21 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun xi20 xi21 E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]; · iexists _; iexact HS0
    iexists _; iexact HS1

end Cert.Kernel.Gen

end
-- ==== Proof.KB.Reg4RunB.lean ====
import proofs.«412786_j57784490000510_2_alg».proof.Proof.KB.Reg4Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : ¬cond4_0 i) (hc1 : ¬cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) (xs0 : Vec F S1x2 .f32) (xs1 : Vec F S1x1 .f32) :
    Σ' (LS0 : List (View.Piece (Elt F) S1x2 .f32)), { LS1 : List (View.Piece (Elt F) S1x1 .f32) //
      ∀ (xi20 : Vec F S1x2 .f32) (xi21 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun xi20 xi21 E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hfs0; obtain rfl := harg24.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]; · iexists _; iexact HS0
    iexists _; iexact HS1

end Cert.Kernel.Gen

end
-- ==== Proof.KB.Reg4RunC.lean ====
import proofs.«412786_j57784490000510_2_alg».proof.Proof.KB.Reg4Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : ¬cond4_0 i) (hc1 : cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) (xs0 : Vec F S1x2 .f32) (xs1 : Vec F S1x1 .f32) :
    Σ' (L20 : List (View.Piece (Elt F) S1x2 .f32)) (L21 : List (View.Piece (Elt F) S1x1 .f32)) (LS0 : List (View.Piece (Elt F) S1x2 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg23.eq_unread hfs0; obtain rfl := harg24.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [HS0]; · iexists _; iexact HS0
    iexists _; iexact HS1

end Cert.Kernel.Gen

end
-- ==== Proof.KB.Reg4Acc.lean ====
import proofs.«412786_j57784490000510_2_alg».proof.Proof.KB.Reg4RunA
import proofs.«412786_j57784490000510_2_alg».proof.Proof.KB.Reg4RunB
import proofs.«412786_j57784490000510_2_alg».proof.Proof.KB.Reg4RunC
import Idealize.ShloMosaic.Lib.Pipeline.RegionsLoop

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off the array the region finds.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cond4_0_zero (hn : 0 < cfg4.N) : cond4_0 (grid4.coords ⟨0, hn⟩) := (hcond4_0 ⟨0, hn⟩).mpr (Nat.zero_mod _)

theorem not_cond4_0_of_ne (t : Fin cfg4.N) (h : t.val ≠ 0) : ¬cond4_0 (grid4.coords t) := fun hc => by
  have h0 := (hcond4_0 t).mp hc
  have hN : t.val < 50 := lt_of_lt_of_eq t.isLt (show cfg4.N = 50 from N_4)
  omega

theorem not_cond4_1_zero (hn : 0 < cfg4.N) : ¬cond4_1 (grid4.coords ⟨0, hn⟩) := fun hc => by
  have h0 := (hcond4_1 ⟨0, hn⟩).mp hc
  (try dsimp only at h0); omega

abbrev runFirst4 (c : Dev nD) (t : Fin cfg4.N) (h0 : cond4_0 (grid4.coords t)) (h1 : ¬cond4_1 (grid4.coords t)) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)

abbrev runMid4 (c : Dev nD) (t : Fin cfg4.N) (h0 : ¬cond4_0 (grid4.coords t)) (h1 : ¬cond4_1 (grid4.coords t)) (a0 : Vec F S1x2 .f32) (a1 : Vec F S1x1 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) a0 a1

abbrev runLast4 (c : Dev nD) (t : Fin cfg4.N) (h0 : ¬cond4_0 (grid4.coords t)) (h1 : cond4_1 (grid4.coords t)) (a0 : Vec F S1x2 .f32) (a1 : Vec F S1x1 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) a0 a1

-- An accumulator's contents from the pieces a run stored.
abbrev rd0 (L : List (View.Piece (Elt F) S1x2 .f32)) : Vec F S1x2 .f32 := VS4_0.read (Elt F) (VS4_0.writes (Elt F) VS4_0.junk L)
abbrev rd1 (L : List (View.Piece (Elt F) S1x1 .f32)) : Vec F S1x1 .f32 := VS4_1.read (Elt F) (VS4_1.writes (Elt F) VS4_1.junk L)

theorem cov4_first_0 (c : Dev nD) (t : Fin cfg4.N) (h0 h1) (y : S1x2.Idx) : ∃ pc ∈ (runFirst4 V c t h0 h1).1, y ∈ pc.1.set :=
  View.cover_of_tiledL (runFirst4 V c t h0 h1).1 S1x2.size (by sl_kernel_rfl) y
theorem cov4_first_1 (c : Dev nD) (t : Fin cfg4.N) (h0 h1) (y : S1x1.Idx) : ∃ pc ∈ (runFirst4 V c t h0 h1).2.1, y ∈ pc.1.set :=
  View.cover_of_tiledL (runFirst4 V c t h0 h1).2.1 S1x1.size (by sl_kernel_rfl) y

theorem cov4_mid_0 (c : Dev nD) (t : Fin cfg4.N) (h0 h1 a0 a1) (y : S1x2.Idx) : ∃ pc ∈ (runMid4 V c t h0 h1 a0 a1).1, y ∈ pc.1.set :=
  View.cover_of_tiledL (runMid4 V c t h0 h1 a0 a1).1 S1x2.size (by sl_kernel_rfl) y
theorem cov4_mid_1 (c : Dev nD) (t : Fin cfg4.N) (h0 h1 a0 a1) (y : S1x1.Idx) : ∃ pc ∈ (runMid4 V c t h0 h1 a0 a1).2.1, y ∈ pc.1.set :=
  View.cover_of_tiledL (runMid4 V c t h0 h1 a0 a1).2.1 S1x1.size (by sl_kernel_rfl) y

theorem cov4_last_o20 (c : Dev nD) (t : Fin cfg4.N) (h0 h1 a0 a1) (y : S1x2.Idx) : ∃ pc ∈ (runLast4 V c t h0 h1 a0 a1).1, y ∈ pc.1.set :=
  View.cover_of_tiledL (runLast4 V c t h0 h1 a0 a1).1 S1x2.size (by sl_kernel_rfl) y
theorem cov4_last_o21 (c : Dev nD) (t : Fin cfg4.N) (h0 h1 a0 a1) (y : S1x1.Idx) : ∃ pc ∈ (runLast4 V c t h0 h1 a0 a1).2.1, y ∈ pc.1.set :=
  View.cover_of_tiledL (runLast4 V c t h0 h1 a0 a1).2.1 S1x1.size (by sl_kernel_rfl) y
theorem cov4_last_0 (c : Dev nD) (t : Fin cfg4.N) (h0 h1 a0 a1) (y : S1x2.Idx) : ∃ pc ∈ (runLast4 V c t h0 h1 a0 a1).2.2.1, y ∈ pc.1.set :=
  View.cover_of_tiledL (runLast4 V c t h0 h1 a0 a1).2.2.1 S1x2.size (by sl_kernel_rfl) y
theorem cov4_last_1 (c : Dev nD) (t : Fin cfg4.N) (h0 h1 a0 a1) (y : S1x1.Idx) : ∃ pc ∈ (runLast4 V c t h0 h1 a0 a1).2.2.2.1, y ∈ pc.1.set :=
  View.cover_of_tiledL (runLast4 V c t h0 h1 a0 a1).2.2.2.1 S1x1.size (by sl_kernel_rfl) y

abbrev St4 (F : FTy → Type) : Type := (Vec F S1x2 .f32 × Vec F S1x1 .f32) × (Vec F S1x2 .f32 × Vec F S1x1 .f32)

-- Output blocks and accumulators after each point: the first-tile run at 0, then the middle or last run over what the point before left.
def outsAt4 (c : Dev nD) : (n : ℕ) → n < cfg4.N → St4 F
  | 0, hn => ((rd0 [], rd1 []), (rd0 (runFirst4 V c ⟨0, hn⟩ (cond4_0_zero hn) (not_cond4_1_zero hn)).1, rd1 (runFirst4 V c ⟨0, hn⟩ (cond4_0_zero hn) (not_cond4_1_zero hn)).2.1))
  | n + 1, hn =>
    if h1 : (n + 1) % 50 = 49 then
      ((rd0 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).1,
        rd1 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.1),
       (rd0 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.2.1,
        rd1 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.2.2.1))
    else
      ((rd0 [], rd1 []),
       (rd0 (runMid4 V c ⟨n + 1, hn⟩ (not_cond4_0_of_ne _ (Nat.succ_ne_zero n)) (fun h => h1 ((hcond4_1 ⟨n + 1, hn⟩).mp h)) (outsAt4 c n (Nat.lt_of_succ_lt hn)).2.1 (outsAt4 c n (Nat.lt_of_succ_lt hn)).2.2).1,
        rd1 (runMid4 V c ⟨n + 1, hn⟩ (not_cond4_0_of_ne _ (Nat.succ_ne_zero n)) (fun h => h1 ((hcond4_1 ⟨n + 1, hn⟩).mp h)) (outsAt4 c n (Nat.lt_of_succ_lt hn)).2.1 (outsAt4 c n (Nat.lt_of_succ_lt hn)).2.2).2.1))

abbrev prev4 (t : Fin cfg4.N) : t.val - 1 < cfg4.N := Nat.lt_of_le_of_lt (Nat.sub_le _ _) t.isLt

theorem outsAt4_first (c : Dev nD) (t : Fin cfg4.N) (hz : t.val = 0) (h0 h1) :
    outsAt4 V c t.val t.isLt = ((rd0 [], rd1 []), (rd0 (runFirst4 V c t h0 h1).1, rd1 (runFirst4 V c t h0 h1).2.1)) := by
  obtain ⟨n, hn⟩ := t
  cases n with
  | zero => rfl
  | succ n => exact absurd hz (Nat.succ_ne_zero n)

theorem outsAt4_mid (c : Dev nD) (t : Fin cfg4.N) (hz : t.val ≠ 0) (hl : ¬t.val % 50 = 49) (h0 h1) :
    outsAt4 V c t.val t.isLt = ((rd0 [], rd1 []),
      (rd0 (runMid4 V c t h0 h1 (outsAt4 V c (t.val - 1) (prev4 t)).2.1 (outsAt4 V c (t.val - 1) (prev4 t)).2.2).1,
       rd1 (runMid4 V c t h0 h1 (outsAt4 V c (t.val - 1) (prev4 t)).2.1 (outsAt4 V c (t.val - 1) (prev4 t)).2.2).2.1)) := by
  obtain ⟨n, hn⟩ := t
  cases n with
  | zero => exact absurd rfl hz
  | succ n => exact (dif_neg hl).trans rfl

theorem outsAt4_last (c : Dev nD) (t : Fin cfg4.N) (hz : t.val ≠ 0) (hl : t.val % 50 = 49) (h0 h1) :
    outsAt4 V c t.val t.isLt =
      ((rd0 (runLast4 V c t h0 h1 (outsAt4 V c (t.val - 1) (prev4 t)).2.1 (outsAt4 V c (t.val - 1) (prev4 t)).2.2).1,
        rd1 (runLast4 V c t h0 h1 (outsAt4 V c (t.val - 1) (prev4 t)).2.1 (outsAt4 V c (t.val - 1) (prev4 t)).2.2).2.1),
       (rd0 (runLast4 V c t h0 h1 (outsAt4 V c (t.val - 1) (prev4 t)).2.1 (outsAt4 V c (t.val - 1) (prev4 t)).2.2).2.2.1,
        rd1 (runLast4 V c t h0 h1 (outsAt4 V c (t.val - 1) (prev4 t)).2.1 (outsAt4 V c (t.val - 1) (prev4 t)).2.2).2.2.2.1)) := by
  obtain ⟨n, hn⟩ := t
  cases n with
  | zero => exact absurd rfl hz
  | succ n => exact (dif_pos hl).trans rfl

-- The invariant: the class's before the first point; then the accumulators at what the point before left.
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.1 ∗ owns (c : Thread nD τ) scM4_1 fullShare (outsAt4 V c (n - 1) (by omega)).2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

end Cert.Kernel.Gen

end
-- ==== Proof.KB.Reg4.lean ====
import proofs.«412786_j57784490000510_2_alg».proof.Proof.KB.Reg4Acc
import Idealize.ShloMosaic.Lib.Pipeline.RegionsLoop
import Mathlib.Tactic.IntervalCases

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What the body leaves in each window: an input's block of the array the region finds; the two output blocks by `outsAt4`.
def aft4 (c : Dev nD) : (w : Fin cfg4.W) → (t : Fin cfg4.N) → (cfg4.win w).block.Idx → Elt F (cfg4.win w).elt := fun
    | 0 => fun t => iblk4 V c 0 t
    | 1 => fun t => iblk4 V c 1 t
    | 2 => fun t => iblk4 V c 2 t
    | 3 => fun t => iblk4 V c 3 t
    | 4 => fun t => iblk4 V c 4 t
    | 5 => fun t => iblk4 V c 5 t
    | 6 => fun t => iblk4 V c 6 t
    | 7 => fun t => iblk4 V c 7 t
    | 8 => fun t => iblk4 V c 8 t
    | 9 => fun t => iblk4 V c 9 t
    | 10 => fun t => iblk4 V c 10 t
    | 11 => fun t => iblk4 V c 11 t
    | 12 => fun t => iblk4 V c 12 t
    | 13 => fun t => iblk4 V c 13 t
    | 14 => fun t => iblk4 V c 14 t
    | 15 => fun t => iblk4 V c 15 t
    | 16 => fun t => iblk4 V c 16 t
    | 17 => fun t => iblk4 V c 17 t
    | 18 => fun t => iblk4 V c 18 t
    | 19 => fun t => iblk4 V c 19 t
    | 20 => fun t => (outsAt4 V c t.val t.isLt).1.1
    | 21 => fun t => (outsAt4 V c t.val t.isLt).1.2
    | ⟨_ + 22, h⟩ => absurd h (Nat.not_lt.2 (Nat.le_add_left _ _))

def dat4 (c : Dev nD) : Dat τ (Elt F) Unit ℕ (UR sig nD τ) ℕ cfg4 c where
  A w := V c (Pipeline.arrRef spec4 w)
  after := aft4 V c
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem after4_20 (c : Dev nD) (t : Fin cfg4.N) : (dat4 V c).after 20 t = (outsAt4 V c t.val t.isLt).1.1 := rfl
theorem after4_21 (c : Dev nD) (t : Fin cfg4.N) : (dat4 V c).after 21 t = (outsAt4 V c t.val t.isLt).1.2 := rfl

theorem keep4 (c : Dev nD) (w : Fin cfg4.W) (hw : w.val < 20) (t : Fin cfg4.N) :
    (cfg4.win w).cut (cfg4.grid.coords t) ((dat4 V c).after w t) = (dat4 V c).blockOf w t := by
  rcases w with ⟨n, hn⟩; change n < 20 at hw
  interval_cases n <;> rfl
theorem fetched4 (c : Dev nD) (w : Fin cfg4.W) (hw : w.val < 20) (t : Fin cfg4.N) (d) : (dat4 V c).fetched w t d = aft4 V c w t := by
  rcases w with ⟨n, hn⟩; change n < 20 at hw
  interval_cases n <;> rfl
theorem before4 (c : Dev nD) (w : Fin cfg4.W) (hw : w.val < 20) (t : Fin cfg4.N) (d) : (dat4 V c).before w t d = aft4 V c w t := by
  have hk := keep4 V c w hw; have hf := fetched4 V c w hw t d
  rcases w with ⟨n, hn⟩; change n < 20 at hw
  interval_cases n <;> exact ((dat4 V c).before_in_eq_fetched _ rfl (fun _ => rfl) (fun _ _ _ => rfl) hk t d).trans hf

-- Pieces that cover a shape determine what is read after writing them, whatever was there.
theorem owns_of_cover {s : Shape} (c : Dev nD) {M : Memref sig .tc .vmem s .f32} (v' : View sig .tc .vmem s .f32) {g : Buf (Elt F) (M.view.loc (c : Thread nD τ))}
    {L : List (View.Piece (Elt F) s .f32)} (h : ∀ y, ∃ pc ∈ L, y ∈ pc.1.set) :
    (M.view.loc (c : Thread nD τ) ↦[M.view.set]{fullShare} M.view.writes (Elt F) g L : sProp 𝕄)
      ⊢ owns (c : Thread nD τ) M fullShare (v'.read (Elt F) (v'.writes (Elt F) v'.junk L)) := by
  iintro H; unfold owns; iexists M.view.writes (Elt F) g L; isplitr; · ipureintro; exact View.read_writes_of_cover _ _ _ _ _ h
  iexact H

-- The body at any point: the point's index decides the case; the invariant lends the accumulators and takes them back at the point's contents.
set_option maxHeartbeats 8000000 in
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4; dsimp only
  simp (disch := decide) only [before4 V c, show (dat4 V c).after = aft4 V c from rfl, aft4]
  rw [show (dat4 V c).owesAt () t.succ = (dat4 V c).owesAt () t.castSucc from rfl,
    show (dat4 V c).Φ t.succ = PhiS4 V c (t.val + 1) t.isLt from rfl, PhiS4_succ,
    show (dat4 V c).Φ t.castSucc = PhiS4 V c t.val (Nat.le_of_lt t.isLt) from rfl]
  have hN : t.val < 50 := lt_of_lt_of_eq t.isLt (show cfg4.N = 50 from N_4)
  by_cases hl : t.val % 50 = 49
  · have hz : t.val ≠ 0 := by omega
    have hc0 := not_cond4_0_of_ne t hz
    have hc1 := (hcond4_1 t).mpr hl
    simp only [show idle4 20 (grid4.coords t) = false from liveAt4_20_last t hc1, show idle4 21 (grid4.coords t) = false from liveAt4_21_last t hc1]
    rw [outsAt4_last V c t hz hl hc0 hc1, PhiS4_pos V c _ _ hz]; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runLast4 V c t hc0 hc1 (outsAt4 V c (t.val - 1) (prev4 t)).2.1 (outsAt4 V c (t.val - 1) (prev4 t)).2.2).2.2.2.2 Set.univ _)
    iframe
    isplitl [H20]; · iexists _; iexact H20
    isplitl [H21]; · iexists _; iexact H21
    iintro ⟨H0, H1, H2, H3, H4, H5, H6, H7, H8, H9, H10, H11, H12, H13, H14, H15, H16, H17, H18, H19, ⟨%e20, H20⟩, ⟨%e21, H21⟩, ⟨%es0, HS0⟩, ⟨%es1, HS1⟩⟩
    iframe
    isplitl [HS0 HS1]
    · isplitl [HS0]
      · iapply owns_of_cover c VS4_0 (cov4_last_0 V c t hc0 hc1 _ _); iexact HS0
      · iapply owns_of_cover c VS4_1 (cov4_last_1 V c t hc0 hc1 _ _); iexact HS1
    isplitl [H20]
    · iapply owns_of_cover c VS4_0 (cov4_last_o20 V c t hc0 hc1 _ _); iexact H20
    iapply owns_of_cover c VS4_1 (cov4_last_o21 V c t hc0 hc1 _ _); iexact H21
  · have hc1 : ¬cond4_1 (grid4.coords t) := fun h => hl ((hcond4_1 t).mp h)
    simp only [show idle4 20 (grid4.coords t) = true from idleAt4_20 t hc1, show idle4 21 (grid4.coords t) = true from idleAt4_21 t hc1, noFlush4_20 t hc1, noFlush4_21 t hc1]
    by_cases hz : t.val = 0
    · have hc0 : cond4_0 (grid4.coords t) := (hcond4_0 t).mpr (by omega)
      rw [outsAt4_first V c t hz hc0 hc1, PhiS4_zero V c _ _ hz, PhiA4_eq]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runFirst4 V c t hc0 hc1).2.2 ((dat4 V c).before 20 t d20) ((dat4 V c).before 21 t d21) Set.univ _)
      iframe
      iintro ⟨H0, H1, H2, H3, H4, H5, H6, H7, H8, H9, H10, H11, H12, H13, H14, H15, H16, H17, H18, H19, H20, H21, ⟨%es0, HS0⟩, ⟨%es1, HS1⟩⟩
      iframe
      isplitl [HS0 HS1]
      · isplitl [HS0]
        · iapply owns_of_cover c VS4_0 (cov4_first_0 V c t hc0 hc1); iexact HS0
        · iapply owns_of_cover c VS4_1 (cov4_first_1 V c t hc0 hc1); iexact HS1
      isplitl [H20] <;> iexists _ <;> iassumption
    · have hc0 := not_cond4_0_of_ne t hz
      rw [outsAt4_mid V c t hz hl hc0 hc1, PhiS4_pos V c _ _ hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runMid4 V c t hc0 hc1 (outsAt4 V c (t.val - 1) (prev4 t)).2.1 (outsAt4 V c (t.val - 1) (prev4 t)).2.2).2.2 ((dat4 V c).before 20 t d20) ((dat4 V c).before 21 t d21) Set.univ _)
      iframe
      iintro ⟨H0, H1, H2, H3, H4, H5, H6, H7, H8, H9, H10, H11, H12, H13, H14, H15, H16, H17, H18, H19, H20, H21, ⟨%es0, HS0⟩, ⟨%es1, HS1⟩⟩
      iframe
      isplitl [HS0 HS1]
      · isplitl [HS0]
        · iapply owns_of_cover c VS4_0 (cov4_mid_0 V c t hc0 hc1 _ _); iexact HS0
        · iapply owns_of_cover c VS4_1 (cov4_mid_1 V c t hc0 hc1 _ _); iexact HS1
      isplitl [H20] <;> iexists _ <;> iassumption

end Cert.Kernel.Gen

end
-- ==== Proof.KB.Vals.lean ====
import proofs.«412786_j57784490000510_2_alg».proof.Proof.KB.Reg0
import proofs.«412786_j57784490000510_2_alg».proof.Proof.KB.Reg1
import proofs.«412786_j57784490000510_2_alg».proof.Proof.KB.Reg2
import proofs.«412786_j57784490000510_2_alg».proof.Proof.KB.Reg3
import proofs.«412786_j57784490000510_2_alg».proof.Proof.KB.Reg4
import proofs.«412786_j57784490000510_2_alg».proof.Proof.Gen.Kernel.Regions
import Idealize.ShloMosaic.Lib.Pipeline.Cells

set_option maxRecDepth 16384

noncomputable section

namespace Cert.Kernel.Gen

open Idealize.ShloMosaic Idealize.ShloMosaic.TcCoe
open Idealize.ShloMosaic.Pipeline (Dat Cfg)

variable {F : FTy → Type} [FloatOps F]

/-- What a region leaves: its arrays as the write-backs of all its points leave them, every other buffer as entered. -/
def stepW {cfg : Cfg sig Λ₀} (c : Dev nD) (V : Valuation τ sig (Elt F)) (d : Dat τ (Elt F) Unit ℕ (UR sig nD τ) ℕ cfg c) :
    Valuation τ sig (Elt F) :=
  Pipeline.withArrays cfg.spec c V fun w => d.arrAt w cfg.N

section
variable {cfg : Cfg sig Λ₀} (c : Dev nD) (V : Valuation τ sig (Elt F)) (d : Dat τ (Elt F) Unit ℕ (UR sig nD τ) ℕ cfg c)

theorem stepW_arr (hinj : Function.Injective (Pipeline.arrRef cfg.spec)) (w : Fin cfg.W) :
    stepW c V d (Proc.devRef .tc (Pipeline.arrRef cfg.spec w)) = d.arrAt w cfg.N :=
  Pipeline.withArrays_arr cfg.spec hinj c _ _ w

theorem stepW_of_ne (b : Ref sig .tc) (hb : ∀ w, Pipeline.arrRef cfg.spec w ≠ b) :
    stepW c V d (Proc.devRef .tc b) = V (Proc.devRef .tc b) :=
  Pipeline.withArrays_of_ne cfg.spec c _ _ b hb

theorem stepW_of_not_out (hinj : Function.Injective (Pipeline.arrRef cfg.spec))
    (hA : ∀ w, d.A w = V (Proc.devRef .tc (Pipeline.arrRef cfg.spec w))) (b : Ref sig .tc)
    (hb : ∀ w, Pipeline.arrRef cfg.spec w = b → (cfg.win w).isOut = false) :
    stepW c V d (Proc.devRef .tc b) = V (Proc.devRef .tc b) := by
  by_cases h : ∃ w, Pipeline.arrRef cfg.spec w = b
  · obtain ⟨w, rfl⟩ := h
    exact (stepW_arr c V d hinj w).trans ((d.arrAt_in w (hb w rfl) _).trans (hA w))
  · exact stepW_of_ne c V d b fun w e => h ⟨w, e⟩
end

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev VW5 : (c : Dev nD) → (b : Ref sig .tc) → Buf (Elt F) ((c : Thread nD τ).loc b) := fun c b => W5 m c b
def W6 (c : Dev nD) : Valuation τ sig (Elt F) := stepW c (W5 m c) (dat0 (VW5 m) c)
theorem W6_arr (c : Dev nD) (w : Fin cfg0.W) :
    W6 m c (Proc.devRef .tc (Pipeline.arrRef spec0 w)) = (dat0 (VW5 m) c).arrAt w cfg0.N :=
  stepW_arr c _ _ launch0.win.arr_inj w
theorem W6_of_not_out (c : Dev nD) (b : Ref sig .tc) (hb : b ≠ main_v37) :
    W6 m c (Proc.devRef .tc b) = W5 m c (Proc.devRef .tc b) :=
  stepW_of_not_out c _ _ launch0.win.arr_inj (A_eq0 (VW5 m) c) b fun w e => by subst e; revert hb; revert w; decide
abbrev W7 : Dev nD → Valuation τ sig (Elt F) := fun c => StableHlo.after hostOps1 (W6 m c)
abbrev VW7 : (c : Dev nD) → (b : Ref sig .tc) → Buf (Elt F) ((c : Thread nD τ).loc b) := fun c b => W7 m c b
def W8 (c : Dev nD) : Valuation τ sig (Elt F) := stepW c (W7 m c) (dat1 (VW7 m) c)
theorem W8_arr (c : Dev nD) (w : Fin cfg1.W) :
    W8 m c (Proc.devRef .tc (Pipeline.arrRef spec1 w)) = (dat1 (VW7 m) c).arrAt w cfg1.N :=
  stepW_arr c _ _ launch1.win.arr_inj w
theorem W8_of_not_out (c : Dev nD) (b : Ref sig .tc) (hb : b ≠ main_v51) :
    W8 m c (Proc.devRef .tc b) = W7 m c (Proc.devRef .tc b) :=
  stepW_of_not_out c _ _ launch1.win.arr_inj (A_eq1 (VW7 m) c) b fun w e => by subst e; revert hb; revert w; decide
abbrev W9 : Dev nD → Valuation τ sig (Elt F) := fun c => StableHlo.after hostOps2 (W8 m c)
abbrev VW9 : (c : Dev nD) → (b : Ref sig .tc) → Buf (Elt F) ((c : Thread nD τ).loc b) := fun c b => W9 m c b
def W10 (c : Dev nD) : Valuation τ sig (Elt F) := stepW c (W9 m c) (dat2 (VW9 m) c)
theorem W10_arr (c : Dev nD) (w : Fin cfg2.W) :
    W10 m c (Proc.devRef .tc (Pipeline.arrRef spec2 w)) = (dat2 (VW9 m) c).arrAt w cfg2.N :=
  stepW_arr c _ _ launch2.win.arr_inj w
theorem W10_of_not_out (c : Dev nD) (b : Ref sig .tc) (hb : b ≠ main_v65) :
    W10 m c (Proc.devRef .tc b) = W9 m c (Proc.devRef .tc b) :=
  stepW_of_not_out c _ _ launch2.win.arr_inj (A_eq2 (VW9 m) c) b fun w e => by subst e; revert hb; revert w; decide
abbrev W11 : Dev nD → Valuation τ sig (Elt F) := fun c => StableHlo.after hostOps3 (W10 m c)
abbrev VW11 : (c : Dev nD) → (b : Ref sig .tc) → Buf (Elt F) ((c : Thread nD τ).loc b) := fun c b => W11 m c b
def W12 (c : Dev nD) : Valuation τ sig (Elt F) := stepW c (W11 m c) (dat3 (VW11 m) c)
theorem W12_arr (c : Dev nD) (w : Fin cfg3.W) :
    W12 m c (Proc.devRef .tc (Pipeline.arrRef spec3 w)) = (dat3 (VW11 m) c).arrAt w cfg3.N :=
  stepW_arr c _ _ launch3.win.arr_inj w
theorem W12_of_not_out (c : Dev nD) (b : Ref sig .tc) (hb : b ≠ main_v79) :
    W12 m c (Proc.devRef .tc b) = W11 m c (Proc.devRef .tc b) :=
  stepW_of_not_out c _ _ launch3.win.arr_inj (A_eq3 (VW11 m) c) b fun w e => by subst e; revert hb; revert w; decide
abbrev W13 : Dev nD → Valuation τ sig (Elt F) := fun c => StableHlo.after hostOps4 (W12 m c)
abbrev VW13 : (c : Dev nD) → (b : Ref sig .tc) → Buf (Elt F) ((c : Thread nD τ).loc b) := fun c b => W13 m c b
def W14 (c : Dev nD) : Valuation τ sig (Elt F) := stepW c (W13 m c) (dat4 (VW13 m) c)
theorem W14_arr (c : Dev nD) (w : Fin cfg4.W) :
    W14 m c (Proc.devRef .tc (Pipeline.arrRef spec4 w)) = (dat4 (VW13 m) c).arrAt w cfg4.N :=
  stepW_arr c _ _ launch4.win.arr_inj w
theorem W14_of_not_out (c : Dev nD) (b : Ref sig .tc) (hb : b ≠ main_v94_0 ∧ b ≠ main_v94_1) :
    W14 m c (Proc.devRef .tc b) = W13 m c (Proc.devRef .tc b) :=
  stepW_of_not_out c _ _ launch4.win.arr_inj (A_eq4 (VW13 m) c) b fun w e => by subst e; revert hb; revert w; decide
abbrev W15 : Dev nD → Valuation τ sig (Elt F) := fun c => StableHlo.after hostOps5 (W14 m c)
abbrev W16 : Dev nD → Valuation τ sig (Elt F) := fun c => StableHlo.after hostOps5_1 (W15 m c)
abbrev W17 : Dev nD → Valuation τ sig (Elt F) := fun c => StableHlo.after hostOps5_2 (W16 m c)

section
variable (c : Dev nD) (r : Ref sig .tc)
theorem W1_of (h : r ∉ hostOps0_W) : W1 m c r = W0 m c r :=
  StableHlo.after_of_writes_sub hostOps0 _ hostOps0_writes h
theorem W2_of (h : r ∉ hostOps0_1_W) : W2 m c r = W1 m c r :=
  StableHlo.after_of_writes_sub hostOps0_1 _ hostOps0_1_writes h
theorem W3_of (h : r ∉ hostOps0_2_W) : W3 m c r = W2 m c r :=
  StableHlo.after_of_writes_sub hostOps0_2 _ hostOps0_2_writes h
theorem W4_of (h : r ∉ hostOps0_3_W) : W4 m c r = W3 m c r :=
  StableHlo.after_of_writes_sub hostOps0_3 _ hostOps0_3_writes h
theorem W5_of (h : r ∉ hostOps0_4_W) : W5 m c r = W4 m c r :=
  StableHlo.after_of_writes_sub hostOps0_4 _ hostOps0_4_writes h
theorem W7_of (h : r ∉ hostOps1_W) : W7 m c r = W6 m c r :=
  StableHlo.after_of_writes_sub hostOps1 _ hostOps1_writes h
theorem W9_of (h : r ∉ hostOps2_W) : W9 m c r = W8 m c r :=
  StableHlo.after_of_writes_sub hostOps2 _ hostOps2_writes h
theorem W11_of (h : r ∉ hostOps3_W) : W11 m c r = W10 m c r :=
  StableHlo.after_of_writes_sub hostOps3 _ hostOps3_writes h
theorem W13_of (h : r ∉ hostOps4_W) : W13 m c r = W12 m c r :=
  StableHlo.after_of_writes_sub hostOps4 _ hostOps4_writes h
theorem W15_of (h : r ∉ hostOps5_W) : W15 m c r = W14 m c r :=
  StableHlo.after_of_writes_sub hostOps5 _ hostOps5_writes h
theorem W16_of (h : r ∉ hostOps5_1_W) : W16 m c r = W15 m c r :=
  StableHlo.after_of_writes_sub hostOps5_1 _ hostOps5_1_writes h
theorem W17_of (h : r ∉ hostOps5_2_W) : W17 m c r = W16 m c r :=
  StableHlo.after_of_writes_sub hostOps5_2 _ hostOps5_2_writes h
end

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- No item writes an argument: no host stretch does, and none is a region's output array. -/
theorem W17_arg (c : Dev nD) (r : Ref sig .tc) (h : r ∈ args) : W17 m c r = m ((c : Thread nD τ).loc r) := by
  have ⟨h0, h1, h2, h3, h4, h5, h6, h7, h8, h9, h10, h11, h12, h13, h14, h15, h16⟩ :
      r ∉ hostOps0_W ∧ r ∉ hostOps0_1_W ∧ r ∉ hostOps0_2_W ∧ r ∉ hostOps0_3_W ∧ r ∉ hostOps0_4_W ∧ r ≠ main_v37
      ∧ r ∉ hostOps1_W ∧ r ≠ main_v51 ∧ r ∉ hostOps2_W ∧ r ≠ main_v65 ∧ r ∉ hostOps3_W ∧ r ≠ main_v79 ∧ r ∉ hostOps4_W
      ∧ (r ≠ main_v94_0 ∧ r ≠ main_v94_1) ∧ r ∉ hostOps5_W ∧ r ∉ hostOps5_1_W ∧ r ∉ hostOps5_2_W := by
    revert r; decide
  exact (W17_of m c r h16).trans <| (W16_of m c r h15).trans <| (W15_of m c r h14).trans <| (W14_of_not_out m c r h13).trans <|
    (W13_of m c r h12).trans <| (W12_of_not_out m c r h11).trans <| (W11_of m c r h10).trans <| (W10_of_not_out m c r h9).trans <|
    (W9_of m c r h8).trans <| (W8_of_not_out m c r h7).trans <| (W7_of m c r h6).trans <| (W6_of_not_out m c r h5).trans <|
    (W5_of m c r h4).trans <| (W4_of m c r h3).trans <| (W3_of m c r h2).trans <| (W2_of m c r h1).trans <| (W1_of m c r h0)

end Cert.Kernel.Gen

end
-- ==== Proof.KB.PDats.lean ====
import proofs.«412786_j57784490000510_2_alg».proof.Proof.KB.Vals

noncomputable section

namespace Cert.Kernel.Gen

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VW5 m) c
  | ⟨1, _⟩ => fun c => dat1 (VW7 m) c
  | ⟨2, _⟩ => fun c => dat2 (VW9 m) c
  | ⟨3, _⟩ => fun c => dat3 (VW11 m) c
  | ⟨4, _⟩ => fun c => dat4 (VW13 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch from the contents `W`, leaving `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

section
variable {gr Wn : Nat} (spec : Fin Wn → Pipeline.WinSpec sig gr) (c : Dev nD)

theorem hinA (T : sProp 𝕄) : iprop((∃ r, prngReg c r) ∗ T ∗ Pipeline.scopedRest spec c) ⊢ (Pipeline.ΦA spec c : sProp 𝕄) := by
  unfold Pipeline.ΦA
  iintro ⟨Hp, -, Hr⟩
  isplitl [Hr]; · iexact Hr
  iexact Hp
theorem houtA : (Pipeline.ΦA spec c : sProp 𝕄)
    ⊢ iprop((∃ r, prngReg c r) ∗ Pipeline.ownSems0 (fun k : PEmpty => k.elim) c ∗ Pipeline.scopedRest spec c) := by
  rw [Pipeline.ownSems0_none]; unfold Pipeline.ΦA
  iintro ⟨Hr, Hp⟩
  isplitl [Hp]; · iexact Hp
  isplitr; · iempintro
  iexact Hr
end

set_option backward.isDefEq.respectTransparency.types false in
/-- A kernel region over the thread state, entered from every unscoped buffer at `W` and left at `W'`, which is `stepW` of it:
    its arrays are split out of the unscoped buffers and put back; the generator register goes through the invariant;
    nothing is owed; the kernel has no semaphore of its own. -/
def stepReg (p : Fin 5) (lf : Pipeline.LaunchFacts (nD := nD) (τ := τ) cfgs p) (W W' : Dev nD → Valuation τ sig (Elt F))
    (hW' : ∀ c, W' c = stepW c (W c) (pdats m p c))
    (hbody : ∀ c, Pipeline.BodyObligationLoose (pdats m p c) defs₀ 𝒱₀ () Set.univ)
    (howed : ∀ c t, (pdats m p c).owed t = 0) (hrec : ∀ c, (pdats m p c).recorded 0 = Set.univ)
    (hq : ∀ c w, (pdats m p c).q w = fullShare)
    (hA : ∀ c w, (pdats m p c).A w = W c (Proc.devRef .tc (Pipeline.arrRef (cfgs p).spec w)))
    (hin : ∀ c T, iprop((∃ r, prngReg c r) ∗ T ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => k.elim) c ∗ Pipeline.scopedRest (cfgs p).spec c)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := hin c _
  hout := hout
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => W c b) (fun b => W' c b) ((pdats m p c).arrAt · (cfgs p).N)
      (fun w => ((congrFun (hW' c) _).trans (stepW_arr c _ _ lf.win.arr_inj w)).symm)
      (fun b hb => (congrFun (hW' c) _).trans
        (stepW_of_ne c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end Cert.Kernel.Gen

end
-- ==== Proof.KB.Seg0.lean ====
import proofs.«412786_j57784490000510_2_alg».proof.Proof.KB.PDats

noncomputable section

namespace Cert.Kernel.Gen

open Idealize.ShloMosaic

variable {F : FTy → Type} [FloatOps F]

variable (m : (ℓ : Loc nD τ sig) → Buf (Elt F) ℓ)

def reg0 : Pipeline.RegionSeg (pcfgs (F := F)) adm (pdats m) () defs₀ 𝒱₀ L lv 0 :=
  stepReg m 0 launch0 (W5 m) (W6 m) (fun _ => rfl) (fun c => (body_obligation0 (VW5 m) c).loose)
    (fun _ _ => rfl) (fun _ => rfl) (fun _ _ => rfl) (fun _ _ => rfl) (fun c T => hinA spec0 c T) fun c => houtA spec0 c

end Cert.Kernel.Gen

end
-- ==== Proof.KB.Seg1.lean ====
import proofs.«412786_j57784490000510_2_alg».proof.Proof.KB.PDats

noncomputable section

namespace Cert.Kernel.Gen

open Idealize.ShloMosaic

variable {F : FTy → Type} [FloatOps F]

variable (m : (ℓ : Loc nD τ sig) → Buf (Elt F) ℓ)

def reg1 : Pipeline.RegionSeg (pcfgs (F := F)) adm (pdats m) () defs₀ 𝒱₀ L lv 1 :=
  stepReg m 1 launch1 (W7 m) (W8 m) (fun _ => rfl) (fun c => (body_obligation1 (VW7 m) c).loose)
    (fun _ _ => rfl) (fun _ => rfl) (fun _ _ => rfl) (fun _ _ => rfl) (fun c T => hinA spec1 c T) fun c => houtA spec1 c

end Cert.Kernel.Gen

end
-- ==== Proof.KB.Seg2.lean ====
import proofs.«412786_j57784490000510_2_alg».proof.Proof.KB.PDats

noncomputable section

namespace Cert.Kernel.Gen

open Idealize.ShloMosaic

variable {F : FTy → Type} [FloatOps F]

variable (m : (ℓ : Loc nD τ sig) → Buf (Elt F) ℓ)

def reg2 : Pipeline.RegionSeg (pcfgs (F := F)) adm (pdats m) () defs₀ 𝒱₀ L lv 2 :=
  stepReg m 2 launch2 (W9 m) (W10 m) (fun _ => rfl) (fun c => (body_obligation2 (VW9 m) c).loose)
    (fun _ _ => rfl) (fun _ => rfl) (fun _ _ => rfl) (fun _ _ => rfl) (fun c T => hinA spec2 c T) fun c => houtA spec2 c

end Cert.Kernel.Gen

end
-- ==== Proof.KB.Seg3.lean ====
import proofs.«412786_j57784490000510_2_alg».proof.Proof.KB.PDats

noncomputable section

namespace Cert.Kernel.Gen

open Idealize.ShloMosaic

variable {F : FTy → Type} [FloatOps F]

variable (m : (ℓ : Loc nD τ sig) → Buf (Elt F) ℓ)

def reg3 : Pipeline.RegionSeg (pcfgs (F := F)) adm (pdats m) () defs₀ 𝒱₀ L lv 3 :=
  stepReg m 3 launch3 (W11 m) (W12 m) (fun _ => rfl) (fun c => (body_obligation3 (VW11 m) c).loose)
    (fun _ _ => rfl) (fun _ => rfl) (fun _ _ => rfl) (fun _ _ => rfl) (fun c T => hinA spec3 c T) fun c => houtA spec3 c

end Cert.Kernel.Gen

end
-- ==== Proof.KB.Reg4Seg.lean ====
import proofs.«412786_j57784490000510_2_alg».proof.Proof.KB.Reg4

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What the region takes in beside the scoped rest, and what it gives back: the generator register.
abbrev X4 (c : Dev nD) : sProp 𝕄 := iprop(∃ r, prngReg c r)

abbrev Y4 (c : Dev nD) : sProp 𝕄 := iprop(∃ r, prngReg c r)

theorem Phi4_zero (c : Dev nD) : (dat4 V c).Φ 0 = Pipeline.ΦA spec4 c := rfl

theorem hin4 (c : Dev nD) (T : sProp 𝕄) : iprop(X4 (F := F) c ∗ T ∗ Pipeline.scopedRest spec4 c) ⊢ (dat4 V c).Φ 0 := by
  rw [Phi4_zero]; unfold Pipeline.ΦA
  iintro ⟨Hp, -, Hr⟩
  iframe

-- After any point but the first the invariant gives the class's back: the accumulators' contents are forgotten.
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  iframe
  isplitl [HS0] <;> iexists _ <;> iassumption

theorem hout4 (c : Dev nD) : (dat4 V c).Φ (Fin.last cfg4.N) ⊢ iprop(Y4 (F := F) c ∗ Pipeline.ownSems0 (fun k : PEmpty => k.elim) c ∗ Pipeline.scopedRest spec4 c) := by
  refine (Phi4_out V c _ (by rw [Fin.val_last]; have : cfg4.N = 50 := N_4; omega)).trans ?_
  rw [Pipeline.ownSems0_none]; unfold Pipeline.ΦA
  iintro ⟨Hr, Hp⟩
  iframe; iempintro

end Cert.Kernel.Gen

end
-- ==== Proof.KB.Seg4.lean ====
import proofs.«412786_j57784490000510_2_alg».proof.Proof.KB.PDats
import proofs.«412786_j57784490000510_2_alg».proof.Proof.KB.Reg4Seg

noncomputable section

namespace Cert.Kernel.Gen

open Idealize.ShloMosaic

variable {F : FTy → Type} [FloatOps F]

variable (m : (ℓ : Loc nD τ sig) → Buf (Elt F) ℓ)

def reg4 : Pipeline.RegionSeg (pcfgs (F := F)) adm (pdats m) () defs₀ 𝒱₀ L lv 4 :=
  stepReg m 4 launch4 (W13 m) (W14 m) (fun _ => rfl) (fun c => (body_obligation4 (VW13 m) c).loose)
    (fun _ _ => rfl) (fun _ => rfl) (fun _ _ => rfl) (fun _ _ => rfl) (hin4 (VW13 m)) (hout4 (VW13 m))

end Cert.Kernel.Gen

end
-- ==== Proof.KB.Run.lean ====
import proofs.«412786_j57784490000510_2_alg».proof.Proof.KB.Seg0
import proofs.«412786_j57784490000510_2_alg».proof.Proof.KB.Seg1
import proofs.«412786_j57784490000510_2_alg».proof.Proof.KB.Seg2
import proofs.«412786_j57784490000510_2_alg».proof.Proof.KB.Seg3
import proofs.«412786_j57784490000510_2_alg».proof.Proof.KB.Seg4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 17 items in order: a host segment per stretch from its boundary's contents, a region per kernel call. -/
abbrev rsegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .host (hseg hostOps5_1 hostOps5_1_sub hostOps5_1_fresh (W15 m)),
    .host (hseg hostOps5_2 hostOps5_2_sub hostOps5_2_fresh (W16 m)) ]

theorem main_run (c : Dev nD) : main (F := F) c = Pipeline.Seg.run (rsegs m) :=
  (main_chain c).trans ((congrArg Pipeline.chain (by rfl)).trans (Pipeline.Seg.run_eq_chain (rsegs m)).symm)

set_option backward.isDefEq.respectTransparency.types false in
/-- From any memory with zero counters every weakly fair execution of @main terminates, nothing faulting, and every final
    state holds the two results at the last boundary's contents and every argument array as launched. -/
theorem run_named : θ_run defs (onTc (τ := τ) (main (F := F))) ⟨m, fun _ => 0, ρ⟩ (fun r => ∀ c : Dev nD,
      r.2.mem ((c.tc : Thread nD τ).loc main_v97) = W17 m c (Proc.devRef .tc main_v97)
      ∧ r.2.mem ((c.tc : Thread nD τ).loc main_v98) = W17 m c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m) () cellOf_inj emb₁ defs₀ 𝒱₀ L lv m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m c) ∗ R c)
        ⊢ iprop(Tₙ m c ∗ ∃ W, owes (c.tc : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c =>
      have a (r : Ref sig .tc) (hr : r ∈ args) : s.mem ((c.tc : Thread nD τ).loc r) = m ((c.tc : Thread nD τ).loc r) :=
        (h c _ (mem_uc r (by revert r; decide))).trans (W17_arg m c r hr)
      ⟨h c _ (mem_uc main_v97 (by decide)), h c _ (mem_uc main_v98 (by decide)),
        a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide)⟩)

end Cert.Kernel.Gen

end
-- ==== Proof.KI.Reg0.lean ====
import proofs.«412786_j57784490000510_2_alg».proof.Proof.Gen.KernelIdeal.Launch
import proofs.«412786_j57784490000510_2_alg».proof.Proof.Gen.KernelIdeal.Skeleton
import proofs.«412786_j57784490000510_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x64 := Rect.unit ![0, 0] S2000x64.size inb_S2000x64_S2000x64_0_0
abbrev r0_1 : Rect S2000x256 := Rect.unit ![0, 0] S2000x256.size inb_S2000x256_S2000x256_0_0
abbrev r0_2 : Rect S256x64 := Rect.unit ![0, 0] S256x64.size inb_S256x64_S256x64_0_0
abbrev r0_3 : Rect S3x64x64 := Rect.unit ![0, 0, 0] S1x64x64.size inb_S3x64x64_S1x64x64_0_0_0
abbrev r0_4 : Rect S3x64x64 := Rect.unit ![1, 0, 0] S1x64x64.size inb_S3x64x64_S1x64x64_1_0_0
abbrev r0_5 : Rect S3x64x64 := Rect.unit ![2, 0, 0] S1x64x64.size inb_S3x64x64_S1x64x64_2_0_0
abbrev r0_6 : Rect S3x64 := Rect.unit ![0, 0] S1x64.size inb_S3x64_S1x64_0_0
abbrev r0_7 : Rect S3x64 := Rect.unit ![1, 0] S1x64.size inb_S3x64_S1x64_1_0
abbrev r0_8 : Rect S3x64 := Rect.unit ![2, 0] S1x64.size inb_S3x64_S1x64_2_0

def out0_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r0_0, k0_pay1 (k0_pay2 (View.ld x1 r0_1) (View.ld x3 r0_2) (View.ld x2 r0_0))
      (k0_pay8 (k0_pay3 (View.ld x0 r0_0)) (k0_pay4 (View.ld x1 r0_1) (View.ld x3 r0_2) (View.ld x2 r0_0)) (k0_pay7 (View.ld x4 r0_4)) (View.ld x5 r0_4) (View.ld x6 r0_7) (View.ld x7 r0_7))
      (k0_pay9 (k0_pay3 (View.ld x0 r0_0)) (k0_pay4 (View.ld x1 r0_1) (View.ld x3 r0_2) (View.ld x2 r0_0)) (k0_pay5 (View.ld x0 r0_0) (View.ld x4 r0_3) (View.ld x6 r0_6)) (k0_pay6 (View.ld x1 r0_1) (View.ld x3 r0_2) (View.ld x2 r0_0) (View.ld x5 r0_3) (View.ld x7 r0_6)) (View.ld x4 r0_5) (View.ld x5 r0_5) (View.ld x6 r0_8) (View.ld x7 r0_8))⟩]

theorem sound_kernel0 {c : Dev nD} {E : Set ℕ} {i : grid0.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out0_8 x0 x1 x2 x3 x4 x5 x6 x7)) -∗ K ⟨⟩))
      ⊢ wp frame (wpE (defs₀ (F := F)) Variants.none c none) E (cc0__msg_gru_kernel i arg1 h1 arg2 h2 arg3 h3 arg4 h4 arg5 h5 arg6 h6 arg7 h7 arg8 h8 arg9 h9) K := by
  sl_unfold [cc0__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0 (c : Dev nD) : ∀ w : Fin cfg0.W, w ≠ 8 → ∀ (t : Fin cfg0.N) d, (dat0 V c).before w t d = (dat0 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat0]; rfl)

-- The body's triple at the eight input blocks, everything else framed.
theorem body_obligation0 (c : Dev nD) : BodyObligation (dat0 (F := F) V c) (defs₀ (F := F)) Variants.none () Set.univ := fun t => by
  rw [bigSep_W0, bigSep_W0]
  simp +decide only [before0 V c]
  dsimp only [dat0]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel0
  iframe H0 H1 H2 H3 H4 H5 H6 H7
  isplitl [H8]; · iexists _; iexact H8
  iintro H
  iframe
  iexact Ho

end Cert.KernelIdeal.Gen

end
-- ==== Proof.KI.Reg1.lean ====
import proofs.«412786_j57784490000510_2_alg».proof.Proof.Gen.KernelIdeal.Launch
import proofs.«412786_j57784490000510_2_alg».proof.Proof.Gen.KernelIdeal.Skeleton
import proofs.«412786_j57784490000510_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit ![0, 0] S2000x64.size inb_S2000x64_S2000x64_0_0
abbrev r1_1 : Rect S2000x256 := Rect.unit ![0, 0] S2000x256.size inb_S2000x256_S2000x256_0_0
abbrev r1_2 : Rect S256x64 := Rect.unit ![0, 0] S256x64.size inb_S256x64_S256x64_0_0
abbrev r1_3 : Rect S3x64x64 := Rect.unit ![0, 0, 0] S1x64x64.size inb_S3x64x64_S1x64x64_0_0_0
abbrev r1_4 : Rect S3x64x64 := Rect.unit ![1, 0, 0] S1x64x64.size inb_S3x64x64_S1x64x64_1_0_0
abbrev r1_5 : Rect S3x64x64 := Rect.unit ![2, 0, 0] S1x64x64.size inb_S3x64x64_S1x64x64_2_0_0
abbrev r1_6 : Rect S3x64 := Rect.unit ![0, 0] S1x64.size inb_S3x64_S1x64_0_0
abbrev r1_7 : Rect S3x64 := Rect.unit ![1, 0] S1x64.size inb_S3x64_S1x64_1_0
abbrev r1_8 : Rect S3x64 := Rect.unit ![2, 0] S1x64.size inb_S3x64_S1x64_2_0

def out1_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r1_0, k1_pay1 (k1_pay2 (View.ld x1 r1_1) (View.ld x3 r1_2) (View.ld x2 r1_0))
      (k1_pay8 (k1_pay3 (View.ld x0 r1_0)) (k1_pay4 (View.ld x1 r1_1) (View.ld x3 r1_2) (View.ld x2 r1_0)) (k1_pay7 (View.ld x4 r1_4)) (View.ld x5 r1_4) (View.ld x6 r1_7) (View.ld x7 r1_7))
      (k1_pay9 (k1_pay3 (View.ld x0 r1_0)) (k1_pay4 (View.ld x1 r1_1) (View.ld x3 r1_2) (View.ld x2 r1_0)) (k1_pay5 (View.ld x0 r1_0) (View.ld x4 r1_3) (View.ld x6 r1_6)) (k1_pay6 (View.ld x1 r1_1) (View.ld x3 r1_2) (View.ld x2 r1_0) (View.ld x5 r1_3) (View.ld x7 r1_6)) (View.ld x4 r1_5) (View.ld x5 r1_5) (View.ld x6 r1_8) (View.ld x7 r1_8))⟩]

theorem sound_kernel1 {c : Dev nD} {E : Set ℕ} {i : grid1.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out1_8 x0 x1 x2 x3 x4 x5 x6 x7)) -∗ K ⟨⟩))
      ⊢ wp frame (wpE (defs₀ (F := F)) Variants.none c none) E (cc1__msg_gru_kernel i arg1 h1 arg2 h2 arg3 h3 arg4 h4 arg5 h5 arg6 h6 arg7 h7 arg8 h8 arg9 h9) K := by
  sl_unfold [cc1__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1 (c : Dev nD) : ∀ w : Fin cfg1.W, w ≠ 8 → ∀ (t : Fin cfg1.N) d, (dat1 V c).before w t d = (dat1 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat1]; rfl)

-- The body's triple at the eight input blocks, everything else framed.
theorem body_obligation1 (c : Dev nD) : BodyObligation (dat1 (F := F) V c) (defs₀ (F := F)) Variants.none () Set.univ := fun t => by
  rw [bigSep_W1, bigSep_W1]
  simp +decide only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1
  iframe H0 H1 H2 H3 H4 H5 H6 H7
  isplitl [H8]; · iexists _; iexact H8
  iintro H
  iframe
  iexact Ho

end Cert.KernelIdeal.Gen

end
-- ==== Proof.KI.Reg2.lean ====
import proofs.«412786_j57784490000510_2_alg».proof.Proof.Gen.KernelIdeal.Launch
import proofs.«412786_j57784490000510_2_alg».proof.Proof.Gen.KernelIdeal.Skeleton
import proofs.«412786_j57784490000510_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit ![0, 0] S2000x64.size inb_S2000x64_S2000x64_0_0
abbrev r2_1 : Rect S2000x256 := Rect.unit ![0, 0] S2000x256.size inb_S2000x256_S2000x256_0_0
abbrev r2_2 : Rect S256x64 := Rect.unit ![0, 0] S256x64.size inb_S256x64_S256x64_0_0
abbrev r2_3 : Rect S3x64x64 := Rect.unit ![0, 0, 0] S1x64x64.size inb_S3x64x64_S1x64x64_0_0_0
abbrev r2_4 : Rect S3x64x64 := Rect.unit ![1, 0, 0] S1x64x64.size inb_S3x64x64_S1x64x64_1_0_0
abbrev r2_5 : Rect S3x64x64 := Rect.unit ![2, 0, 0] S1x64x64.size inb_S3x64x64_S1x64x64_2_0_0
abbrev r2_6 : Rect S3x64 := Rect.unit ![0, 0] S1x64.size inb_S3x64_S1x64_0_0
abbrev r2_7 : Rect S3x64 := Rect.unit ![1, 0] S1x64.size inb_S3x64_S1x64_1_0
abbrev r2_8 : Rect S3x64 := Rect.unit ![2, 0] S1x64.size inb_S3x64_S1x64_2_0

def out2_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r2_0, k2_pay1 (k2_pay2 (View.ld x1 r2_1) (View.ld x3 r2_2) (View.ld x2 r2_0))
      (k2_pay8 (k2_pay3 (View.ld x0 r2_0)) (k2_pay4 (View.ld x1 r2_1) (View.ld x3 r2_2) (View.ld x2 r2_0)) (k2_pay7 (View.ld x4 r2_4)) (View.ld x5 r2_4) (View.ld x6 r2_7) (View.ld x7 r2_7))
      (k2_pay9 (k2_pay3 (View.ld x0 r2_0)) (k2_pay4 (View.ld x1 r2_1) (View.ld x3 r2_2) (View.ld x2 r2_0)) (k2_pay5 (View.ld x0 r2_0) (View.ld x4 r2_3) (View.ld x6 r2_6)) (k2_pay6 (View.ld x1 r2_1) (View.ld x3 r2_2) (View.ld x2 r2_0) (View.ld x5 r2_3) (View.ld x7 r2_6)) (View.ld x4 r2_5) (View.ld x5 r2_5) (View.ld x6 r2_8) (View.ld x7 r2_8))⟩]

theorem sound_kernel2 {c : Dev nD} {E : Set ℕ} {i : grid2.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out2_8 x0 x1 x2 x3 x4 x5 x6 x7)) -∗ K ⟨⟩))
      ⊢ wp frame (wpE (defs₀ (F := F)) Variants.none c none) E (cc2__msg_gru_kernel i arg1 h1 arg2 h2 arg3 h3 arg4 h4 arg5 h5 arg6 h6 arg7 h7 arg8 h8 arg9 h9) K := by
  sl_unfold [cc2__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2 (c : Dev nD) : ∀ w : Fin cfg2.W, w ≠ 8 → ∀ (t : Fin cfg2.N) d, (dat2 V c).before w t d = (dat2 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat2]; rfl)

-- The body's triple at the eight input blocks, everything else framed.
theorem body_obligation2 (c : Dev nD) : BodyObligation (dat2 (F := F) V c) (defs₀ (F := F)) Variants.none () Set.univ := fun t => by
  rw [bigSep_W2, bigSep_W2]
  simp +decide only [before2 V c]
  dsimp only [dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel2
  iframe H0 H1 H2 H3 H4 H5 H6 H7
  isplitl [H8]; · iexists _; iexact H8
  iintro H
  iframe
  iexact Ho

end Cert.KernelIdeal.Gen

end
-- ==== Proof.KI.Reg3.lean ====
import proofs.«412786_j57784490000510_2_alg».proof.Proof.Gen.KernelIdeal.Launch
import proofs.«412786_j57784490000510_2_alg».proof.Proof.Gen.KernelIdeal.Skeleton
import proofs.«412786_j57784490000510_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit ![0, 0] S2000x64.size inb_S2000x64_S2000x64_0_0
abbrev r3_1 : Rect S2000x256 := Rect.unit ![0, 0] S2000x256.size inb_S2000x256_S2000x256_0_0
abbrev r3_2 : Rect S256x64 := Rect.unit ![0, 0] S256x64.size inb_S256x64_S256x64_0_0
abbrev r3_3 : Rect S3x64x64 := Rect.unit ![0, 0, 0] S1x64x64.size inb_S3x64x64_S1x64x64_0_0_0
abbrev r3_4 : Rect S3x64x64 := Rect.unit ![1, 0, 0] S1x64x64.size inb_S3x64x64_S1x64x64_1_0_0
abbrev r3_5 : Rect S3x64x64 := Rect.unit ![2, 0, 0] S1x64x64.size inb_S3x64x64_S1x64x64_2_0_0
abbrev r3_6 : Rect S3x64 := Rect.unit ![0, 0] S1x64.size inb_S3x64_S1x64_0_0
abbrev r3_7 : Rect S3x64 := Rect.unit ![1, 0] S1x64.size inb_S3x64_S1x64_1_0
abbrev r3_8 : Rect S3x64 := Rect.unit ![2, 0] S1x64.size inb_S3x64_S1x64_2_0

def out3_8 (x0 : Vec F S2000x64 .f32) (x1 : Vec F S2000x256 .f32) (x2 : Vec F S2000x64 .f32) (x3 : Vec F S256x64 .f32) (x4 : Vec F S3x64x64 .f32) (x5 : Vec F S3x64x64 .f32) (x6 : Vec F S3x64 .f32) (x7 : Vec F S3x64 .f32) : Vec F S2000x64 .f32 :=
  View.canon [⟨r3_0, k3_pay1 (k3_pay2 (View.ld x1 r3_1) (View.ld x3 r3_2) (View.ld x2 r3_0))
      (k3_pay8 (k3_pay3 (View.ld x0 r3_0)) (k3_pay4 (View.ld x1 r3_1) (View.ld x3 r3_2) (View.ld x2 r3_0)) (k3_pay7 (View.ld x4 r3_4)) (View.ld x5 r3_4) (View.ld x6 r3_7) (View.ld x7 r3_7))
      (k3_pay9 (k3_pay3 (View.ld x0 r3_0)) (k3_pay4 (View.ld x1 r3_1) (View.ld x3 r3_2) (View.ld x2 r3_0)) (k3_pay5 (View.ld x0 r3_0) (View.ld x4 r3_3) (View.ld x6 r3_6)) (k3_pay6 (View.ld x1 r3_1) (View.ld x3 r3_2) (View.ld x2 r3_0) (View.ld x5 r3_3) (View.ld x7 r3_6)) (View.ld x4 r3_5) (View.ld x5 r3_5) (View.ld x6 r3_8) (View.ld x7 r3_8))⟩]

theorem sound_kernel3 {c : Dev nD} {E : Set ℕ} {i : grid3.Coords} {arg1 arg3 arg9 : Memref sig .tc .vmem S2000x64 .f32}
    {arg2 : Memref sig .tc .vmem S2000x256 .f32} {arg4 : Memref sig .tc .vmem S256x64 .f32}
    {arg5 arg6 : Memref sig .tc .vmem S3x64x64 .f32} {arg7 arg8 : Memref sig .tc .vmem S3x64 .f32}
    {h1 : arg1.IsWhole} {h2 : arg2.IsWhole} {h3 : arg3.IsWhole} {h4 : arg4.IsWhole} {h5 : arg5.IsWhole} {h6 : arg6.IsWhole}
    {h7 : arg7.IsWhole} {h8 : arg8.IsWhole} {h9 : arg9.IsWhole} {x0 : Vec F S2000x64 .f32} {x1 : Vec F S2000x256 .f32}
    {x2 : Vec F S2000x64 .f32} {x3 : Vec F S256x64 .f32} {x4 x5 : Vec F S3x64x64 .f32} {x6 x7 : Vec F S3x64 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out3_8 x0 x1 x2 x3 x4 x5 x6 x7)) -∗ K ⟨⟩))
      ⊢ wp frame (wpE (defs₀ (F := F)) Variants.none c none) E (cc3__msg_gru_kernel i arg1 h1 arg2 h2 arg3 h3 arg4 h4 arg5 h5 arg6 h6 arg7 h7 arg8 h8 arg9 h9) K := by
  sl_unfold [cc3__msg_gru_kernel]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, %f8, -, H8⟩, Hk⟩
  subst e0 e1 e2 e3 e4 e5 e6 e7
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  iexists _; iframe H8; ipureintro
  exact View.read_writes_eq_canon _ _ _ (View.cover_of_tiled _ S2000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t
    = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3 (c : Dev nD) : ∀ w : Fin cfg3.W, w ≠ 8 → ∀ (t : Fin cfg3.N) d, (dat3 V c).before w t d = (dat3 V c).after w t
  | ⟨8, _⟩, h, _, _ => absurd rfl h
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (Dat.before_in_eq_fetched _ _ rfl (fun _ => rfl) (fun _ _ _ => rfl) (fun _ => ?_) t d).trans ?_ <;> (dsimp only [dat3]; rfl)

-- The body's triple at the eight input blocks, everything else framed.
theorem body_obligation3 (c : Dev nD) : BodyObligation (dat3 (F := F) V c) (defs₀ (F := F)) Variants.none () Set.univ := fun t => by
  rw [bigSep_W3, bigSep_W3]
  simp +decide only [before3 V c]
  dsimp only [dat3]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel3
  iframe H0 H1 H2 H3 H4 H5 H6 H7
  isplitl [H8]; · iexists _; iexact H8
  iintro H
  iframe
  iexact Ho

end Cert.KernelIdeal.Gen

end
-- ==== Proof.KI.Reg4Base.lean ====
import proofs.«412786_j57784490000510_2_alg».proof.Proof.Gen.KernelIdeal.Launch
import proofs.«412786_j57784490000510_2_alg».proof.Proof.Gen.KernelIdeal.Skeleton
import proofs.«412786_j57784490000510_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 50 = 0 :=
  (by decide +kernel : ∀ t : Fin grid4.N, cond4_0 (grid4.coords t) ↔ t.val % 50 = 0)

abbrev cond4_1 (i : grid4.Coords) : Prop := k4_cond2 i = 1#1

theorem hcond4_1 : ∀ t : Fin cfg4.N, cond4_1 (grid4.coords t) ↔ t.val % 50 = 49 :=
  (by decide +kernel : ∀ t : Fin grid4.N, cond4_1 (grid4.coords t) ↔ t.val % 50 = 49)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem liveAt4_7 : ∀ t : Fin cfg4.N, cfg4.idle 7 (grid4.coords t) = false := by decide +kernel
theorem liveAt4_8 : ∀ t : Fin cfg4.N, cfg4.idle 8 (grid4.coords t) = false := by decide +kernel
theorem liveAt4_9 : ∀ t : Fin cfg4.N, cfg4.idle 9 (grid4.coords t) = false := by decide +kernel
theorem liveAt4_10 : ∀ t : Fin cfg4.N, cfg4.idle 10 (grid4.coords t) = false := by decide +kernel
theorem liveAt4_11 : ∀ t : Fin cfg4.N, cfg4.idle 11 (grid4.coords t) = false := by decide +kernel
theorem liveAt4_12 : ∀ t : Fin cfg4.N, cfg4.idle 12 (grid4.coords t) = false := by decide +kernel
theorem liveAt4_13 : ∀ t : Fin cfg4.N, cfg4.idle 13 (grid4.coords t) = false := by decide +kernel
theorem liveAt4_14 : ∀ t : Fin cfg4.N, cfg4.idle 14 (grid4.coords t) = false := by decide +kernel
theorem liveAt4_15 : ∀ t : Fin cfg4.N, cfg4.idle 15 (grid4.coords t) = false := by decide +kernel
theorem liveAt4_16 : ∀ t : Fin cfg4.N, cfg4.idle 16 (grid4.coords t) = false := by decide +kernel
theorem liveAt4_17 : ∀ t : Fin cfg4.N, cfg4.idle 17 (grid4.coords t) = false := by decide +kernel
theorem liveAt4_18 : ∀ t : Fin cfg4.N, cfg4.idle 18 (grid4.coords t) = false := by decide +kernel
theorem liveAt4_19 : ∀ t : Fin cfg4.N, cfg4.idle 19 (grid4.coords t) = false := by decide +kernel

theorem idleAt4_20 : ∀ t : Fin cfg4.N, ¬cond4_1 (grid4.coords t) → cfg4.idle 20 (grid4.coords t) = true := by decide +kernel

theorem noFlush4_20 : ∀ t : Fin cfg4.N, ¬cond4_1 (grid4.coords t) → (cfg4.win 20).flush t = false := by decide +kernel

theorem liveAt4_20_last : ∀ t : Fin cfg4.N, cond4_1 (grid4.coords t) → cfg4.idle 20 (grid4.coords t) = false := by decide +kernel

theorem idleAt4_21 : ∀ t : Fin cfg4.N, ¬cond4_1 (grid4.coords t) → cfg4.idle 21 (grid4.coords t) = true := by decide +kernel

theorem noFlush4_21 : ∀ t : Fin cfg4.N, ¬cond4_1 (grid4.coords t) → (cfg4.win 21).flush t = false := by decide +kernel

theorem liveAt4_21_last : ∀ t : Fin cfg4.N, cond4_1 (grid4.coords t) → cfg4.idle 21 (grid4.coords t) = false := by decide +kernel

abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x2 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S64x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S64x2 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S2 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S64x64 .f32 := win4_11.stage (cfg4.slots t 11)
abbrev hs4_11 (t : Fin cfg4.N) : (ms4_11 t).IsWhole := hstage4_11 ((cfg4.slots t 11).cast nbuf4_11)
abbrev ms4_12 (t : Fin cfg4.N) : Memref sig .tc .vmem S64x64 .f32 := win4_12.stage (cfg4.slots t 12)
abbrev hs4_12 (t : Fin cfg4.N) : (ms4_12 t).IsWhole := hstage4_12 ((cfg4.slots t 12).cast nbuf4_12)
abbrev ms4_13 (t : Fin cfg4.N) : Memref sig .tc .vmem S64 .f32 := win4_13.stage (cfg4.slots t 13)
abbrev hs4_13 (t : Fin cfg4.N) : (ms4_13 t).IsWhole := hstage4_13 ((cfg4.slots t 13).cast nbuf4_13)
abbrev ms4_14 (t : Fin cfg4.N) : Memref sig .tc .vmem S64x1 .f32 := win4_14.stage (cfg4.slots t 14)
abbrev hs4_14 (t : Fin cfg4.N) : (ms4_14 t).IsWhole := hstage4_14 ((cfg4.slots t 14).cast nbuf4_14)
abbrev ms4_15 (t : Fin cfg4.N) : Memref sig .tc .vmem S1 .f32 := win4_15.stage (cfg4.slots t 15)
abbrev hs4_15 (t : Fin cfg4.N) : (ms4_15 t).IsWhole := hstage4_15 ((cfg4.slots t 15).cast nbuf4_15)
abbrev ms4_16 (t : Fin cfg4.N) : Memref sig .tc .vmem S64x64 .f32 := win4_16.stage (cfg4.slots t 16)
abbrev hs4_16 (t : Fin cfg4.N) : (ms4_16 t).IsWhole := hstage4_16 ((cfg4.slots t 16).cast nbuf4_16)
abbrev ms4_17 (t : Fin cfg4.N) : Memref sig .tc .vmem S64 .f32 := win4_17.stage (cfg4.slots t 17)
abbrev hs4_17 (t : Fin cfg4.N) : (ms4_17 t).IsWhole := hstage4_17 ((cfg4.slots t 17).cast nbuf4_17)
abbrev ms4_18 (t : Fin cfg4.N) : Memref sig .tc .vmem S64x1 .f32 := win4_18.stage (cfg4.slots t 18)
abbrev hs4_18 (t : Fin cfg4.N) : (ms4_18 t).IsWhole := hstage4_18 ((cfg4.slots t 18).cast nbuf4_18)
abbrev ms4_19 (t : Fin cfg4.N) : Memref sig .tc .vmem S1 .f32 := win4_19.stage (cfg4.slots t 19)
abbrev hs4_19 (t : Fin cfg4.N) : (ms4_19 t).IsWhole := hstage4_19 ((cfg4.slots t 19).cast nbuf4_19)
abbrev ms4_20 (t : Fin cfg4.N) : Memref sig .tc .vmem S1x2 .f32 := win4_20.stage (cfg4.slots t 20)
abbrev hs4_20 (t : Fin cfg4.N) : (ms4_20 t).IsWhole := hstage4_20 ((cfg4.slots t 20).cast nbuf4_20)
abbrev ms4_21 (t : Fin cfg4.N) : Memref sig .tc .vmem S1x1 .f32 := win4_21.stage (cfg4.slots t 21)
abbrev hs4_21 (t : Fin cfg4.N) : (ms4_21 t).IsWhole := hstage4_21 ((cfg4.slots t 21).cast nbuf4_21)

abbrev scM4_0 : Memref sig .tc .vmem S1x2 .f32 := Memref.whole cc4_scratch0
abbrev scM4_1 : Memref sig .tc .vmem S1x1 .f32 := Memref.whole cc4_scratch1

abbrev VS4_0 : View sig .tc .vmem S1x2 .f32 := scM4_0.view
abbrev VS4_1 : View sig .tc .vmem S1x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Gen

end
-- ==== Proof.KI.Reg4RunA.lean ====
import proofs.«412786_j57784490000510_2_alg».proof.Proof.KI.Reg4Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : cond4_0 i) (hc1 : ¬cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) :
    Σ' (LS0 : List (View.Piece (Elt F) S1x2 .f32)), { LS1 : List (View.Piece (Elt F) S1x1 .f32) //
      ∀ (xi20 : Vec F S1x2 .f32) (xi21 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun xi20 xi21 E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]; · iexists _; iexact HS0
    iexists _; iexact HS1

end Cert.KernelIdeal.Gen

end
-- ==== Proof.KI.Reg4RunB.lean ====
import proofs.«412786_j57784490000510_2_alg».proof.Proof.KI.Reg4Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : ¬cond4_0 i) (hc1 : ¬cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) (xs0 : Vec F S1x2 .f32) (xs1 : Vec F S1x1 .f32) :
    Σ' (LS0 : List (View.Piece (Elt F) S1x2 .f32)), { LS1 : List (View.Piece (Elt F) S1x1 .f32) //
      ∀ (xi20 : Vec F S1x2 .f32) (xi21 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare xi20 ∗ owns (c : Thread nD τ) arg22 fullShare xi21 ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun xi20 xi21 E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hfs0; obtain rfl := harg24.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [HS0]; · iexists _; iexact HS0
    iexists _; iexact HS1

end Cert.KernelIdeal.Gen

end
-- ==== Proof.KI.Reg4RunC.lean ====
import proofs.«412786_j57784490000510_2_alg».proof.Proof.KI.Reg4Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x2 .f32) (harg6 : arg6.IsWhole) (arg7 : Memref sig .tc .vmem S2 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x2 .f32) (harg10 : arg10.IsWhole) (arg11 : Memref sig .tc .vmem S2 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S64x64 .f32) (harg17 : arg17.IsWhole) (arg18 : Memref sig .tc .vmem S64 .f32) (harg18 : arg18.IsWhole) (arg19 : Memref sig .tc .vmem S64x1 .f32) (harg19 : arg19.IsWhole) (arg20 : Memref sig .tc .vmem S1 .f32) (harg20 : arg20.IsWhole) (arg21 : Memref sig .tc .vmem S1x2 .f32) (harg21 : arg21.IsWhole) (arg22 : Memref sig .tc .vmem S1x1 .f32) (harg22 : arg22.IsWhole) (arg23 : Memref sig .tc .vmem S1x2 .f32) (harg23 : arg23.IsWhole) (arg24 : Memref sig .tc .vmem S1x1 .f32) (harg24 : arg24.IsWhole) (hc0 : ¬cond4_0 i) (hc1 : cond4_1 i)
    (x0 : Vec F S2000x64 .f32) (x1 : Vec F S2000x64 .f32) (x2 : Vec F S64x64 .f32) (x3 : Vec F S64x64 .f32) (x4 : Vec F S64 .f32) (x5 : Vec F S64x2 .f32) (x6 : Vec F S2 .f32) (x7 : Vec F S64x64 .f32) (x8 : Vec F S64 .f32) (x9 : Vec F S64x2 .f32) (x10 : Vec F S2 .f32) (x11 : Vec F S64x64 .f32) (x12 : Vec F S64x64 .f32) (x13 : Vec F S64 .f32) (x14 : Vec F S64x1 .f32) (x15 : Vec F S1 .f32) (x16 : Vec F S64x64 .f32) (x17 : Vec F S64 .f32) (x18 : Vec F S64x1 .f32) (x19 : Vec F S1 .f32) (xs0 : Vec F S1x2 .f32) (xs1 : Vec F S1x1 .f32) :
    Σ' (L20 : List (View.Piece (Elt F) S1x2 .f32)) (L21 : List (View.Piece (Elt F) S1x1 .f32)) (LS0 : List (View.Piece (Elt F) S1x2 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc4__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    simp only [cc4__heads_kernel_eq_skeleton]; unfold cc4__heads_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg23.eq_unread hfs0; obtain rfl := harg24.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [HS0]; · iexists _; iexact HS0
    iexists _; iexact HS1

end Cert.KernelIdeal.Gen

end
-- ==== Proof.KI.Reg4Acc.lean ====
import proofs.«412786_j57784490000510_2_alg».proof.Proof.KI.Reg4RunA
import proofs.«412786_j57784490000510_2_alg».proof.Proof.KI.Reg4RunB
import proofs.«412786_j57784490000510_2_alg».proof.Proof.KI.Reg4RunC
import Idealize.ShloMosaic.Lib.Pipeline.RegionsLoop

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off the array the region finds.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cond4_0_zero (hn : 0 < cfg4.N) : cond4_0 (grid4.coords ⟨0, hn⟩) := (hcond4_0 ⟨0, hn⟩).mpr (Nat.zero_mod _)

theorem not_cond4_0_of_ne (t : Fin cfg4.N) (h : t.val ≠ 0) : ¬cond4_0 (grid4.coords t) := fun hc => by
  have h0 := (hcond4_0 t).mp hc
  have hN : t.val < 50 := lt_of_lt_of_eq t.isLt (show cfg4.N = 50 from N_4)
  omega

theorem not_cond4_1_zero (hn : 0 < cfg4.N) : ¬cond4_1 (grid4.coords ⟨0, hn⟩) := fun hc => by
  have h0 := (hcond4_1 ⟨0, hn⟩).mp hc
  (try dsimp only at h0); omega

abbrev runFirst4 (c : Dev nD) (t : Fin cfg4.N) (h0 : cond4_0 (grid4.coords t)) (h1 : ¬cond4_1 (grid4.coords t)) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)

abbrev runMid4 (c : Dev nD) (t : Fin cfg4.N) (h0 : ¬cond4_0 (grid4.coords t)) (h1 : ¬cond4_1 (grid4.coords t)) (a0 : Vec F S1x2 .f32) (a1 : Vec F S1x1 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) a0 a1

abbrev runLast4 (c : Dev nD) (t : Fin cfg4.N) (h0 : ¬cond4_0 (grid4.coords t)) (h1 : cond4_1 (grid4.coords t)) (a0 : Vec F S1x2 .f32) (a1 : Vec F S1x1 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (ms4_13 t) (hs4_13 t) (ms4_14 t) (hs4_14 t) (ms4_15 t) (hs4_15 t) (ms4_16 t) (hs4_16 t) (ms4_17 t) (hs4_17 t) (ms4_18 t) (hs4_18 t) (ms4_19 t) (hs4_19 t) (ms4_20 t) (hs4_20 t) (ms4_21 t) (hs4_21 t) scM4_0 (Memref.isWhole_whole _) scM4_1 (Memref.isWhole_whole _) h0 h1 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) a0 a1

-- An accumulator's contents from the pieces a run stored.
abbrev rd0 (L : List (View.Piece (Elt F) S1x2 .f32)) : Vec F S1x2 .f32 := VS4_0.read (Elt F) (VS4_0.writes (Elt F) VS4_0.junk L)
abbrev rd1 (L : List (View.Piece (Elt F) S1x1 .f32)) : Vec F S1x1 .f32 := VS4_1.read (Elt F) (VS4_1.writes (Elt F) VS4_1.junk L)

theorem cov4_first_0 (c : Dev nD) (t : Fin cfg4.N) (h0 h1) (y : S1x2.Idx) : ∃ pc ∈ (runFirst4 V c t h0 h1).1, y ∈ pc.1.set :=
  View.cover_of_tiledL (runFirst4 V c t h0 h1).1 S1x2.size (by sl_kernel_rfl) y
theorem cov4_first_1 (c : Dev nD) (t : Fin cfg4.N) (h0 h1) (y : S1x1.Idx) : ∃ pc ∈ (runFirst4 V c t h0 h1).2.1, y ∈ pc.1.set :=
  View.cover_of_tiledL (runFirst4 V c t h0 h1).2.1 S1x1.size (by sl_kernel_rfl) y

theorem cov4_mid_0 (c : Dev nD) (t : Fin cfg4.N) (h0 h1 a0 a1) (y : S1x2.Idx) : ∃ pc ∈ (runMid4 V c t h0 h1 a0 a1).1, y ∈ pc.1.set :=
  View.cover_of_tiledL (runMid4 V c t h0 h1 a0 a1).1 S1x2.size (by sl_kernel_rfl) y
theorem cov4_mid_1 (c : Dev nD) (t : Fin cfg4.N) (h0 h1 a0 a1) (y : S1x1.Idx) : ∃ pc ∈ (runMid4 V c t h0 h1 a0 a1).2.1, y ∈ pc.1.set :=
  View.cover_of_tiledL (runMid4 V c t h0 h1 a0 a1).2.1 S1x1.size (by sl_kernel_rfl) y

theorem cov4_last_o20 (c : Dev nD) (t : Fin cfg4.N) (h0 h1 a0 a1) (y : S1x2.Idx) : ∃ pc ∈ (runLast4 V c t h0 h1 a0 a1).1, y ∈ pc.1.set :=
  View.cover_of_tiledL (runLast4 V c t h0 h1 a0 a1).1 S1x2.size (by sl_kernel_rfl) y
theorem cov4_last_o21 (c : Dev nD) (t : Fin cfg4.N) (h0 h1 a0 a1) (y : S1x1.Idx) : ∃ pc ∈ (runLast4 V c t h0 h1 a0 a1).2.1, y ∈ pc.1.set :=
  View.cover_of_tiledL (runLast4 V c t h0 h1 a0 a1).2.1 S1x1.size (by sl_kernel_rfl) y
theorem cov4_last_0 (c : Dev nD) (t : Fin cfg4.N) (h0 h1 a0 a1) (y : S1x2.Idx) : ∃ pc ∈ (runLast4 V c t h0 h1 a0 a1).2.2.1, y ∈ pc.1.set :=
  View.cover_of_tiledL (runLast4 V c t h0 h1 a0 a1).2.2.1 S1x2.size (by sl_kernel_rfl) y
theorem cov4_last_1 (c : Dev nD) (t : Fin cfg4.N) (h0 h1 a0 a1) (y : S1x1.Idx) : ∃ pc ∈ (runLast4 V c t h0 h1 a0 a1).2.2.2.1, y ∈ pc.1.set :=
  View.cover_of_tiledL (runLast4 V c t h0 h1 a0 a1).2.2.2.1 S1x1.size (by sl_kernel_rfl) y

abbrev St4 (F : FTy → Type) : Type := (Vec F S1x2 .f32 × Vec F S1x1 .f32) × (Vec F S1x2 .f32 × Vec F S1x1 .f32)

-- Output blocks and accumulators after each point: the first-tile run at 0, then the middle or last run over what the point before left.
def outsAt4 (c : Dev nD) : (n : ℕ) → n < cfg4.N → St4 F
  | 0, hn => ((rd0 [], rd1 []), (rd0 (runFirst4 V c ⟨0, hn⟩ (cond4_0_zero hn) (not_cond4_1_zero hn)).1, rd1 (runFirst4 V c ⟨0, hn⟩ (cond4_0_zero hn) (not_cond4_1_zero hn)).2.1))
  | n + 1, hn =>
    if h1 : (n + 1) % 50 = 49 then
      ((rd0 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).1,
        rd1 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.1),
       (rd0 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.2.1,
        rd1 (runLast4 V c ⟨n + 1, hn⟩ (not_cond4_0_of_ne _ (Nat.succ_ne_zero n)) ((hcond4_1 ⟨n + 1, hn⟩).mpr h1) (outsAt4 c n (Nat.lt_of_succ_lt hn)).2.1 (outsAt4 c n (Nat.lt_of_succ_lt hn)).2.2).2.2.2.1))
    else
      ((rd0 [], rd1 []),
       (rd0 (runMid4 V c ⟨n + 1, hn⟩ (not_cond4_0_of_ne _ (Nat.succ_ne_zero n)) (fun h => h1 ((hcond4_1 ⟨n + 1, hn⟩).mp h)) (outsAt4 c n (Nat.lt_of_succ_lt hn)).2.1 (outsAt4 c n (Nat.lt_of_succ_lt hn)).2.2).1,
        rd1 (runMid4 V c ⟨n + 1, hn⟩ (not_cond4_0_of_ne _ (Nat.succ_ne_zero n)) (fun h => h1 ((hcond4_1 ⟨n + 1, hn⟩).mp h)) (outsAt4 c n (Nat.lt_of_succ_lt hn)).2.1 (outsAt4 c n (Nat.lt_of_succ_lt hn)).2.2).2.1))

abbrev prev4 (t : Fin cfg4.N) : t.val - 1 < cfg4.N := Nat.lt_of_le_of_lt (Nat.sub_le _ _) t.isLt

theorem outsAt4_first (c : Dev nD) (t : Fin cfg4.N) (hz : t.val = 0) (h0 h1) :
    outsAt4 V c t.val t.isLt = ((rd0 [], rd1 []), (rd0 (runFirst4 V c t h0 h1).1, rd1 (runFirst4 V c t h0 h1).2.1)) := by
  obtain ⟨n, hn⟩ := t
  cases n with
  | zero => rfl
  | succ n => exact absurd hz (Nat.succ_ne_zero n)

theorem outsAt4_mid (c : Dev nD) (t : Fin cfg4.N) (hz : t.val ≠ 0) (hl : ¬t.val % 50 = 49) (h0 h1) :
    outsAt4 V c t.val t.isLt = ((rd0 [], rd1 []),
      (rd0 (runMid4 V c t h0 h1 (outsAt4 V c (t.val - 1) (prev4 t)).2.1 (outsAt4 V c (t.val - 1) (prev4 t)).2.2).1,
       rd1 (runMid4 V c t h0 h1 (outsAt4 V c (t.val - 1) (prev4 t)).2.1 (outsAt4 V c (t.val - 1) (prev4 t)).2.2).2.1)) := by
  obtain ⟨n, hn⟩ := t
  cases n with
  | zero => exact absurd rfl hz
  | succ n => exact (dif_neg hl).trans rfl

theorem outsAt4_last (c : Dev nD) (t : Fin cfg4.N) (hz : t.val ≠ 0) (hl : t.val % 50 = 49) (h0 h1) :
    outsAt4 V c t.val t.isLt =
      ((rd0 (runLast4 V c t h0 h1 (outsAt4 V c (t.val - 1) (prev4 t)).2.1 (outsAt4 V c (t.val - 1) (prev4 t)).2.2).1,
        rd1 (runLast4 V c t h0 h1 (outsAt4 V c (t.val - 1) (prev4 t)).2.1 (outsAt4 V c (t.val - 1) (prev4 t)).2.2).2.1),
       (rd0 (runLast4 V c t h0 h1 (outsAt4 V c (t.val - 1) (prev4 t)).2.1 (outsAt4 V c (t.val - 1) (prev4 t)).2.2).2.2.1,
        rd1 (runLast4 V c t h0 h1 (outsAt4 V c (t.val - 1) (prev4 t)).2.1 (outsAt4 V c (t.val - 1) (prev4 t)).2.2).2.2.2.1)) := by
  obtain ⟨n, hn⟩ := t
  cases n with
  | zero => exact absurd rfl hz
  | succ n => exact (dif_pos hl).trans rfl

-- The invariant: the class's before the first point; then the accumulators at what the point before left.
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.1 ∗ owns (c : Thread nD τ) scM4_1 fullShare (outsAt4 V c (n - 1) (by omega)).2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

end Cert.KernelIdeal.Gen

end
-- ==== Proof.KI.Reg4.lean ====
import proofs.«412786_j57784490000510_2_alg».proof.Proof.KI.Reg4Acc
import Idealize.ShloMosaic.Lib.Pipeline.RegionsLoop
import Mathlib.Tactic.IntervalCases

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What the body leaves in each window: an input's block of the array the region finds; the two output blocks by `outsAt4`.
def aft4 (c : Dev nD) : (w : Fin cfg4.W) → (t : Fin cfg4.N) → (cfg4.win w).block.Idx → Elt F (cfg4.win w).elt := fun
    | 0 => fun t => iblk4 V c 0 t
    | 1 => fun t => iblk4 V c 1 t
    | 2 => fun t => iblk4 V c 2 t
    | 3 => fun t => iblk4 V c 3 t
    | 4 => fun t => iblk4 V c 4 t
    | 5 => fun t => iblk4 V c 5 t
    | 6 => fun t => iblk4 V c 6 t
    | 7 => fun t => iblk4 V c 7 t
    | 8 => fun t => iblk4 V c 8 t
    | 9 => fun t => iblk4 V c 9 t
    | 10 => fun t => iblk4 V c 10 t
    | 11 => fun t => iblk4 V c 11 t
    | 12 => fun t => iblk4 V c 12 t
    | 13 => fun t => iblk4 V c 13 t
    | 14 => fun t => iblk4 V c 14 t
    | 15 => fun t => iblk4 V c 15 t
    | 16 => fun t => iblk4 V c 16 t
    | 17 => fun t => iblk4 V c 17 t
    | 18 => fun t => iblk4 V c 18 t
    | 19 => fun t => iblk4 V c 19 t
    | 20 => fun t => (outsAt4 V c t.val t.isLt).1.1
    | 21 => fun t => (outsAt4 V c t.val t.isLt).1.2
    | ⟨_ + 22, h⟩ => absurd h (Nat.not_lt.2 (Nat.le_add_left _ _))

def dat4 (c : Dev nD) : Dat τ (Elt F) Unit ℕ (UR sig nD τ) ℕ cfg4 c where
  A w := V c (Pipeline.arrRef spec4 w)
  after := aft4 V c
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem after4_20 (c : Dev nD) (t : Fin cfg4.N) : (dat4 V c).after 20 t = (outsAt4 V c t.val t.isLt).1.1 := rfl
theorem after4_21 (c : Dev nD) (t : Fin cfg4.N) : (dat4 V c).after 21 t = (outsAt4 V c t.val t.isLt).1.2 := rfl

theorem keep4 (c : Dev nD) (w : Fin cfg4.W) (hw : w.val < 20) (t : Fin cfg4.N) :
    (cfg4.win w).cut (cfg4.grid.coords t) ((dat4 V c).after w t) = (dat4 V c).blockOf w t := by
  rcases w with ⟨n, hn⟩; change n < 20 at hw
  interval_cases n <;> rfl
theorem fetched4 (c : Dev nD) (w : Fin cfg4.W) (hw : w.val < 20) (t : Fin cfg4.N) (d) : (dat4 V c).fetched w t d = aft4 V c w t := by
  rcases w with ⟨n, hn⟩; change n < 20 at hw
  interval_cases n <;> rfl
theorem before4 (c : Dev nD) (w : Fin cfg4.W) (hw : w.val < 20) (t : Fin cfg4.N) (d) : (dat4 V c).before w t d = aft4 V c w t := by
  have hk := keep4 V c w hw; have hf := fetched4 V c w hw t d
  rcases w with ⟨n, hn⟩; change n < 20 at hw
  interval_cases n <;> exact ((dat4 V c).before_in_eq_fetched _ rfl (fun _ => rfl) (fun _ _ _ => rfl) hk t d).trans hf

-- Pieces that cover a shape determine what is read after writing them, whatever was there.
theorem owns_of_cover {s : Shape} (c : Dev nD) {M : Memref sig .tc .vmem s .f32} (v' : View sig .tc .vmem s .f32) {g : Buf (Elt F) (M.view.loc (c : Thread nD τ))}
    {L : List (View.Piece (Elt F) s .f32)} (h : ∀ y, ∃ pc ∈ L, y ∈ pc.1.set) :
    (M.view.loc (c : Thread nD τ) ↦[M.view.set]{fullShare} M.view.writes (Elt F) g L : sProp 𝕄)
      ⊢ owns (c : Thread nD τ) M fullShare (v'.read (Elt F) (v'.writes (Elt F) v'.junk L)) := by
  iintro H; unfold owns; iexists M.view.writes (Elt F) g L; isplitr; · ipureintro; exact View.read_writes_of_cover _ _ _ _ _ h
  iexact H

-- The body at any point: the point's index decides the case; the invariant lends the accumulators and takes them back at the point's contents.
set_option maxHeartbeats 8000000 in
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4; dsimp only
  simp (disch := decide) only [before4 V c, show (dat4 V c).after = aft4 V c from rfl, aft4]
  rw [show (dat4 V c).owesAt () t.succ = (dat4 V c).owesAt () t.castSucc from rfl,
    show (dat4 V c).Φ t.succ = PhiS4 V c (t.val + 1) t.isLt from rfl, PhiS4_succ,
    show (dat4 V c).Φ t.castSucc = PhiS4 V c t.val (Nat.le_of_lt t.isLt) from rfl]
  have hN : t.val < 50 := lt_of_lt_of_eq t.isLt (show cfg4.N = 50 from N_4)
  by_cases hl : t.val % 50 = 49
  · have hz : t.val ≠ 0 := by omega
    have hc0 := not_cond4_0_of_ne t hz
    have hc1 := (hcond4_1 t).mpr hl
    simp only [show idle4 20 (grid4.coords t) = false from liveAt4_20_last t hc1, show idle4 21 (grid4.coords t) = false from liveAt4_21_last t hc1]
    rw [outsAt4_last V c t hz hl hc0 hc1, PhiS4_pos V c _ _ hz]; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runLast4 V c t hc0 hc1 (outsAt4 V c (t.val - 1) (prev4 t)).2.1 (outsAt4 V c (t.val - 1) (prev4 t)).2.2).2.2.2.2 Set.univ _)
    iframe
    isplitl [H20]; · iexists _; iexact H20
    isplitl [H21]; · iexists _; iexact H21
    iintro ⟨H0, H1, H2, H3, H4, H5, H6, H7, H8, H9, H10, H11, H12, H13, H14, H15, H16, H17, H18, H19, ⟨%e20, H20⟩, ⟨%e21, H21⟩, ⟨%es0, HS0⟩, ⟨%es1, HS1⟩⟩
    iframe
    isplitl [HS0 HS1]
    · isplitl [HS0]
      · iapply owns_of_cover c VS4_0 (cov4_last_0 V c t hc0 hc1 _ _); iexact HS0
      · iapply owns_of_cover c VS4_1 (cov4_last_1 V c t hc0 hc1 _ _); iexact HS1
    isplitl [H20]
    · iapply owns_of_cover c VS4_0 (cov4_last_o20 V c t hc0 hc1 _ _); iexact H20
    iapply owns_of_cover c VS4_1 (cov4_last_o21 V c t hc0 hc1 _ _); iexact H21
  · have hc1 : ¬cond4_1 (grid4.coords t) := fun h => hl ((hcond4_1 t).mp h)
    simp only [show idle4 20 (grid4.coords t) = true from idleAt4_20 t hc1, show idle4 21 (grid4.coords t) = true from idleAt4_21 t hc1, noFlush4_20 t hc1, noFlush4_21 t hc1]
    by_cases hz : t.val = 0
    · have hc0 : cond4_0 (grid4.coords t) := (hcond4_0 t).mpr (by omega)
      rw [outsAt4_first V c t hz hc0 hc1, PhiS4_zero V c _ _ hz, PhiA4_eq]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runFirst4 V c t hc0 hc1).2.2 ((dat4 V c).before 20 t d20) ((dat4 V c).before 21 t d21) Set.univ _)
      iframe
      iintro ⟨H0, H1, H2, H3, H4, H5, H6, H7, H8, H9, H10, H11, H12, H13, H14, H15, H16, H17, H18, H19, H20, H21, ⟨%es0, HS0⟩, ⟨%es1, HS1⟩⟩
      iframe
      isplitl [HS0 HS1]
      · isplitl [HS0]
        · iapply owns_of_cover c VS4_0 (cov4_first_0 V c t hc0 hc1); iexact HS0
        · iapply owns_of_cover c VS4_1 (cov4_first_1 V c t hc0 hc1); iexact HS1
      isplitl [H20] <;> iexists _ <;> iassumption
    · have hc0 := not_cond4_0_of_ne t hz
      rw [outsAt4_mid V c t hz hl hc0 hc1, PhiS4_pos V c _ _ hz]; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runMid4 V c t hc0 hc1 (outsAt4 V c (t.val - 1) (prev4 t)).2.1 (outsAt4 V c (t.val - 1) (prev4 t)).2.2).2.2 ((dat4 V c).before 20 t d20) ((dat4 V c).before 21 t d21) Set.univ _)
      iframe
      iintro ⟨H0, H1, H2, H3, H4, H5, H6, H7, H8, H9, H10, H11, H12, H13, H14, H15, H16, H17, H18, H19, H20, H21, ⟨%es0, HS0⟩, ⟨%es1, HS1⟩⟩
      iframe
      isplitl [HS0 HS1]
      · isplitl [HS0]
        · iapply owns_of_cover c VS4_0 (cov4_mid_0 V c t hc0 hc1 _ _); iexact HS0
        · iapply owns_of_cover c VS4_1 (cov4_mid_1 V c t hc0 hc1 _ _); iexact HS1
      isplitl [H20] <;> iexists _ <;> iassumption

end Cert.KernelIdeal.Gen

end
-- ==== Proof.KI.Vals.lean ====
import proofs.«412786_j57784490000510_2_alg».proof.Proof.KI.Reg0
import proofs.«412786_j57784490000510_2_alg».proof.Proof.KI.Reg1
import proofs.«412786_j57784490000510_2_alg».proof.Proof.KI.Reg2
import proofs.«412786_j57784490000510_2_alg».proof.Proof.KI.Reg3
import proofs.«412786_j57784490000510_2_alg».proof.Proof.KI.Reg4
import proofs.«412786_j57784490000510_2_alg».proof.Proof.Gen.KernelIdeal.Regions
import Idealize.ShloMosaic.Lib.Pipeline.Cells

set_option maxRecDepth 16384

noncomputable section

namespace Cert.KernelIdeal.Gen

open Idealize.ShloMosaic Idealize.ShloMosaic.TcCoe
open Idealize.ShloMosaic.Pipeline (Dat Cfg)

variable {F : FTy → Type} [FloatOps F]

/-- What a region leaves: its arrays as the write-backs of all its points leave them, every other buffer as entered. -/
def stepW {cfg : Cfg sig Λ₀} (c : Dev nD) (V : Valuation τ sig (Elt F)) (d : Dat τ (Elt F) Unit ℕ (UR sig nD τ) ℕ cfg c) :
    Valuation τ sig (Elt F) :=
  Pipeline.withArrays cfg.spec c V fun w => d.arrAt w cfg.N

section
variable {cfg : Cfg sig Λ₀} (c : Dev nD) (V : Valuation τ sig (Elt F)) (d : Dat τ (Elt F) Unit ℕ (UR sig nD τ) ℕ cfg c)

theorem stepW_arr (hinj : Function.Injective (Pipeline.arrRef cfg.spec)) (w : Fin cfg.W) :
    stepW c V d (Proc.devRef .tc (Pipeline.arrRef cfg.spec w)) = d.arrAt w cfg.N :=
  Pipeline.withArrays_arr cfg.spec hinj c _ _ w

theorem stepW_of_ne (b : Ref sig .tc) (hb : ∀ w, Pipeline.arrRef cfg.spec w ≠ b) :
    stepW c V d (Proc.devRef .tc b) = V (Proc.devRef .tc b) :=
  Pipeline.withArrays_of_ne cfg.spec c _ _ b hb

theorem stepW_of_not_out (hinj : Function.Injective (Pipeline.arrRef cfg.spec))
    (hA : ∀ w, d.A w = V (Proc.devRef .tc (Pipeline.arrRef cfg.spec w))) (b : Ref sig .tc)
    (hb : ∀ w, Pipeline.arrRef cfg.spec w = b → (cfg.win w).isOut = false) :
    stepW c V d (Proc.devRef .tc b) = V (Proc.devRef .tc b) := by
  by_cases h : ∃ w, Pipeline.arrRef cfg.spec w = b
  · obtain ⟨w, rfl⟩ := h
    exact (stepW_arr c V d hinj w).trans ((d.arrAt_in w (hb w rfl) _).trans (hA w))
  · exact stepW_of_ne c V d b fun w e => h ⟨w, e⟩
end

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev VW5 : (c : Dev nD) → (b : Ref sig .tc) → Buf (Elt F) ((c : Thread nD τ).loc b) := fun c b => W5 m c b
def W6 (c : Dev nD) : Valuation τ sig (Elt F) := stepW c (W5 m c) (dat0 (VW5 m) c)
theorem W6_arr (c : Dev nD) (w : Fin cfg0.W) :
    W6 m c (Proc.devRef .tc (Pipeline.arrRef spec0 w)) = (dat0 (VW5 m) c).arrAt w cfg0.N :=
  stepW_arr c _ _ launch0.win.arr_inj w
theorem W6_of_not_out (c : Dev nD) (b : Ref sig .tc) (hb : b ≠ main_v37) :
    W6 m c (Proc.devRef .tc b) = W5 m c (Proc.devRef .tc b) :=
  stepW_of_not_out c _ _ launch0.win.arr_inj (A_eq0 (VW5 m) c) b fun w e => by subst e; revert hb; revert w; decide
abbrev W7 : Dev nD → Valuation τ sig (Elt F) := fun c => StableHlo.after hostOps1 (W6 m c)
abbrev VW7 : (c : Dev nD) → (b : Ref sig .tc) → Buf (Elt F) ((c : Thread nD τ).loc b) := fun c b => W7 m c b
def W8 (c : Dev nD) : Valuation τ sig (Elt F) := stepW c (W7 m c) (dat1 (VW7 m) c)
theorem W8_arr (c : Dev nD) (w : Fin cfg1.W) :
    W8 m c (Proc.devRef .tc (Pipeline.arrRef spec1 w)) = (dat1 (VW7 m) c).arrAt w cfg1.N :=
  stepW_arr c _ _ launch1.win.arr_inj w
theorem W8_of_not_out (c : Dev nD) (b : Ref sig .tc) (hb : b ≠ main_v51) :
    W8 m c (Proc.devRef .tc b) = W7 m c (Proc.devRef .tc b) :=
  stepW_of_not_out c _ _ launch1.win.arr_inj (A_eq1 (VW7 m) c) b fun w e => by subst e; revert hb; revert w; decide
abbrev W9 : Dev nD → Valuation τ sig (Elt F) := fun c => StableHlo.after hostOps2 (W8 m c)
abbrev VW9 : (c : Dev nD) → (b : Ref sig .tc) → Buf (Elt F) ((c : Thread nD τ).loc b) := fun c b => W9 m c b
def W10 (c : Dev nD) : Valuation τ sig (Elt F) := stepW c (W9 m c) (dat2 (VW9 m) c)
theorem W10_arr (c : Dev nD) (w : Fin cfg2.W) :
    W10 m c (Proc.devRef .tc (Pipeline.arrRef spec2 w)) = (dat2 (VW9 m) c).arrAt w cfg2.N :=
  stepW_arr c _ _ launch2.win.arr_inj w
theorem W10_of_not_out (c : Dev nD) (b : Ref sig .tc) (hb : b ≠ main_v65) :
    W10 m c (Proc.devRef .tc b) = W9 m c (Proc.devRef .tc b) :=
  stepW_of_not_out c _ _ launch2.win.arr_inj (A_eq2 (VW9 m) c) b fun w e => by subst e; revert hb; revert w; decide
abbrev W11 : Dev nD → Valuation τ sig (Elt F) := fun c => StableHlo.after hostOps3 (W10 m c)
abbrev VW11 : (c : Dev nD) → (b : Ref sig .tc) → Buf (Elt F) ((c : Thread nD τ).loc b) := fun c b => W11 m c b
def W12 (c : Dev nD) : Valuation τ sig (Elt F) := stepW c (W11 m c) (dat3 (VW11 m) c)
theorem W12_arr (c : Dev nD) (w : Fin cfg3.W) :
    W12 m c (Proc.devRef .tc (Pipeline.arrRef spec3 w)) = (dat3 (VW11 m) c).arrAt w cfg3.N :=
  stepW_arr c _ _ launch3.win.arr_inj w
theorem W12_of_not_out (c : Dev nD) (b : Ref sig .tc) (hb : b ≠ main_v79) :
    W12 m c (Proc.devRef .tc b) = W11 m c (Proc.devRef .tc b) :=
  stepW_of_not_out c _ _ launch3.win.arr_inj (A_eq3 (VW11 m) c) b fun w e => by subst e; revert hb; revert w; decide
abbrev W13 : Dev nD → Valuation τ sig (Elt F) := fun c => StableHlo.after hostOps4 (W12 m c)
abbrev VW13 : (c : Dev nD) → (b : Ref sig .tc) → Buf (Elt F) ((c : Thread nD τ).loc b) := fun c b => W13 m c b
def W14 (c : Dev nD) : Valuation τ sig (Elt F) := stepW c (W13 m c) (dat4 (VW13 m) c)
theorem W14_arr (c : Dev nD) (w : Fin cfg4.W) :
    W14 m c (Proc.devRef .tc (Pipeline.arrRef spec4 w)) = (dat4 (VW13 m) c).arrAt w cfg4.N :=
  stepW_arr c _ _ launch4.win.arr_inj w
theorem W14_of_not_out (c : Dev nD) (b : Ref sig .tc) (hb : b ≠ main_v94_0 ∧ b ≠ main_v94_1) :
    W14 m c (Proc.devRef .tc b) = W13 m c (Proc.devRef .tc b) :=
  stepW_of_not_out c _ _ launch4.win.arr_inj (A_eq4 (VW13 m) c) b fun w e => by subst e; revert hb; revert w; decide
abbrev W15 : Dev nD → Valuation τ sig (Elt F) := fun c => StableHlo.after hostOps5 (W14 m c)
abbrev W16 : Dev nD → Valuation τ sig (Elt F) := fun c => StableHlo.after hostOps5_1 (W15 m c)
abbrev W17 : Dev nD → Valuation τ sig (Elt F) := fun c => StableHlo.after hostOps5_2 (W16 m c)

section
variable (c : Dev nD) (r : Ref sig .tc)
theorem W1_of (h : r ∉ hostOps0_W) : W1 m c r = W0 m c r :=
  StableHlo.after_of_writes_sub hostOps0 _ hostOps0_writes h
theorem W2_of (h : r ∉ hostOps0_1_W) : W2 m c r = W1 m c r :=
  StableHlo.after_of_writes_sub hostOps0_1 _ hostOps0_1_writes h
theorem W3_of (h : r ∉ hostOps0_2_W) : W3 m c r = W2 m c r :=
  StableHlo.after_of_writes_sub hostOps0_2 _ hostOps0_2_writes h
theorem W4_of (h : r ∉ hostOps0_3_W) : W4 m c r = W3 m c r :=
  StableHlo.after_of_writes_sub hostOps0_3 _ hostOps0_3_writes h
theorem W5_of (h : r ∉ hostOps0_4_W) : W5 m c r = W4 m c r :=
  StableHlo.after_of_writes_sub hostOps0_4 _ hostOps0_4_writes h
theorem W7_of (h : r ∉ hostOps1_W) : W7 m c r = W6 m c r :=
  StableHlo.after_of_writes_sub hostOps1 _ hostOps1_writes h
theorem W9_of (h : r ∉ hostOps2_W) : W9 m c r = W8 m c r :=
  StableHlo.after_of_writes_sub hostOps2 _ hostOps2_writes h
theorem W11_of (h : r ∉ hostOps3_W) : W11 m c r = W10 m c r :=
  StableHlo.after_of_writes_sub hostOps3 _ hostOps3_writes h
theorem W13_of (h : r ∉ hostOps4_W) : W13 m c r = W12 m c r :=
  StableHlo.after_of_writes_sub hostOps4 _ hostOps4_writes h
theorem W15_of (h : r ∉ hostOps5_W) : W15 m c r = W14 m c r :=
  StableHlo.after_of_writes_sub hostOps5 _ hostOps5_writes h
theorem W16_of (h : r ∉ hostOps5_1_W) : W16 m c r = W15 m c r :=
  StableHlo.after_of_writes_sub hostOps5_1 _ hostOps5_1_writes h
theorem W17_of (h : r ∉ hostOps5_2_W) : W17 m c r = W16 m c r :=
  StableHlo.after_of_writes_sub hostOps5_2 _ hostOps5_2_writes h
end

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- No item writes an argument: no host stretch does, and none is a region's output array. -/
theorem W17_arg (c : Dev nD) (r : Ref sig .tc) (h : r ∈ args) : W17 m c r = m ((c : Thread nD τ).loc r) := by
  have ⟨h0, h1, h2, h3, h4, h5, h6, h7, h8, h9, h10, h11, h12, h13, h14, h15, h16⟩ :
      r ∉ hostOps0_W ∧ r ∉ hostOps0_1_W ∧ r ∉ hostOps0_2_W ∧ r ∉ hostOps0_3_W ∧ r ∉ hostOps0_4_W ∧ r ≠ main_v37
      ∧ r ∉ hostOps1_W ∧ r ≠ main_v51 ∧ r ∉ hostOps2_W ∧ r ≠ main_v65 ∧ r ∉ hostOps3_W ∧ r ≠ main_v79 ∧ r ∉ hostOps4_W
      ∧ (r ≠ main_v94_0 ∧ r ≠ main_v94_1) ∧ r ∉ hostOps5_W ∧ r ∉ hostOps5_1_W ∧ r ∉ hostOps5_2_W := by
    revert r; decide
  exact (W17_of m c r h16).trans <| (W16_of m c r h15).trans <| (W15_of m c r h14).trans <| (W14_of_not_out m c r h13).trans <|
    (W13_of m c r h12).trans <| (W12_of_not_out m c r h11).trans <| (W11_of m c r h10).trans <| (W10_of_not_out m c r h9).trans <|
    (W9_of m c r h8).trans <| (W8_of_not_out m c r h7).trans <| (W7_of m c r h6).trans <| (W6_of_not_out m c r h5).trans <|
    (W5_of m c r h4).trans <| (W4_of m c r h3).trans <| (W3_of m c r h2).trans <| (W2_of m c r h1).trans <| (W1_of m c r h0)

end Cert.KernelIdeal.Gen

end
-- ==== Proof.KI.PDats.lean ====
import proofs.«412786_j57784490000510_2_alg».proof.Proof.KI.Vals

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VW5 m) c
  | ⟨1, _⟩ => fun c => dat1 (VW7 m) c
  | ⟨2, _⟩ => fun c => dat2 (VW9 m) c
  | ⟨3, _⟩ => fun c => dat3 (VW11 m) c
  | ⟨4, _⟩ => fun c => dat4 (VW13 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch from the contents `W`, leaving `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

section
variable {gr Wn : Nat} (spec : Fin Wn → Pipeline.WinSpec sig gr) (c : Dev nD)

theorem hinA (T : sProp 𝕄) : iprop((∃ r, prngReg c r) ∗ T ∗ Pipeline.scopedRest spec c) ⊢ (Pipeline.ΦA spec c : sProp 𝕄) := by
  unfold Pipeline.ΦA
  iintro ⟨Hp, -, Hr⟩
  isplitl [Hr]; · iexact Hr
  iexact Hp
theorem houtA : (Pipeline.ΦA spec c : sProp 𝕄)
    ⊢ iprop((∃ r, prngReg c r) ∗ Pipeline.ownSems0 (fun k : PEmpty => k.elim) c ∗ Pipeline.scopedRest spec c) := by
  rw [Pipeline.ownSems0_none]; unfold Pipeline.ΦA
  iintro ⟨Hr, Hp⟩
  isplitl [Hp]; · iexact Hp
  isplitr; · iempintro
  iexact Hr
end

set_option backward.isDefEq.respectTransparency.types false in
/-- A kernel region over the thread state, entered from every unscoped buffer at `W` and left at `W'`, which is `stepW` of it:
    its arrays are split out of the unscoped buffers and put back; the generator register goes through the invariant;
    nothing is owed; the kernel has no semaphore of its own. -/
def stepReg (p : Fin 5) (lf : Pipeline.LaunchFacts (nD := nD) (τ := τ) cfgs p) (W W' : Dev nD → Valuation τ sig (Elt F))
    (hW' : ∀ c, W' c = stepW c (W c) (pdats m p c))
    (hbody : ∀ c, Pipeline.BodyObligationLoose (pdats m p c) defs₀ 𝒱₀ () Set.univ)
    (howed : ∀ c t, (pdats m p c).owed t = 0) (hrec : ∀ c, (pdats m p c).recorded 0 = Set.univ)
    (hq : ∀ c w, (pdats m p c).q w = fullShare)
    (hA : ∀ c w, (pdats m p c).A w = W c (Proc.devRef .tc (Pipeline.arrRef (cfgs p).spec w)))
    (hin : ∀ c T, iprop((∃ r, prngReg c r) ∗ T ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => k.elim) c ∗ Pipeline.scopedRest (cfgs p).spec c)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := hin c _
  hout := hout
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => W c b) (fun b => W' c b) ((pdats m p c).arrAt · (cfgs p).N)
      (fun w => ((congrFun (hW' c) _).trans (stepW_arr c _ _ lf.win.arr_inj w)).symm)
      (fun b hb => (congrFun (hW' c) _).trans
        (stepW_of_ne c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end Cert.KernelIdeal.Gen

end
-- ==== Proof.KI.Seg0.lean ====
import proofs.«412786_j57784490000510_2_alg».proof.Proof.KI.PDats

noncomputable section

namespace Cert.KernelIdeal.Gen

open Idealize.ShloMosaic

variable {F : FTy → Type} [FloatOps F]

variable (m : (ℓ : Loc nD τ sig) → Buf (Elt F) ℓ)

def reg0 : Pipeline.RegionSeg (pcfgs (F := F)) adm (pdats m) () defs₀ 𝒱₀ L lv 0 :=
  stepReg m 0 launch0 (W5 m) (W6 m) (fun _ => rfl) (fun c => (body_obligation0 (VW5 m) c).loose)
    (fun _ _ => rfl) (fun _ => rfl) (fun _ _ => rfl) (fun _ _ => rfl) (fun c T => hinA spec0 c T) fun c => houtA spec0 c

end Cert.KernelIdeal.Gen

end
-- ==== Proof.KI.Seg1.lean ====
import proofs.«412786_j57784490000510_2_alg».proof.Proof.KI.PDats

noncomputable section

namespace Cert.KernelIdeal.Gen

open Idealize.ShloMosaic

variable {F : FTy → Type} [FloatOps F]

variable (m : (ℓ : Loc nD τ sig) → Buf (Elt F) ℓ)

def reg1 : Pipeline.RegionSeg (pcfgs (F := F)) adm (pdats m) () defs₀ 𝒱₀ L lv 1 :=
  stepReg m 1 launch1 (W7 m) (W8 m) (fun _ => rfl) (fun c => (body_obligation1 (VW7 m) c).loose)
    (fun _ _ => rfl) (fun _ => rfl) (fun _ _ => rfl) (fun _ _ => rfl) (fun c T => hinA spec1 c T) fun c => houtA spec1 c

end Cert.KernelIdeal.Gen

end
-- ==== Proof.KI.Seg2.lean ====
import proofs.«412786_j57784490000510_2_alg».proof.Proof.KI.PDats

noncomputable section

namespace Cert.KernelIdeal.Gen

open Idealize.ShloMosaic

variable {F : FTy → Type} [FloatOps F]

variable (m : (ℓ : Loc nD τ sig) → Buf (Elt F) ℓ)

def reg2 : Pipeline.RegionSeg (pcfgs (F := F)) adm (pdats m) () defs₀ 𝒱₀ L lv 2 :=
  stepReg m 2 launch2 (W9 m) (W10 m) (fun _ => rfl) (fun c => (body_obligation2 (VW9 m) c).loose)
    (fun _ _ => rfl) (fun _ => rfl) (fun _ _ => rfl) (fun _ _ => rfl) (fun c T => hinA spec2 c T) fun c => houtA spec2 c

end Cert.KernelIdeal.Gen

end
-- ==== Proof.KI.Seg3.lean ====
import proofs.«412786_j57784490000510_2_alg».proof.Proof.KI.PDats

noncomputable section

namespace Cert.KernelIdeal.Gen

open Idealize.ShloMosaic

variable {F : FTy → Type} [FloatOps F]

variable (m : (ℓ : Loc nD τ sig) → Buf (Elt F) ℓ)

def reg3 : Pipeline.RegionSeg (pcfgs (F := F)) adm (pdats m) () defs₀ 𝒱₀ L lv 3 :=
  stepReg m 3 launch3 (W11 m) (W12 m) (fun _ => rfl) (fun c => (body_obligation3 (VW11 m) c).loose)
    (fun _ _ => rfl) (fun _ => rfl) (fun _ _ => rfl) (fun _ _ => rfl) (fun c T => hinA spec3 c T) fun c => houtA spec3 c

end Cert.KernelIdeal.Gen

end
-- ==== Proof.KI.Reg4Seg.lean ====
import proofs.«412786_j57784490000510_2_alg».proof.Proof.KI.Reg4

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What the region takes in beside the scoped rest, and what it gives back: the generator register.
abbrev X4 (c : Dev nD) : sProp 𝕄 := iprop(∃ r, prngReg c r)

abbrev Y4 (c : Dev nD) : sProp 𝕄 := iprop(∃ r, prngReg c r)

theorem Phi4_zero (c : Dev nD) : (dat4 V c).Φ 0 = Pipeline.ΦA spec4 c := rfl

theorem hin4 (c : Dev nD) (T : sProp 𝕄) : iprop(X4 (F := F) c ∗ T ∗ Pipeline.scopedRest spec4 c) ⊢ (dat4 V c).Φ 0 := by
  rw [Phi4_zero]; unfold Pipeline.ΦA
  iintro ⟨Hp, -, Hr⟩
  iframe

-- After any point but the first the invariant gives the class's back: the accumulators' contents are forgotten.
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  iframe
  isplitl [HS0] <;> iexists _ <;> iassumption

theorem hout4 (c : Dev nD) : (dat4 V c).Φ (Fin.last cfg4.N) ⊢ iprop(Y4 (F := F) c ∗ Pipeline.ownSems0 (fun k : PEmpty => k.elim) c ∗ Pipeline.scopedRest spec4 c) := by
  refine (Phi4_out V c _ (by rw [Fin.val_last]; have : cfg4.N = 50 := N_4; omega)).trans ?_
  rw [Pipeline.ownSems0_none]; unfold Pipeline.ΦA
  iintro ⟨Hr, Hp⟩
  iframe; iempintro

end Cert.KernelIdeal.Gen

end
-- ==== Proof.KI.Seg4.lean ====
import proofs.«412786_j57784490000510_2_alg».proof.Proof.KI.PDats
import proofs.«412786_j57784490000510_2_alg».proof.Proof.KI.Reg4Seg

noncomputable section

namespace Cert.KernelIdeal.Gen

open Idealize.ShloMosaic

variable {F : FTy → Type} [FloatOps F]

variable (m : (ℓ : Loc nD τ sig) → Buf (Elt F) ℓ)

def reg4 : Pipeline.RegionSeg (pcfgs (F := F)) adm (pdats m) () defs₀ 𝒱₀ L lv 4 :=
  stepReg m 4 launch4 (W13 m) (W14 m) (fun _ => rfl) (fun c => (body_obligation4 (VW13 m) c).loose)
    (fun _ _ => rfl) (fun _ => rfl) (fun _ _ => rfl) (fun _ _ => rfl) (hin4 (VW13 m)) (hout4 (VW13 m))

end Cert.KernelIdeal.Gen

end
-- ==== Proof.KI.Run.lean ====
import proofs.«412786_j57784490000510_2_alg».proof.Proof.KI.Seg0
import proofs.«412786_j57784490000510_2_alg».proof.Proof.KI.Seg1
import proofs.«412786_j57784490000510_2_alg».proof.Proof.KI.Seg2
import proofs.«412786_j57784490000510_2_alg».proof.Proof.KI.Seg3
import proofs.«412786_j57784490000510_2_alg».proof.Proof.KI.Seg4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 17 items in order: a host segment per stretch from its boundary's contents, a region per kernel call. -/
abbrev rsegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .host (hseg hostOps5_1 hostOps5_1_sub hostOps5_1_fresh (W15 m)),
    .host (hseg hostOps5_2 hostOps5_2_sub hostOps5_2_fresh (W16 m)) ]

theorem main_run (c : Dev nD) : main (F := F) c = Pipeline.Seg.run (rsegs m) :=
  (main_chain c).trans ((congrArg Pipeline.chain (by rfl)).trans (Pipeline.Seg.run_eq_chain (rsegs m)).symm)

set_option backward.isDefEq.respectTransparency.types false in
/-- From any memory with zero counters every weakly fair execution of @main terminates, nothing faulting, and every final
    state holds the two results at the last boundary's contents and every argument array as launched. -/
theorem run_named : θ_run defs (onTc (τ := τ) (main (F := F))) ⟨m, fun _ => 0, ρ⟩ (fun r => ∀ c : Dev nD,
      r.2.mem ((c.tc : Thread nD τ).loc main_v97) = W17 m c (Proc.devRef .tc main_v97)
      ∧ r.2.mem ((c.tc : Thread nD τ).loc main_v98) = W17 m c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m) () cellOf_inj emb₁ defs₀ 𝒱₀ L lv m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m c) ∗ R c)
        ⊢ iprop(Tₙ m c ∗ ∃ W, owes (c.tc : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c =>
      have a (r : Ref sig .tc) (hr : r ∈ args) : s.mem ((c.tc : Thread nD τ).loc r) = m ((c.tc : Thread nD τ).loc r) :=
        (h c _ (mem_uc r (by revert r; decide))).trans (W17_arg m c r hr)
      ⟨h c _ (mem_uc main_v97 (by decide)), h c _ (mem_uc main_v98 (by decide)),
        a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide), a _ (by decide)⟩)

end Cert.KernelIdeal.Gen

end
-- ==== Proof.Spec.lean ====
import Idealize.ShloMosaic.PureOps.Ideal
import Idealize.ShloMosaic.Lib.ValueIdx

noncomputable section

namespace Cert.Spec

open Idealize.ShloMosaic

abbrev N : Nat := 100000
abbrev E : Nat := 1600000

abbrev Arr (a b : Nat) : Type := Fin a → Fin b → EReal

def Fin2 {a b : Nat} (X : Arr a b) : Prop := ∀ i j, ∃ r : ℝ, X i j = (r : EReal)
def Fin1 {a : Nat} (x : Fin a → EReal) : Prop := ∀ i, ∃ r : ℝ, x i = (r : EReal)

def H0 (nt : Fin N → BitVec 32) : Arr N 64 := fun n k => if BitVec.ofNat 32 (k.val % 3) = nt n then 1 else 0

def g0 (k : Fin 64) : Fin 192 := ⟨k.val, by omega⟩
def g1 (k : Fin 64) : Fin 192 := ⟨64 + k.val, by omega⟩
def g2 (k : Fin 64) : Fin 192 := ⟨128 + k.val, by omega⟩

def lin {a o : Nat} (X : Arr N a) (w : Arr o a) (b : Fin o → EReal) : Arr N o :=
  fun n j => (∑ d : Fin a, X n d * w j d) + b j

def gru (H m : Arr N 64) (wi wh : Arr 192 64) (bi bh : Fin 192 → EReal) : Arr N 64 := fun n k =>
  (1 - Ideal.logistic (lin H wi bi n (g1 k) + lin m wh bh n (g1 k)))
      * Ideal.tanh (lin H wi bi n (g2 k) + Ideal.logistic (lin H wi bi n (g0 k) + lin m wh bh n (g0 k)) * lin m wh bh n (g2 k))
    + Ideal.logistic (lin H wi bi n (g1 k) + lin m wh bh n (g1 k)) * m n k

def msgR (H : Arr N 64) (W : Fin 4 → Arr 64 64) (b : Arr 4 64) (src : Fin E → Fin N) (et : Fin E → Fin 4)
    (dst : Fin E → Option (Fin N)) : Arr N 64 :=
  fun n k => ∑ e ∈ Finset.univ.filter (fun e => dst e = some n), ((∑ d : Fin 64, W (et e) k d * H (src e) d) + b (et e) k)

def segK (H : Arr N 64) (src : Fin E → Fin N) (key : Fin E → Option (Fin (4 * N))) : Arr (4 * N) 64 :=
  fun r d => ∑ e ∈ Finset.univ.filter (fun e => key e = some r), H (src e) d

def degK (oh : Fin E → Fin 4 → EReal) (dst : Fin E → Option (Fin N)) : Arr N 4 :=
  fun n t => ∑ e ∈ Finset.univ.filter (fun e => dst e = some n), oh e t

def flatK (S : Arr (4 * N) 64) : Arr N 256 :=
  fun n j => S ⟨4 * n.val + j.val / 64, by have := n.isLt; have := j.isLt; omega⟩ ⟨j.val % 64, Nat.mod_lt _ (by omega)⟩

def wcat (W : Fin 4 → Arr 64 64) : Arr 256 64 :=
  fun j k => W ⟨j.val / 64, by have := j.isLt; omega⟩ k ⟨j.val % 64, Nat.mod_lt _ (by omega)⟩

def msgK (H : Arr N 64) (W : Fin 4 → Arr 64 64) (b : Arr 4 64) (src : Fin E → Fin N) (key : Fin E → Option (Fin (4 * N)))
    (oh : Fin E → Fin 4 → EReal) (dst : Fin E → Option (Fin N)) : Arr N 64 :=
  fun n k => (∑ j : Fin 256, flatK (segK H src key) n j * wcat W j k) + ∑ t : Fin 4, degK oh dst n t * b t k

def concat2 (X Y : Arr N 64) : Arr N 128 :=
  fun n j => if h : j.val < 64 then X n ⟨j.val, h⟩ else Y n ⟨j.val - 64, by have := j.isLt; omega⟩

def head {a o : Nat} (X : Arr N a) (w1 : Arr 64 a) (b1 : Fin 64 → EReal) (w2 : Arr o 64) (b2 : Fin o → EReal) : Arr N o :=
  lin (fun n k => Ideal.tanh (lin X w1 b1 n k)) w2 b2

def headSplit {o : Nat} (X Y : Arr N 64) (w1 : Arr 64 128) (b1 : Fin 64 → EReal) (w2 : Arr o 64) (b2 : Fin o → EReal) : Arr N o :=
  lin (fun n k => Ideal.tanh (((∑ d : Fin 64, X n d * w1 k ⟨d.val, by omega⟩) + (∑ d : Fin 64, Y n d * w1 k ⟨64 + d.val, by omega⟩)) + b1 k)) w2 b2

def term {o : Nat} (f g : Arr N o) : Arr N o := fun n j => Ideal.logistic (f n j) * g n j

def sumAll {o : Nat} (f : Arr N o) : Fin o → EReal := fun j => ∑ n : Fin N, f n j

def tileSum {o : Nat} (f : Arr N o) (t : Fin 50) : Fin o → EReal :=
  fun j => ∑ r : Fin 2000, f ⟨2000 * t.val + r.val, by have := t.isLt; have := r.isLt; show 2000 * t.val + r.val < 100000; omega⟩ j

def accTiles {o : Nat} (f : Arr N o) : (s : Nat) → s ≤ 50 → Fin o → EReal
  | 0, _ => fun _ => 0
  | s + 1, h => fun j => accTiles f s (by omega) j + tileSum f ⟨s, by omega⟩ j

def rowOf (n : Nat) (hn : 0 < n) (x : BitVec 32) : Fin n :=
  ⟨(max 0 (min ((n : Int) - 1) (if x.slt 0#32 then x + BitVec.ofNat 32 n else x).toInt)).toNat, by
    have h1 : max 0 (min ((n : Int) - 1) (if x.slt 0#32 then x + BitVec.ofNat 32 n else x).toInt) ≤ (n : Int) - 1 :=
      max_le (by omega) (min_le_left _ _)
    have h2 : 0 ≤ max 0 (min ((n : Int) - 1) (if x.slt 0#32 then x + BitVec.ofNat 32 n else x).toInt) := le_max_left _ _
    omega⟩

def targetOf (n : Nat) (x : BitVec 32) : Option (Fin n) :=
  if h : 0 ≤ x.toInt ∧ x.toInt < (n : Int) then some ⟨x.toInt.toNat, by omega⟩ else none

def keyWord (d t : BitVec 32) : BitVec 32 := d * 4#32 + t

def oneHot (t : BitVec 32) (j : Fin 4) : EReal := if t = BitVec.ofNat 32 j.val then 1 else 0

structure Wts where
  W : Fin 4 → Arr 64 64
  b : Arr 4 64
  wi : Arr 192 64
  wh : Arr 192 64
  bi : Fin 192 → EReal
  bh : Fin 192 → EReal
  fpw1 : Arr 64 128
  fpb1 : Fin 64 → EReal
  fpw2 : Arr 2 64
  fpb2 : Fin 2 → EReal
  gpw1 : Arr 64 64
  gpb1 : Fin 64 → EReal
  gpw2 : Arr 2 64
  gpb2 : Fin 2 → EReal
  fvw1 : Arr 64 128
  fvb1 : Fin 64 → EReal
  fvw2 : Arr 1 64
  fvb2 : Fin 1 → EReal
  gvw1 : Arr 64 64
  gvb1 : Fin 64 → EReal
  gvw2 : Arr 1 64
  gvb2 : Fin 1 → EReal

structure Ints where
  nt : Fin N → BitVec 32
  src : Fin E → BitVec 32
  dst : Fin E → BitVec 32
  et : Fin E → BitVec 32

def stepR (w : Wts) (i : Ints) (H : Arr N 64) : Arr N 64 :=
  gru H (msgR H w.W w.b (fun e => rowOf N (by decide) (i.src e)) (fun e => rowOf 4 (by decide) (i.et e)) (fun e => targetOf N (i.dst e)))
    w.wi w.wh w.bi w.bh

def stepK (w : Wts) (i : Ints) (H : Arr N 64) : Arr N 64 :=
  gru H (msgK H w.W w.b (fun e => rowOf N (by decide) (i.src e)) (fun e => targetOf (4 * N) (keyWord (i.dst e) (i.et e)))
      (fun e => oneHot (i.et e)) (fun e => targetOf N (i.dst e)))
    w.wi w.wh w.bi w.bh

def pR (w : Wts) (A H : Arr N 64) : Fin 2 → EReal :=
  sumAll (term (head (concat2 A H) w.fpw1 w.fpb1 w.fpw2 w.fpb2) (head H w.gpw1 w.gpb1 w.gpw2 w.gpb2))
def vR (w : Wts) (A H : Arr N 64) : Fin 1 → EReal :=
  sumAll (term (head (concat2 A H) w.fvw1 w.fvb1 w.fvw2 w.fvb2) (head H w.gvw1 w.gvb1 w.gvw2 w.gvb2))

def pK (w : Wts) (A H : Arr N 64) : Fin 2 → EReal :=
  accTiles (term (headSplit A H w.fpw1 w.fpb1 w.fpw2 w.fpb2) (head H w.gpw1 w.gpb1 w.gpw2 w.gpb2)) 50 le_rfl
def vK (w : Wts) (A H : Arr N 64) : Fin 1 → EReal :=
  accTiles (term (headSplit A H w.fvw1 w.fvb1 w.fvw2 w.fvb2) (head H w.gvw1 w.gvb1 w.gvw2 w.gvb2)) 50 le_rfl

def finalR (w : Wts) (i : Ints) : Arr N 64 := stepR w i (stepR w i (stepR w i (stepR w i (H0 i.nt))))
def finalK (w : Wts) (i : Ints) : Arr N 64 := stepK w i (stepK w i (stepK w i (stepK w i (H0 i.nt))))

open Idealize.ShloMosaic.ValueIdx in
def wtsOf (a4 : (⟨3, ![4, 64, 64]⟩ : Shape).Idx → EReal) (a5 : (⟨2, ![4, 64]⟩ : Shape).Idx → EReal)
    (a6 a7 : (⟨2, ![192, 64]⟩ : Shape).Idx → EReal) (a8 a9 : (⟨1, ![192]⟩ : Shape).Idx → EReal)
    (a10 : (⟨2, ![64, 128]⟩ : Shape).Idx → EReal) (a11 : (⟨1, ![64]⟩ : Shape).Idx → EReal)
    (a12 : (⟨2, ![2, 64]⟩ : Shape).Idx → EReal) (a13 : (⟨1, ![2]⟩ : Shape).Idx → EReal)
    (a14 : (⟨2, ![64, 64]⟩ : Shape).Idx → EReal) (a15 : (⟨1, ![64]⟩ : Shape).Idx → EReal)
    (a16 : (⟨2, ![2, 64]⟩ : Shape).Idx → EReal) (a17 : (⟨1, ![2]⟩ : Shape).Idx → EReal)
    (a18 : (⟨2, ![64, 128]⟩ : Shape).Idx → EReal) (a19 : (⟨1, ![64]⟩ : Shape).Idx → EReal)
    (a20 : (⟨2, ![1, 64]⟩ : Shape).Idx → EReal) (a21 : (⟨1, ![1]⟩ : Shape).Idx → EReal)
    (a22 : (⟨2, ![64, 64]⟩ : Shape).Idx → EReal) (a23 : (⟨1, ![64]⟩ : Shape).Idx → EReal)
    (a24 : (⟨2, ![1, 64]⟩ : Shape).Idx → EReal) (a25 : (⟨1, ![1]⟩ : Shape).Idx → EReal) : Wts where
  W := fun t k d => a4 (ix3 t k d)
  b := fun t k => a5 (ix2 t k)
  wi := fun j d => a6 (ix2 j d)
  wh := fun j d => a7 (ix2 j d)
  bi := fun j => a8 (ix1 j)
  bh := fun j => a9 (ix1 j)
  fpw1 := fun k j => a10 (ix2 k j)
  fpb1 := fun k => a11 (ix1 k)
  fpw2 := fun j k => a12 (ix2 j k)
  fpb2 := fun j => a13 (ix1 j)
  gpw1 := fun k d => a14 (ix2 k d)
  gpb1 := fun k => a15 (ix1 k)
  gpw2 := fun j k => a16 (ix2 j k)
  gpb2 := fun j => a17 (ix1 j)
  fvw1 := fun k j => a18 (ix2 k j)
  fvb1 := fun k => a19 (ix1 k)
  fvw2 := fun j k => a20 (ix2 j k)
  fvb2 := fun j => a21 (ix1 j)
  gvw1 := fun k d => a22 (ix2 k d)
  gvb1 := fun k => a23 (ix1 k)
  gvw2 := fun j k => a24 (ix2 j k)
  gvb2 := fun j => a25 (ix1 j)

open Idealize.ShloMosaic.ValueIdx in
def intsOf (a0 : (⟨1, ![100000]⟩ : Shape).Idx → BitVec 32) (a1 a2 a3 : (⟨1, ![1600000]⟩ : Shape).Idx → BitVec 32) : Ints where
  nt := fun n => a0 (ix1 n)
  src := fun e => a1 (ix1 e)
  dst := fun e => a2 (ix1 e)
  et := fun e => a3 (ix1 e)

open Idealize.ShloMosaic.ValueIdx in
def unc {a b : Nat} (X : Arr a b) : (⟨2, ![a, b]⟩ : Shape).Idx → EReal := fun i => X (i 0) (i 1)
open Idealize.ShloMosaic.ValueIdx in
def cur {a b : Nat} (x : (⟨2, ![a, b]⟩ : Shape).Idx → EReal) : Arr a b := fun i j => x (ix2 i j)

open Idealize.ShloMosaic.ValueIdx in
def stackT (x : (⟨3, ![3, 64, 64]⟩ : Shape).Idx → EReal) : Arr 192 64 :=
  fun j d => x (ix3 ⟨j.val / 64, by have := j.isLt; omega⟩ d ⟨j.val % 64, Nat.mod_lt _ (by omega)⟩)
open Idealize.ShloMosaic.ValueIdx in
def stackB (x : (⟨2, ![3, 64]⟩ : Shape).Idx → EReal) : Fin 192 → EReal :=
  fun j => x (ix2 ⟨j.val / 64, by have := j.isLt; omega⟩ ⟨j.val % 64, Nat.mod_lt _ (by omega)⟩)

open Idealize.ShloMosaic.ValueIdx in
def trT {a b : Nat} (y : (⟨2, ![a, b]⟩ : Shape).Idx → EReal) : Arr b a := fun i j => y (ix2 j i)
open Idealize.ShloMosaic.ValueIdx in
def joinT (y z : (⟨2, ![64, 64]⟩ : Shape).Idx → EReal) : Arr 64 128 :=
  fun k j => if h : j.val < 64 then y (ix2 ⟨j.val, h⟩ k) else z (ix2 ⟨j.val - 64, by have := j.isLt; omega⟩ k)

end Cert.Spec

end
-- ==== Proof.KI.HostSegDefs.lean ====
import proofs.«412786_j57784490000510_2_alg».proof.KernelIdeal
import proofs.«412786_j57784490000510_2_alg».proof.Proof.Spec

noncomputable section

namespace Cert.KernelIdeal.ReadH

open Idealize.ShloMosaic
open Cert.KernelIdeal

variable [Facts₀]
open Facts₀

def kerKey (a2 a3 : IVec S1600000 32) : IVec S1600000 32 :=
  let c0 : IVec S_ 32 := constantI S_ 32 4#32
  let v21 : IVec S1600000 32 := broadcastInDim S1600000 ![] bcast_S_S1600000 c0
  let v22 : IVec S1600000 32 := muli a2 v21
  addi v22 a3

def kerSrc (a1 : IVec S1600000 32) : IVec S1600000 32 :=
  let c1 : IVec S_ 32 := constantI S_ 32 0#32
  let v25 : IVec S1600000 32 := broadcastInDim S1600000 ![] bcast_S_S1600000 c1
  let v26 : IVec S1600000 1 := cmpi .slt a1 v25
  let c2 : IVec S_ 32 := constantI S_ 32 100000#32
  let v27 : IVec S1600000 32 := broadcastInDim S1600000 ![] bcast_S_S1600000 c2
  let v28 : IVec S1600000 32 := addi a1 v27
  select v26 v28 a1

def kerSegK (H : FVec Ideal S100000x64 .f32) (a1 key : IVec S1600000 32) : FVec Ideal S100000x256 .f32 :=
  let v24 : FVec Ideal S100000x64 .bf16 := truncf .bf16 H bitsLt_bf16_f32
  let v29 : IVec S1600000 32 := kerSrc a1
  let v30 : IVec S1600000x1 32 := broadcastInDim S1600000x1 ![0] bcast_S1600000_S1600000x1_0 v29
  let v31 : FVec Ideal S1600000x64 .bf16 := Host.gather gather_S100000x64_S1600000x1_S1600000x64_1_0_n_n_0_1_164 v24 v30
  let v32 : FVec Ideal S1600000x64 .f32 := extf .f32 v31 bitsLt_bf16_f32
  let cst : FVec Ideal S_ .f32 := constant S_ .f32 0x00000000#32
  let v33 : FVec Ideal S400000x64 .f32 := broadcastInDim S400000x64 ![] bcast_S_S400000x64 cst
  let v34 : IVec S1600000x1 32 := broadcastInDim S1600000x1 ![0] bcast_S1600000_S1600000x1_0 key
  let v35 : FVec Ideal S400000x64 .f32 := Host.scatterAdd scatter_S400000x64_S1600000x1_S1600000x64_1_0_0_1 v33 v34 v32
  shapeCast S100000x256 v35 shapeCasts_S400000x64_S100000x256

def kerSeg (H : FVec Ideal S100000x64 .f32) (a1 a2 a3 : IVec S1600000 32) : FVec Ideal S100000x256 .f32 :=
  kerSegK H a1 (kerKey a2 a3)

def kerOneHot (a3 : IVec S1600000 32) : FVec Ideal S1600000x4 .f32 :=
  let w0 : IVec S1600000x1 32 := broadcastInDim S1600000x1 ![0] bcast_S1600000_S1600000x1_0 a3
  let w1 : IVec S1x4 32 := iotaInDim S1x4 32 1
  let w2 : IVec S1600000x4 32 := broadcastInDim S1600000x4 ![0, 1] bcast_S1600000x1_S1600000x4_0_1 w0
  let w3 : IVec S1600000x4 32 := broadcastInDim S1600000x4 ![0, 1] bcast_S1x4_S1600000x4_0_1 w1
  let w4 : IVec S1600000x4 1 := cmpi .eq w2 w3
  uitofp .f32 w4

def kerBiasK (oh : FVec Ideal S1600000x4 .f32) (a2 : IVec S1600000 32) (a5 : FVec Ideal S4x64 .f32) :
    FVec Ideal S100000x64 .f32 :=
  let cst : FVec Ideal S_ .f32 := constant S_ .f32 0x00000000#32
  let v17 : FVec Ideal S100000x4 .f32 := broadcastInDim S100000x4 ![] bcast_S_S100000x4 cst
  let v18 : IVec S1600000x1 32 := broadcastInDim S1600000x1 ![0] bcast_S1600000_S1600000x1_0 a2
  let v19 : FVec Ideal S100000x4 .f32 := Host.scatterAdd scatter_S100000x4_S1600000x1_S1600000x4_1_0_0_1 v17 v18 oh
  Host.dotGeneral dot_S100000x4_S4x64_S100000x64_1_0_0_1_n_n none v19 a5

def kerBias (a2 a3 : IVec S1600000 32) (a5 : FVec Ideal S4x64 .f32) : FVec Ideal S100000x64 .f32 :=
  kerBiasK (kerOneHot a3) a2 a5

end Cert.KernelIdeal.ReadH

end
-- ==== Proof.KI.ValueDefs.lean ====
import proofs.«412786_j57784490000510_2_alg».proof.KernelIdeal
import proofs.«412786_j57784490000510_2_alg».proof.Proof.Spec
import Idealize.ShloMosaic.Lib.ValueIdx

noncomputable section

namespace Cert.KernelIdeal.ReadH

open Idealize.ShloMosaic Idealize.ShloMosaic.TcCoe Idealize.ShloMosaic.ValueIdx Cert.KernelIdeal

section Tails
variable [Facts]
open Facts₀ Facts

def kerTailP (p : FVec Ideal S2 .f32) : FVec Ideal S2 .f32 :=
  let cst : FVec Ideal S_ .f32 := constant S_ .f32 0xFF800000#32
  let v0 : FVec Ideal S_ .f32 := Host.reduce FloatOps.maximumf p cst reducesTo_S2_S_d0 h_S_
  let cst_0 : FVec Ideal S_ .f32 := constant S_ .f32 0xFF800000#32
  let v1 : FVec Ideal S_ .f32 := maximumf cst_0 v0
  let v2 : FVec Ideal S1 .f32 := broadcastInDim S1 ![] bcast_S_S1 v1
  let v3 : FVec Ideal S2 .f32 := broadcastInDim S2 ![0] bcast_S1_S2_0 v2
  let v4 : FVec Ideal S2 .f32 := subf p v3
  let v5 : FVec Ideal S2 .f32 := Host.exp v4
  let cst_1 : FVec Ideal S_ .f32 := constant S_ .f32 0x00000000#32
  let v6 : FVec Ideal S_ .f32 := Host.reduceAdd v5 cst_1 reducesTo_S2_S_d0 h_S_
  let v7 : FVec Ideal S1 .f32 := broadcastInDim S1 ![] bcast_S_S1 v6
  let v8 : FVec Ideal S1 .f32 := Host.log v7
  let v9 : FVec Ideal S2 .f32 := broadcastInDim S2 ![0] bcast_S1_S2_0 v8
  subf v4 v9

def kerTailV (v : FVec Ideal S1 .f32) : FVec Ideal S1 .f32 := Host.tanh v

end Tails

variable (m : (ℓ : Loc nD τ sig) → Buf (Elt Ideal) ℓ)

abbrev wOf (c : Dev nD) : Spec.Wts := Spec.wtsOf (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

abbrev iOf (c : Dev nD) : Spec.Ints := Spec.intsOf (m ((c.tc : Thread nD τ).loc main_arg0)) (m ((c.tc : Thread nD τ).loc main_arg1)) (m ((c.tc : Thread nD τ).loc main_arg2)) (m ((c.tc : Thread nD τ).loc main_arg3))

end Cert.KernelIdeal.ReadH

end
-- ==== Proof.KI.ValueHostA.lean ====
import proofs.«412786_j57784490000510_2_alg».proof.Proof.Gen.KernelIdeal.Launch
import proofs.«412786_j57784490000510_2_alg».proof.Proof.KI.HostSegDefs
import proofs.«412786_j57784490000510_2_alg».proof.Proof.KI.ValueDefs

noncomputable section

namespace Cert.KernelIdeal.ReadH

open Idealize.ShloMosaic Idealize.ShloMosaic.TcCoe Idealize.ShloMosaic.ValueIdx Idealize.ShloMosaic.StableHlo Cert.KernelIdeal

variable (V : Valuation τ sig (Elt Ideal))

theorem st3_v16 : (StableHlo.after (Gen.hostOps0_3 (F := Ideal)) V (Proc.devRef .tc main_v16) : FVec Ideal S1600000x4 .f32) = kerOneHot (V main_arg3) := by
  dsimp only [Gen.hostOps0_3]; after_results; rfl

theorem st4_v20 : (StableHlo.after (Gen.hostOps0_4 (F := Ideal)) V (Proc.devRef .tc main_v20) : FVec Ideal S100000x64 .f32) = kerBiasK (V main_v16) (V main_arg2) (V main_arg5) := by
  dsimp only [Gen.hostOps0_4]; after_results; rfl

theorem st4_v23 : (StableHlo.after (Gen.hostOps0_4 (F := Ideal)) V (Proc.devRef .tc main_v23) : IVec S1600000 32) = kerKey (V main_arg2) (V main_arg3) := by
  dsimp only [Gen.hostOps0_4]; after_results; rfl

theorem st4_v36 : (StableHlo.after (Gen.hostOps0_4 (F := Ideal)) V (Proc.devRef .tc main_v36) : FVec Ideal S100000x256 .f32) = kerSegK (V main_v7) (V main_arg1) (kerKey (V main_arg2) (V main_arg3)) := by
  dsimp only [Gen.hostOps0_4]; after_results_simp; rfl

theorem st6_v50 : (StableHlo.after (Gen.hostOps1 (F := Ideal)) V (Proc.devRef .tc main_v50) : FVec Ideal S100000x256 .f32) = kerSegK (V main_v37) (V main_arg1) (V main_v23) := by
  dsimp only [Gen.hostOps1]; after_results_simp; rfl

theorem st8_v64 : (StableHlo.after (Gen.hostOps2 (F := Ideal)) V (Proc.devRef .tc main_v64) : FVec Ideal S100000x256 .f32) = kerSegK (V main_v51) (V main_arg1) (V main_v23) := by
  dsimp only [Gen.hostOps2]; after_results_simp; rfl

theorem st10_v78 : (StableHlo.after (Gen.hostOps3 (F := Ideal)) V (Proc.devRef .tc main_v78) : FVec Ideal S100000x256 .f32) = kerSegK (V main_v65) (V main_arg1) (V main_v23) := by
  dsimp only [Gen.hostOps3]; after_results_simp; rfl

theorem st14_v95 : (StableHlo.after (Gen.hostOps5 (F := Ideal)) V (Proc.devRef .tc main_v95) : FVec Ideal S2 .f32) = shapeCast S2 (V main_v94_0 : FVec Ideal S1x2 .f32) Facts₀.shapeCasts_S1x2_S2 := by
  dsimp only [Gen.hostOps5]; after_results; rfl

theorem st14_v96 : (StableHlo.after (Gen.hostOps5 (F := Ideal)) V (Proc.devRef .tc main_v96) : FVec Ideal S1 .f32) = shapeCast S1 (V main_v94_1 : FVec Ideal S1x1 .f32) Facts₀.shapeCasts_S1x1_S1 := by
  dsimp only [Gen.hostOps5]; after_results; rfl

theorem st15_v97 : (StableHlo.after (Gen.hostOps5_1 (F := Ideal)) V (Proc.devRef .tc main_v97) : FVec Ideal S2 .f32) = kerTailP (V main_v95) := by
  dsimp only [Gen.hostOps5_1]; after_results; rfl

theorem st16_v98 : (StableHlo.after (Gen.hostOps5_2 (F := Ideal)) V (Proc.devRef .tc main_v98) : FVec Ideal S1 .f32) = kerTailV (V main_v96) := by
  dsimp only [Gen.hostOps5_2]; after_results; rfl

end Cert.KernelIdeal.ReadH

end
-- ==== Proof.KI.HostInit.lean ====
import proofs.«412786_j57784490000510_2_alg».proof.KernelIdeal
import proofs.«412786_j57784490000510_2_alg».proof.Proof.Spec
import Idealize.ShloMosaic.Lib.Pipeline.Value
import Idealize.ShloMosaic.Lib.ValueIdx

noncomputable section

namespace Cert.KernelIdeal.ReadH

open Idealize.ShloMosaic Idealize.ShloMosaic.ValueIdx Cert.KernelIdeal

def rem3w (x : BitVec 32) : BitVec 32 :=
  let d : BitVec 32 := Scalar.select (IntOp.cmpi .eq 3#32 0#32) 1#32 3#32
  let r : BitVec 32 := IntOp.remsi .host x d
  Scalar.select (IntOp.andi (IntOp.cmpi .ne (IntOp.cmpi .slt r 0#32) (IntOp.cmpi .slt d 0#32)) (IntOp.cmpi .ne r 0#32))
    (IntOp.addi r d) r

theorem rem3w_eq : ∀ k : Fin 64, rem3w (BitVec.ofNat 32 k.val) = BitVec.ofNat 32 (k.val % 3) := by decide

private theorem uitofp_cmpi_eq (x y : BitVec 32) :
    FloatOps.uitofp (F := Ideal) .f32 (IntOp.cmpi .eq x y) = if x = y then (1 : EReal) else 0 := by
  show (((BitVec.ofBool (x == y)).toNat : ℝ) : EReal) = _
  by_cases h : x = y <;> simp [h]

variable [Facts]
open Facts₀ Facts

def kerRem : IVec S64 32 :=
  let main_v0 : IVec S64 32 := iotaInDim S64 32 0
  let main_c : IVec S_ 32 := constantI S_ 32 3#32
  let call0_v0 : IVec S_ 32 := id main_c
  let call0_c : IVec S_ 32 := constantI S_ 32 0#32
  let call0_v1 : IVec S_ 1 := cmpi .eq call0_v0 call0_c
  let call0_c_0 : IVec S_ 32 := constantI S_ 32 1#32
  let call0_v2 : IVec S_ 32 := select call0_v1 call0_c_0 call0_v0
  let call0_v3 : IVec S64 32 := broadcastInDim S64 ![] bcast_S_S64 call0_v2
  let call0_v4 : IVec S64 32 := Host.remsi main_v0 call0_v3
  let call0_c_1 : IVec S_ 32 := constantI S_ 32 0#32
  let call0_v5 : IVec S64 32 := broadcastInDim S64 ![] bcast_S_S64 call0_c_1
  let call0_v6 : IVec S64 1 := cmpi .ne call0_v4 call0_v5
  let call0_c_2 : IVec S_ 32 := constantI S_ 32 0#32
  let call0_v7 : IVec S64 32 := broadcastInDim S64 ![] bcast_S_S64 call0_c_2
  let call0_v8 : IVec S64 1 := cmpi .slt call0_v4 call0_v7
  let call0_c_3 : IVec S_ 32 := constantI S_ 32 0#32
  let call0_v9 : IVec S_ 1 := cmpi .slt call0_v2 call0_c_3
  let call0_v10 : IVec S64 1 := broadcastInDim S64 ![] bcast_S_S64 call0_v9
  let call0_v11 : IVec S64 1 := cmpi .ne call0_v8 call0_v10
  let call0_v12 : IVec S64 1 := andi call0_v11 call0_v6
  let call0_v13 : IVec S64 32 := broadcastInDim S64 ![] bcast_S_S64 call0_v2
  let call0_v14 : IVec S64 32 := addi call0_v4 call0_v13
  select call0_v12 call0_v14 call0_v4

theorem kerRem_apply (k : Fin 64) : kerRem (ix1 k) = BitVec.ofNat 32 (k.val % 3) :=
  (show kerRem (ix1 k) = rem3w (BitVec.ofNat 32 k.val) from rfl).trans (rem3w_eq k)

def kerH0 (a0 : IVec S100000 32) : FVec Ideal S100000x64 .f32 :=
  let main_v1 : IVec S64 32 := kerRem
  let main_v2 : IVec S1x64 32 := broadcastInDim S1x64 ![1] bcast_S64_S1x64_1 main_v1
  let main_v3 : IVec S100000x1 32 := broadcastInDim S100000x1 ![0] bcast_S100000_S100000x1_0 a0
  let main_v4 : IVec S100000x64 32 := broadcastInDim S100000x64 ![0, 1] bcast_S1x64_S100000x64_0_1 main_v2
  let main_v5 : IVec S100000x64 32 := broadcastInDim S100000x64 ![0, 1] bcast_S100000x1_S100000x64_0_1 main_v3
  let main_v6 : IVec S100000x64 1 := cmpi .eq main_v4 main_v5
  uitofp .f32 main_v6

theorem kerH0_eq (a0 : IVec S100000 32) : kerH0 a0 = Spec.unc (Spec.H0 (fun n => a0 (ix1 n))) := by
  funext i
  obtain ⟨n, k, rfl⟩ : ∃ n k, i = ix2 n k := ⟨i 0, i 1, eq_ix2 i⟩
  have e4 : broadcastInDim S100000x64 ![0, 1] bcast_S1x64_S100000x64_0_1
      (broadcastInDim S1x64 ![1] bcast_S64_S1x64_1 kerRem) (ix2 n k) = kerRem (ix1 k) :=
    (broadcastInDim_apply _ _ _ (ix2 n k) (ix2 (0 : Fin 1) k) (fun a => match a with | ⟨0, _⟩ => rfl | ⟨1, _⟩ => rfl)).trans
      (broadcastInDim_apply _ _ _ _ (ix1 k) (fun a => match a with | ⟨0, _⟩ => rfl))
  have e5 : broadcastInDim S100000x64 ![0, 1] bcast_S100000x1_S100000x64_0_1
      (broadcastInDim S100000x1 ![0] bcast_S100000_S100000x1_0 a0) (ix2 n k) = a0 (ix1 n) :=
    (broadcastInDim_apply _ _ _ (ix2 n k) (ix2 n (0 : Fin 1)) (fun a => match a with | ⟨0, _⟩ => rfl | ⟨1, _⟩ => rfl)).trans
      (broadcastInDim_apply _ _ _ _ (ix1 n) (fun a => match a with | ⟨0, _⟩ => rfl))
  show FloatOps.uitofp (F := Ideal) .f32 (IntOp.cmpi .eq
      (broadcastInDim S100000x64 ![0, 1] bcast_S1x64_S100000x64_0_1 (broadcastInDim S1x64 ![1] bcast_S64_S1x64_1 kerRem) (ix2 n k))
      (broadcastInDim S100000x64 ![0, 1] bcast_S100000x1_S100000x64_0_1
        (broadcastInDim S100000x1 ![0] bcast_S100000_S100000x1_0 a0) (ix2 n k)))
    = if BitVec.ofNat 32 (k.val % 3) = a0 (ix1 n) then (1 : EReal) else 0
  rw [e4, e5, kerRem_apply, uitofp_cmpi_eq]

end Cert.KernelIdeal.ReadH
-- ==== Proof.KI.HostLayout.lean ====
import proofs.«412786_j57784490000510_2_alg».proof.KernelIdeal
import proofs.«412786_j57784490000510_2_alg».proof.Proof.Spec
import Idealize.ShloMosaic.Lib.Pipeline.Value
import Idealize.ShloMosaic.Lib.ValueLayout

noncomputable section

namespace Cert.KernelIdeal.ReadH

open Idealize.ShloMosaic Idealize.ShloMosaic.ValueIdx Cert.KernelIdeal

variable [Facts]
open Facts₀ Facts

def kerWcat (a4 : FVec Ideal S4x64x64 .f32) : FVec Ideal S256x64 .f32 :=
  let main_v8 : FVec Ideal S4x64x64 .f32 := transpose S4x64x64 [0, 2, 1] a4 transposes_S4x64x64_S4x64x64_0_2_1
  shapeCast S256x64 main_v8 shapeCasts_S4x64x64_S256x64

theorem kerWcat_apply (a4 : FVec Ideal S4x64x64 .f32) (j : Fin 256) (k : Fin 64) :
    kerWcat a4 (ix2 j k) = a4 (ix3 ⟨j.val / 64, by omega⟩ k ⟨j.val % 64, by omega⟩) := by
  show shapeCast S256x64 (transpose S4x64x64 [0, 2, 1] a4 transposes_S4x64x64_S4x64x64_0_2_1) shapeCasts_S4x64x64_S256x64 (ix2 j k) = _
  refine (shapeCast_apply _ _ (ix2 j k)
    (ix3 (⟨j.val / 64, by omega⟩ : Fin 4) (⟨j.val % 64, by omega⟩ : Fin 64) k) ?_).trans ?_
  · rw [Shape.rowMajor_val_three, Shape.rowMajor_val_two]
    show (j.val / 64 * 64 + j.val % 64) * 64 + k.val = j.val * 64 + k.val
    omega
  · exact transpose_ix3_021_apply a4 _ _ _ _

theorem kerWcat_eq (a4 : FVec Ideal S4x64x64 .f32) :
    Spec.cur (kerWcat a4) = Spec.wcat (fun t k d => a4 (ix3 t k d)) := by
  funext j k
  exact kerWcat_apply a4 j k

def kerW3T (a6 : FVec Ideal S192x64 .f32) : FVec Ideal S3x64x64 .f32 :=
  let main_v10 : FVec Ideal S3x64x64 .f32 := shapeCast S3x64x64 a6 shapeCasts_S192x64_S3x64x64
  transpose S3x64x64 [0, 2, 1] main_v10 transposes_S3x64x64_S3x64x64_0_2_1

theorem kerW3T_apply (a6 : FVec Ideal S192x64 .f32) (g : Fin 3) (d o : Fin 64) :
    kerW3T a6 (ix3 g d o) = a6 (ix2 ⟨g.val * 64 + o.val, by omega⟩ d) := by
  show transpose S3x64x64 [0, 2, 1] (shapeCast S3x64x64 a6 shapeCasts_S192x64_S3x64x64) transposes_S3x64x64_S3x64x64_0_2_1 (ix3 g d o) = _
  refine (transpose_ix3_021_apply _ _ g d o).trans ?_
  refine shapeCast_apply _ _ (ix3 g o d) (ix2 (⟨g.val * 64 + o.val, by omega⟩ : Fin 192) d) ?_
  rw [Shape.rowMajor_val_three, Shape.rowMajor_val_two]
  rfl

theorem kerW3T_eq (a6 : FVec Ideal S192x64 .f32) : Spec.stackT (kerW3T a6) = fun j d => a6 (ix2 j d) := by
  funext j d
  refine (kerW3T_apply a6 _ d _).trans ?_
  congr 2
  apply Fin.ext
  show j.val / 64 * 64 + j.val % 64 = j.val
  omega

def kerB3 (a8 : FVec Ideal S192 .f32) : FVec Ideal S3x64 .f32 := shapeCast S3x64 a8 shapeCasts_S192_S3x64

theorem kerB3_apply (a8 : FVec Ideal S192 .f32) (g : Fin 3) (o : Fin 64) :
    kerB3 a8 (ix2 g o) = a8 (ix1 ⟨g.val * 64 + o.val, by omega⟩) := by
  show shapeCast S3x64 a8 shapeCasts_S192_S3x64 (ix2 g o) = _
  refine shapeCast_apply _ _ (ix2 g o) (ix1 (⟨g.val * 64 + o.val, by omega⟩ : Fin 192)) ?_
  rw [Shape.rowMajor_val_two, Shape.rowMajor_val_one]
  rfl

theorem kerB3_eq (a8 : FVec Ideal S192 .f32) : Spec.stackB (kerB3 a8) = fun j => a8 (ix1 j) := by
  funext j
  refine (kerB3_apply a8 _ _).trans ?_
  congr 2
  apply Fin.ext
  show j.val / 64 * 64 + j.val % 64 = j.val
  omega

def kerLoT (a : FVec Ideal S64x128 .f32) : FVec Ideal S64x64 .f32 :=
  let v80 : FVec Ideal S64x64 .f32 := extractStridedSlice S64x64 ![0, 0] a slices_S64x128_S64x64_0_0
  transpose S64x64 [1, 0] v80 transposes_S64x64_S64x64_1_0

theorem kerLoT_apply (a : FVec Ideal S64x128 .f32) (d k : Fin 64) :
    kerLoT a (ix2 d k) = a (ix2 k ⟨d.val, by omega⟩) := by
  show transpose S64x64 [1, 0] (extractStridedSlice S64x64 ![0, 0] a slices_S64x128_S64x64_0_0) transposes_S64x64_S64x64_1_0 (ix2 d k) = _
  exact (transpose_ix2_apply _ _ d k).trans (slice2_axis1_apply 0 a _ k d _ (Nat.zero_add _).symm)

def kerHiT (a : FVec Ideal S64x128 .f32) : FVec Ideal S64x64 .f32 :=
  let v82 : FVec Ideal S64x64 .f32 := extractStridedSlice S64x64 ![0, 64] a slices_S64x128_S64x64_0_64
  transpose S64x64 [1, 0] v82 transposes_S64x64_S64x64_1_0

theorem kerHiT_apply (a : FVec Ideal S64x128 .f32) (d k : Fin 64) :
    kerHiT a (ix2 d k) = a (ix2 k ⟨64 + d.val, by omega⟩) := by
  show transpose S64x64 [1, 0] (extractStridedSlice S64x64 ![0, 64] a slices_S64x128_S64x64_0_64) transposes_S64x64_S64x64_1_0 (ix2 d k) = _
  exact (transpose_ix2_apply _ _ d k).trans (slice2_axis1_apply 64 a _ k d _ rfl)

def kerT64 (a : FVec Ideal S64x64 .f32) : FVec Ideal S64x64 .f32 := transpose S64x64 [1, 0] a transposes_S64x64_S64x64_1_0

theorem kerT64_apply (a : FVec Ideal S64x64 .f32) (d k : Fin 64) : kerT64 a (ix2 d k) = a (ix2 k d) :=
  transpose_ix2_apply a _ d k

def kerT2 (a : FVec Ideal S2x64 .f32) : FVec Ideal S64x2 .f32 := transpose S64x2 [1, 0] a transposes_S2x64_S64x2_1_0

theorem kerT2_apply (a : FVec Ideal S2x64 .f32) (k : Fin 64) (j : Fin 2) : kerT2 a (ix2 k j) = a (ix2 j k) :=
  transpose_ix2_apply a _ k j

def kerT1 (a : FVec Ideal S1x64 .f32) : FVec Ideal S64x1 .f32 := transpose S64x1 [1, 0] a transposes_S1x64_S64x1_1_0

theorem kerT1_apply (a : FVec Ideal S1x64 .f32) (k : Fin 64) (j : Fin 1) : kerT1 a (ix2 k j) = a (ix2 j k) :=
  transpose_ix2_apply a _ k j

end Cert.KernelIdeal.ReadH
-- ==== Proof.KI.ValueHostB.lean ====
import proofs.«412786_j57784490000510_2_alg».proof.Proof.Gen.KernelIdeal.Launch
import proofs.«412786_j57784490000510_2_alg».proof.Proof.KI.HostInit
import proofs.«412786_j57784490000510_2_alg».proof.Proof.KI.HostLayout

noncomputable section

namespace Cert.KernelIdeal.ReadH

open Idealize.ShloMosaic Idealize.ShloMosaic.TcCoe Idealize.ShloMosaic.ValueIdx Idealize.ShloMosaic.StableHlo Cert.KernelIdeal

variable (V : Valuation τ sig (Elt Ideal))

theorem st1_v1 : (StableHlo.after (Gen.hostOps0_1 (F := Ideal)) (StableHlo.after (Gen.hostOps0 (F := Ideal)) V) (Proc.devRef .tc main_v1) : IVec S64 32) = kerRem := by
  dsimp only [Gen.hostOps0_1, Gen.hostOps0]; after_results_simp; rfl

theorem st2_v7 (h : (V main_v1 : IVec S64 32) = kerRem) :
    (StableHlo.after (Gen.hostOps0_2 (F := Ideal)) V (Proc.devRef .tc main_v7) : FVec Ideal S100000x64 .f32) = kerH0 (V main_arg0) := by
  dsimp only [Gen.hostOps0_2]; after_results; rw [h]; rfl

theorem st2_v9 : (StableHlo.after (Gen.hostOps0_2 (F := Ideal)) V (Proc.devRef .tc main_v9) : FVec Ideal S256x64 .f32) = kerWcat (V main_arg4) := by
  dsimp only [Gen.hostOps0_2]; after_results; rfl

theorem st2_v12 : (StableHlo.after (Gen.hostOps0_2 (F := Ideal)) V (Proc.devRef .tc main_v12) : FVec Ideal S3x64x64 .f32) = kerW3T (V main_arg6) := by
  dsimp only [Gen.hostOps0_2]; after_results; rfl

theorem st2_v13 : (StableHlo.after (Gen.hostOps0_2 (F := Ideal)) V (Proc.devRef .tc main_v13) : FVec Ideal S3x64x64 .f32) = kerW3T (V main_arg7) := by
  dsimp only [Gen.hostOps0_2]; after_results; rfl

theorem st2_v14 : (StableHlo.after (Gen.hostOps0_2 (F := Ideal)) V (Proc.devRef .tc main_v14) : FVec Ideal S3x64 .f32) = kerB3 (V main_arg8) := by
  dsimp only [Gen.hostOps0_2]; after_results; rfl

theorem st2_v15 : (StableHlo.after (Gen.hostOps0_2 (F := Ideal)) V (Proc.devRef .tc main_v15) : FVec Ideal S3x64 .f32) = kerB3 (V main_arg9) := by
  dsimp only [Gen.hostOps0_2]; after_results; rfl

theorem st12_v81 : (StableHlo.after (Gen.hostOps4 (F := Ideal)) V (Proc.devRef .tc main_v81) : FVec Ideal S64x64 .f32) = kerLoT (V main_arg10) := by
  dsimp only [Gen.hostOps4]; after_results; rfl

theorem st12_v83 : (StableHlo.after (Gen.hostOps4 (F := Ideal)) V (Proc.devRef .tc main_v83) : FVec Ideal S64x64 .f32) = kerHiT (V main_arg10) := by
  dsimp only [Gen.hostOps4]; after_results; rfl

theorem st12_v84 : (StableHlo.after (Gen.hostOps4 (F := Ideal)) V (Proc.devRef .tc main_v84) : FVec Ideal S64x2 .f32) = kerT2 (V main_arg12) := by
  dsimp only [Gen.hostOps4]; after_results; rfl

theorem st12_v86 : (StableHlo.after (Gen.hostOps4 (F := Ideal)) V (Proc.devRef .tc main_v86) : FVec Ideal S64x64 .f32) = kerLoT (V main_arg18) := by
  dsimp only [Gen.hostOps4]; after_results; rfl

theorem st12_v88 : (StableHlo.after (Gen.hostOps4 (F := Ideal)) V (Proc.devRef .tc main_v88) : FVec Ideal S64x64 .f32) = kerHiT (V main_arg18) := by
  dsimp only [Gen.hostOps4]; after_results; rfl

theorem st12_v89 : (StableHlo.after (Gen.hostOps4 (F := Ideal)) V (Proc.devRef .tc main_v89) : FVec Ideal S64x1 .f32) = kerT1 (V main_arg20) := by
  dsimp only [Gen.hostOps4]; after_results; rfl

theorem st12_v90 : (StableHlo.after (Gen.hostOps4 (F := Ideal)) V (Proc.devRef .tc main_v90) : FVec Ideal S64x64 .f32) = kerT64 (V main_arg14) := by
  dsimp only [Gen.hostOps4]; after_results; rfl

theorem st12_v91 : (StableHlo.after (Gen.hostOps4 (F := Ideal)) V (Proc.devRef .tc main_v91) : FVec Ideal S64x2 .f32) = kerT2 (V main_arg16) := by
  dsimp only [Gen.hostOps4]; after_results; rfl

theorem st12_v92 : (StableHlo.after (Gen.hostOps4 (F := Ideal)) V (Proc.devRef .tc main_v92) : FVec Ideal S64x64 .f32) = kerT64 (V main_arg22) := by
  dsimp only [Gen.hostOps4]; after_results; rfl

theorem st12_v93 : (StableHlo.after (Gen.hostOps4 (F := Ideal)) V (Proc.devRef .tc main_v93) : FVec Ideal S64x1 .f32) = kerT1 (V main_arg24) := by
  dsimp only [Gen.hostOps4]; after_results; rfl

end Cert.KernelIdeal.ReadH

end
-- ==== Proof.KI.HostIdx.lean ====
import Idealize.ShloMosaic.PureOps.Ideal
import Idealize.ShloMosaic.PureOps.Ideal.Laws
import Idealize.ShloMosaic.Lib.ValueIdx
import proofs.«412786_j57784490000510_2_alg».proof.Proof.Spec

noncomputable section

namespace Cert.KernelIdeal.ReadH

open Idealize.ShloMosaic Idealize.ShloMosaic.ValueIdx
open scoped BigOperators

abbrev rowScatter (R E K : Nat)
    (wf : ScatterDims.WF ⟨2, ![R, K]⟩ ⟨2, ![E, 1]⟩ ⟨2, ![E, K]⟩ [1] [0] [0] 1) :
    ScatterDims ⟨2, ![R, K]⟩ ⟨2, ![E, 1]⟩ ⟨2, ![E, K]⟩ where
  updateWindowDims := [1]
  insertedWindowDims := [0]
  scatterDimsToOperandDims := [0]
  indexVectorDim := 1
  wf := wf

section Scatter
variable {R E K w : Nat} (wf : ScatterDims.WF ⟨2, ![R, K]⟩ ⟨2, ![E, 1]⟩ ⟨2, ![E, K]⟩ [1] [0] [0] 1)

theorem rowScatter_siIdx (j : (⟨2, ![E, K]⟩ : Shape).Idx) (c : Fin (rowScatter R E K wf).scatterDimsToOperandDims.length) :
    (rowScatter R E K wf).siIdx j c = ix2 (j 0) 0 := by
  funext b
  match b with
  | ⟨0, _⟩ => rfl
  | ⟨1, _⟩ => exact Fin.ext (Nat.lt_one_iff.mp c.isLt)

theorem rowScatter_start0 (j : (⟨2, ![E, K]⟩ : Shape).Idx) (idx : IVec ⟨2, ![E, 1]⟩ w) :
    (rowScatter R E K wf).start j idx 0 = (idx (ix2 (j 0) 0)).toInt := by
  unfold ScatterDims.start
  rw [dif_pos (show (0 : Fin 2) ∈ (rowScatter R E K wf).scatterDimsToOperandDims from List.mem_singleton.mpr rfl)]
  rw [rowScatter_siIdx]
  rfl

theorem rowScatter_start1 (j : (⟨2, ![E, K]⟩ : Shape).Idx) (idx : IVec ⟨2, ![E, 1]⟩ w) :
    (rowScatter R E K wf).start j idx 1 = 0 := by
  unfold ScatterDims.start
  rw [dif_neg (show (1 : Fin 2) ∉ ([0] : List (Fin 2)) by decide)]

theorem rowScatter_window0 (j : (⟨2, ![E, K]⟩ : Shape).Idx) :
    (rowScatter R E K wf).window j 0 = 0 := by
  unfold ScatterDims.window
  have h : (0 : Fin 2) ∉ (rowScatter R E K wf).sKept := by
    show (0 : Fin 2) ∉ (List.finRange 2).filter (· ∉ ([0] : List (Fin 2)))
    decide
  rw [dif_neg h]

theorem rowScatter_window1 (j : (⟨2, ![E, K]⟩ : Shape).Idx) :
    (rowScatter R E K wf).window j 1 = (j 1).val := by
  unfold ScatterDims.window
  have h : (1 : Fin 2) ∈ (rowScatter R E K wf).sKept := by
    show (1 : Fin 2) ∈ (List.finRange 2).filter (· ∉ ([0] : List (Fin 2)))
    decide
  rw [dif_pos h]
  rfl

theorem rowScatter_start0' (e : Fin E) (k : Fin K) (idx : IVec ⟨2, ![E, 1]⟩ w) :
    (rowScatter R E K wf).start (ix2 e k) idx 0 = (idx (ix2 e 0)).toInt :=
  (rowScatter_start0 wf (ix2 e k) idx).trans rfl

theorem rowScatter_window1' (e : Fin E) (k : Fin K) :
    (rowScatter R E K wf).window (ix2 e k) 1 = k.val :=
  (rowScatter_window1 wf (ix2 e k)).trans rfl

theorem rowScatter_resultIdx (idx : IVec ⟨2, ![E, 1]⟩ 32) (e : Fin E) (k : Fin K) :
    (rowScatter R E K wf).resultIdx? (ix2 e k) idx = (Spec.targetOf R (idx (ix2 e 0))).map (fun r => ix2 r k) := by
  unfold ScatterDims.resultIdx? Spec.targetOf
  by_cases h : 0 ≤ (idx (ix2 e 0)).toInt ∧ (idx (ix2 e 0)).toInt < (R : Int)
  · rw [dif_pos h, dif_pos]
    · simp only [Option.map_some]
      congr 1
      funext a
      match a with
      | ⟨0, _⟩ =>
        apply Fin.ext
        show ((rowScatter R E K wf).start (ix2 e k) idx 0 + ((rowScatter R E K wf).window (ix2 e k) 0 : Nat)).toNat = _
        rw [rowScatter_start0', rowScatter_window0]
        simp
      | ⟨1, _⟩ =>
        apply Fin.ext
        show ((rowScatter R E K wf).start (ix2 e k) idx 1 + ((rowScatter R E K wf).window (ix2 e k) 1 : Nat)).toNat = _
        rw [rowScatter_start1, rowScatter_window1']
        show ((0 : Int) + (k.val : Int)).toNat = k.val
        omega
    · intro a
      match a with
      | ⟨0, _⟩ =>
        show 0 ≤ (rowScatter R E K wf).start (ix2 e k) idx 0 + ((rowScatter R E K wf).window (ix2 e k) 0 : Nat) ∧
          (rowScatter R E K wf).start (ix2 e k) idx 0 + ((rowScatter R E K wf).window (ix2 e k) 0 : Nat) < (R : Int)
        rw [rowScatter_start0', rowScatter_window0]
        simpa using h
      | ⟨1, _⟩ =>
        show 0 ≤ (rowScatter R E K wf).start (ix2 e k) idx 1 + ((rowScatter R E K wf).window (ix2 e k) 1 : Nat) ∧
          (rowScatter R E K wf).start (ix2 e k) idx 1 + ((rowScatter R E K wf).window (ix2 e k) 1 : Nat) < (K : Int)
        rw [rowScatter_start1, rowScatter_window1']
        have := k.isLt
        show 0 ≤ (0 : Int) + (k.val : Int) ∧ (0 : Int) + (k.val : Int) < (K : Int)
        omega
  · rw [dif_neg h, dif_neg]
    · rfl
    · intro hall
      apply h
      have h0 := hall 0
      rw [rowScatter_start0' wf e k idx, rowScatter_window0] at h0
      simpa using h0

end Scatter

abbrev rowGather (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

section Gather
variable {N E K w : Nat} (wf : GatherDims.WF ⟨2, ![N, K]⟩ ⟨2, ![E, 1]⟩ ⟨2, ![E, K]⟩ [1] [0] [] [0] [] 1 ![1, K])

theorem rowGather_siIdx (j : (⟨2, ![E, K]⟩ : Shape).Idx) (c : Fin (rowGather N E K wf).startIndexMap.length) :
    (rowGather N E K wf).siIdx j c = ix2 (j 0) 0 := by
  funext b
  match b with
  | ⟨0, _⟩ => rfl
  | ⟨1, _⟩ => exact Fin.ext (Nat.lt_one_iff.mp c.isLt)

theorem rowGather_operandIdx (hN : 0 < N) (idx : IVec ⟨2, ![E, 1]⟩ w) (e : Fin E) (k : Fin K) :
    (rowGather N E K wf).operandIdx (ix2 e k) idx = ix2 ⟨min (idx (ix2 e 0)).toInt.toNat (N - 1), by omega⟩ k := by
  funext a
  have hs0 : (0 : Fin 2) ∉ (rowGather N E K wf).sKept := by
    show (0 : Fin 2) ∉ (List.finRange 2).filter (· ∉ (([0] : List (Fin 2)) ++ []))
    decide
  have hs1 : (1 : Fin 2) ∈ (rowGather N E K wf).sKept := by
    show (1 : Fin 2) ∈ (List.finRange 2).filter (· ∉ (([0] : List (Fin 2)) ++ []))
    decide
  match a with
  | ⟨0, _⟩ =>
    apply Fin.ext
    show (rowGather N E K wf).start (ix2 e k) idx 0 + (rowGather N E K wf).batchCoord (ix2 e k) 0
      + (rowGather N E K wf).offCoord (ix2 e k) 0 = _
    rw [GatherDims.batchCoord_eq_zero _ _ _ List.not_mem_nil, GatherDims.offCoord_eq_zero _ _ _ hs0]
    unfold GatherDims.start
    rw [dif_pos (show (0 : Fin 2) ∈ (rowGather N E K wf).startIndexMap from List.mem_singleton.mpr rfl)]
    rw [rowGather_siIdx]
    rfl
  | ⟨1, _⟩ =>
    apply Fin.ext
    show (rowGather N E K wf).start (ix2 e k) idx 1 + (rowGather N E K wf).batchCoord (ix2 e k) 1
      + (rowGather N E K wf).offCoord (ix2 e k) 1 = k.val
    rw [GatherDims.batchCoord_eq_zero _ _ _ List.not_mem_nil]
    unfold GatherDims.start GatherDims.offCoord
    rw [dif_neg (show (1 : Fin 2) ∉ ([0] : List (Fin 2)) by decide), dif_pos hs1]
    show 0 + 0 + k.val = k.val
    omega

theorem rowGather_apply {α : Type} (hN : 0 < N) (x : (⟨2, ![N, K]⟩ : Shape).Idx → α) (idx : IVec ⟨2, ![E, 1]⟩ w)
    (e : Fin E) (k : Fin K) :
    Host.gather (rowGather N E K wf) x idx (ix2 e k) = x (ix2 ⟨min (idx (ix2 e 0)).toInt.toNat (N - 1), by omega⟩ k) := by
  unfold Host.gather
  rw [rowGather_operandIdx wf hN]

end Gather

section ScatterSum
variable {R E K : Nat} (wf : ScatterDims.WF ⟨2, ![R, K]⟩ ⟨2, ![E, 1]⟩ ⟨2, ![E, K]⟩ [1] [0] [0] 1)

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

theorem rowScatter_add_apply (x : (⟨2, ![R, K]⟩ : Shape).Idx → EReal) (idx : IVec ⟨2, ![E, 1]⟩ 32)
    (upd : (⟨2, ![E, K]⟩ : Shape).Idx → EReal) (r : Fin R) (k : Fin K) :
    Ideal.hostScatterAdd (rowScatter R E K wf) x idx upd (ix2 r k)
      = x (ix2 r k) + ∑ e ∈ Finset.univ.filter (fun e => Spec.targetOf R (idx (ix2 e 0)) = some r), upd (ix2 e k) := by
  unfold Ideal.hostScatterAdd
  congr 1
  rw [Finset.sum_filter, sum_idx2, Finset.sum_filter]
  refine Finset.sum_congr rfl fun e _ => ?_
  simp only [rowScatter_resultIdx]
  cases hT : Spec.targetOf R (idx (ix2 e 0)) with
  | none => simp
  | some r' =>
    simp only [Option.map_some, Option.some.injEq, ix2_inj]
    by_cases hr : r' = r
    · subst hr
      simp
    · simp [hr]

end ScatterSum

end Cert.KernelIdeal.ReadH
end
-- ==== Proof.KI.HostStep.lean ====
import proofs.«412786_j57784490000510_2_alg».proof.Proof.KI.HostIdx
import Idealize.ShloMosaic.PureOps.Ideal.Laws
import Idealize.ShloMosaic.Lib.ValueIdx
import Idealize.ShloMosaic.Lib.Pipeline.Value

noncomputable section

namespace Cert.KernelIdeal.ReadH

open Idealize.ShloMosaic Idealize.ShloMosaic.ValueIdx
open scoped BigOperators

theorem bcastCol_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e 0) = v (ix1 e) := by
  refine broadcastInDim_apply _ h v _ (ix1 e) fun a => ?_
  match a with
  | ⟨0, _⟩ =>
    have := e.isLt
    show e.val = if n = 1 then 0 else e.val
    split <;> omega

section Dot
variable {M K N : Nat}

theorem plainDot_apply {φ₁ φ₂ : FTy} (prec : Option ContractPrecision) (sched : HostSchedule)
    (lhs : FVec Ideal ⟨2, ![M, K]⟩ φ₁) (rhs : FVec Ideal ⟨2, ![K, N]⟩ φ₂) (m : Fin M) (n : Fin N) :
    FloatOps.dotGeneral (DotDims.plain M K N) prec sched lhs rhs (ix2 m n) = ∑ t : Fin K, lhs (ix2 m t) * rhs (ix2 t n) := by
  rw [Ideal.dotGeneral_apply]
  rw [← Equiv.sum_comp (contrEquiv1 (DotDims.plain M K N) K rfl rfl).symm]
  refine Finset.sum_congr rfl fun t _ => ?_
  have hk := contrEquiv1_symm_val (DotDims.plain M K N) K rfl rfl t
  have hl : (DotDims.plain M K N).lhsIdx (ix2 m n) ((contrEquiv1 (DotDims.plain M K N) K rfl rfl).symm t) = ix2 m t := by
    funext a
    match a with
    | ⟨0, _⟩ => exact Fin.ext rfl
    | ⟨1, _⟩ => exact Fin.ext hk
  have hr : (DotDims.plain M K N).rhsIdx (ix2 m n) ((contrEquiv1 (DotDims.plain M K N) K rfl rfl).symm t) = ix2 t n := by
    funext a
    match a with
    | ⟨0, _⟩ => exact Fin.ext hk
    | ⟨1, _⟩ => exact Fin.ext rfl
  rw [hl, hr]

end Dot

theorem bcastOfCol_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply _ h v _ (ix2 p 0) fun a => ?_
  match a with
  | ⟨0, _⟩ =>
    have := p.isLt
    show p.val = if n = 1 then 0 else p.val
    split <;> omega
  | ⟨1, _⟩ =>
    show (0 : Nat) = if (1 : Nat) = 1 then 0 else q.val
    rfl

theorem bcastOfRow_apply {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) := by
  refine broadcastInDim_apply _ h v _ (ix2 0 q) fun a => ?_
  match a with
  | ⟨0, _⟩ =>
    show (0 : Nat) = if (1 : Nat) = 1 then 0 else p.val
    rfl
  | ⟨1, _⟩ =>
    have := q.isLt
    show q.val = if m = 1 then 0 else q.val
    split <;> omega

theorem oneHot_entry_eq (x y : BitVec 32) :
    (FloatOps.uitofp (F := Ideal) .f32 (IntOp.cmpi .eq x y) : EReal) = if x = y then 1 else 0 := by
  show (((BitVec.ofBool (x == y)).toNat : ℝ) : EReal) = _
  by_cases h : x = y
  · subst h; simp
  · have : (x == y) = false := by simpa using h
    rw [this, if_neg h]; simp

theorem stepW_uitofp_apply {s : Shape} {w : Nat} (x : IVec s w) (i : s.Idx) :
    (uitofp .f32 x : FVec Ideal s .f32) i = FloatOps.uitofp (F := Ideal) .f32 (x i) := rfl
theorem stepW_cmpi_apply {s : Shape} {w : Nat} (p : CmpIPredicate) (x y : IVec s w) (i : s.Idx) :
    cmpi p x y i = IntOp.cmpi p (x i) (y i) := rfl
theorem iotaRow_apply {m : Nat} (q : Fin m) :
    iotaInDim (⟨2, ![1, m]⟩ : Shape) 32 1 (ix2 0 q) = BitVec.ofNat 32 q.val := rfl

section Step
variable {N E K R : Nat}
  (wfS : ScatterDims.WF ⟨2, ![R, K]⟩ ⟨2, ![E, 1]⟩ ⟨2, ![E, K]⟩ [1] [0] [0] 1)
  (wfG : GatherDims.WF ⟨2, ![N, K]⟩ ⟨2, ![E, 1]⟩ ⟨2, ![E, K]⟩ [1] [0] [] [0] [] 1 ![1, K])
  (hb : (⟨1, ![E]⟩ : Shape).BroadcastsInDim ⟨2, ![E, 1]⟩ ![0])
  (hlt : FTy.bits .bf16 < FTy.bits .f32)

def segStepG (H : FVec Ideal ⟨2, ![N, K]⟩ .f32) (x0 : FVec Ideal ⟨2, ![R, K]⟩ .f32) (src key : IVec ⟨1, ![E]⟩ 32) :
    FVec Ideal ⟨2, ![R, K]⟩ .f32 :=
  Host.scatterAdd (rowScatter R E K wfS) x0 (broadcastInDim ⟨2, ![E, 1]⟩ ![0] hb key)
    (extf .f32 (Host.gather (rowGather N E K wfG) (truncf .bf16 H hlt) (broadcastInDim ⟨2, ![E, 1]⟩ ![0] hb src)) hlt)

theorem segStepG_apply (hN : 0 < N) (H : FVec Ideal ⟨2, ![N, K]⟩ .f32) (x0 : FVec Ideal ⟨2, ![R, K]⟩ .f32)
    (src key : IVec ⟨1, ![E]⟩ 32) (r : Fin R) (k : Fin K) (hx0 : x0 (ix2 r k) = 0)
    (row : Fin E → Fin N) (hrow : ∀ e, min (src (ix1 e)).toInt.toNat (N - 1) = (row e).val)
    (tgt : Fin E → Option (Fin R)) (htgt : ∀ e, Spec.targetOf R (key (ix1 e)) = tgt e) :
    segStepG wfS wfG hb hlt H x0 src key (ix2 r k)
      = ∑ e ∈ Finset.univ.filter (fun e => tgt e = some r), H (ix2 (row e) k) := by
  unfold segStepG Host.scatterAdd
  rw [Ideal.hostScatterAdd_def, rowScatter_add_apply, hx0, zero_add]
  refine Finset.sum_congr (Finset.filter_congr fun e _ => ?_) fun e _ => ?_
  · rw [bcastCol_apply, htgt]
  · rw [extf_apply, rowGather_apply wfG hN, truncf_apply]
    refine congrArg H (ix2_inj.mpr ⟨Fin.ext ?_, rfl⟩)
    show min (broadcastInDim ⟨2, ![E, 1]⟩ ![0] hb src (ix2 e 0)).toInt.toNat (N - 1) = (row e).val
    rw [bcastCol_apply]
    exact hrow e

end Step

section Bias
variable {E R T K : Nat}
  (wfS : ScatterDims.WF ⟨2, ![R, T]⟩ ⟨2, ![E, 1]⟩ ⟨2, ![E, T]⟩ [1] [0] [0] 1)
  (hb : (⟨1, ![E]⟩ : Shape).BroadcastsInDim ⟨2, ![E, 1]⟩ ![0])

def biasG (oh : FVec Ideal ⟨2, ![E, T]⟩ .f32) (x0 : FVec Ideal ⟨2, ![R, T]⟩ .f32) (dst : IVec ⟨1, ![E]⟩ 32)
    (b : FVec Ideal ⟨2, ![T, K]⟩ .f32) : FVec Ideal ⟨2, ![R, K]⟩ .f32 :=
  Host.dotGeneral (DotDims.plain R T K) none
    (Host.scatterAdd (rowScatter R E T wfS) x0 (broadcastInDim ⟨2, ![E, 1]⟩ ![0] hb dst) oh) b

theorem biasG_apply (oh : FVec Ideal ⟨2, ![E, T]⟩ .f32) (x0 : FVec Ideal ⟨2, ![R, T]⟩ .f32) (dst : IVec ⟨1, ![E]⟩ 32)
    (b : FVec Ideal ⟨2, ![T, K]⟩ .f32) (r : Fin R) (k : Fin K) (hx0 : ∀ t, x0 (ix2 r t) = 0)
    (oh' : Fin E → Fin T → EReal) (hoh : ∀ e t, oh (ix2 e t) = oh' e t)
    (tgt : Fin E → Option (Fin R)) (htgt : ∀ e, Spec.targetOf R (dst (ix1 e)) = tgt e) :
    biasG wfS hb oh x0 dst b (ix2 r k)
      = ∑ t : Fin T, (∑ e ∈ Finset.univ.filter (fun e => tgt e = some r), oh' e t) * b (ix2 t k) := by
  unfold biasG Host.dotGeneral
  rw [plainDot_apply]
  refine Finset.sum_congr rfl fun t _ => ?_
  refine congrArg (· * b (ix2 t k)) ?_
  unfold Host.scatterAdd
  rw [Ideal.hostScatterAdd_def, rowScatter_add_apply, hx0, zero_add]
  refine Finset.sum_congr (Finset.filter_congr fun e _ => ?_) fun e _ => hoh e t
  rw [bcastCol_apply, htgt]

end Bias

section OneHot
variable {E T : Nat}
  (hb : (⟨1, ![E]⟩ : Shape).BroadcastsInDim ⟨2, ![E, 1]⟩ ![0])
  (hc : (⟨2, ![E, 1]⟩ : Shape).BroadcastsInDim ⟨2, ![E, T]⟩ ![0, 1])
  (hr : (⟨2, ![1, T]⟩ : Shape).BroadcastsInDim ⟨2, ![E, T]⟩ ![0, 1])

def oneHotG (ty : IVec ⟨1, ![E]⟩ 32) : FVec Ideal ⟨2, ![E, T]⟩ .f32 :=
  uitofp .f32 (cmpi .eq
    (broadcastInDim ⟨2, ![E, T]⟩ ![0, 1] hc (broadcastInDim ⟨2, ![E, 1]⟩ ![0] hb ty))
    (broadcastInDim ⟨2, ![E, T]⟩ ![0, 1] hr (iotaInDim ⟨2, ![1, T]⟩ 32 1)))

theorem oneHotG_apply (ty : IVec ⟨1, ![E]⟩ 32) (e : Fin E) (t : Fin T) :
    oneHotG hb hc hr ty (ix2 e t) = if ty (ix1 e) = BitVec.ofNat 32 t.val then 1 else 0 := by
  unfold oneHotG
  rw [stepW_uitofp_apply, stepW_cmpi_apply, bcastOfCol_apply, bcastCol_apply, bcastOfRow_apply, iotaRow_apply, oneHot_entry_eq]

end OneHot

theorem srcRow_eq (x : BitVec 32) :
    min (Scalar.select (IntOp.cmpi .slt x 0#32) (IntOp.addi x 100000#32) x).toInt.toNat (100000 - 1)
      = (Spec.rowOf Spec.N (by decide) x).val := by
  show min (if BitVec.ofBool (x.slt 0#32) = 1 then x + 100000#32 else x).toInt.toNat (100000 - 1)
    = (max 0 (min (((100000 : Nat) : Int) - 1) (if x.slt 0#32 then x + BitVec.ofNat 32 100000 else x).toInt)).toNat
  cases hb : x.slt 0#32
  · rw [if_neg (by decide), if_neg (by decide)]
    omega
  · rw [if_pos (by decide), if_pos rfl]
    omega

theorem spec_flat_apply (H : (⟨2, ![Spec.N, 64]⟩ : Shape).Idx → EReal) (src : Fin Spec.E → Fin Spec.N)
    (tgt : Fin Spec.E → Option (Fin (4 * Spec.N))) (n : Fin Spec.N) (c : Fin 256) :
    Spec.unc (Spec.flatK (Spec.segK (Spec.cur H) src tgt)) (ix2 n c)
      = ∑ e ∈ Finset.univ.filter (fun e => tgt e
          = some ⟨4 * n.val + c.val / 64, by have := n.isLt; have := c.isLt; omega⟩),
        H (ix2 (src e) ⟨c.val % 64, Nat.mod_lt _ (by omega)⟩) := by
  unfold Spec.unc Spec.flatK Spec.segK Spec.cur
  rfl

theorem spec_bias_apply (oh : Fin Spec.E → Fin 4 → EReal) (dst : Fin Spec.E → Option (Fin Spec.N))
    (b : (⟨2, ![4, 64]⟩ : Shape).Idx → EReal) (n : Fin Spec.N) (k : Fin 64) :
    Spec.unc (fun n k => ∑ t : Fin 4, Spec.degK oh dst n t * b (ix2 t k)) (ix2 n k)
      = ∑ t : Fin 4, (∑ e ∈ Finset.univ.filter (fun e => dst e = some n), oh e t) * b (ix2 t k) := by
  unfold Spec.unc Spec.degK
  rfl

end Cert.KernelIdeal.ReadH
end
-- ==== Proof.KI.HostSeg.lean ====
import proofs.«412786_j57784490000510_2_alg».proof.Proof.KI.HostSegDefs
import proofs.«412786_j57784490000510_2_alg».proof.Proof.KI.HostStep

noncomputable section

namespace Cert.KernelIdeal.ReadH

open Idealize.ShloMosaic Idealize.ShloMosaic.ValueIdx
open scoped BigOperators
open Cert.KernelIdeal

variable [Facts₀]
open Facts₀

theorem bcastZero_apply {t : Shape} (h : S_.BroadcastsInDim t (![] : Fin 0 → Fin t.rank)) (i : t.Idx) :
    broadcastInDim t ![] h (constant (F := Ideal) S_ .f32 0x00000000#32) i = 0 := by
  show Ideal.ofBits .f32 0x00000000#32 = 0
  exact Ideal.ofBits_zero_f32

theorem kerSrc_row (a1 : IVec S1600000 32) (e : Fin 1600000) :
    min (kerSrc a1 (ix1 e)).toInt.toNat (100000 - 1) = (Spec.rowOf Spec.N (by decide) (a1 (ix1 e))).val :=
  srcRow_eq (a1 (ix1 e))

theorem kerSegK_unfold (H : FVec Ideal S100000x64 .f32) (a1 key : IVec S1600000 32) :
    kerSegK H a1 key = shapeCast S100000x256
      (segStepG (N := 100000) (E := 1600000) (K := 64) (R := 400000)
        scatter_S400000x64_S1600000x1_S1600000x64_1_0_0_1_wf
        gather_S100000x64_S1600000x1_S1600000x64_1_0_n_n_0_1_164_wf
        bcast_S1600000_S1600000x1_0 bitsLt_bf16_f32 H
        (broadcastInDim S400000x64 ![] bcast_S_S400000x64 (constant (F := Ideal) S_ .f32 0x00000000#32))
        (kerSrc a1) key)
      shapeCasts_S400000x64_S100000x256 := rfl

theorem kerSegK_eq (H : FVec Ideal S100000x64 .f32) (a1 key : IVec S1600000 32) :
    kerSegK H a1 key = Spec.unc (Spec.flatK (Spec.segK (Spec.cur H)
      (fun e => Spec.rowOf Spec.N (by decide) (a1 (ix1 e)))
      (fun e => Spec.targetOf (4 * Spec.N) (key (ix1 e))))) := by
  funext j
  obtain ⟨n, c, rfl⟩ : ∃ n c, j = ix2 n c := ⟨j 0, j 1, eq_ix2 j⟩
  have hn := n.isLt
  have hc := c.isLt
  have hk : (S400000x64.rowMajor (ix2 (⟨4 * n.val + c.val / 64, by omega⟩ : Fin 400000)
        (⟨c.val % 64, Nat.mod_lt _ (by omega)⟩ : Fin 64))).val = (S100000x256.rowMajor (ix2 n c)).val := by
    rw [Shape.rowMajor_val_two, Shape.rowMajor_val_two]
    show (4 * n.val + c.val / 64) * 64 + c.val % 64 = n.val * 256 + c.val
    omega
  exact (congrFun (kerSegK_unfold H a1 key) (ix2 n c)).trans
    ((shapeCast_apply _ shapeCasts_S400000x64_S100000x256 (ix2 n c) _ hk).trans
      ((segStepG_apply _ _ _ _ (by decide) H _ (kerSrc a1) key _ _ (bcastZero_apply _ _)
          (fun e => Spec.rowOf Spec.N (by decide) (a1 (ix1 e))) (kerSrc_row a1)
          (fun e => Spec.targetOf 400000 (key (ix1 e))) (fun e => rfl)).trans
        (spec_flat_apply H _ (fun e => Spec.targetOf (4 * Spec.N) (key (ix1 e))) n c).symm))

theorem kerSeg_eq (H : FVec Ideal S100000x64 .f32) (a1 a2 a3 : IVec S1600000 32) :
    kerSeg H a1 a2 a3 = Spec.unc (Spec.flatK (Spec.segK (Spec.cur H)
      (fun e => Spec.rowOf Spec.N (by decide) (a1 (ix1 e)))
      (fun e => Spec.targetOf (4 * Spec.N) (Spec.keyWord (a2 (ix1 e)) (a3 (ix1 e)))))) :=
  kerSegK_eq H a1 (kerKey a2 a3)

theorem kerOneHot_apply (a3 : IVec S1600000 32) (e : Fin 1600000) (t : Fin 4) :
    kerOneHot a3 (ix2 e t) = Spec.oneHot (a3 (ix1 e)) t :=
  oneHotG_apply bcast_S1600000_S1600000x1_0 bcast_S1600000x1_S1600000x4_0_1 bcast_S1x4_S1600000x4_0_1 a3 e t

theorem kerBiasK_unfold (oh : FVec Ideal S1600000x4 .f32) (a2 : IVec S1600000 32) (a5 : FVec Ideal S4x64 .f32) :
    kerBiasK oh a2 a5 = biasG (E := 1600000) (R := 100000) (T := 4) (K := 64)
      scatter_S100000x4_S1600000x1_S1600000x4_1_0_0_1_wf bcast_S1600000_S1600000x1_0 oh
      (broadcastInDim S100000x4 ![] bcast_S_S100000x4 (constant (F := Ideal) S_ .f32 0x00000000#32)) a2 a5 := rfl

theorem kerBiasK_eq (oh : FVec Ideal S1600000x4 .f32) (a2 : IVec S1600000 32) (a5 : FVec Ideal S4x64 .f32)
    (oh' : Fin Spec.E → Fin 4 → EReal) (hoh : ∀ e t, oh (ix2 e t) = oh' e t) :
    kerBiasK oh a2 a5 = Spec.unc (fun n k => ∑ t : Fin 4,
      Spec.degK oh' (fun e => Spec.targetOf Spec.N (a2 (ix1 e))) n t * a5 (ix2 t k)) := by
  funext j
  obtain ⟨n, k, rfl⟩ : ∃ n k, j = ix2 n k := ⟨j 0, j 1, eq_ix2 j⟩
  exact (congrFun (kerBiasK_unfold oh a2 a5) (ix2 n k)).trans
    ((biasG_apply _ _ oh _ a2 a5 n k (fun t => bcastZero_apply _ _) oh' hoh
        (fun e => Spec.targetOf Spec.N (a2 (ix1 e))) (fun e => rfl)).trans
      (spec_bias_apply oh' _ a5 n k).symm)

theorem kerBias_eq (a2 a3 : IVec S1600000 32) (a5 : FVec Ideal S4x64 .f32) :
    kerBias a2 a3 a5 = Spec.unc (fun n k => ∑ t : Fin 4,
      Spec.degK (fun e => Spec.oneHot (a3 (ix1 e))) (fun e => Spec.targetOf Spec.N (a2 (ix1 e))) n t * a5 (ix2 t k)) :=
  kerBiasK_eq (kerOneHot a3) a2 a5 (fun e => Spec.oneHot (a3 (ix1 e))) (kerOneHot_apply a3)

end Cert.KernelIdeal.ReadH
end
-- ==== Proof.KI.HostLayoutSpec.lean ====
import proofs.«412786_j57784490000510_2_alg».proof.Proof.KI.HostLayout
import proofs.«412786_j57784490000510_2_alg».proof.Proof.Spec

noncomputable section

namespace Cert.KernelIdeal.ReadH

open Idealize.ShloMosaic Idealize.ShloMosaic.ValueIdx Cert.KernelIdeal

variable [Facts]

theorem joinT_lo_hi (a : FVec Ideal S64x128 .f32) : Spec.joinT (kerLoT a) (kerHiT a) = fun k j => a (ix2 k j) := by
  funext k j
  show (if h : j.val < 64 then kerLoT a (ix2 ⟨j.val, h⟩ k) else kerHiT a (ix2 ⟨j.val - 64, by have := j.isLt; omega⟩ k))
    = a (ix2 k j)
  by_cases h : j.val < 64
  · rw [dif_pos h, kerLoT_apply]
  · rw [dif_neg h, kerHiT_apply]
    exact congrArg (fun x => a (ix2 k x)) (Fin.ext (by show 64 + (j.val - 64) = j.val; omega))

theorem trT_T64 (a : FVec Ideal S64x64 .f32) : Spec.trT (kerT64 a) = fun k d => a (ix2 k d) := by
  funext k d
  exact kerT64_apply a d k

theorem trT_T2 (a : FVec Ideal S2x64 .f32) : Spec.trT (kerT2 a) = fun j k => a (ix2 j k) := by
  funext j k
  exact kerT2_apply a k j

theorem trT_T1 (a : FVec Ideal S1x64 .f32) : Spec.trT (kerT1 a) = fun j k => a (ix2 j k) := by
  funext j k
  exact kerT1_apply a k j

variable (A H : Spec.Arr Spec.N 64) (a4 : FVec Ideal S4x64x64 .f32) (a5 : FVec Ideal S4x64 .f32)
    (a6 a7 : FVec Ideal S192x64 .f32) (a8 a9 : FVec Ideal S192 .f32) (a10 : FVec Ideal S64x128 .f32)
    (a11 : FVec Ideal S64 .f32) (a12 : FVec Ideal S2x64 .f32) (a13 : FVec Ideal S2 .f32) (a14 : FVec Ideal S64x64 .f32)
    (a15 : FVec Ideal S64 .f32) (a16 : FVec Ideal S2x64 .f32) (a17 : FVec Ideal S2 .f32) (a18 : FVec Ideal S64x128 .f32)
    (a19 : FVec Ideal S64 .f32) (a20 : FVec Ideal S1x64 .f32) (a21 : FVec Ideal S1 .f32) (a22 : FVec Ideal S64x64 .f32)
    (a23 : FVec Ideal S64 .f32) (a24 : FVec Ideal S1x64 .f32) (a25 : FVec Ideal S1 .f32)

theorem pK_of_layouts :
    Spec.accTiles (Spec.term
        (Spec.headSplit A H (Spec.joinT (kerLoT a10) (kerHiT a10)) (fun k => a11 (ix1 k)) (Spec.trT (kerT2 a12))
          (fun j => a13 (ix1 j)))
        (Spec.head H (Spec.trT (kerT64 a14)) (fun k => a15 (ix1 k)) (Spec.trT (kerT2 a16)) (fun j => a17 (ix1 j))))
      50 le_rfl
      = Spec.pK (Spec.wtsOf a4 a5 a6 a7 a8 a9 a10 a11 a12 a13 a14 a15 a16 a17 a18 a19 a20 a21 a22 a23 a24 a25) A H := by
  rw [joinT_lo_hi, trT_T2 a12, trT_T64, trT_T2 a16]
  rfl

theorem vK_of_layouts :
    Spec.accTiles (Spec.term
        (Spec.headSplit A H (Spec.joinT (kerLoT a18) (kerHiT a18)) (fun k => a19 (ix1 k)) (Spec.trT (kerT1 a20))
          (fun j => a21 (ix1 j)))
        (Spec.head H (Spec.trT (kerT64 a22)) (fun k => a23 (ix1 k)) (Spec.trT (kerT1 a24)) (fun j => a25 (ix1 j))))
      50 le_rfl
      = Spec.vK (Spec.wtsOf a4 a5 a6 a7 a8 a9 a10 a11 a12 a13 a14 a15 a16 a17 a18 a19 a20 a21 a22 a23 a24 a25) A H := by
  rw [joinT_lo_hi, trT_T1 a20, trT_T64, trT_T1 a24]
  rfl

end Cert.KernelIdeal.ReadH
-- ==== Proof.KI.HeadsPayOps.lean ====
import proofs.«412786_j57784490000510_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

namespace Cert.KernelIdeal.ReadH

open Idealize.ShloMosaic Idealize.ShloMosaic.ValueIdx

-- On a non-contracting axis an operand's index is the result index's coordinate at the axis's place among the result's axes.
theorem lhsIdx_val_of_non {sl sr so : Shape} (D : DotDims sl sr so) {a : Fin sl.rank} (hb : a ∉ D.lhsBatch) (hn : a ∈ D.lhsNonContracting)
    {o : Fin so.rank} (ho : D.lhsBatch.length + D.lhsNonContracting.idxOf a = o.val) (j : so.Idx) (k : D.contr.Idx) :
    (D.lhsIdx j k a).val = (j o).val := by
  unfold DotDims.lhsIdx
  rw [dif_neg hb, dif_pos hn]
  exact congrArg (fun x => (j x).val) (Fin.ext ho)
theorem rhsIdx_val_of_non {sl sr so : Shape} (D : DotDims sl sr so) {a : Fin sr.rank} (hb : a ∉ D.rhsBatch) (hn : a ∈ D.rhsNonContracting)
    {o : Fin so.rank} (ho : D.lhsBatch.length + D.lhsNonContracting.length + D.rhsNonContracting.idxOf a = o.val) (j : so.Idx) (k : D.contr.Idx) :
    (D.rhsIdx j k a).val = (j o).val := by
  unfold DotDims.rhsIdx
  rw [dif_neg hb, dif_pos hn]
  exact congrArg (fun x => (j x).val) (Fin.ext ho)

-- A product of two matrices into the zero splat, contracting the left's columns with the right's rows, at an entry: the sum over the contraction coordinate.
theorem mm_apply {m K n : Nat} {φ₁ φ₂ : FTy} (D : DotDims ⟨2, ![m, K]⟩ ⟨2, ![K, n]⟩ ⟨2, ![m, n]⟩) (hr : D.contr.rank = 1)
    (hs : D.contr.size ⟨0, by omega⟩ = K) (hlc : D.lhsContracting = [1]) (hlb : (0 : Fin 2) ∉ D.lhsBatch) (hln : (0 : Fin 2) ∈ D.lhsNonContracting)
    (hlo : D.lhsBatch.length + D.lhsNonContracting.idxOf 0 = (0 : Fin 2).val) (hrc : D.rhsContracting = [0]) (hrb : (1 : Fin 2) ∉ D.rhsBatch)
    (hrn : (1 : Fin 2) ∈ D.rhsNonContracting) (hro : D.lhsBatch.length + D.lhsNonContracting.length + D.rhsNonContracting.idxOf 1 = (1 : Fin 2).val)
    (a : FVec Ideal ⟨2, ![m, K]⟩ φ₁) (b : FVec Ideal ⟨2, ![K, n]⟩ φ₂) (r : Fin m) (k : Fin n) :
    matmul D none a b (constant (F := Ideal) ⟨2, ![m, n]⟩ .f32 0x00000000#32) (ix2 r k) = ∑ d : Fin K, a (ix2 r d) * b (ix2 d k) := by
  refine (Ideal.matmul_constant_zero_apply D none a b (ix2 r k)).trans ?_
  rw [← Equiv.sum_comp (contrEquiv1 D K hr hs).symm]
  refine Finset.sum_congr rfl fun d _ => ?_
  have hk := contrEquiv1_symm_val D K hr hs d
  have el : D.lhsIdx (ix2 r k) ((contrEquiv1 D K hr hs).symm d) = ix2 r d :=
    funext fun ax => Fin.ext (by
      match ax with
      | ⟨0, _⟩ => exact lhsIdx_val_of_non D hlb hln hlo _ _
      | ⟨1, _⟩ => exact (D.lhsIdx_val_of_single hlc _ _).trans hk)
  have er : D.rhsIdx (ix2 r k) ((contrEquiv1 D K hr hs).symm d) = ix2 d k :=
    funext fun ax => Fin.ext (by
      match ax with
      | ⟨0, _⟩ => exact (D.rhsIdx_val_of_single hrc _ _).trans hk
      | ⟨1, _⟩ => exact rhsIdx_val_of_non D hrb hrn hro _ _)
  rw [el, er]

theorem mm64_apply {φ₁ φ₂ : FTy} (a : FVec Ideal S2000x64 φ₁) (b : FVec Ideal S64x64 φ₂) (r : Fin 2000) (k : Fin 64) :
    matmul dot_S2000x64_S64x64_S2000x64_1_0_0_1_n_n none a b (constant (F := Ideal) S2000x64 .f32 0x00000000#32) (ix2 r k)
      = ∑ d : Fin 64, a (ix2 r d) * b (ix2 d k) :=
  mm_apply dot_S2000x64_S64x64_S2000x64_1_0_0_1_n_n rfl rfl rfl (by decide) (by decide) rfl rfl (by decide) (by decide) rfl a b r k
theorem mm2_apply {φ₁ φ₂ : FTy} (a : FVec Ideal S2000x64 φ₁) (b : FVec Ideal S64x2 φ₂) (r : Fin 2000) (k : Fin 2) :
    matmul dot_S2000x64_S64x2_S2000x2_1_0_0_1_n_n none a b (constant (F := Ideal) S2000x2 .f32 0x00000000#32) (ix2 r k)
      = ∑ d : Fin 64, a (ix2 r d) * b (ix2 d k) :=
  mm_apply dot_S2000x64_S64x2_S2000x2_1_0_0_1_n_n rfl rfl rfl (by decide) (by decide) rfl rfl (by decide) (by decide) rfl a b r k
theorem mm1_apply {φ₁ φ₂ : FTy} (a : FVec Ideal S2000x64 φ₁) (b : FVec Ideal S64x1 φ₂) (r : Fin 2000) (k : Fin 1) :
    matmul dot_S2000x64_S64x1_S2000x1_1_0_0_1_n_n none a b (constant (F := Ideal) S2000x1 .f32 0x00000000#32) (ix2 r k)
      = ∑ d : Fin 64, a (ix2 r d) * b (ix2 d k) :=
  mm_apply dot_S2000x64_S64x1_S2000x1_1_0_0_1_n_n rfl rfl rfl (by decide) (by decide) rfl rfl (by decide) (by decide) rfl a b r k

theorem bias_apply {α : Type} {a n : Nat} (y : (⟨1, ![n]⟩ : Shape).Idx → α) (h1 : (⟨1, ![n]⟩ : Shape).ShapeCasts ⟨2, ![1, n]⟩)
    (h2 : (⟨2, ![1, n]⟩ : Shape).Broadcasts ⟨2, ![a, n]⟩) (r : Fin a) (k : Fin n) :
    broadcastTo ⟨2, ![a, n]⟩ (shapeCast ⟨2, ![1, n]⟩ y h1) h2 (ix2 r k) = y (ix1 k) := by
  rw [broadcastTo_1b_ab_apply, shapeCast_a_1a_apply]

theorem row_apply {α : Type} {n : Nat} (y : (⟨1, ![n]⟩ : Shape).Idx → α) (h1 : (⟨1, ![n]⟩ : Shape).ShapeCasts ⟨2, ![1, n]⟩)
    (u : Fin 1) (j : Fin n) : shapeCast ⟨2, ![1, n]⟩ y h1 (ix2 u j) = y (ix1 j) :=
  shapeCast_a_1a_apply y h1 u j

theorem rowsum_apply {n : Nat} (v : FVec Ideal ⟨2, ![2000, n]⟩ .f32) (h : (⟨2, ![2000, n]⟩ : Shape).Reduces [0] ⟨1, ![n]⟩)
    (hφ : FKind.Formats .f32) (hacc : (0x00000000#32 : BitVec 32) = FKind.add.neutral .f32 hφ) (j : Fin n) :
    multiReduction (F := Ideal) .add [0] ⟨1, ![n]⟩ v 0x00000000#32 h hφ hacc (ix1 j) = ∑ r : Fin 2000, v (ix2 r j) := by
  refine (Ideal.multiReduction_add_single v 0x00000000#32 h hφ hacc (ix1 j)).trans ?_
  refine Finset.sum_congr rfl fun r _ => congrArg v (funext fun ax => Fin.ext ?_)
  match ax with
  | ⟨0, _⟩ => rfl
  | ⟨1, _⟩ => rfl

end Cert.KernelIdeal.ReadH
-- ==== Proof.KI.GruCell.lean ====
import proofs.«412786_j57784490000510_2_alg».proof.Proof.Gen.KernelIdeal.Skeleton
import proofs.«412786_j57784490000510_2_alg».proof.Proof.Spec
import proofs.«412786_j57784490000510_2_alg».proof.Proof.KI.HeadsPayOps
import Idealize.ShloMosaic.Lib.IdealHost
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Cell

open Cert.KernelIdeal Cert.KernelIdeal.Gen Idealize.ShloMosaic Idealize.ShloMosaic.ValueIdx
open scoped BigOperators

theorem mm256_apply (a : FVec Ideal S2000x256 .bf16) (b : FVec Ideal S256x64 .bf16) (p : Fin 2000) (q : Fin 64) :
    matmul dot_S2000x256_S256x64_S2000x64_1_0_0_1_n_n none a b (constant S2000x64 .f32 0x00000000#32) (ix2 p q) = ∑ j : Fin 256, a (ix2 p j) * b (ix2 j q) :=
  ReadH.mm_apply dot_S2000x256_S256x64_S2000x64_1_0_0_1_n_n rfl rfl rfl (by decide) (by decide) rfl rfl (by decide) (by decide) rfl a b p q
theorem mm64_apply (a : FVec Ideal S2000x64 .bf16) (b : FVec Ideal S64x64 .bf16) (p : Fin 2000) (q : Fin 64) :
    matmul dot_S2000x64_S64x64_S2000x64_1_0_0_1_n_n none a b (constant S2000x64 .f32 0x00000000#32) (ix2 p q) = ∑ j : Fin 64, a (ix2 p j) * b (ix2 j q) :=
  ReadH.mm_apply dot_S2000x64_S64x64_S2000x64_1_0_0_1_n_n rfl rfl rfl (by decide) (by decide) rfl rfl (by decide) (by decide) rfl a b p q

theorem castW_apply (v : Vec Ideal S1x64x64 .f32) (d q : Fin 64) :
    ((truncf .bf16 (shapeCast S64x64 v shapeCasts_S1x64x64_S64x64) bitsLt_bf16_f32) : FVec Ideal S64x64 .bf16) (ix2 d q) = v (ix3 (0 : Fin 1) d q) :=
  shapeCast_1ab_ab_apply v shapeCasts_S1x64x64_S64x64 d q

theorem rowB_apply (b : Vec Ideal S1x64 .f32) (p : Fin 2000) (q : Fin 64) :
    (broadcastTo S2000x64 (shapeCast S1x64 (shapeCast S64 b shapeCasts_S1x64_S64) shapeCasts_S64_S1x64) broadcasts_S1x64_S2000x64) (ix2 p q) = b (ix2 (0 : Fin 1) q) :=
  (broadcastTo_1b_ab_apply _ broadcasts_S1x64_S2000x64 p q).trans
    ((shapeCast_a_1a_apply _ shapeCasts_S64_S1x64 (0 : Fin 1) q).trans (shapeCast_1a_a_apply b shapeCasts_S1x64_S64 q))

theorem gate_apply (a : FVec Ideal S2000x64 .bf16) (w : FVec Ideal S64x64 .bf16) (b : Vec Ideal S1x64 .f32) (p : Fin 2000) (q : Fin 64) :
    addf (matmul dot_S2000x64_S64x64_S2000x64_1_0_0_1_n_n none a w (constant S2000x64 .f32 0x00000000#32)) (broadcastTo S2000x64 (shapeCast S1x64 (shapeCast S64 b shapeCasts_S1x64_S64) shapeCasts_S64_S1x64) broadcasts_S1x64_S2000x64) (ix2 p q)
      = (∑ d : Fin 64, a (ix2 p d) * w (ix2 d q)) + b (ix2 (0 : Fin 1) q) :=
  congrArg₂ (· + ·) (mm64_apply a w p q) (rowB_apply b p q)

theorem one_f32 : (Scalar.ofBits .f32 0x3F800000#32 : Ideal .f32) = (1 : EReal) := Ideal.ofBits_one_f32

theorem ix3_congr {n0 n1 n2 : Nat} {a a' : Fin n0} {b b' : Fin n1} {c c' : Fin n2} (ha : a = a') (hb : b = b') (hc : c = c') :
    ix3 a b c = ix3 a' b' c' := by subst ha hb hc; rfl
theorem ix2_congr {n0 n1 : Nat} {a a' : Fin n0} {b b' : Fin n1} (ha : a = a') (hb : b = b') : ix2 a b = ix2 a' b' := by
  subst ha hb; rfl

theorem idxW0_apply (inb : ∀ a, (![0, 0, 0] : Fin 3 → Nat) a + (![1, 64, 64] : Fin 3 → Nat) a ≤ S3x64x64.size a) (d q : Fin 64) :
    (Rect.unit (s := S3x64x64) ![0, 0, 0] ![1, 64, 64] inb).toLoadRect.idx (ix3 (0 : Fin 1) d q) = ix3 (0 : Fin 3) d q := by
  refine funext fun a => Fin.ext ?_
  match a with
  | ⟨0, _⟩ => show 0 + 1 * 0 = 0; rfl
  | ⟨1, _⟩ => show 0 + 1 * d.val = d.val; omega
  | ⟨2, _⟩ => show 0 + 1 * q.val = q.val; omega
theorem idxB0_apply (inb : ∀ a, (![0, 0] : Fin 2 → Nat) a + (![1, 64] : Fin 2 → Nat) a ≤ S3x64.size a) (q : Fin 64) :
    (Rect.unit (s := S3x64) ![0, 0] ![1, 64] inb).toLoadRect.idx (ix2 (0 : Fin 1) q) = ix2 (0 : Fin 3) q := by
  refine funext fun a => Fin.ext ?_
  match a with
  | ⟨0, _⟩ => show 0 + 1 * 0 = 0; rfl
  | ⟨1, _⟩ => show 0 + 1 * q.val = q.val; omega

theorem idxW1_apply (inb : ∀ a, (![1, 0, 0] : Fin 3 → Nat) a + (![1, 64, 64] : Fin 3 → Nat) a ≤ S3x64x64.size a) (d q : Fin 64) :
    (Rect.unit (s := S3x64x64) ![1, 0, 0] ![1, 64, 64] inb).toLoadRect.idx (ix3 (0 : Fin 1) d q) = ix3 (1 : Fin 3) d q := by
  refine funext fun a => Fin.ext ?_
  match a with
  | ⟨0, _⟩ => show 1 + 1 * 0 = 1; rfl
  | ⟨1, _⟩ => show 0 + 1 * d.val = d.val; omega
  | ⟨2, _⟩ => show 0 + 1 * q.val = q.val; omega
theorem idxB1_apply (inb : ∀ a, (![1, 0] : Fin 2 → Nat) a + (![1, 64] : Fin 2 → Nat) a ≤ S3x64.size a) (q : Fin 64) :
    (Rect.unit (s := S3x64) ![1, 0] ![1, 64] inb).toLoadRect.idx (ix2 (0 : Fin 1) q) = ix2 (1 : Fin 3) q := by
  refine funext fun a => Fin.ext ?_
  match a with
  | ⟨0, _⟩ => show 1 + 1 * 0 = 1; rfl
  | ⟨1, _⟩ => show 0 + 1 * q.val = q.val; omega

theorem idxW2_apply (inb : ∀ a, (![2, 0, 0] : Fin 3 → Nat) a + (![1, 64, 64] : Fin 3 → Nat) a ≤ S3x64x64.size a) (d q : Fin 64) :
    (Rect.unit (s := S3x64x64) ![2, 0, 0] ![1, 64, 64] inb).toLoadRect.idx (ix3 (0 : Fin 1) d q) = ix3 (2 : Fin 3) d q := by
  refine funext fun a => Fin.ext ?_
  match a with
  | ⟨0, _⟩ => show 2 + 1 * 0 = 2; rfl
  | ⟨1, _⟩ => show 0 + 1 * d.val = d.val; omega
  | ⟨2, _⟩ => show 0 + 1 * q.val = q.val; omega
theorem idxB2_apply (inb : ∀ a, (![2, 0] : Fin 2 → Nat) a + (![1, 64] : Fin 2 → Nat) a ≤ S3x64.size a) (q : Fin 64) :
    (Rect.unit (s := S3x64) ![2, 0] ![1, 64] inb).toLoadRect.idx (ix2 (0 : Fin 1) q) = ix2 (2 : Fin 3) q := by
  refine funext fun a => Fin.ext ?_
  match a with
  | ⟨0, _⟩ => show 2 + 1 * 0 = 2; rfl
  | ⟨1, _⟩ => show 0 + 1 * q.val = q.val; omega

def cellOf (i0 i1 i2 h0 h1 h2 m : EReal) : EReal :=
  (1 - Ideal.logistic (i1 + h1)) * Ideal.tanh (i2 + Ideal.logistic (i0 + h0) * h2) + Ideal.logistic (i1 + h1) * m

def blkMsg (x1 : S2000x256.Idx → EReal) (x2 : S2000x64.Idx → EReal) (x3 : S256x64.Idx → EReal) (p : Fin 2000) (k : Fin 64) : EReal :=
  (∑ j : Fin 256, x1 (ix2 p j) * x3 (ix2 j k)) + x2 (ix2 p k)

def blkIn (x0 : S2000x64.Idx → EReal) (x4 : S3x64x64.Idx → EReal) (x6 : S3x64.Idx → EReal) (g : Fin 3) (p : Fin 2000) (k : Fin 64) : EReal :=
  (∑ d : Fin 64, x0 (ix2 p d) * x4 (ix3 g d k)) + x6 (ix2 g k)
def blkHid (m : Fin 2000 → Fin 64 → EReal) (x5 : S3x64x64.Idx → EReal) (x7 : S3x64.Idx → EReal) (g : Fin 3) (p : Fin 2000) (k : Fin 64) : EReal :=
  (∑ d : Fin 64, m p d * x5 (ix3 g d k)) + x7 (ix2 g k)

def blkCell (x0 : S2000x64.Idx → EReal) (x1 : S2000x256.Idx → EReal) (x2 : S2000x64.Idx → EReal) (x3 : S256x64.Idx → EReal)
    (x4 x5 : S3x64x64.Idx → EReal) (x6 x7 : S3x64.Idx → EReal) (p : Fin 2000) (k : Fin 64) : EReal :=
  cellOf (blkIn x0 x4 x6 0 p k) (blkIn x0 x4 x6 1 p k) (blkIn x0 x4 x6 2 p k)
    (blkHid (blkMsg x1 x2 x3) x5 x7 0 p k) (blkHid (blkMsg x1 x2 x3) x5 x7 1 p k) (blkHid (blkMsg x1 x2 x3) x5 x7 2 p k)
    (blkMsg x1 x2 x3 p k)

-- Gate g's slab of a stacked weight or bias: entry 64 g + k of the stack.
theorem stackT_g (x : S3x64x64.Idx → EReal) (g : Fin 3) (gk : Fin 192) (k d : Fin 64) (h : gk.val = 64 * g.val + k.val) :
    Spec.stackT x gk d = x (ix3 g d k) :=
  congrArg x (ix3_congr (Fin.ext (by show gk.val / 64 = g.val; omega)) rfl (Fin.ext (by show gk.val % 64 = k.val; omega)))
theorem stackB_g (x : S3x64.Idx → EReal) (g : Fin 3) (gk : Fin 192) (k : Fin 64) (h : gk.val = 64 * g.val + k.val) :
    Spec.stackB x gk = x (ix2 g k) :=
  congrArg x (ix2_congr (Fin.ext (by show gk.val / 64 = g.val; omega)) (Fin.ext (by show gk.val % 64 = k.val; omega)))

theorem gru_eq_cellOf (H m : Spec.Arr Spec.N 64) (wi wh : Spec.Arr 192 64) (bi bh : Fin 192 → EReal) (n : Fin Spec.N) (k : Fin 64) :
    Spec.gru H m wi wh bi bh n k = cellOf (Spec.lin H wi bi n (Spec.g0 k)) (Spec.lin H wi bi n (Spec.g1 k)) (Spec.lin H wi bi n (Spec.g2 k))
      (Spec.lin m wh bh n (Spec.g0 k)) (Spec.lin m wh bh n (Spec.g1 k)) (Spec.lin m wh bh n (Spec.g2 k)) (m n k) := rfl

theorem blkCell_eq_gru (a0 : S100000x64.Idx → EReal) (a1 : S100000x256.Idx → EReal) (a2 : S100000x64.Idx → EReal)
    (a3 : S256x64.Idx → EReal) (a4 a5 : S3x64x64.Idx → EReal) (a6 a7 : S3x64.Idx → EReal)
    (x0 : S2000x64.Idx → EReal) (x1 : S2000x256.Idx → EReal) (x2 : S2000x64.Idx → EReal) (p : Fin 2000) (n : Fin 100000)
    (h0 : ∀ d : Fin 64, x0 (ix2 p d) = a0 (ix2 n d)) (h1 : ∀ j : Fin 256, x1 (ix2 p j) = a1 (ix2 n j))
    (h2 : ∀ k : Fin 64, x2 (ix2 p k) = a2 (ix2 n k)) (k : Fin 64) :
    blkCell x0 x1 x2 a3 a4 a5 a6 a7 p k
      = Spec.gru (Spec.cur a0) (fun n k => (∑ j : Fin 256, Spec.cur a1 n j * Spec.cur a3 j k) + Spec.cur a2 n k)
          (Spec.stackT a4) (Spec.stackT a5) (Spec.stackB a6) (Spec.stackB a7) n k := by
  have hm : ∀ d : Fin 64, blkMsg x1 x2 a3 p d = (∑ j : Fin 256, Spec.cur a1 n j * Spec.cur a3 j d) + Spec.cur a2 n d := fun d => by
    unfold blkMsg Spec.cur
    rw [h2 d]
    exact congrArg (· + _) (Finset.sum_congr rfl fun j _ => by rw [h1 j])
  have hin : ∀ (g : Fin 3) (gk : Fin 192), gk.val = 64 * g.val + k.val →
      blkIn x0 a4 a6 g p k = Spec.lin (Spec.cur a0) (Spec.stackT a4) (Spec.stackB a6) n gk := fun g gk h => by
    unfold blkIn Spec.lin Spec.cur
    rw [stackB_g a6 g gk k h]
    exact congrArg (· + _) (Finset.sum_congr rfl fun d _ => by rw [h0 d, stackT_g a4 g gk k d h])
  have hhid : ∀ (g : Fin 3) (gk : Fin 192), gk.val = 64 * g.val + k.val →
      blkHid (blkMsg x1 x2 a3) a5 a7 g p k
        = Spec.lin (fun n k => (∑ j : Fin 256, Spec.cur a1 n j * Spec.cur a3 j k) + Spec.cur a2 n k) (Spec.stackT a5) (Spec.stackB a7) n gk :=
    fun g gk h => by
      unfold blkHid Spec.lin
      rw [stackB_g a7 g gk k h]
      exact congrArg (· + _) (Finset.sum_congr rfl fun d _ => by rw [hm d, stackT_g a5 g gk k d h])
  have e0 : (Spec.g0 k).val = 64 * (0 : Fin 3).val + k.val := by show k.val = 64 * 0 + k.val; omega
  have e1 : (Spec.g1 k).val = 64 * (1 : Fin 3).val + k.val := rfl
  have e2 : (Spec.g2 k).val = 64 * (2 : Fin 3).val + k.val := rfl
  rw [gru_eq_cellOf]
  unfold blkCell
  rw [hin 0 _ e0, hin 1 _ e1, hin 2 _ e2, hhid 0 _ e0, hhid 1 _ e1, hhid 2 _ e2, hm k]

end Cert.KernelIdeal.Cell

end
-- ==== Proof.KI.RegVal0.lean ====
import proofs.«412786_j57784490000510_2_alg».proof.Proof.KI.Reg0
import proofs.«412786_j57784490000510_2_alg».proof.Proof.KI.GruCell
import proofs.«412786_j57784490000510_2_alg».proof.Proof.Spec
import Idealize.ShloMosaic.Lib.IdealHost
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.KernelIdeal.Cell
open scoped BigOperators

variable (V : (c : Dev nD) → (b : Ref sig .tc) → Buf (Elt Ideal) ((c : Thread nD τ).loc b))

abbrev arr0_0 (c : Dev nD) : S100000x64.Idx → EReal := V c (Pipeline.arrRef spec0 0)
abbrev arr0_1 (c : Dev nD) : S100000x256.Idx → EReal := V c (Pipeline.arrRef spec0 1)
abbrev arr0_2 (c : Dev nD) : S100000x64.Idx → EReal := V c (Pipeline.arrRef spec0 2)
abbrev arr0_3 (c : Dev nD) : S256x64.Idx → EReal := V c (Pipeline.arrRef spec0 3)
abbrev arr0_4 (c : Dev nD) : S3x64x64.Idx → EReal := V c (Pipeline.arrRef spec0 4)
abbrev arr0_5 (c : Dev nD) : S3x64x64.Idx → EReal := V c (Pipeline.arrRef spec0 5)
abbrev arr0_6 (c : Dev nD) : S3x64.Idx → EReal := V c (Pipeline.arrRef spec0 6)
abbrev arr0_7 (c : Dev nD) : S3x64.Idx → EReal := V c (Pipeline.arrRef spec0 7)

abbrev gruOf0 (c : Dev nD) : S100000x64.Idx → EReal :=
  Spec.unc (Spec.gru (Spec.cur (arr0_0 V c))
    (fun n k => (∑ j : Fin 256, Spec.cur (arr0_1 V c) n j * Spec.cur (arr0_3 V c) j k) + Spec.cur (arr0_2 V c) n k)
    (Spec.stackT (arr0_4 V c)) (Spec.stackT (arr0_5 V c)) (Spec.stackB (arr0_6 V c)) (Spec.stackB (arr0_7 V c)))

theorem pay0_3_apply (v0 : Vec Ideal S2000x64 .f32) (p : Fin 2000) (d : Fin 64) : k0_pay3 (F := Ideal) v0 (ix2 p d) = v0 (ix2 p d) := by
  unfold k0_pay3
  exact congrFun (shapeCast_self v0 shapeCasts_S2000x64_S2000x64) (ix2 p d)

theorem pay0_2_apply (v2 : Vec Ideal S2000x256 .f32) (v5 : Vec Ideal S256x64 .f32) (v9 : Vec Ideal S2000x64 .f32) (p : Fin 2000) (q : Fin 64) :
    k0_pay2 (F := Ideal) v2 v5 v9 (ix2 p q) = (∑ j : Fin 256, v2 (ix2 p j) * v5 (ix2 j q)) + v9 (ix2 p q) := by
  unfold k0_pay2
  exact congrArg₂ (· + ·)
    ((mm256_apply _ _ p q).trans (Finset.sum_congr rfl fun j _ => congrArg₂ (· * ·)
      (congrFun (shapeCast_self v2 shapeCasts_S2000x256_S2000x256) (ix2 p j))
      (congrFun (shapeCast_self v5 shapeCasts_S256x64_S256x64) (ix2 j q))))
    (congrFun (shapeCast_self v9 shapeCasts_S2000x64_S2000x64) (ix2 p q))

theorem pay0_4_apply (v2 : Vec Ideal S2000x256 .f32) (v5 : Vec Ideal S256x64 .f32) (v9 : Vec Ideal S2000x64 .f32) (p : Fin 2000) (d : Fin 64) :
    k0_pay4 (F := Ideal) v2 v5 v9 (ix2 p d) = k0_pay2 (F := Ideal) v2 v5 v9 (ix2 p d) := by
  unfold k0_pay4
  rfl

theorem pay0_7_apply (v32 : Vec Ideal S1x64x64 .f32) (d q : Fin 64) : k0_pay7 (F := Ideal) v32 (ix2 d q) = v32 (ix3 (0 : Fin 1) d q) := by
  unfold k0_pay7
  exact castW_apply v32 d q

theorem pay0_5_apply (v0 : Vec Ideal S2000x64 .f32) (v14 : Vec Ideal S1x64x64 .f32) (v21 : Vec Ideal S1x64 .f32) (p : Fin 2000) (q : Fin 64) :
    k0_pay5 (F := Ideal) v0 v14 v21 (ix2 p q) = (∑ d : Fin 64, v0 (ix2 p d) * v14 (ix3 (0 : Fin 1) d q)) + v21 (ix2 (0 : Fin 1) q) := by
  unfold k0_pay5
  exact (gate_apply (k0_pay3 v0) _ v21 p q).trans (congrArg (· + _) (Finset.sum_congr rfl fun d _ =>
    congrArg₂ (· * ·) (pay0_3_apply v0 p d) (castW_apply v14 d q)))

theorem pay0_6_apply (v2 : Vec Ideal S2000x256 .f32) (v5 : Vec Ideal S256x64 .f32) (v9 : Vec Ideal S2000x64 .f32) (v17 : Vec Ideal S1x64x64 .f32) (v27 : Vec Ideal S1x64 .f32)
    (p : Fin 2000) (q : Fin 64) :
    k0_pay6 (F := Ideal) v2 v5 v9 v17 v27 (ix2 p q)
      = (∑ d : Fin 64, k0_pay2 (F := Ideal) v2 v5 v9 (ix2 p d) * v17 (ix3 (0 : Fin 1) d q)) + v27 (ix2 (0 : Fin 1) q) := by
  unfold k0_pay6
  exact (gate_apply (k0_pay4 v2 v5 v9) _ v27 p q).trans (congrArg (· + _) (Finset.sum_congr rfl fun d _ =>
    congrArg₂ (· * ·) (pay0_4_apply v2 v5 v9 p d) (castW_apply v17 d q)))

theorem pay0_8_apply (v12 v13 : FVec Ideal S2000x64 .bf16) (v34 : FVec Ideal S64x64 .bf16) (v35 : Vec Ideal S1x64x64 .f32) (v39 v45 : Vec Ideal S1x64 .f32)
    (p : Fin 2000) (q : Fin 64) :
    k0_pay8 (F := Ideal) v12 v13 v34 v35 v39 v45 (ix2 p q)
      = Ideal.logistic (((∑ d : Fin 64, v12 (ix2 p d) * v34 (ix2 d q)) + v39 (ix2 (0 : Fin 1) q))
          + ((∑ d : Fin 64, v13 (ix2 p d) * v35 (ix3 (0 : Fin 1) d q)) + v45 (ix2 (0 : Fin 1) q))) := by
  unfold k0_pay8
  exact congrArg Ideal.logistic (congrArg₂ (· + ·) (gate_apply v12 v34 v39 p q)
    ((gate_apply v13 _ v45 p q).trans (congrArg (· + _) (Finset.sum_congr rfl fun d _ => congrArg (_ * ·) (castW_apply v35 d q)))))

theorem pay0_9_apply (v12 v13 : FVec Ideal S2000x64 .bf16) (v25 v31 : FVec Ideal S2000x64 .f32) (v50 v53 : Vec Ideal S1x64x64 .f32) (v57 v63 : Vec Ideal S1x64 .f32)
    (p : Fin 2000) (q : Fin 64) :
    k0_pay9 (F := Ideal) v12 v13 v25 v31 v50 v53 v57 v63 (ix2 p q)
      = ((∑ d : Fin 64, v12 (ix2 p d) * v50 (ix3 (0 : Fin 1) d q)) + v57 (ix2 (0 : Fin 1) q))
        + Ideal.logistic (v25 (ix2 p q) + v31 (ix2 p q)) * ((∑ d : Fin 64, v13 (ix2 p d) * v53 (ix3 (0 : Fin 1) d q)) + v63 (ix2 (0 : Fin 1) q)) := by
  unfold k0_pay9
  exact congrArg₂ (· + ·)
    ((gate_apply v12 _ v57 p q).trans (congrArg (· + _) (Finset.sum_congr rfl fun d _ => congrArg (_ * ·) (castW_apply v50 d q))))
    (congrArg (Ideal.logistic (v25 (ix2 p q) + v31 (ix2 p q)) * ·)
      ((gate_apply v13 _ v63 p q).trans (congrArg (· + _) (Finset.sum_congr rfl fun d _ => congrArg (_ * ·) (castW_apply v53 d q)))))

theorem pay0_1_apply (v11 v71 v73 : FVec Ideal S2000x64 .f32) (p : Fin 2000) (q : Fin 64) :
    k0_pay1 (F := Ideal) v11 v71 v73 (ix2 p q) = (1 - v71 (ix2 p q)) * Ideal.tanh (v73 (ix2 p q)) + v71 (ix2 p q) * v11 (ix2 p q) := by
  unfold k0_pay1
  exact congrArg (fun o : EReal => (o - v71 (ix2 p q)) * Ideal.tanh (v73 (ix2 p q)) + v71 (ix2 p q) * v11 (ix2 p q)) one_f32

theorem hz0 : (![0, 0] : Fin 2 → Nat) = fun _ => 0 := funext fun a => by fin_cases a <;> rfl

theorem out0_8_apply (x0 : S2000x64.Idx → EReal) (x1 : S2000x256.Idx → EReal) (x2 : S2000x64.Idx → EReal) (x3 : S256x64.Idx → EReal)
    (x4 x5 : S3x64x64.Idx → EReal) (x6 x7 : S3x64.Idx → EReal) (p : Fin 2000) (q : Fin 64) :
    out0_8 (F := Ideal) x0 x1 x2 x3 x4 x5 x6 x7 (ix2 p q) = blkCell x0 x1 x2 x3 x4 x5 x6 x7 p q := by
  unfold out0_8
  rw [View.canon_unit_zero hz0]
  simp only [View.ld_unit_zero (S := S2000x64) hz0, View.ld_unit_zero (S := S2000x256) hz0, View.ld_unit_zero (S := S256x64) hz0]
  rw [pay0_1_apply, pay0_8_apply, pay0_9_apply, pay0_5_apply, pay0_6_apply, pay0_2_apply]
  unfold blkCell cellOf blkIn blkHid blkMsg
  simp only [pay0_3_apply, pay0_4_apply, pay0_7_apply, pay0_2_apply, r0_3, r0_4, r0_5, r0_6, r0_7, r0_8,
    View.ld,
    idxW0_apply, idxW1_apply, idxW2_apply, idxB0_apply, idxB1_apply, idxB2_apply]

theorem idx_facts0 : ∀ t : Fin cfg0.N, ((cfg0.win 0).index t 0 = t.val ∧ (cfg0.win 0).index t 1 = 0) ∧ ((cfg0.win 1).index t 0 = t.val ∧ (cfg0.win 1).index t 1 = 0) ∧ ((cfg0.win 2).index t 0 = t.val ∧ (cfg0.win 2).index t 1 = 0)
    ∧ win0_8.index t (0 : Fin 2) = t.val ∧ win0_8.index t (1 : Fin 2) = 0 := by decide +kernel
theorem idx_facts0_w : ∀ w : Fin cfg0.W, 3 ≤ w.val → w.val ≤ 7 → ∀ (t : Fin cfg0.N) (a : Fin (cfg0.win w).shape.rank), (cfg0.win w).index t a = 0 := by
  decide +kernel

-- Row p of block t is row 2000 t + p of the array; a weight or bias block is its whole array.
theorem blk0_0_apply (c : Dev nD) (t : Fin cfg0.N) (p : Fin 2000) (d : Fin 64) (n : Fin 100000) (hn : n.val = 2000 * t.val + p.val) :
    (iblk0 V c 0 t : S2000x64.Idx → EReal) (ix2 p d) = arr0_0 V c (ix2 n d) := by
  refine congrArg (arr0_0 V c) (funext fun a => Fin.ext (((cfg0.win 0).rect_emb_val t _ a).trans ?_))
  match a with
  | ⟨0, _⟩ => show (cfg0.win 0).index t 0 * 2000 + p.val = n.val; rw [(idx_facts0 t).1.1, hn]; omega
  | ⟨1, _⟩ => show (cfg0.win 0).index t 1 * 64 + d.val = d.val; rw [(idx_facts0 t).1.2]; omega

theorem blk0_1_apply (c : Dev nD) (t : Fin cfg0.N) (p : Fin 2000) (d : Fin 256) (n : Fin 100000) (hn : n.val = 2000 * t.val + p.val) :
    (iblk0 V c 1 t : S2000x256.Idx → EReal) (ix2 p d) = arr0_1 V c (ix2 n d) := by
  refine congrArg (arr0_1 V c) (funext fun a => Fin.ext (((cfg0.win 1).rect_emb_val t _ a).trans ?_))
  match a with
  | ⟨0, _⟩ => show (cfg0.win 1).index t 0 * 2000 + p.val = n.val; rw [(idx_facts0 t).2.1.1, hn]; omega
  | ⟨1, _⟩ => show (cfg0.win 1).index t 1 * 256 + d.val = d.val; rw [(idx_facts0 t).2.1.2]; omega

theorem blk0_2_apply (c : Dev nD) (t : Fin cfg0.N) (p : Fin 2000) (d : Fin 64) (n : Fin 100000) (hn : n.val = 2000 * t.val + p.val) :
    (iblk0 V c 2 t : S2000x64.Idx → EReal) (ix2 p d) = arr0_2 V c (ix2 n d) := by
  refine congrArg (arr0_2 V c) (funext fun a => Fin.ext (((cfg0.win 2).rect_emb_val t _ a).trans ?_))
  match a with
  | ⟨0, _⟩ => show (cfg0.win 2).index t 0 * 2000 + p.val = n.val; rw [(idx_facts0 t).2.2.1.1, hn]; omega
  | ⟨1, _⟩ => show (cfg0.win 2).index t 1 * 64 + d.val = d.val; rw [(idx_facts0 t).2.2.1.2]; omega

theorem blk0_3_eq (c : Dev nD) (t : Fin cfg0.N) : (iblk0 V c 3 t : S256x64.Idx → EReal) = arr0_3 V c :=
  funext fun j => congrArg (arr0_3 V c) (funext fun a => Fin.ext
    ((cfg0.win 3).rect_emb_val_of_index_zero t a (idx_facts0_w 3 (by decide) (by decide) t a) j))
theorem blk0_4_eq (c : Dev nD) (t : Fin cfg0.N) : (iblk0 V c 4 t : S3x64x64.Idx → EReal) = arr0_4 V c :=
  funext fun j => congrArg (arr0_4 V c) (funext fun a => Fin.ext
    ((cfg0.win 4).rect_emb_val_of_index_zero t a (idx_facts0_w 4 (by decide) (by decide) t a) j))
theorem blk0_5_eq (c : Dev nD) (t : Fin cfg0.N) : (iblk0 V c 5 t : S3x64x64.Idx → EReal) = arr0_5 V c :=
  funext fun j => congrArg (arr0_5 V c) (funext fun a => Fin.ext
    ((cfg0.win 5).rect_emb_val_of_index_zero t a (idx_facts0_w 5 (by decide) (by decide) t a) j))
theorem blk0_6_eq (c : Dev nD) (t : Fin cfg0.N) : (iblk0 V c 6 t : S3x64.Idx → EReal) = arr0_6 V c :=
  funext fun j => congrArg (arr0_6 V c) (funext fun a => Fin.ext
    ((cfg0.win 6).rect_emb_val_of_index_zero t a (idx_facts0_w 6 (by decide) (by decide) t a) j))
theorem blk0_7_eq (c : Dev nD) (t : Fin cfg0.N) : (iblk0 V c 7 t : S3x64.Idx → EReal) = arr0_7 V c :=
  funext fun j => congrArg (arr0_7 V c) (funext fun a => Fin.ext
    ((cfg0.win 7).rect_emb_val_of_index_zero t a (idx_facts0_w 7 (by decide) (by decide) t a) j))

theorem flushed0_8_eq (c : Dev nD) (t : Fin cfg0.N) :
    (dat0 (F := Ideal) V c).flushed 8 t = ((cfg0.win 8).blk t).view.read (Elt Ideal) (gruOf0 V c) := by
  show (cfg0.win 8).cut (grid0.coords t) ((dat0 (F := Ideal) V c).after 8 t) = _
  rw [after0_8]
  funext j
  obtain ⟨p, q, rfl⟩ : ∃ (p : Fin 2000) (q : Fin 64), j = ix2 p q := ⟨j 0, j 1, eq_ix2 j⟩
  have ht : t.val < 50 := N_0 ▸ t.isLt
  have hi : ((cfg0.win 8).blk t).view.emb (ix2 p q) = (ix2 (⟨2000 * t.val + p.val, by omega⟩ : Fin 100000) q : S100000x64.Idx) := by
    funext a; refine Fin.ext (((cfg0.win 8).rect_emb_val t _ a).trans ?_)
    match a with
    | ⟨0, _⟩ => show win0_8.index t (0 : Fin 2) * 2000 + p.val = 2000 * t.val + p.val; rw [(idx_facts0 t).2.2.2.1]; omega
    | ⟨1, _⟩ => show win0_8.index t (1 : Fin 2) * 64 + q.val = q.val; rw [(idx_facts0 t).2.2.2.2]; omega
  refine (out0_8_apply _ _ _ _ _ _ _ _ p q).trans (Eq.trans ?_ (congrArg (gruOf0 V c) hi.symm))
  rw [blk0_3_eq V c t, blk0_4_eq V c t, blk0_5_eq V c t, blk0_6_eq V c t, blk0_7_eq V c t]
  exact blkCell_eq_gru _ _ _ _ _ _ _ _ _ _ _ p ⟨2000 * t.val + p.val, by omega⟩
    (fun d => blk0_0_apply V c t p d _ rfl) (fun j => blk0_1_apply V c t p j _ rfl) (fun k => blk0_2_apply V c t p k _ rfl) q

theorem covered0_8 (i : S100000x64.Idx) : ∃ t : Fin cfg0.N, (cfg0.win 8).flush t = true ∧ i ∈ ((cfg0.win 8).blk t).view.set := by
  have hi0 : (i 0).val < 100000 := (i 0).isLt
  have hlt : (i 0).val / 2000 < cfg0.N := by rw [show cfg0.N = 50 from N_0]; omega
  have h : ((cfg0.win 8).blk ⟨(i 0).val / 2000, hlt⟩).view.emb (ix2 ⟨(i 0).val % 2000, by omega⟩ (i 1)) = i := by
    funext a; refine Fin.ext (((cfg0.win 8).rect_emb_val _ _ a).trans ?_)
    match a with
    | ⟨0, _⟩ =>
      show win0_8.index _ (0 : Fin 2) * 2000 + (i 0).val % 2000 = (i 0).val
      rw [(idx_facts0 _).2.2.2.1]; show (i 0).val / 2000 * 2000 + (i 0).val % 2000 = (i 0).val; omega
    | ⟨1, _⟩ => show win0_8.index _ (1 : Fin 2) * 64 + (i 1).val = (i 1).val; rw [(idx_facts0 _).2.2.2.2]; omega
  exact ⟨_, flush0_8 _, Eq.subst (motive := (· ∈ ((cfg0.win 8).blk ⟨(i 0).val / 2000, hlt⟩).view.set)) h (View.emb_mem_set _ _)⟩

theorem arrAt0_8 (c : Dev nD) : ((dat0 (F := Ideal) V c).arrAt 8 cfg0.N : S100000x64.Idx → EReal) = gruOf0 V c :=
  (dat0 (F := Ideal) V c).arrAt_eq_of_cover 8 (gruOf0 V c) (fun t _ => flushed0_8_eq V c t) covered0_8

end Cert.KernelIdeal.Gen

end
-- ==== Proof.KI.RegVal1.lean ====
import proofs.«412786_j57784490000510_2_alg».proof.Proof.KI.Reg1
import proofs.«412786_j57784490000510_2_alg».proof.Proof.KI.GruCell
import proofs.«412786_j57784490000510_2_alg».proof.Proof.Spec
import Idealize.ShloMosaic.Lib.IdealHost
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.KernelIdeal.Cell
open scoped BigOperators

variable (V : (c : Dev nD) → (b : Ref sig .tc) → Buf (Elt Ideal) ((c : Thread nD τ).loc b))

abbrev arr1_0 (c : Dev nD) : S100000x64.Idx → EReal := V c (Pipeline.arrRef spec1 0)
abbrev arr1_1 (c : Dev nD) : S100000x256.Idx → EReal := V c (Pipeline.arrRef spec1 1)
abbrev arr1_2 (c : Dev nD) : S100000x64.Idx → EReal := V c (Pipeline.arrRef spec1 2)
abbrev arr1_3 (c : Dev nD) : S256x64.Idx → EReal := V c (Pipeline.arrRef spec1 3)
abbrev arr1_4 (c : Dev nD) : S3x64x64.Idx → EReal := V c (Pipeline.arrRef spec1 4)
abbrev arr1_5 (c : Dev nD) : S3x64x64.Idx → EReal := V c (Pipeline.arrRef spec1 5)
abbrev arr1_6 (c : Dev nD) : S3x64.Idx → EReal := V c (Pipeline.arrRef spec1 6)
abbrev arr1_7 (c : Dev nD) : S3x64.Idx → EReal := V c (Pipeline.arrRef spec1 7)

abbrev gruOf1 (c : Dev nD) : S100000x64.Idx → EReal :=
  Spec.unc (Spec.gru (Spec.cur (arr1_0 V c))
    (fun n k => (∑ j : Fin 256, Spec.cur (arr1_1 V c) n j * Spec.cur (arr1_3 V c) j k) + Spec.cur (arr1_2 V c) n k)
    (Spec.stackT (arr1_4 V c)) (Spec.stackT (arr1_5 V c)) (Spec.stackB (arr1_6 V c)) (Spec.stackB (arr1_7 V c)))

theorem pay1_3_apply (v0 : Vec Ideal S2000x64 .f32) (p : Fin 2000) (d : Fin 64) : k1_pay3 (F := Ideal) v0 (ix2 p d) = v0 (ix2 p d) := by
  unfold k1_pay3
  exact congrFun (shapeCast_self v0 shapeCasts_S2000x64_S2000x64) (ix2 p d)

theorem pay1_2_apply (v2 : Vec Ideal S2000x256 .f32) (v5 : Vec Ideal S256x64 .f32) (v9 : Vec Ideal S2000x64 .f32) (p : Fin 2000) (q : Fin 64) :
    k1_pay2 (F := Ideal) v2 v5 v9 (ix2 p q) = (∑ j : Fin 256, v2 (ix2 p j) * v5 (ix2 j q)) + v9 (ix2 p q) := by
  unfold k1_pay2
  exact congrArg₂ (· + ·)
    ((mm256_apply _ _ p q).trans (Finset.sum_congr rfl fun j _ => congrArg₂ (· * ·)
      (congrFun (shapeCast_self v2 shapeCasts_S2000x256_S2000x256) (ix2 p j))
      (congrFun (shapeCast_self v5 shapeCasts_S256x64_S256x64) (ix2 j q))))
    (congrFun (shapeCast_self v9 shapeCasts_S2000x64_S2000x64) (ix2 p q))

theorem pay1_4_apply (v2 : Vec Ideal S2000x256 .f32) (v5 : Vec Ideal S256x64 .f32) (v9 : Vec Ideal S2000x64 .f32) (p : Fin 2000) (d : Fin 64) :
    k1_pay4 (F := Ideal) v2 v5 v9 (ix2 p d) = k1_pay2 (F := Ideal) v2 v5 v9 (ix2 p d) := by
  unfold k1_pay4
  rfl

theorem pay1_7_apply (v32 : Vec Ideal S1x64x64 .f32) (d q : Fin 64) : k1_pay7 (F := Ideal) v32 (ix2 d q) = v32 (ix3 (0 : Fin 1) d q) := by
  unfold k1_pay7
  exact castW_apply v32 d q

theorem pay1_5_apply (v0 : Vec Ideal S2000x64 .f32) (v14 : Vec Ideal S1x64x64 .f32) (v21 : Vec Ideal S1x64 .f32) (p : Fin 2000) (q : Fin 64) :
    k1_pay5 (F := Ideal) v0 v14 v21 (ix2 p q) = (∑ d : Fin 64, v0 (ix2 p d) * v14 (ix3 (0 : Fin 1) d q)) + v21 (ix2 (0 : Fin 1) q) := by
  unfold k1_pay5
  exact (gate_apply (k1_pay3 v0) _ v21 p q).trans (congrArg (· + _) (Finset.sum_congr rfl fun d _ =>
    congrArg₂ (· * ·) (pay1_3_apply v0 p d) (castW_apply v14 d q)))

theorem pay1_6_apply (v2 : Vec Ideal S2000x256 .f32) (v5 : Vec Ideal S256x64 .f32) (v9 : Vec Ideal S2000x64 .f32) (v17 : Vec Ideal S1x64x64 .f32) (v27 : Vec Ideal S1x64 .f32)
    (p : Fin 2000) (q : Fin 64) :
    k1_pay6 (F := Ideal) v2 v5 v9 v17 v27 (ix2 p q)
      = (∑ d : Fin 64, k1_pay2 (F := Ideal) v2 v5 v9 (ix2 p d) * v17 (ix3 (0 : Fin 1) d q)) + v27 (ix2 (0 : Fin 1) q) := by
  unfold k1_pay6
  exact (gate_apply (k1_pay4 v2 v5 v9) _ v27 p q).trans (congrArg (· + _) (Finset.sum_congr rfl fun d _ =>
    congrArg₂ (· * ·) (pay1_4_apply v2 v5 v9 p d) (castW_apply v17 d q)))

theorem pay1_8_apply (v12 v13 : FVec Ideal S2000x64 .bf16) (v34 : FVec Ideal S64x64 .bf16) (v35 : Vec Ideal S1x64x64 .f32) (v39 v45 : Vec Ideal S1x64 .f32)
    (p : Fin 2000) (q : Fin 64) :
    k1_pay8 (F := Ideal) v12 v13 v34 v35 v39 v45 (ix2 p q)
      = Ideal.logistic (((∑ d : Fin 64, v12 (ix2 p d) * v34 (ix2 d q)) + v39 (ix2 (0 : Fin 1) q))
          + ((∑ d : Fin 64, v13 (ix2 p d) * v35 (ix3 (0 : Fin 1) d q)) + v45 (ix2 (0 : Fin 1) q))) := by
  unfold k1_pay8
  exact congrArg Ideal.logistic (congrArg₂ (· + ·) (gate_apply v12 v34 v39 p q)
    ((gate_apply v13 _ v45 p q).trans (congrArg (· + _) (Finset.sum_congr rfl fun d _ => congrArg (_ * ·) (castW_apply v35 d q)))))

theorem pay1_9_apply (v12 v13 : FVec Ideal S2000x64 .bf16) (v25 v31 : FVec Ideal S2000x64 .f32) (v50 v53 : Vec Ideal S1x64x64 .f32) (v57 v63 : Vec Ideal S1x64 .f32)
    (p : Fin 2000) (q : Fin 64) :
    k1_pay9 (F := Ideal) v12 v13 v25 v31 v50 v53 v57 v63 (ix2 p q)
      = ((∑ d : Fin 64, v12 (ix2 p d) * v50 (ix3 (0 : Fin 1) d q)) + v57 (ix2 (0 : Fin 1) q))
        + Ideal.logistic (v25 (ix2 p q) + v31 (ix2 p q)) * ((∑ d : Fin 64, v13 (ix2 p d) * v53 (ix3 (0 : Fin 1) d q)) + v63 (ix2 (0 : Fin 1) q)) := by
  unfold k1_pay9
  exact congrArg₂ (· + ·)
    ((gate_apply v12 _ v57 p q).trans (congrArg (· + _) (Finset.sum_congr rfl fun d _ => congrArg (_ * ·) (castW_apply v50 d q))))
    (congrArg (Ideal.logistic (v25 (ix2 p q) + v31 (ix2 p q)) * ·)
      ((gate_apply v13 _ v63 p q).trans (congrArg (· + _) (Finset.sum_congr rfl fun d _ => congrArg (_ * ·) (castW_apply v53 d q)))))

theorem pay1_1_apply (v11 v71 v73 : FVec Ideal S2000x64 .f32) (p : Fin 2000) (q : Fin 64) :
    k1_pay1 (F := Ideal) v11 v71 v73 (ix2 p q) = (1 - v71 (ix2 p q)) * Ideal.tanh (v73 (ix2 p q)) + v71 (ix2 p q) * v11 (ix2 p q) := by
  unfold k1_pay1
  exact congrArg (fun o : EReal => (o - v71 (ix2 p q)) * Ideal.tanh (v73 (ix2 p q)) + v71 (ix2 p q) * v11 (ix2 p q)) one_f32

theorem hz1 : (![0, 0] : Fin 2 → Nat) = fun _ => 0 := funext fun a => by fin_cases a <;> rfl

theorem out1_8_apply (x0 : S2000x64.Idx → EReal) (x1 : S2000x256.Idx → EReal) (x2 : S2000x64.Idx → EReal) (x3 : S256x64.Idx → EReal)
    (x4 x5 : S3x64x64.Idx → EReal) (x6 x7 : S3x64.Idx → EReal) (p : Fin 2000) (q : Fin 64) :
    out1_8 (F := Ideal) x0 x1 x2 x3 x4 x5 x6 x7 (ix2 p q) = blkCell x0 x1 x2 x3 x4 x5 x6 x7 p q := by
  unfold out1_8
  rw [View.canon_unit_zero hz1]
  simp only [View.ld_unit_zero (S := S2000x64) hz1, View.ld_unit_zero (S := S2000x256) hz1, View.ld_unit_zero (S := S256x64) hz1]
  rw [pay1_1_apply, pay1_8_apply, pay1_9_apply, pay1_5_apply, pay1_6_apply, pay1_2_apply]
  unfold blkCell cellOf blkIn blkHid blkMsg
  simp only [pay1_3_apply, pay1_4_apply, pay1_7_apply, pay1_2_apply, r1_3, r1_4, r1_5, r1_6, r1_7, r1_8,
    View.ld,
    idxW0_apply, idxW1_apply, idxW2_apply, idxB0_apply, idxB1_apply, idxB2_apply]

theorem idx_facts1 : ∀ t : Fin cfg1.N, ((cfg1.win 0).index t 0 = t.val ∧ (cfg1.win 0).index t 1 = 0) ∧ ((cfg1.win 1).index t 0 = t.val ∧ (cfg1.win 1).index t 1 = 0) ∧ ((cfg1.win 2).index t 0 = t.val ∧ (cfg1.win 2).index t 1 = 0)
    ∧ win1_8.index t (0 : Fin 2) = t.val ∧ win1_8.index t (1 : Fin 2) = 0 := by decide +kernel
theorem idx_facts1_w : ∀ w : Fin cfg1.W, 3 ≤ w.val → w.val ≤ 7 → ∀ (t : Fin cfg1.N) (a : Fin (cfg1.win w).shape.rank), (cfg1.win w).index t a = 0 := by
  decide +kernel

-- Row p of block t is row 2000 t + p of the array; a weight or bias block is its whole array.
theorem blk1_0_apply (c : Dev nD) (t : Fin cfg1.N) (p : Fin 2000) (d : Fin 64) (n : Fin 100000) (hn : n.val = 2000 * t.val + p.val) :
    (iblk1 V c 0 t : S2000x64.Idx → EReal) (ix2 p d) = arr1_0 V c (ix2 n d) := by
  refine congrArg (arr1_0 V c) (funext fun a => Fin.ext (((cfg1.win 0).rect_emb_val t _ a).trans ?_))
  match a with
  | ⟨0, _⟩ => show (cfg1.win 0).index t 0 * 2000 + p.val = n.val; rw [(idx_facts1 t).1.1, hn]; omega
  | ⟨1, _⟩ => show (cfg1.win 0).index t 1 * 64 + d.val = d.val; rw [(idx_facts1 t).1.2]; omega

theorem blk1_1_apply (c : Dev nD) (t : Fin cfg1.N) (p : Fin 2000) (d : Fin 256) (n : Fin 100000) (hn : n.val = 2000 * t.val + p.val) :
    (iblk1 V c 1 t : S2000x256.Idx → EReal) (ix2 p d) = arr1_1 V c (ix2 n d) := by
  refine congrArg (arr1_1 V c) (funext fun a => Fin.ext (((cfg1.win 1).rect_emb_val t _ a).trans ?_))
  match a with
  | ⟨0, _⟩ => show (cfg1.win 1).index t 0 * 2000 + p.val = n.val; rw [(idx_facts1 t).2.1.1, hn]; omega
  | ⟨1, _⟩ => show (cfg1.win 1).index t 1 * 256 + d.val = d.val; rw [(idx_facts1 t).2.1.2]; omega

theorem blk1_2_apply (c : Dev nD) (t : Fin cfg1.N) (p : Fin 2000) (d : Fin 64) (n : Fin 100000) (hn : n.val = 2000 * t.val + p.val) :
    (iblk1 V c 2 t : S2000x64.Idx → EReal) (ix2 p d) = arr1_2 V c (ix2 n d) := by
  refine congrArg (arr1_2 V c) (funext fun a => Fin.ext (((cfg1.win 2).rect_emb_val t _ a).trans ?_))
  match a with
  | ⟨0, _⟩ => show (cfg1.win 2).index t 0 * 2000 + p.val = n.val; rw [(idx_facts1 t).2.2.1.1, hn]; omega
  | ⟨1, _⟩ => show (cfg1.win 2).index t 1 * 64 + d.val = d.val; rw [(idx_facts1 t).2.2.1.2]; omega

theorem blk1_3_eq (c : Dev nD) (t : Fin cfg1.N) : (iblk1 V c 3 t : S256x64.Idx → EReal) = arr1_3 V c :=
  funext fun j => congrArg (arr1_3 V c) (funext fun a => Fin.ext
    ((cfg1.win 3).rect_emb_val_of_index_zero t a (idx_facts1_w 3 (by decide) (by decide) t a) j))
theorem blk1_4_eq (c : Dev nD) (t : Fin cfg1.N) : (iblk1 V c 4 t : S3x64x64.Idx → EReal) = arr1_4 V c :=
  funext fun j => congrArg (arr1_4 V c) (funext fun a => Fin.ext
    ((cfg1.win 4).rect_emb_val_of_index_zero t a (idx_facts1_w 4 (by decide) (by decide) t a) j))
theorem blk1_5_eq (c : Dev nD) (t : Fin cfg1.N) : (iblk1 V c 5 t : S3x64x64.Idx → EReal) = arr1_5 V c :=
  funext fun j => congrArg (arr1_5 V c) (funext fun a => Fin.ext
    ((cfg1.win 5).rect_emb_val_of_index_zero t a (idx_facts1_w 5 (by decide) (by decide) t a) j))
theorem blk1_6_eq (c : Dev nD) (t : Fin cfg1.N) : (iblk1 V c 6 t : S3x64.Idx → EReal) = arr1_6 V c :=
  funext fun j => congrArg (arr1_6 V c) (funext fun a => Fin.ext
    ((cfg1.win 6).rect_emb_val_of_index_zero t a (idx_facts1_w 6 (by decide) (by decide) t a) j))
theorem blk1_7_eq (c : Dev nD) (t : Fin cfg1.N) : (iblk1 V c 7 t : S3x64.Idx → EReal) = arr1_7 V c :=
  funext fun j => congrArg (arr1_7 V c) (funext fun a => Fin.ext
    ((cfg1.win 7).rect_emb_val_of_index_zero t a (idx_facts1_w 7 (by decide) (by decide) t a) j))

theorem flushed1_8_eq (c : Dev nD) (t : Fin cfg1.N) :
    (dat1 (F := Ideal) V c).flushed 8 t = ((cfg1.win 8).blk t).view.read (Elt Ideal) (gruOf1 V c) := by
  show (cfg1.win 8).cut (grid1.coords t) ((dat1 (F := Ideal) V c).after 8 t) = _
  rw [after1_8]
  funext j
  obtain ⟨p, q, rfl⟩ : ∃ (p : Fin 2000) (q : Fin 64), j = ix2 p q := ⟨j 0, j 1, eq_ix2 j⟩
  have ht : t.val < 50 := N_1 ▸ t.isLt
  have hi : ((cfg1.win 8).blk t).view.emb (ix2 p q) = (ix2 (⟨2000 * t.val + p.val, by omega⟩ : Fin 100000) q : S100000x64.Idx) := by
    funext a; refine Fin.ext (((cfg1.win 8).rect_emb_val t _ a).trans ?_)
    match a with
    | ⟨0, _⟩ => show win1_8.index t (0 : Fin 2) * 2000 + p.val = 2000 * t.val + p.val; rw [(idx_facts1 t).2.2.2.1]; omega
    | ⟨1, _⟩ => show win1_8.index t (1 : Fin 2) * 64 + q.val = q.val; rw [(idx_facts1 t).2.2.2.2]; omega
  refine (out1_8_apply _ _ _ _ _ _ _ _ p q).trans (Eq.trans ?_ (congrArg (gruOf1 V c) hi.symm))
  rw [blk1_3_eq V c t, blk1_4_eq V c t, blk1_5_eq V c t, blk1_6_eq V c t, blk1_7_eq V c t]
  exact blkCell_eq_gru _ _ _ _ _ _ _ _ _ _ _ p ⟨2000 * t.val + p.val, by omega⟩
    (fun d => blk1_0_apply V c t p d _ rfl) (fun j => blk1_1_apply V c t p j _ rfl) (fun k => blk1_2_apply V c t p k _ rfl) q

theorem covered1_8 (i : S100000x64.Idx) : ∃ t : Fin cfg1.N, (cfg1.win 8).flush t = true ∧ i ∈ ((cfg1.win 8).blk t).view.set := by
  have hi0 : (i 0).val < 100000 := (i 0).isLt
  have hlt : (i 0).val / 2000 < cfg1.N := by rw [show cfg1.N = 50 from N_1]; omega
  have h : ((cfg1.win 8).blk ⟨(i 0).val / 2000, hlt⟩).view.emb (ix2 ⟨(i 0).val % 2000, by omega⟩ (i 1)) = i := by
    funext a; refine Fin.ext (((cfg1.win 8).rect_emb_val _ _ a).trans ?_)
    match a with
    | ⟨0, _⟩ =>
      show win1_8.index _ (0 : Fin 2) * 2000 + (i 0).val % 2000 = (i 0).val
      rw [(idx_facts1 _).2.2.2.1]; show (i 0).val / 2000 * 2000 + (i 0).val % 2000 = (i 0).val; omega
    | ⟨1, _⟩ => show win1_8.index _ (1 : Fin 2) * 64 + (i 1).val = (i 1).val; rw [(idx_facts1 _).2.2.2.2]; omega
  exact ⟨_, flush1_8 _, Eq.subst (motive := (· ∈ ((cfg1.win 8).blk ⟨(i 0).val / 2000, hlt⟩).view.set)) h (View.emb_mem_set _ _)⟩

theorem arrAt1_8 (c : Dev nD) : ((dat1 (F := Ideal) V c).arrAt 8 cfg1.N : S100000x64.Idx → EReal) = gruOf1 V c :=
  (dat1 (F := Ideal) V c).arrAt_eq_of_cover 8 (gruOf1 V c) (fun t _ => flushed1_8_eq V c t) covered1_8

end Cert.KernelIdeal.Gen

end
-- ==== Proof.KI.RegVal2.lean ====
import proofs.«412786_j57784490000510_2_alg».proof.Proof.KI.Reg2
import proofs.«412786_j57784490000510_2_alg».proof.Proof.KI.GruCell
import proofs.«412786_j57784490000510_2_alg».proof.Proof.Spec
import Idealize.ShloMosaic.Lib.IdealHost
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.KernelIdeal.Cell
open scoped BigOperators

variable (V : (c : Dev nD) → (b : Ref sig .tc) → Buf (Elt Ideal) ((c : Thread nD τ).loc b))

abbrev arr2_0 (c : Dev nD) : S100000x64.Idx → EReal := V c (Pipeline.arrRef spec2 0)
abbrev arr2_1 (c : Dev nD) : S100000x256.Idx → EReal := V c (Pipeline.arrRef spec2 1)
abbrev arr2_2 (c : Dev nD) : S100000x64.Idx → EReal := V c (Pipeline.arrRef spec2 2)
abbrev arr2_3 (c : Dev nD) : S256x64.Idx → EReal := V c (Pipeline.arrRef spec2 3)
abbrev arr2_4 (c : Dev nD) : S3x64x64.Idx → EReal := V c (Pipeline.arrRef spec2 4)
abbrev arr2_5 (c : Dev nD) : S3x64x64.Idx → EReal := V c (Pipeline.arrRef spec2 5)
abbrev arr2_6 (c : Dev nD) : S3x64.Idx → EReal := V c (Pipeline.arrRef spec2 6)
abbrev arr2_7 (c : Dev nD) : S3x64.Idx → EReal := V c (Pipeline.arrRef spec2 7)

abbrev gruOf2 (c : Dev nD) : S100000x64.Idx → EReal :=
  Spec.unc (Spec.gru (Spec.cur (arr2_0 V c))
    (fun n k => (∑ j : Fin 256, Spec.cur (arr2_1 V c) n j * Spec.cur (arr2_3 V c) j k) + Spec.cur (arr2_2 V c) n k)
    (Spec.stackT (arr2_4 V c)) (Spec.stackT (arr2_5 V c)) (Spec.stackB (arr2_6 V c)) (Spec.stackB (arr2_7 V c)))

theorem pay2_3_apply (v0 : Vec Ideal S2000x64 .f32) (p : Fin 2000) (d : Fin 64) : k2_pay3 (F := Ideal) v0 (ix2 p d) = v0 (ix2 p d) := by
  unfold k2_pay3
  exact congrFun (shapeCast_self v0 shapeCasts_S2000x64_S2000x64) (ix2 p d)

theorem pay2_2_apply (v2 : Vec Ideal S2000x256 .f32) (v5 : Vec Ideal S256x64 .f32) (v9 : Vec Ideal S2000x64 .f32) (p : Fin 2000) (q : Fin 64) :
    k2_pay2 (F := Ideal) v2 v5 v9 (ix2 p q) = (∑ j : Fin 256, v2 (ix2 p j) * v5 (ix2 j q)) + v9 (ix2 p q) := by
  unfold k2_pay2
  exact congrArg₂ (· + ·)
    ((mm256_apply _ _ p q).trans (Finset.sum_congr rfl fun j _ => congrArg₂ (· * ·)
      (congrFun (shapeCast_self v2 shapeCasts_S2000x256_S2000x256) (ix2 p j))
      (congrFun (shapeCast_self v5 shapeCasts_S256x64_S256x64) (ix2 j q))))
    (congrFun (shapeCast_self v9 shapeCasts_S2000x64_S2000x64) (ix2 p q))

theorem pay2_4_apply (v2 : Vec Ideal S2000x256 .f32) (v5 : Vec Ideal S256x64 .f32) (v9 : Vec Ideal S2000x64 .f32) (p : Fin 2000) (d : Fin 64) :
    k2_pay4 (F := Ideal) v2 v5 v9 (ix2 p d) = k2_pay2 (F := Ideal) v2 v5 v9 (ix2 p d) := by
  unfold k2_pay4
  rfl

theorem pay2_7_apply (v32 : Vec Ideal S1x64x64 .f32) (d q : Fin 64) : k2_pay7 (F := Ideal) v32 (ix2 d q) = v32 (ix3 (0 : Fin 1) d q) := by
  unfold k2_pay7
  exact castW_apply v32 d q

theorem pay2_5_apply (v0 : Vec Ideal S2000x64 .f32) (v14 : Vec Ideal S1x64x64 .f32) (v21 : Vec Ideal S1x64 .f32) (p : Fin 2000) (q : Fin 64) :
    k2_pay5 (F := Ideal) v0 v14 v21 (ix2 p q) = (∑ d : Fin 64, v0 (ix2 p d) * v14 (ix3 (0 : Fin 1) d q)) + v21 (ix2 (0 : Fin 1) q) := by
  unfold k2_pay5
  exact (gate_apply (k2_pay3 v0) _ v21 p q).trans (congrArg (· + _) (Finset.sum_congr rfl fun d _ =>
    congrArg₂ (· * ·) (pay2_3_apply v0 p d) (castW_apply v14 d q)))

theorem pay2_6_apply (v2 : Vec Ideal S2000x256 .f32) (v5 : Vec Ideal S256x64 .f32) (v9 : Vec Ideal S2000x64 .f32) (v17 : Vec Ideal S1x64x64 .f32) (v27 : Vec Ideal S1x64 .f32)
    (p : Fin 2000) (q : Fin 64) :
    k2_pay6 (F := Ideal) v2 v5 v9 v17 v27 (ix2 p q)
      = (∑ d : Fin 64, k2_pay2 (F := Ideal) v2 v5 v9 (ix2 p d) * v17 (ix3 (0 : Fin 1) d q)) + v27 (ix2 (0 : Fin 1) q) := by
  unfold k2_pay6
  exact (gate_apply (k2_pay4 v2 v5 v9) _ v27 p q).trans (congrArg (· + _) (Finset.sum_congr rfl fun d _ =>
    congrArg₂ (· * ·) (pay2_4_apply v2 v5 v9 p d) (castW_apply v17 d q)))

theorem pay2_8_apply (v12 v13 : FVec Ideal S2000x64 .bf16) (v34 : FVec Ideal S64x64 .bf16) (v35 : Vec Ideal S1x64x64 .f32) (v39 v45 : Vec Ideal S1x64 .f32)
    (p : Fin 2000) (q : Fin 64) :
    k2_pay8 (F := Ideal) v12 v13 v34 v35 v39 v45 (ix2 p q)
      = Ideal.logistic (((∑ d : Fin 64, v12 (ix2 p d) * v34 (ix2 d q)) + v39 (ix2 (0 : Fin 1) q))
          + ((∑ d : Fin 64, v13 (ix2 p d) * v35 (ix3 (0 : Fin 1) d q)) + v45 (ix2 (0 : Fin 1) q))) := by
  unfold k2_pay8
  exact congrArg Ideal.logistic (congrArg₂ (· + ·) (gate_apply v12 v34 v39 p q)
    ((gate_apply v13 _ v45 p q).trans (congrArg (· + _) (Finset.sum_congr rfl fun d _ => congrArg (_ * ·) (castW_apply v35 d q)))))

theorem pay2_9_apply (v12 v13 : FVec Ideal S2000x64 .bf16) (v25 v31 : FVec Ideal S2000x64 .f32) (v50 v53 : Vec Ideal S1x64x64 .f32) (v57 v63 : Vec Ideal S1x64 .f32)
    (p : Fin 2000) (q : Fin 64) :
    k2_pay9 (F := Ideal) v12 v13 v25 v31 v50 v53 v57 v63 (ix2 p q)
      = ((∑ d : Fin 64, v12 (ix2 p d) * v50 (ix3 (0 : Fin 1) d q)) + v57 (ix2 (0 : Fin 1) q))
        + Ideal.logistic (v25 (ix2 p q) + v31 (ix2 p q)) * ((∑ d : Fin 64, v13 (ix2 p d) * v53 (ix3 (0 : Fin 1) d q)) + v63 (ix2 (0 : Fin 1) q)) := by
  unfold k2_pay9
  exact congrArg₂ (· + ·)
    ((gate_apply v12 _ v57 p q).trans (congrArg (· + _) (Finset.sum_congr rfl fun d _ => congrArg (_ * ·) (castW_apply v50 d q))))
    (congrArg (Ideal.logistic (v25 (ix2 p q) + v31 (ix2 p q)) * ·)
      ((gate_apply v13 _ v63 p q).trans (congrArg (· + _) (Finset.sum_congr rfl fun d _ => congrArg (_ * ·) (castW_apply v53 d q)))))

theorem pay2_1_apply (v11 v71 v73 : FVec Ideal S2000x64 .f32) (p : Fin 2000) (q : Fin 64) :
    k2_pay1 (F := Ideal) v11 v71 v73 (ix2 p q) = (1 - v71 (ix2 p q)) * Ideal.tanh (v73 (ix2 p q)) + v71 (ix2 p q) * v11 (ix2 p q) := by
  unfold k2_pay1
  exact congrArg (fun o : EReal => (o - v71 (ix2 p q)) * Ideal.tanh (v73 (ix2 p q)) + v71 (ix2 p q) * v11 (ix2 p q)) one_f32

theorem hz2 : (![0, 0] : Fin 2 → Nat) = fun _ => 0 := funext fun a => by fin_cases a <;> rfl

theorem out2_8_apply (x0 : S2000x64.Idx → EReal) (x1 : S2000x256.Idx → EReal) (x2 : S2000x64.Idx → EReal) (x3 : S256x64.Idx → EReal)
    (x4 x5 : S3x64x64.Idx → EReal) (x6 x7 : S3x64.Idx → EReal) (p : Fin 2000) (q : Fin 64) :
    out2_8 (F := Ideal) x0 x1 x2 x3 x4 x5 x6 x7 (ix2 p q) = blkCell x0 x1 x2 x3 x4 x5 x6 x7 p q := by
  unfold out2_8
  rw [View.canon_unit_zero hz2]
  simp only [View.ld_unit_zero (S := S2000x64) hz2, View.ld_unit_zero (S := S2000x256) hz2, View.ld_unit_zero (S := S256x64) hz2]
  rw [pay2_1_apply, pay2_8_apply, pay2_9_apply, pay2_5_apply, pay2_6_apply, pay2_2_apply]
  unfold blkCell cellOf blkIn blkHid blkMsg
  simp only [pay2_3_apply, pay2_4_apply, pay2_7_apply, pay2_2_apply, r2_3, r2_4, r2_5, r2_6, r2_7, r2_8,
    View.ld,
    idxW0_apply, idxW1_apply, idxW2_apply, idxB0_apply, idxB1_apply, idxB2_apply]

theorem idx_facts2 : ∀ t : Fin cfg2.N, ((cfg2.win 0).index t 0 = t.val ∧ (cfg2.win 0).index t 1 = 0) ∧ ((cfg2.win 1).index t 0 = t.val ∧ (cfg2.win 1).index t 1 = 0) ∧ ((cfg2.win 2).index t 0 = t.val ∧ (cfg2.win 2).index t 1 = 0)
    ∧ win2_8.index t (0 : Fin 2) = t.val ∧ win2_8.index t (1 : Fin 2) = 0 := by decide +kernel
theorem idx_facts2_w : ∀ w : Fin cfg2.W, 3 ≤ w.val → w.val ≤ 7 → ∀ (t : Fin cfg2.N) (a : Fin (cfg2.win w).shape.rank), (cfg2.win w).index t a = 0 := by
  decide +kernel

-- Row p of block t is row 2000 t + p of the array; a weight or bias block is its whole array.
theorem blk2_0_apply (c : Dev nD) (t : Fin cfg2.N) (p : Fin 2000) (d : Fin 64) (n : Fin 100000) (hn : n.val = 2000 * t.val + p.val) :
    (iblk2 V c 0 t : S2000x64.Idx → EReal) (ix2 p d) = arr2_0 V c (ix2 n d) := by
  refine congrArg (arr2_0 V c) (funext fun a => Fin.ext (((cfg2.win 0).rect_emb_val t _ a).trans ?_))
  match a with
  | ⟨0, _⟩ => show (cfg2.win 0).index t 0 * 2000 + p.val = n.val; rw [(idx_facts2 t).1.1, hn]; omega
  | ⟨1, _⟩ => show (cfg2.win 0).index t 1 * 64 + d.val = d.val; rw [(idx_facts2 t).1.2]; omega

theorem blk2_1_apply (c : Dev nD) (t : Fin cfg2.N) (p : Fin 2000) (d : Fin 256) (n : Fin 100000) (hn : n.val = 2000 * t.val + p.val) :
    (iblk2 V c 1 t : S2000x256.Idx → EReal) (ix2 p d) = arr2_1 V c (ix2 n d) := by
  refine congrArg (arr2_1 V c) (funext fun a => Fin.ext (((cfg2.win 1).rect_emb_val t _ a).trans ?_))
  match a with
  | ⟨0, _⟩ => show (cfg2.win 1).index t 0 * 2000 + p.val = n.val; rw [(idx_facts2 t).2.1.1, hn]; omega
  | ⟨1, _⟩ => show (cfg2.win 1).index t 1 * 256 + d.val = d.val; rw [(idx_facts2 t).2.1.2]; omega

theorem blk2_2_apply (c : Dev nD) (t : Fin cfg2.N) (p : Fin 2000) (d : Fin 64) (n : Fin 100000) (hn : n.val = 2000 * t.val + p.val) :
    (iblk2 V c 2 t : S2000x64.Idx → EReal) (ix2 p d) = arr2_2 V c (ix2 n d) := by
  refine congrArg (arr2_2 V c) (funext fun a => Fin.ext (((cfg2.win 2).rect_emb_val t _ a).trans ?_))
  match a with
  | ⟨0, _⟩ => show (cfg2.win 2).index t 0 * 2000 + p.val = n.val; rw [(idx_facts2 t).2.2.1.1, hn]; omega
  | ⟨1, _⟩ => show (cfg2.win 2).index t 1 * 64 + d.val = d.val; rw [(idx_facts2 t).2.2.1.2]; omega

theorem blk2_3_eq (c : Dev nD) (t : Fin cfg2.N) : (iblk2 V c 3 t : S256x64.Idx → EReal) = arr2_3 V c :=
  funext fun j => congrArg (arr2_3 V c) (funext fun a => Fin.ext
    ((cfg2.win 3).rect_emb_val_of_index_zero t a (idx_facts2_w 3 (by decide) (by decide) t a) j))
theorem blk2_4_eq (c : Dev nD) (t : Fin cfg2.N) : (iblk2 V c 4 t : S3x64x64.Idx → EReal) = arr2_4 V c :=
  funext fun j => congrArg (arr2_4 V c) (funext fun a => Fin.ext
    ((cfg2.win 4).rect_emb_val_of_index_zero t a (idx_facts2_w 4 (by decide) (by decide) t a) j))
theorem blk2_5_eq (c : Dev nD) (t : Fin cfg2.N) : (iblk2 V c 5 t : S3x64x64.Idx → EReal) = arr2_5 V c :=
  funext fun j => congrArg (arr2_5 V c) (funext fun a => Fin.ext
    ((cfg2.win 5).rect_emb_val_of_index_zero t a (idx_facts2_w 5 (by decide) (by decide) t a) j))
theorem blk2_6_eq (c : Dev nD) (t : Fin cfg2.N) : (iblk2 V c 6 t : S3x64.Idx → EReal) = arr2_6 V c :=
  funext fun j => congrArg (arr2_6 V c) (funext fun a => Fin.ext
    ((cfg2.win 6).rect_emb_val_of_index_zero t a (idx_facts2_w 6 (by decide) (by decide) t a) j))
theorem blk2_7_eq (c : Dev nD) (t : Fin cfg2.N) : (iblk2 V c 7 t : S3x64.Idx → EReal) = arr2_7 V c :=
  funext fun j => congrArg (arr2_7 V c) (funext fun a => Fin.ext
    ((cfg2.win 7).rect_emb_val_of_index_zero t a (idx_facts2_w 7 (by decide) (by decide) t a) j))

theorem flushed2_8_eq (c : Dev nD) (t : Fin cfg2.N) :
    (dat2 (F := Ideal) V c).flushed 8 t = ((cfg2.win 8).blk t).view.read (Elt Ideal) (gruOf2 V c) := by
  show (cfg2.win 8).cut (grid2.coords t) ((dat2 (F := Ideal) V c).after 8 t) = _
  rw [after2_8]
  funext j
  obtain ⟨p, q, rfl⟩ : ∃ (p : Fin 2000) (q : Fin 64), j = ix2 p q := ⟨j 0, j 1, eq_ix2 j⟩
  have ht : t.val < 50 := N_2 ▸ t.isLt
  have hi : ((cfg2.win 8).blk t).view.emb (ix2 p q) = (ix2 (⟨2000 * t.val + p.val, by omega⟩ : Fin 100000) q : S100000x64.Idx) := by
    funext a; refine Fin.ext (((cfg2.win 8).rect_emb_val t _ a).trans ?_)
    match a with
    | ⟨0, _⟩ => show win2_8.index t (0 : Fin 2) * 2000 + p.val = 2000 * t.val + p.val; rw [(idx_facts2 t).2.2.2.1]; omega
    | ⟨1, _⟩ => show win2_8.index t (1 : Fin 2) * 64 + q.val = q.val; rw [(idx_facts2 t).2.2.2.2]; omega
  refine (out2_8_apply _ _ _ _ _ _ _ _ p q).trans (Eq.trans ?_ (congrArg (gruOf2 V c) hi.symm))
  rw [blk2_3_eq V c t, blk2_4_eq V c t, blk2_5_eq V c t, blk2_6_eq V c t, blk2_7_eq V c t]
  exact blkCell_eq_gru _ _ _ _ _ _ _ _ _ _ _ p ⟨2000 * t.val + p.val, by omega⟩
    (fun d => blk2_0_apply V c t p d _ rfl) (fun j => blk2_1_apply V c t p j _ rfl) (fun k => blk2_2_apply V c t p k _ rfl) q

theorem covered2_8 (i : S100000x64.Idx) : ∃ t : Fin cfg2.N, (cfg2.win 8).flush t = true ∧ i ∈ ((cfg2.win 8).blk t).view.set := by
  have hi0 : (i 0).val < 100000 := (i 0).isLt
  have hlt : (i 0).val / 2000 < cfg2.N := by rw [show cfg2.N = 50 from N_2]; omega
  have h : ((cfg2.win 8).blk ⟨(i 0).val / 2000, hlt⟩).view.emb (ix2 ⟨(i 0).val % 2000, by omega⟩ (i 1)) = i := by
    funext a; refine Fin.ext (((cfg2.win 8).rect_emb_val _ _ a).trans ?_)
    match a with
    | ⟨0, _⟩ =>
      show win2_8.index _ (0 : Fin 2) * 2000 + (i 0).val % 2000 = (i 0).val
      rw [(idx_facts2 _).2.2.2.1]; show (i 0).val / 2000 * 2000 + (i 0).val % 2000 = (i 0).val; omega
    | ⟨1, _⟩ => show win2_8.index _ (1 : Fin 2) * 64 + (i 1).val = (i 1).val; rw [(idx_facts2 _).2.2.2.2]; omega
  exact ⟨_, flush2_8 _, Eq.subst (motive := (· ∈ ((cfg2.win 8).blk ⟨(i 0).val / 2000, hlt⟩).view.set)) h (View.emb_mem_set _ _)⟩

theorem arrAt2_8 (c : Dev nD) : ((dat2 (F := Ideal) V c).arrAt 8 cfg2.N : S100000x64.Idx → EReal) = gruOf2 V c :=
  (dat2 (F := Ideal) V c).arrAt_eq_of_cover 8 (gruOf2 V c) (fun t _ => flushed2_8_eq V c t) covered2_8

end Cert.KernelIdeal.Gen

end
-- ==== Proof.KI.RegVal3.lean ====
import proofs.«412786_j57784490000510_2_alg».proof.Proof.KI.Reg3
import proofs.«412786_j57784490000510_2_alg».proof.Proof.KI.GruCell
import proofs.«412786_j57784490000510_2_alg».proof.Proof.Spec
import Idealize.ShloMosaic.Lib.IdealHost
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.KernelIdeal.Cell
open scoped BigOperators

variable (V : (c : Dev nD) → (b : Ref sig .tc) → Buf (Elt Ideal) ((c : Thread nD τ).loc b))

abbrev arr3_0 (c : Dev nD) : S100000x64.Idx → EReal := V c (Pipeline.arrRef spec3 0)
abbrev arr3_1 (c : Dev nD) : S100000x256.Idx → EReal := V c (Pipeline.arrRef spec3 1)
abbrev arr3_2 (c : Dev nD) : S100000x64.Idx → EReal := V c (Pipeline.arrRef spec3 2)
abbrev arr3_3 (c : Dev nD) : S256x64.Idx → EReal := V c (Pipeline.arrRef spec3 3)
abbrev arr3_4 (c : Dev nD) : S3x64x64.Idx → EReal := V c (Pipeline.arrRef spec3 4)
abbrev arr3_5 (c : Dev nD) : S3x64x64.Idx → EReal := V c (Pipeline.arrRef spec3 5)
abbrev arr3_6 (c : Dev nD) : S3x64.Idx → EReal := V c (Pipeline.arrRef spec3 6)
abbrev arr3_7 (c : Dev nD) : S3x64.Idx → EReal := V c (Pipeline.arrRef spec3 7)

abbrev gruOf3 (c : Dev nD) : S100000x64.Idx → EReal :=
  Spec.unc (Spec.gru (Spec.cur (arr3_0 V c))
    (fun n k => (∑ j : Fin 256, Spec.cur (arr3_1 V c) n j * Spec.cur (arr3_3 V c) j k) + Spec.cur (arr3_2 V c) n k)
    (Spec.stackT (arr3_4 V c)) (Spec.stackT (arr3_5 V c)) (Spec.stackB (arr3_6 V c)) (Spec.stackB (arr3_7 V c)))

theorem pay3_3_apply (v0 : Vec Ideal S2000x64 .f32) (p : Fin 2000) (d : Fin 64) : k3_pay3 (F := Ideal) v0 (ix2 p d) = v0 (ix2 p d) := by
  unfold k3_pay3
  exact congrFun (shapeCast_self v0 shapeCasts_S2000x64_S2000x64) (ix2 p d)

theorem pay3_2_apply (v2 : Vec Ideal S2000x256 .f32) (v5 : Vec Ideal S256x64 .f32) (v9 : Vec Ideal S2000x64 .f32) (p : Fin 2000) (q : Fin 64) :
    k3_pay2 (F := Ideal) v2 v5 v9 (ix2 p q) = (∑ j : Fin 256, v2 (ix2 p j) * v5 (ix2 j q)) + v9 (ix2 p q) := by
  unfold k3_pay2
  exact congrArg₂ (· + ·)
    ((mm256_apply _ _ p q).trans (Finset.sum_congr rfl fun j _ => congrArg₂ (· * ·)
      (congrFun (shapeCast_self v2 shapeCasts_S2000x256_S2000x256) (ix2 p j))
      (congrFun (shapeCast_self v5 shapeCasts_S256x64_S256x64) (ix2 j q))))
    (congrFun (shapeCast_self v9 shapeCasts_S2000x64_S2000x64) (ix2 p q))

theorem pay3_4_apply (v2 : Vec Ideal S2000x256 .f32) (v5 : Vec Ideal S256x64 .f32) (v9 : Vec Ideal S2000x64 .f32) (p : Fin 2000) (d : Fin 64) :
    k3_pay4 (F := Ideal) v2 v5 v9 (ix2 p d) = k3_pay2 (F := Ideal) v2 v5 v9 (ix2 p d) := by
  unfold k3_pay4
  rfl

theorem pay3_7_apply (v32 : Vec Ideal S1x64x64 .f32) (d q : Fin 64) : k3_pay7 (F := Ideal) v32 (ix2 d q) = v32 (ix3 (0 : Fin 1) d q) := by
  unfold k3_pay7
  exact castW_apply v32 d q

theorem pay3_5_apply (v0 : Vec Ideal S2000x64 .f32) (v14 : Vec Ideal S1x64x64 .f32) (v21 : Vec Ideal S1x64 .f32) (p : Fin 2000) (q : Fin 64) :
    k3_pay5 (F := Ideal) v0 v14 v21 (ix2 p q) = (∑ d : Fin 64, v0 (ix2 p d) * v14 (ix3 (0 : Fin 1) d q)) + v21 (ix2 (0 : Fin 1) q) := by
  unfold k3_pay5
  exact (gate_apply (k3_pay3 v0) _ v21 p q).trans (congrArg (· + _) (Finset.sum_congr rfl fun d _ =>
    congrArg₂ (· * ·) (pay3_3_apply v0 p d) (castW_apply v14 d q)))

theorem pay3_6_apply (v2 : Vec Ideal S2000x256 .f32) (v5 : Vec Ideal S256x64 .f32) (v9 : Vec Ideal S2000x64 .f32) (v17 : Vec Ideal S1x64x64 .f32) (v27 : Vec Ideal S1x64 .f32)
    (p : Fin 2000) (q : Fin 64) :
    k3_pay6 (F := Ideal) v2 v5 v9 v17 v27 (ix2 p q)
      = (∑ d : Fin 64, k3_pay2 (F := Ideal) v2 v5 v9 (ix2 p d) * v17 (ix3 (0 : Fin 1) d q)) + v27 (ix2 (0 : Fin 1) q) := by
  unfold k3_pay6
  exact (gate_apply (k3_pay4 v2 v5 v9) _ v27 p q).trans (congrArg (· + _) (Finset.sum_congr rfl fun d _ =>
    congrArg₂ (· * ·) (pay3_4_apply v2 v5 v9 p d) (castW_apply v17 d q)))

theorem pay3_8_apply (v12 v13 : FVec Ideal S2000x64 .bf16) (v34 : FVec Ideal S64x64 .bf16) (v35 : Vec Ideal S1x64x64 .f32) (v39 v45 : Vec Ideal S1x64 .f32)
    (p : Fin 2000) (q : Fin 64) :
    k3_pay8 (F := Ideal) v12 v13 v34 v35 v39 v45 (ix2 p q)
      = Ideal.logistic (((∑ d : Fin 64, v12 (ix2 p d) * v34 (ix2 d q)) + v39 (ix2 (0 : Fin 1) q))
          + ((∑ d : Fin 64, v13 (ix2 p d) * v35 (ix3 (0 : Fin 1) d q)) + v45 (ix2 (0 : Fin 1) q))) := by
  unfold k3_pay8
  exact congrArg Ideal.logistic (congrArg₂ (· + ·) (gate_apply v12 v34 v39 p q)
    ((gate_apply v13 _ v45 p q).trans (congrArg (· + _) (Finset.sum_congr rfl fun d _ => congrArg (_ * ·) (castW_apply v35 d q)))))

theorem pay3_9_apply (v12 v13 : FVec Ideal S2000x64 .bf16) (v25 v31 : FVec Ideal S2000x64 .f32) (v50 v53 : Vec Ideal S1x64x64 .f32) (v57 v63 : Vec Ideal S1x64 .f32)
    (p : Fin 2000) (q : Fin 64) :
    k3_pay9 (F := Ideal) v12 v13 v25 v31 v50 v53 v57 v63 (ix2 p q)
      = ((∑ d : Fin 64, v12 (ix2 p d) * v50 (ix3 (0 : Fin 1) d q)) + v57 (ix2 (0 : Fin 1) q))
        + Ideal.logistic (v25 (ix2 p q) + v31 (ix2 p q)) * ((∑ d : Fin 64, v13 (ix2 p d) * v53 (ix3 (0 : Fin 1) d q)) + v63 (ix2 (0 : Fin 1) q)) := by
  unfold k3_pay9
  exact congrArg₂ (· + ·)
    ((gate_apply v12 _ v57 p q).trans (congrArg (· + _) (Finset.sum_congr rfl fun d _ => congrArg (_ * ·) (castW_apply v50 d q))))
    (congrArg (Ideal.logistic (v25 (ix2 p q) + v31 (ix2 p q)) * ·)
      ((gate_apply v13 _ v63 p q).trans (congrArg (· + _) (Finset.sum_congr rfl fun d _ => congrArg (_ * ·) (castW_apply v53 d q)))))

theorem pay3_1_apply (v11 v71 v73 : FVec Ideal S2000x64 .f32) (p : Fin 2000) (q : Fin 64) :
    k3_pay1 (F := Ideal) v11 v71 v73 (ix2 p q) = (1 - v71 (ix2 p q)) * Ideal.tanh (v73 (ix2 p q)) + v71 (ix2 p q) * v11 (ix2 p q) := by
  unfold k3_pay1
  exact congrArg (fun o : EReal => (o - v71 (ix2 p q)) * Ideal.tanh (v73 (ix2 p q)) + v71 (ix2 p q) * v11 (ix2 p q)) one_f32

theorem hz3 : (![0, 0] : Fin 2 → Nat) = fun _ => 0 := funext fun a => by fin_cases a <;> rfl

theorem out3_8_apply (x0 : S2000x64.Idx → EReal) (x1 : S2000x256.Idx → EReal) (x2 : S2000x64.Idx → EReal) (x3 : S256x64.Idx → EReal)
    (x4 x5 : S3x64x64.Idx → EReal) (x6 x7 : S3x64.Idx → EReal) (p : Fin 2000) (q : Fin 64) :
    out3_8 (F := Ideal) x0 x1 x2 x3 x4 x5 x6 x7 (ix2 p q) = blkCell x0 x1 x2 x3 x4 x5 x6 x7 p q := by
  unfold out3_8
  rw [View.canon_unit_zero hz3]
  simp only [View.ld_unit_zero (S := S2000x64) hz3, View.ld_unit_zero (S := S2000x256) hz3, View.ld_unit_zero (S := S256x64) hz3]
  rw [pay3_1_apply, pay3_8_apply, pay3_9_apply, pay3_5_apply, pay3_6_apply, pay3_2_apply]
  unfold blkCell cellOf blkIn blkHid blkMsg
  simp only [pay3_3_apply, pay3_4_apply, pay3_7_apply, pay3_2_apply, r3_3, r3_4, r3_5, r3_6, r3_7, r3_8,
    View.ld,
    idxW0_apply, idxW1_apply, idxW2_apply, idxB0_apply, idxB1_apply, idxB2_apply]

theorem idx_facts3 : ∀ t : Fin cfg3.N, ((cfg3.win 0).index t 0 = t.val ∧ (cfg3.win 0).index t 1 = 0) ∧ ((cfg3.win 1).index t 0 = t.val ∧ (cfg3.win 1).index t 1 = 0) ∧ ((cfg3.win 2).index t 0 = t.val ∧ (cfg3.win 2).index t 1 = 0)
    ∧ win3_8.index t (0 : Fin 2) = t.val ∧ win3_8.index t (1 : Fin 2) = 0 := by decide +kernel
theorem idx_facts3_w : ∀ w : Fin cfg3.W, 3 ≤ w.val → w.val ≤ 7 → ∀ (t : Fin cfg3.N) (a : Fin (cfg3.win w).shape.rank), (cfg3.win w).index t a = 0 := by
  decide +kernel

-- Row p of block t is row 2000 t + p of the array; a weight or bias block is its whole array.
theorem blk3_0_apply (c : Dev nD) (t : Fin cfg3.N) (p : Fin 2000) (d : Fin 64) (n : Fin 100000) (hn : n.val = 2000 * t.val + p.val) :
    (iblk3 V c 0 t : S2000x64.Idx → EReal) (ix2 p d) = arr3_0 V c (ix2 n d) := by
  refine congrArg (arr3_0 V c) (funext fun a => Fin.ext (((cfg3.win 0).rect_emb_val t _ a).trans ?_))
  match a with
  | ⟨0, _⟩ => show (cfg3.win 0).index t 0 * 2000 + p.val = n.val; rw [(idx_facts3 t).1.1, hn]; omega
  | ⟨1, _⟩ => show (cfg3.win 0).index t 1 * 64 + d.val = d.val; rw [(idx_facts3 t).1.2]; omega

theorem blk3_1_apply (c : Dev nD) (t : Fin cfg3.N) (p : Fin 2000) (d : Fin 256) (n : Fin 100000) (hn : n.val = 2000 * t.val + p.val) :
    (iblk3 V c 1 t : S2000x256.Idx → EReal) (ix2 p d) = arr3_1 V c (ix2 n d) := by
  refine congrArg (arr3_1 V c) (funext fun a => Fin.ext (((cfg3.win 1).rect_emb_val t _ a).trans ?_))
  match a with
  | ⟨0, _⟩ => show (cfg3.win 1).index t 0 * 2000 + p.val = n.val; rw [(idx_facts3 t).2.1.1, hn]; omega
  | ⟨1, _⟩ => show (cfg3.win 1).index t 1 * 256 + d.val = d.val; rw [(idx_facts3 t).2.1.2]; omega

theorem blk3_2_apply (c : Dev nD) (t : Fin cfg3.N) (p : Fin 2000) (d : Fin 64) (n : Fin 100000) (hn : n.val = 2000 * t.val + p.val) :
    (iblk3 V c 2 t : S2000x64.Idx → EReal) (ix2 p d) = arr3_2 V c (ix2 n d) := by
  refine congrArg (arr3_2 V c) (funext fun a => Fin.ext (((cfg3.win 2).rect_emb_val t _ a).trans ?_))
  match a with
  | ⟨0, _⟩ => show (cfg3.win 2).index t 0 * 2000 + p.val = n.val; rw [(idx_facts3 t).2.2.1.1, hn]; omega
  | ⟨1, _⟩ => show (cfg3.win 2).index t 1 * 64 + d.val = d.val; rw [(idx_facts3 t).2.2.1.2]; omega

theorem blk3_3_eq (c : Dev nD) (t : Fin cfg3.N) : (iblk3 V c 3 t : S256x64.Idx → EReal) = arr3_3 V c :=
  funext fun j => congrArg (arr3_3 V c) (funext fun a => Fin.ext
    ((cfg3.win 3).rect_emb_val_of_index_zero t a (idx_facts3_w 3 (by decide) (by decide) t a) j))
theorem blk3_4_eq (c : Dev nD) (t : Fin cfg3.N) : (iblk3 V c 4 t : S3x64x64.Idx → EReal) = arr3_4 V c :=
  funext fun j => congrArg (arr3_4 V c) (funext fun a => Fin.ext
    ((cfg3.win 4).rect_emb_val_of_index_zero t a (idx_facts3_w 4 (by decide) (by decide) t a) j))
theorem blk3_5_eq (c : Dev nD) (t : Fin cfg3.N) : (iblk3 V c 5 t : S3x64x64.Idx → EReal) = arr3_5 V c :=
  funext fun j => congrArg (arr3_5 V c) (funext fun a => Fin.ext
    ((cfg3.win 5).rect_emb_val_of_index_zero t a (idx_facts3_w 5 (by decide) (by decide) t a) j))
theorem blk3_6_eq (c : Dev nD) (t : Fin cfg3.N) : (iblk3 V c 6 t : S3x64.Idx → EReal) = arr3_6 V c :=
  funext fun j => congrArg (arr3_6 V c) (funext fun a => Fin.ext
    ((cfg3.win 6).rect_emb_val_of_index_zero t a (idx_facts3_w 6 (by decide) (by decide) t a) j))
theorem blk3_7_eq (c : Dev nD) (t : Fin cfg3.N) : (iblk3 V c 7 t : S3x64.Idx → EReal) = arr3_7 V c :=
  funext fun j => congrArg (arr3_7 V c) (funext fun a => Fin.ext
    ((cfg3.win 7).rect_emb_val_of_index_zero t a (idx_facts3_w 7 (by decide) (by decide) t a) j))

theorem flushed3_8_eq (c : Dev nD) (t : Fin cfg3.N) :
    (dat3 (F := Ideal) V c).flushed 8 t = ((cfg3.win 8).blk t).view.read (Elt Ideal) (gruOf3 V c) := by
  show (cfg3.win 8).cut (grid3.coords t) ((dat3 (F := Ideal) V c).after 8 t) = _
  rw [after3_8]
  funext j
  obtain ⟨p, q, rfl⟩ : ∃ (p : Fin 2000) (q : Fin 64), j = ix2 p q := ⟨j 0, j 1, eq_ix2 j⟩
  have ht : t.val < 50 := N_3 ▸ t.isLt
  have hi : ((cfg3.win 8).blk t).view.emb (ix2 p q) = (ix2 (⟨2000 * t.val + p.val, by omega⟩ : Fin 100000) q : S100000x64.Idx) := by
    funext a; refine Fin.ext (((cfg3.win 8).rect_emb_val t _ a).trans ?_)
    match a with
    | ⟨0, _⟩ => show win3_8.index t (0 : Fin 2) * 2000 + p.val = 2000 * t.val + p.val; rw [(idx_facts3 t).2.2.2.1]; omega
    | ⟨1, _⟩ => show win3_8.index t (1 : Fin 2) * 64 + q.val = q.val; rw [(idx_facts3 t).2.2.2.2]; omega
  refine (out3_8_apply _ _ _ _ _ _ _ _ p q).trans (Eq.trans ?_ (congrArg (gruOf3 V c) hi.symm))
  rw [blk3_3_eq V c t, blk3_4_eq V c t, blk3_5_eq V c t, blk3_6_eq V c t, blk3_7_eq V c t]
  exact blkCell_eq_gru _ _ _ _ _ _ _ _ _ _ _ p ⟨2000 * t.val + p.val, by omega⟩
    (fun d => blk3_0_apply V c t p d _ rfl) (fun j => blk3_1_apply V c t p j _ rfl) (fun k => blk3_2_apply V c t p k _ rfl) q

theorem covered3_8 (i : S100000x64.Idx) : ∃ t : Fin cfg3.N, (cfg3.win 8).flush t = true ∧ i ∈ ((cfg3.win 8).blk t).view.set := by
  have hi0 : (i 0).val < 100000 := (i 0).isLt
  have hlt : (i 0).val / 2000 < cfg3.N := by rw [show cfg3.N = 50 from N_3]; omega
  have h : ((cfg3.win 8).blk ⟨(i 0).val / 2000, hlt⟩).view.emb (ix2 ⟨(i 0).val % 2000, by omega⟩ (i 1)) = i := by
    funext a; refine Fin.ext (((cfg3.win 8).rect_emb_val _ _ a).trans ?_)
    match a with
    | ⟨0, _⟩ =>
      show win3_8.index _ (0 : Fin 2) * 2000 + (i 0).val % 2000 = (i 0).val
      rw [(idx_facts3 _).2.2.2.1]; show (i 0).val / 2000 * 2000 + (i 0).val % 2000 = (i 0).val; omega
    | ⟨1, _⟩ => show win3_8.index _ (1 : Fin 2) * 64 + (i 1).val = (i 1).val; rw [(idx_facts3 _).2.2.2.2]; omega
  exact ⟨_, flush3_8 _, Eq.subst (motive := (· ∈ ((cfg3.win 8).blk ⟨(i 0).val / 2000, hlt⟩).view.set)) h (View.emb_mem_set _ _)⟩

theorem arrAt3_8 (c : Dev nD) : ((dat3 (F := Ideal) V c).arrAt 8 cfg3.N : S100000x64.Idx → EReal) = gruOf3 V c :=
  (dat3 (F := Ideal) V c).arrAt_eq_of_cover 8 (gruOf3 V c) (fun t _ => flushed3_8_eq V c t) covered3_8

end Cert.KernelIdeal.Gen

end
-- ==== Proof.KI.ValueStep.lean ====
import proofs.«412786_j57784490000510_2_alg».proof.Proof.KI.Vals
import proofs.«412786_j57784490000510_2_alg».proof.Proof.KI.ValueHostA
import proofs.«412786_j57784490000510_2_alg».proof.Proof.KI.ValueHostB
import proofs.«412786_j57784490000510_2_alg».proof.Proof.KI.HostSeg
import proofs.«412786_j57784490000510_2_alg».proof.Proof.KI.HostLayoutSpec
import proofs.«412786_j57784490000510_2_alg».proof.Proof.KI.RegVal0
import proofs.«412786_j57784490000510_2_alg».proof.Proof.KI.RegVal1
import proofs.«412786_j57784490000510_2_alg».proof.Proof.KI.RegVal2
import proofs.«412786_j57784490000510_2_alg».proof.Proof.KI.RegVal3

set_option maxRecDepth 16384

noncomputable section

namespace Cert.KernelIdeal.ReadH

open Idealize.ShloMosaic Idealize.ShloMosaic.TcCoe Idealize.ShloMosaic.ValueIdx Idealize.ShloMosaic.StableHlo Cert.KernelIdeal

open scoped BigOperators

variable (m : (ℓ : Loc nD τ sig) → Buf (Elt Ideal) ℓ) (c : Dev nD)

abbrev St0 : Spec.Arr Spec.N 64 := Spec.H0 (iOf m c).nt
abbrev St1 : Spec.Arr Spec.N 64 := Spec.stepK (wOf m c) (iOf m c) (St0 m c)
abbrev St2 : Spec.Arr Spec.N 64 := Spec.stepK (wOf m c) (iOf m c) (St1 m c)
abbrev St3 : Spec.Arr Spec.N 64 := Spec.stepK (wOf m c) (iOf m c) (St2 m c)
abbrev St4 : Spec.Arr Spec.N 64 := Spec.stepK (wOf m c) (iOf m c) (St3 m c)

theorem e2_v1 : (Gen.W2 m c (Proc.devRef .tc main_v1) : IVec S64 32) = kerRem := st1_v1 (Gen.W0 m c)

theorem e3_v7 : (Gen.W3 m c (Proc.devRef .tc main_v7) : FVec Ideal S100000x64 .f32) = Spec.unc (St0 m c) := by
  refine (st2_v7 (Gen.W2 m c) (e2_v1 m c)).trans ?_
  rw [Gen.W2_of m c main_arg0 (by decide),
    Gen.W1_of m c main_arg0 (by decide)]
  exact kerH0_eq _

theorem e3_v9 : (Gen.W3 m c (Proc.devRef .tc main_v9) : FVec Ideal S256x64 .f32) = kerWcat (m ((c.tc : Thread nD τ).loc main_arg4)) := by
  refine (st2_v9 (Gen.W2 m c)).trans ?_
  rw [Gen.W2_of m c main_arg4 (by decide),
    Gen.W1_of m c main_arg4 (by decide)]

theorem e3_v12 : (Gen.W3 m c (Proc.devRef .tc main_v12) : FVec Ideal S3x64x64 .f32) = kerW3T (m ((c.tc : Thread nD τ).loc main_arg6)) := by
  refine (st2_v12 (Gen.W2 m c)).trans ?_
  rw [Gen.W2_of m c main_arg6 (by decide),
    Gen.W1_of m c main_arg6 (by decide)]

theorem e3_v13 : (Gen.W3 m c (Proc.devRef .tc main_v13) : FVec Ideal S3x64x64 .f32) = kerW3T (m ((c.tc : Thread nD τ).loc main_arg7)) := by
  refine (st2_v13 (Gen.W2 m c)).trans ?_
  rw [Gen.W2_of m c main_arg7 (by decide),
    Gen.W1_of m c main_arg7 (by decide)]

theorem e3_v14 : (Gen.W3 m c (Proc.devRef .tc main_v14) : FVec Ideal S3x64 .f32) = kerB3 (m ((c.tc : Thread nD τ).loc main_arg8)) := by
  refine (st2_v14 (Gen.W2 m c)).trans ?_
  rw [Gen.W2_of m c main_arg8 (by decide),
    Gen.W1_of m c main_arg8 (by decide)]

theorem e3_v15 : (Gen.W3 m c (Proc.devRef .tc main_v15) : FVec Ideal S3x64 .f32) = kerB3 (m ((c.tc : Thread nD τ).loc main_arg9)) := by
  refine (st2_v15 (Gen.W2 m c)).trans ?_
  rw [Gen.W2_of m c main_arg9 (by decide),
    Gen.W1_of m c main_arg9 (by decide)]

theorem e4_v16 : (Gen.W4 m c (Proc.devRef .tc main_v16) : FVec Ideal S1600000x4 .f32) = kerOneHot (m ((c.tc : Thread nD τ).loc main_arg3)) := by
  refine (st3_v16 (Gen.W3 m c)).trans ?_
  rw [Gen.W3_of m c main_arg3 (by decide),
    Gen.W2_of m c main_arg3 (by decide),
    Gen.W1_of m c main_arg3 (by decide)]

theorem k4 (r : Ref sig .tc) (h : r ∉ Gen.hostOps0_W ∧ r ∉ Gen.hostOps0_1_W ∧ r ∉ Gen.hostOps0_2_W ∧ r ∉ Gen.hostOps0_3_W) :
    Gen.W4 m c r = Gen.W0 m c r :=
  (Gen.W4_of m c r h.2.2.2).trans <| (Gen.W3_of m c r h.2.2.1).trans <| (Gen.W2_of m c r h.2.1).trans (Gen.W1_of m c r h.1)

theorem e5_v20 : (Gen.W5 m c (Proc.devRef .tc main_v20) : FVec Ideal S100000x64 .f32) = kerBias (m ((c.tc : Thread nD τ).loc main_arg2)) (m ((c.tc : Thread nD τ).loc main_arg3)) (m ((c.tc : Thread nD τ).loc main_arg5)) := by
  refine (st4_v20 (Gen.W4 m c)).trans ?_
  rw [k4 m c main_arg2 (by decide), k4 m c main_arg5 (by decide), e4_v16]; rfl

theorem e5_v23 : (Gen.W5 m c (Proc.devRef .tc main_v23) : IVec S1600000 32) = kerKey (m ((c.tc : Thread nD τ).loc main_arg2)) (m ((c.tc : Thread nD τ).loc main_arg3)) := by
  refine (st4_v23 (Gen.W4 m c)).trans ?_
  rw [k4 m c main_arg2 (by decide), k4 m c main_arg3 (by decide)]

theorem e5_v36 : (Gen.W5 m c (Proc.devRef .tc main_v36) : FVec Ideal S100000x256 .f32) = kerSeg (Spec.unc (St0 m c)) (m ((c.tc : Thread nD τ).loc main_arg1)) (m ((c.tc : Thread nD τ).loc main_arg2)) (m ((c.tc : Thread nD τ).loc main_arg3)) := by
  refine (st4_v36 (Gen.W4 m c)).trans ?_
  rw [Gen.W4_of m c main_v7 (by decide), k4 m c main_arg1 (by decide), k4 m c main_arg2 (by decide), k4 m c main_arg3 (by decide), e3_v7]; rfl

-- The gated cell over the layouts the host stretches leave is one step of the specification.
theorem step_of (H : Spec.Arr Spec.N 64) {x7 x20 : FVec Ideal S100000x64 .f32} {x36 : FVec Ideal S100000x256 .f32} {x9 : FVec Ideal S256x64 .f32}
    {x12 x13 : FVec Ideal S3x64x64 .f32} {x14 x15 : FVec Ideal S3x64 .f32} (h7 : x7 = Spec.unc H)
    (h36 : x36 = kerSeg (Spec.unc H) (m ((c.tc : Thread nD τ).loc main_arg1)) (m ((c.tc : Thread nD τ).loc main_arg2)) (m ((c.tc : Thread nD τ).loc main_arg3))) (h9 : x9 = kerWcat (m ((c.tc : Thread nD τ).loc main_arg4)))
    (h20 : x20 = kerBias (m ((c.tc : Thread nD τ).loc main_arg2)) (m ((c.tc : Thread nD τ).loc main_arg3)) (m ((c.tc : Thread nD τ).loc main_arg5))) (h12 : x12 = kerW3T (m ((c.tc : Thread nD τ).loc main_arg6))) (h13 : x13 = kerW3T (m ((c.tc : Thread nD τ).loc main_arg7)))
    (h14 : x14 = kerB3 (m ((c.tc : Thread nD τ).loc main_arg8))) (h15 : x15 = kerB3 (m ((c.tc : Thread nD τ).loc main_arg9))) :
    Spec.unc (Spec.gru (Spec.cur x7) (fun n k => (∑ j : Fin 256, Spec.cur x36 n j * Spec.cur x9 j k) + Spec.cur x20 n k)
      (Spec.stackT x12) (Spec.stackT x13) (Spec.stackB x14) (Spec.stackB x15)) = Spec.unc (Spec.stepK (wOf m c) (iOf m c) H) := by
  subst h7 h36 h9 h20 h12 h13 h14 h15
  rw [kerSeg_eq, kerWcat_eq, kerBias_eq, kerW3T_eq, kerW3T_eq, kerB3_eq, kerB3_eq]
  rfl

-- A buffer that nothing after boundary 5 writes reads at every later boundary as at 5;
theorem kq (r : Ref sig .tc) (h : r ≠ main_v37 ∧ r ∉ Gen.hostOps1_W ∧ r ≠ main_v51 ∧ r ∉ Gen.hostOps2_W ∧ r ≠ main_v65 ∧ r ∉ Gen.hostOps3_W) :
    Gen.W6 m c r = Gen.W5 m c r ∧ Gen.W7 m c r = Gen.W5 m c r ∧ Gen.W8 m c r = Gen.W5 m c r ∧ Gen.W9 m c r = Gen.W5 m c r
      ∧ Gen.W10 m c r = Gen.W5 m c r ∧ Gen.W11 m c r = Gen.W5 m c r := by
  obtain ⟨h1, h2, h3, h4, h5, h6⟩ := h
  have a6 := Gen.W6_of_not_out m c r h1
  have a7 := (Gen.W7_of m c r h2).trans a6
  have a8 := (Gen.W8_of_not_out m c r h3).trans a7
  have a9 := (Gen.W9_of m c r h4).trans a8
  have a10 := (Gen.W10_of_not_out m c r h5).trans a9
  exact ⟨a6, a7, a8, a9, a10, (Gen.W11_of m c r h6).trans a10⟩

-- nothing after boundary 3: at the regions' entries as at 3;
theorem kp (r : Ref sig .tc) (h3 : r ∉ Gen.hostOps0_3_W ∧ r ∉ Gen.hostOps0_4_W) (h : r ≠ main_v37 ∧ r ∉ Gen.hostOps1_W ∧ r ≠ main_v51 ∧ r ∉ Gen.hostOps2_W ∧ r ≠ main_v65 ∧ r ∉ Gen.hostOps3_W) :
    Gen.W5 m c r = Gen.W3 m c r ∧ Gen.W7 m c r = Gen.W3 m c r ∧ Gen.W9 m c r = Gen.W3 m c r ∧ Gen.W11 m c r = Gen.W3 m c r := by
  have a5 := (Gen.W5_of m c r h3.2).trans (Gen.W4_of m c r h3.1)
  obtain ⟨-, a7, -, a9, -, a11⟩ := kq m c r h
  exact ⟨a5, a7.trans a5, a9.trans a5, a11.trans a5⟩

-- nothing at all: at the regions' exits as launched.
theorem k0 (r : Ref sig .tc) (h0 : r ∉ Gen.hostOps0_W ∧ r ∉ Gen.hostOps0_1_W ∧ r ∉ Gen.hostOps0_2_W ∧ r ∉ Gen.hostOps0_3_W ∧ r ∉ Gen.hostOps0_4_W)
    (h : r ≠ main_v37 ∧ r ∉ Gen.hostOps1_W ∧ r ≠ main_v51 ∧ r ∉ Gen.hostOps2_W ∧ r ≠ main_v65 ∧ r ∉ Gen.hostOps3_W) : Gen.W6 m c r = Gen.W0 m c r ∧ Gen.W8 m c r = Gen.W0 m c r ∧ Gen.W10 m c r = Gen.W0 m c r := by
  have a5 := (Gen.W5_of m c r h0.2.2.2.2).trans <| (Gen.W4_of m c r h0.2.2.2.1).trans <| (Gen.W3_of m c r h0.2.2.1).trans <|
    (Gen.W2_of m c r h0.2.1).trans (Gen.W1_of m c r h0.1)
  obtain ⟨a6, -, a8, -, a10, -⟩ := kq m c r h
  exact ⟨a6.trans a5, a8.trans a5, a10.trans a5⟩

theorem e6_v37 : (Gen.W6 m c (Proc.devRef .tc main_v37) : FVec Ideal S100000x64 .f32) = Spec.unc (St1 m c) :=
  (Gen.W6_arr m c 8).trans ((Gen.arrAt0_8 (Gen.VW5 m) c).trans (step_of m c _ ((kp m c main_v7 (by decide) (by decide)).1.trans (e3_v7 m c)) (e5_v36 m c)
    ((kp m c main_v9 (by decide) (by decide)).1.trans (e3_v9 m c)) (e5_v20 m c)
    ((kp m c main_v12 (by decide) (by decide)).1.trans (e3_v12 m c)) ((kp m c main_v13 (by decide) (by decide)).1.trans (e3_v13 m c)) ((kp m c main_v14 (by decide) (by decide)).1.trans (e3_v14 m c)) ((kp m c main_v15 (by decide) (by decide)).1.trans (e3_v15 m c))))

theorem e7_v50 : (Gen.W7 m c (Proc.devRef .tc main_v50) : FVec Ideal S100000x256 .f32) = kerSeg (Spec.unc (St1 m c)) (m ((c.tc : Thread nD τ).loc main_arg1)) (m ((c.tc : Thread nD τ).loc main_arg2)) (m ((c.tc : Thread nD τ).loc main_arg3)) := by
  refine (st6_v50 (Gen.W6 m c)).trans ?_
  rw [(k0 m c main_arg1 (by decide) (by decide)).1, (kq m c main_v23 (by decide)).1, e6_v37, e5_v23]; rfl

theorem e8_v51 : (Gen.W8 m c (Proc.devRef .tc main_v51) : FVec Ideal S100000x64 .f32) = Spec.unc (St2 m c) :=
  (Gen.W8_arr m c 8).trans ((Gen.arrAt1_8 (Gen.VW7 m) c).trans (step_of m c _ ((Gen.W7_of m c main_v37 (by decide)).trans (e6_v37 m c)) (e7_v50 m c)
    ((kp m c main_v9 (by decide) (by decide)).2.1.trans (e3_v9 m c)) ((kq m c main_v20 (by decide)).2.1.trans (e5_v20 m c))
    ((kp m c main_v12 (by decide) (by decide)).2.1.trans (e3_v12 m c)) ((kp m c main_v13 (by decide) (by decide)).2.1.trans (e3_v13 m c)) ((kp m c main_v14 (by decide) (by decide)).2.1.trans (e3_v14 m c)) ((kp m c main_v15 (by decide) (by decide)).2.1.trans (e3_v15 m c))))

theorem e9_v64 : (Gen.W9 m c (Proc.devRef .tc main_v64) : FVec Ideal S100000x256 .f32) = kerSeg (Spec.unc (St2 m c)) (m ((c.tc : Thread nD τ).loc main_arg1)) (m ((c.tc : Thread nD τ).loc main_arg2)) (m ((c.tc : Thread nD τ).loc main_arg3)) := by
  refine (st8_v64 (Gen.W8 m c)).trans ?_
  rw [(k0 m c main_arg1 (by decide) (by decide)).2.1, (kq m c main_v23 (by decide)).2.2.1, e8_v51, e5_v23]; rfl

theorem e10_v65 : (Gen.W10 m c (Proc.devRef .tc main_v65) : FVec Ideal S100000x64 .f32) = Spec.unc (St3 m c) :=
  (Gen.W10_arr m c 8).trans ((Gen.arrAt2_8 (Gen.VW9 m) c).trans (step_of m c _ ((Gen.W9_of m c main_v51 (by decide)).trans (e8_v51 m c)) (e9_v64 m c)
    ((kp m c main_v9 (by decide) (by decide)).2.2.1.trans (e3_v9 m c)) ((kq m c main_v20 (by decide)).2.2.2.1.trans (e5_v20 m c))
    ((kp m c main_v12 (by decide) (by decide)).2.2.1.trans (e3_v12 m c)) ((kp m c main_v13 (by decide) (by decide)).2.2.1.trans (e3_v13 m c)) ((kp m c main_v14 (by decide) (by decide)).2.2.1.trans (e3_v14 m c)) ((kp m c main_v15 (by decide) (by decide)).2.2.1.trans (e3_v15 m c))))

theorem e11_v78 : (Gen.W11 m c (Proc.devRef .tc main_v78) : FVec Ideal S100000x256 .f32) = kerSeg (Spec.unc (St3 m c)) (m ((c.tc : Thread nD τ).loc main_arg1)) (m ((c.tc : Thread nD τ).loc main_arg2)) (m ((c.tc : Thread nD τ).loc main_arg3)) := by
  refine (st10_v78 (Gen.W10 m c)).trans ?_
  rw [(k0 m c main_arg1 (by decide) (by decide)).2.2, (kq m c main_v23 (by decide)).2.2.2.2.1, e10_v65, e5_v23]; rfl

theorem e12_v79 : (Gen.W12 m c (Proc.devRef .tc main_v79) : FVec Ideal S100000x64 .f32) = Spec.unc (St4 m c) :=
  (Gen.W12_arr m c 8).trans ((Gen.arrAt3_8 (Gen.VW11 m) c).trans (step_of m c _ ((Gen.W11_of m c main_v65 (by decide)).trans (e10_v65 m c)) (e11_v78 m c)
    ((kp m c main_v9 (by decide) (by decide)).2.2.2.trans (e3_v9 m c)) ((kq m c main_v20 (by decide)).2.2.2.2.2.trans (e5_v20 m c))
    ((kp m c main_v12 (by decide) (by decide)).2.2.2.trans (e3_v12 m c)) ((kp m c main_v13 (by decide) (by decide)).2.2.2.trans (e3_v13 m c)) ((kp m c main_v14 (by decide) (by decide)).2.2.2.trans (e3_v14 m c)) ((kp m c main_v15 (by decide) (by decide)).2.2.2.trans (e3_v15 m c))))

end Cert.KernelIdeal.ReadH

end
-- ==== Proof.KI.ValueEnd.lean ====
import proofs.«412786_j57784490000510_2_alg».proof.Proof.KI.Vals
import proofs.«412786_j57784490000510_2_alg».proof.Proof.KI.ValueDefs
import proofs.«412786_j57784490000510_2_alg».proof.Proof.KI.ValueHostA
import proofs.«412786_j57784490000510_2_alg».proof.Proof.KI.ValueHostB
import proofs.«412786_j57784490000510_2_alg».proof.Proof.KI.HostLayoutSpec
import Idealize.ShloMosaic.Lib.Pipeline.Value
import Idealize.ShloMosaic.Lib.ValueIdx

set_option maxRecDepth 16384

noncomputable section

namespace Cert.KernelIdeal.ReadH

open Idealize.ShloMosaic Idealize.ShloMosaic.TcCoe Idealize.ShloMosaic.ValueIdx Idealize.ShloMosaic.StableHlo Cert.KernelIdeal

variable (m : (ℓ : Loc nD τ sig) → Buf (Elt Ideal) ℓ) (c : Dev nD)

-- A buffer that no item up to the fourth step writes is still as launched.
theorem W12_back (r : Ref sig .tc) (h : r ∉ Gen.hostOps0_W ∧ r ∉ Gen.hostOps0_1_W ∧ r ∉ Gen.hostOps0_2_W ∧ r ∉ Gen.hostOps0_3_W ∧ r ∉ Gen.hostOps0_4_W ∧ r ≠ main_v37
      ∧ r ∉ Gen.hostOps1_W ∧ r ≠ main_v51 ∧ r ∉ Gen.hostOps2_W ∧ r ≠ main_v65 ∧ r ∉ Gen.hostOps3_W ∧ r ≠ main_v79) :
    Gen.W12 m c r = m ((c : Thread nD τ).loc r) := by
  obtain ⟨h0, h1, h2, h3, h4, h5, h6, h7, h8, h9, h10, h11⟩ := h
  exact (Gen.W12_of_not_out m c r h11).trans <| (Gen.W11_of m c r h10).trans <|
    (Gen.W10_of_not_out m c r h9).trans <| (Gen.W9_of m c r h8).trans <| (Gen.W8_of_not_out m c r h7).trans <|
    (Gen.W7_of m c r h6).trans <| (Gen.W6_of_not_out m c r h5).trans <| (Gen.W5_of m c r h4).trans <|
    (Gen.W4_of m c r h3).trans <| (Gen.W3_of m c r h2).trans <| (Gen.W2_of m c r h1).trans <| (Gen.W1_of m c r h0)

theorem W13_back (r : Ref sig .tc) (h12 : r ∉ Gen.hostOps4_W) (h : r ∉ Gen.hostOps0_W ∧ r ∉ Gen.hostOps0_1_W ∧ r ∉ Gen.hostOps0_2_W ∧ r ∉ Gen.hostOps0_3_W ∧ r ∉ Gen.hostOps0_4_W ∧ r ≠ main_v37
      ∧ r ∉ Gen.hostOps1_W ∧ r ≠ main_v51 ∧ r ∉ Gen.hostOps2_W ∧ r ≠ main_v65 ∧ r ∉ Gen.hostOps3_W ∧ r ≠ main_v79) :
    Gen.W13 m c r = m ((c : Thread nD τ).loc r) :=
  (Gen.W13_of m c r h12).trans (W12_back m c r h)

theorem W13_v7 : Gen.W13 m c main_v7 = Gen.W3 m c main_v7 :=
  (Gen.W13_of m c main_v7 (by decide)).trans <| (Gen.W12_of_not_out m c main_v7 (by decide)).trans <|
    (Gen.W11_of m c main_v7 (by decide)).trans <| (Gen.W10_of_not_out m c main_v7 (by decide)).trans <|
    (Gen.W9_of m c main_v7 (by decide)).trans <| (Gen.W8_of_not_out m c main_v7 (by decide)).trans <|
    (Gen.W7_of m c main_v7 (by decide)).trans <| (Gen.W6_of_not_out m c main_v7 (by decide)).trans <|
    (Gen.W5_of m c main_v7 (by decide)).trans <| (Gen.W4_of m c main_v7 (by decide))

theorem W13_v79 : Gen.W13 m c main_v79 = Gen.W12 m c main_v79 := Gen.W13_of m c main_v79 (by decide)

theorem accP_of {A H : Spec.Arr Spec.N 64} {a4 : FVec Ideal S4x64x64 .f32} {a5 : FVec Ideal S4x64 .f32} {a6 a7 : FVec Ideal S192x64 .f32} {a8 a9 : FVec Ideal S192 .f32} {a10 a18 : FVec Ideal S64x128 .f32} {a11 a15 a19 a23 : FVec Ideal S64 .f32} {a12 a16 : FVec Ideal S2x64 .f32} {a13 a17 : FVec Ideal S2 .f32} {a14 a22 : FVec Ideal S64x64 .f32} {a20 a24 : FVec Ideal S1x64 .f32} {a21 a25 : FVec Ideal S1 .f32}
    {Y0 Y1 : FVec Ideal S100000x64 .f32} {Y2 Y3 : FVec Ideal S64x64 .f32} {Y4 : FVec Ideal S64 .f32} {Y5 : FVec Ideal S64x2 .f32} {Y6 : FVec Ideal S2 .f32} {Y7 : FVec Ideal S64x64 .f32} {Y8 : FVec Ideal S64 .f32} {Y9 : FVec Ideal S64x2 .f32} {Y10 : FVec Ideal S2 .f32}
    (e0 : Y0 = Spec.unc A) (e1 : Y1 = Spec.unc H) (e2 : Y2 = kerLoT a10) (e3 : Y3 = kerHiT a10) (e4 : Y4 = a11)
    (e5 : Y5 = kerT2 a12) (e6 : Y6 = a13) (e7 : Y7 = kerT64 a14) (e8 : Y8 = a15) (e9 : Y9 = kerT2 a16) (e10 : Y10 = a17) :
    (fun idx : S1x2.Idx => Spec.accTiles (Spec.term
        (Spec.headSplit (Spec.cur Y0) (Spec.cur Y1) (Spec.joinT Y2 Y3) (fun k => Y4 (ix1 k)) (Spec.trT Y5) (fun j => Y6 (ix1 j)))
        (Spec.head (Spec.cur Y1) (Spec.trT Y7) (fun k => Y8 (ix1 k)) (Spec.trT Y9) (fun j => Y10 (ix1 j)))) 50 le_rfl (idx 1))
      = fun idx => Spec.pK (Spec.wtsOf a4 a5 a6 a7 a8 a9 a10 a11 a12 a13 a14 a15 a16 a17 a18 a19 a20 a21 a22 a23 a24 a25) A H (idx 1) := by
  subst Y0 Y1 Y2 Y3 Y4 Y5 Y6 Y7 Y8 Y9 Y10
  funext idx
  exact congrFun (pK_of_layouts A H a4 a5 a6 a7 a8 a9 a10 a11 a12 a13 a14 a15 a16 a17 a18 a19 a20 a21 a22 a23 a24 a25) (idx 1)

theorem accV_of {A H : Spec.Arr Spec.N 64} {a4 : FVec Ideal S4x64x64 .f32} {a5 : FVec Ideal S4x64 .f32} {a6 a7 : FVec Ideal S192x64 .f32} {a8 a9 : FVec Ideal S192 .f32} {a10 a18 : FVec Ideal S64x128 .f32} {a11 a15 a19 a23 : FVec Ideal S64 .f32} {a12 a16 : FVec Ideal S2x64 .f32} {a13 a17 : FVec Ideal S2 .f32} {a14 a22 : FVec Ideal S64x64 .f32} {a20 a24 : FVec Ideal S1x64 .f32} {a21 a25 : FVec Ideal S1 .f32}
    {Y0 Y1 : FVec Ideal S100000x64 .f32} {Y2 Y3 : FVec Ideal S64x64 .f32} {Y4 : FVec Ideal S64 .f32} {Y5 : FVec Ideal S64x1 .f32} {Y6 : FVec Ideal S1 .f32} {Y7 : FVec Ideal S64x64 .f32} {Y8 : FVec Ideal S64 .f32} {Y9 : FVec Ideal S64x1 .f32} {Y10 : FVec Ideal S1 .f32}
    (e0 : Y0 = Spec.unc A) (e1 : Y1 = Spec.unc H) (e2 : Y2 = kerLoT a18) (e3 : Y3 = kerHiT a18) (e4 : Y4 = a19)
    (e5 : Y5 = kerT1 a20) (e6 : Y6 = a21) (e7 : Y7 = kerT64 a22) (e8 : Y8 = a23) (e9 : Y9 = kerT1 a24) (e10 : Y10 = a25) :
    (fun idx : S1x1.Idx => Spec.accTiles (Spec.term
        (Spec.headSplit (Spec.cur Y0) (Spec.cur Y1) (Spec.joinT Y2 Y3) (fun k => Y4 (ix1 k)) (Spec.trT Y5) (fun j => Y6 (ix1 j)))
        (Spec.head (Spec.cur Y1) (Spec.trT Y7) (fun k => Y8 (ix1 k)) (Spec.trT Y9) (fun j => Y10 (ix1 j)))) 50 le_rfl (idx 1))
      = fun idx => Spec.vK (Spec.wtsOf a4 a5 a6 a7 a8 a9 a10 a11 a12 a13 a14 a15 a16 a17 a18 a19 a20 a21 a22 a23 a24 a25) A H (idx 1) := by
  subst Y0 Y1 Y2 Y3 Y4 Y5 Y6 Y7 Y8 Y9 Y10
  funext idx
  exact congrFun (vK_of_layouts A H a4 a5 a6 a7 a8 a9 a10 a11 a12 a13 a14 a15 a16 a17 a18 a19 a20 a21 a22 a23 a24 a25) (idx 1)

theorem flat2_apply (x : FVec Ideal S1x2 .f32) (j : S2.Idx) :
    shapeCast S2 x Facts₀.shapeCasts_S1x2_S2 j = x (ix2 (0 : Fin 1) (j 0)) :=
  shapeCast_apply x _ j (ix2 (0 : Fin 1) (j 0)) (by rw [Shape.rowMajor_val_two, Shape.rowMajor_val_one]; show 0 * 2 + (j 0).val = (j 0).val; omega)
theorem flat1_apply (x : FVec Ideal S1x1 .f32) (j : S1.Idx) :
    shapeCast S1 x Facts₀.shapeCasts_S1x1_S1 j = x (ix2 (0 : Fin 1) (j 0)) :=
  shapeCast_apply x _ j (ix2 (0 : Fin 1) (j 0)) (by rw [Shape.rowMajor_val_two, Shape.rowMajor_val_one]; show 0 * 1 + (j 0).val = (j 0).val; omega)

theorem value_end
    (h79 : (Gen.W12 m c (Proc.devRef .tc main_v79) : FVec Ideal S100000x64 .f32) = Spec.unc (Spec.finalK (wOf m c) (iOf m c)))
    (h7 : (Gen.W3 m c (Proc.devRef .tc main_v7) : FVec Ideal S100000x64 .f32) = Spec.unc (Spec.H0 (iOf m c).nt))
    (hb20 : ((Gen.dat4 (F := Ideal) (Gen.VW13 m) c).arrAt 20 cfg4.N : S1x2.Idx → EReal) = fun idx =>
      Spec.accTiles (Spec.term
        (Spec.headSplit (Spec.cur (Gen.W13 m c (Proc.devRef .tc main_v7) : FVec Ideal S100000x64 .f32)) (Spec.cur (Gen.W13 m c (Proc.devRef .tc main_v79) : FVec Ideal S100000x64 .f32))
          (Spec.joinT (Gen.W13 m c (Proc.devRef .tc main_v81) : FVec Ideal S64x64 .f32) (Gen.W13 m c (Proc.devRef .tc main_v83) : FVec Ideal S64x64 .f32)) (fun k => (Gen.W13 m c (Proc.devRef .tc main_arg11) : FVec Ideal S64 .f32) (ix1 k))
          (Spec.trT (Gen.W13 m c (Proc.devRef .tc main_v84) : FVec Ideal S64x2 .f32)) (fun j => (Gen.W13 m c (Proc.devRef .tc main_arg13) : FVec Ideal S2 .f32) (ix1 j)))
        (Spec.head (Spec.cur (Gen.W13 m c (Proc.devRef .tc main_v79) : FVec Ideal S100000x64 .f32)) (Spec.trT (Gen.W13 m c (Proc.devRef .tc main_v90) : FVec Ideal S64x64 .f32)) (fun k => (Gen.W13 m c (Proc.devRef .tc main_arg15) : FVec Ideal S64 .f32) (ix1 k))
          (Spec.trT (Gen.W13 m c (Proc.devRef .tc main_v91) : FVec Ideal S64x2 .f32)) (fun j => (Gen.W13 m c (Proc.devRef .tc main_arg17) : FVec Ideal S2 .f32) (ix1 j)))) 50 le_rfl (idx 1))
    (hb21 : ((Gen.dat4 (F := Ideal) (Gen.VW13 m) c).arrAt 21 cfg4.N : S1x1.Idx → EReal) = fun idx =>
      Spec.accTiles (Spec.term
        (Spec.headSplit (Spec.cur (Gen.W13 m c (Proc.devRef .tc main_v7) : FVec Ideal S100000x64 .f32)) (Spec.cur (Gen.W13 m c (Proc.devRef .tc main_v79) : FVec Ideal S100000x64 .f32))
          (Spec.joinT (Gen.W13 m c (Proc.devRef .tc main_v86) : FVec Ideal S64x64 .f32) (Gen.W13 m c (Proc.devRef .tc main_v88) : FVec Ideal S64x64 .f32)) (fun k => (Gen.W13 m c (Proc.devRef .tc main_arg19) : FVec Ideal S64 .f32) (ix1 k))
          (Spec.trT (Gen.W13 m c (Proc.devRef .tc main_v89) : FVec Ideal S64x1 .f32)) (fun j => (Gen.W13 m c (Proc.devRef .tc main_arg21) : FVec Ideal S1 .f32) (ix1 j)))
        (Spec.head (Spec.cur (Gen.W13 m c (Proc.devRef .tc main_v79) : FVec Ideal S100000x64 .f32)) (Spec.trT (Gen.W13 m c (Proc.devRef .tc main_v92) : FVec Ideal S64x64 .f32)) (fun k => (Gen.W13 m c (Proc.devRef .tc main_arg23) : FVec Ideal S64 .f32) (ix1 k))
          (Spec.trT (Gen.W13 m c (Proc.devRef .tc main_v93) : FVec Ideal S64x1 .f32)) (fun j => (Gen.W13 m c (Proc.devRef .tc main_arg25) : FVec Ideal S1 .f32) (ix1 j)))) 50 le_rfl (idx 1)) :
    (Gen.W17 m c (Proc.devRef .tc main_v97) : S2.Idx → EReal)
        = kerTailP (fun j => Spec.pK (wOf m c) (Spec.H0 (iOf m c).nt) (Spec.finalK (wOf m c) (iOf m c)) (j 0))
      ∧ (Gen.W17 m c (Proc.devRef .tc main_v98) : S1.Idx → EReal)
        = kerTailV (fun j => Spec.vK (wOf m c) (Spec.H0 (iOf m c).nt) (Spec.finalK (wOf m c) (iOf m c)) (j 0)) := by
  have e0 : (Gen.W13 m c (Proc.devRef .tc main_v7) : FVec Ideal S100000x64 .f32) = Spec.unc (Spec.H0 (iOf m c).nt) := (W13_v7 m c).trans h7
  have e1 : (Gen.W13 m c (Proc.devRef .tc main_v79) : FVec Ideal S100000x64 .f32) = Spec.unc (Spec.finalK (wOf m c) (iOf m c)) := (W13_v79 m c).trans h79
  have o20 : (Gen.W14 m c (Proc.devRef .tc main_v94_0) : FVec Ideal S1x2 .f32) = fun idx =>
      Spec.pK (wOf m c) (Spec.H0 (iOf m c).nt) (Spec.finalK (wOf m c) (iOf m c)) (idx 1) :=
    (Gen.W14_arr m c 20).trans (hb20.trans (accP_of e0 e1 ((st12_v81 (Gen.W12 m c)).trans (congrArg kerLoT (W12_back m c main_arg10 (by decide)))) ((st12_v83 (Gen.W12 m c)).trans (congrArg kerHiT (W12_back m c main_arg10 (by decide))))
        (W13_back m c main_arg11 (by decide) (by decide)) ((st12_v84 (Gen.W12 m c)).trans (congrArg kerT2 (W12_back m c main_arg12 (by decide)))) (W13_back m c main_arg13 (by decide) (by decide))
        ((st12_v90 (Gen.W12 m c)).trans (congrArg kerT64 (W12_back m c main_arg14 (by decide)))) (W13_back m c main_arg15 (by decide) (by decide)) ((st12_v91 (Gen.W12 m c)).trans (congrArg kerT2 (W12_back m c main_arg16 (by decide)))) (W13_back m c main_arg17 (by decide) (by decide))))
  have o21 : (Gen.W14 m c (Proc.devRef .tc main_v94_1) : FVec Ideal S1x1 .f32) = fun idx =>
      Spec.vK (wOf m c) (Spec.H0 (iOf m c).nt) (Spec.finalK (wOf m c) (iOf m c)) (idx 1) :=
    (Gen.W14_arr m c 21).trans (hb21.trans (accV_of e0 e1 ((st12_v86 (Gen.W12 m c)).trans (congrArg kerLoT (W12_back m c main_arg18 (by decide)))) ((st12_v88 (Gen.W12 m c)).trans (congrArg kerHiT (W12_back m c main_arg18 (by decide))))
        (W13_back m c main_arg19 (by decide) (by decide)) ((st12_v89 (Gen.W12 m c)).trans (congrArg kerT1 (W12_back m c main_arg20 (by decide)))) (W13_back m c main_arg21 (by decide) (by decide))
        ((st12_v92 (Gen.W12 m c)).trans (congrArg kerT64 (W12_back m c main_arg22 (by decide)))) (W13_back m c main_arg23 (by decide) (by decide)) ((st12_v93 (Gen.W12 m c)).trans (congrArg kerT1 (W12_back m c main_arg24 (by decide)))) (W13_back m c main_arg25 (by decide) (by decide))))
  have s95 : (Gen.W15 m c (Proc.devRef .tc main_v95) : FVec Ideal S2 .f32)
      = shapeCast S2 (Gen.W14 m c (Proc.devRef .tc main_v94_0) : FVec Ideal S1x2 .f32) Facts₀.shapeCasts_S1x2_S2 := st14_v95 (Gen.W14 m c)
  have s96 : (Gen.W15 m c (Proc.devRef .tc main_v96) : FVec Ideal S1 .f32)
      = shapeCast S1 (Gen.W14 m c (Proc.devRef .tc main_v94_1) : FVec Ideal S1x1 .f32) Facts₀.shapeCasts_S1x1_S1 := st14_v96 (Gen.W14 m c)
  have p95 : (Gen.W15 m c (Proc.devRef .tc main_v95) : FVec Ideal S2 .f32)
      = fun j => Spec.pK (wOf m c) (Spec.H0 (iOf m c).nt) (Spec.finalK (wOf m c) (iOf m c)) (j 0) :=
    s95.trans (funext fun j => (flat2_apply _ j).trans (congrFun o20 _))
  have p96 : (Gen.W15 m c (Proc.devRef .tc main_v96) : FVec Ideal S1 .f32)
      = fun j => Spec.vK (wOf m c) (Spec.H0 (iOf m c).nt) (Spec.finalK (wOf m c) (iOf m c)) (j 0) :=
    s96.trans (funext fun j => (flat1_apply _ j).trans (congrFun o21 _))
  have s97 : (Gen.W16 m c (Proc.devRef .tc main_v97) : FVec Ideal S2 .f32) = kerTailP (Gen.W15 m c (Proc.devRef .tc main_v95)) :=
    st15_v97 (Gen.W15 m c)
  have k97 : (Gen.W17 m c (Proc.devRef .tc main_v97) : FVec Ideal S2 .f32) = (Gen.W16 m c (Proc.devRef .tc main_v97) : FVec Ideal S2 .f32) :=
    Gen.W17_of m c main_v97 (by decide)
  have k96 : (Gen.W16 m c (Proc.devRef .tc main_v96) : FVec Ideal S1 .f32) = (Gen.W15 m c (Proc.devRef .tc main_v96) : FVec Ideal S1 .f32) :=
    Gen.W16_of m c main_v96 (by decide)
  have s98 : (Gen.W17 m c (Proc.devRef .tc main_v98) : FVec Ideal S1 .f32) = kerTailV (Gen.W16 m c (Proc.devRef .tc main_v96)) :=
    st16_v98 (Gen.W16 m c)
  exact ⟨k97.trans (s97.trans (congrArg kerTailP p95)), s98.trans (congrArg kerTailV (k96.trans p96))⟩

end Cert.KernelIdeal.ReadH

end
-- ==== Proof.KI.RegVal4Pieces.lean ====
import proofs.«412786_j57784490000510_2_alg».proof.Proof.KI.Reg4RunA
import proofs.«412786_j57784490000510_2_alg».proof.Proof.KI.Reg4RunB
import proofs.«412786_j57784490000510_2_alg».proof.Proof.KI.Reg4RunC
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzAcc2 : (![0, 0] : Fin 2 → Nat) = fun _ => 0 := funext fun a => by fin_cases a <;> rfl
theorem hzAcc1 : (![0] : Fin 1 → Nat) = fun _ => 0 := funext fun a => by fin_cases a; rfl

variable {c : Dev nD} {i : grid4.Coords} {arg1 arg2 : Memref sig .tc .vmem S2000x64 .f32} {arg3 arg4 arg8 arg12 arg13 arg17 : Memref sig .tc .vmem S64x64 .f32} {arg5 arg9 arg14 arg18 : Memref sig .tc .vmem S64 .f32} {arg6 arg10 : Memref sig .tc .vmem S64x2 .f32} {arg7 arg11 : Memref sig .tc .vmem S2 .f32} {arg15 arg19 : Memref sig .tc .vmem S64x1 .f32} {arg16 arg20 : Memref sig .tc .vmem S1 .f32} {arg21 arg23 : Memref sig .tc .vmem S1x2 .f32} {arg22 arg24 : Memref sig .tc .vmem S1x1 .f32}
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole}
  {x0 x1 : Vec F S2000x64 .f32} {x2 x3 x7 x11 x12 x16 : Vec F S64x64 .f32} {x4 x8 x13 x17 : Vec F S64 .f32} {x5 x9 : Vec F S64x2 .f32} {x6 x10 : Vec F S2 .f32} {x14 x18 : Vec F S64x1 .f32} {x15 x19 : Vec F S1 .f32} {xs0 : Vec F S1x2 .f32} {xs1 : Vec F S1x1 .f32}

-- A middle tile: each accumulator is updated from what it held.
theorem mid_acc {hc0 : ¬cond4_0 i} {hc1 : ¬cond4_1 i} (r) (hr : r = kernelRun4_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 xs0 xs1) :
    View.canon r.1 = k4_pay1 (k4_pay9 (k4_pay7 x0 x1 x2 x3 x4 x5 x6) (k4_pay8 x1 x7) x8 x9 x10) xs0 ∧ View.canon r.2.1 = k4_pay2 (k4_pay6 x1) (k4_pay10 (k4_pay5 x0) (k4_pay6 x1) x11 x12 x13 x14 x15) (k4_pay11 x16) x17 x18 x19 xs1 := by
  subst hr; unfold kernelRun4_B; dsimp only; sl_unfold_words
  simp only [and_self, View.readAt_eq_ld, Memref.IsWhole.read_unread, View.canon_cons_unit_zero (S := S1x2) hzAcc2, View.canon_cons_unit_zero (S := S1x1) hzAcc2,
    View.readCov_unit_zero (S := S1x2) _ hzAcc2, View.readCov_unit_zero (S := S1x1) _ hzAcc2,
    View.ld_unit_zero (S := S2000x64) hzAcc2, View.ld_unit_zero (S := S64x64) hzAcc2, View.ld_unit_zero (S := S64x2) hzAcc2, View.ld_unit_zero (S := S64x1) hzAcc2, View.ld_unit_zero (S := S1x2) hzAcc2, View.ld_unit_zero (S := S1x1) hzAcc2,
    View.ld_unit_zero (S := S64) hzAcc1, View.ld_unit_zero (S := S2) hzAcc1, View.ld_unit_zero (S := S1) hzAcc1]

-- The first tile: each accumulator is zeroed, then updated.
theorem first_acc {hc0 : cond4_0 i} {hc1 : ¬cond4_1 i} (r) (hr : r = kernelRun4_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19) :
    View.canon r.1 = k4_pay1 (k4_pay9 (k4_pay7 x0 x1 x2 x3 x4 x5 x6) (k4_pay8 x1 x7) x8 x9 x10) k4_pay3 ∧ View.canon r.2.1 = k4_pay2 (k4_pay6 x1) (k4_pay10 (k4_pay5 x0) (k4_pay6 x1) x11 x12 x13 x14 x15) (k4_pay11 x16) x17 x18 x19 k4_pay4 := by
  subst hr; unfold kernelRun4_A; dsimp only; sl_unfold_words
  simp only [and_self, View.readAt_eq_ld, Memref.IsWhole.read_unread, View.canon_cons_unit_zero (S := S1x2) hzAcc2, View.canon_cons_unit_zero (S := S1x1) hzAcc2,
    View.readCov_unit_zero (S := S1x2) _ hzAcc2, View.readCov_unit_zero (S := S1x1) _ hzAcc2,
    View.ld_unit_zero (S := S2000x64) hzAcc2, View.ld_unit_zero (S := S64x64) hzAcc2, View.ld_unit_zero (S := S64x2) hzAcc2, View.ld_unit_zero (S := S64x1) hzAcc2, View.ld_unit_zero (S := S1x2) hzAcc2, View.ld_unit_zero (S := S1x1) hzAcc2,
    View.ld_unit_zero (S := S64) hzAcc1, View.ld_unit_zero (S := S2) hzAcc1, View.ld_unit_zero (S := S1) hzAcc1]

-- The last tile: the updated accumulators, and the two output blocks that receive them.
theorem last_acc {hc0 : ¬cond4_0 i} {hc1 : cond4_1 i} (r) (hr : r = kernelRun4_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 xs0 xs1) :
    (View.canon r.1 = k4_pay1 (k4_pay9 (k4_pay7 x0 x1 x2 x3 x4 x5 x6) (k4_pay8 x1 x7) x8 x9 x10) xs0 ∧ View.canon r.2.1 = k4_pay2 (k4_pay6 x1) (k4_pay10 (k4_pay5 x0) (k4_pay6 x1) x11 x12 x13 x14 x15) (k4_pay11 x16) x17 x18 x19 xs1) ∧ View.canon r.2.2.1 = k4_pay1 (k4_pay9 (k4_pay7 x0 x1 x2 x3 x4 x5 x6) (k4_pay8 x1 x7) x8 x9 x10) xs0 ∧ View.canon r.2.2.2.1 = k4_pay2 (k4_pay6 x1) (k4_pay10 (k4_pay5 x0) (k4_pay6 x1) x11 x12 x13 x14 x15) (k4_pay11 x16) x17 x18 x19 xs1 := by
  subst hr; unfold kernelRun4_C; dsimp only; sl_unfold_words
  simp only [and_self, View.readAt_eq_ld, Memref.IsWhole.read_unread, View.canon_cons_unit_zero (S := S1x2) hzAcc2, View.canon_cons_unit_zero (S := S1x1) hzAcc2,
    View.readCov_unit_zero (S := S1x2) _ hzAcc2, View.readCov_unit_zero (S := S1x1) _ hzAcc2,
    View.ld_unit_zero (S := S2000x64) hzAcc2, View.ld_unit_zero (S := S64x64) hzAcc2, View.ld_unit_zero (S := S64x2) hzAcc2, View.ld_unit_zero (S := S64x1) hzAcc2, View.ld_unit_zero (S := S1x2) hzAcc2, View.ld_unit_zero (S := S1x1) hzAcc2,
    View.ld_unit_zero (S := S64) hzAcc1, View.ld_unit_zero (S := S2) hzAcc1, View.ld_unit_zero (S := S1) hzAcc1]

end Cert.KernelIdeal.Gen

end
-- ==== Proof.KI.HeadsPay.lean ====
import proofs.«412786_j57784490000510_2_alg».proof.Proof.Gen.KernelIdeal.Skeleton
import proofs.«412786_j57784490000510_2_alg».proof.Proof.Spec
import proofs.«412786_j57784490000510_2_alg».proof.Proof.KI.HeadsPayOps
import Idealize.ShloMosaic.PureOps.Ideal.Laws
import Idealize.ShloMosaic.Lib.ValueIdx
import Idealize.ShloMosaic.Lib.ValueLayout
import Idealize.ShloMosaic.Lib.Pipeline.Value

namespace Cert.KernelIdeal.ReadH

open Idealize.ShloMosaic Idealize.ShloMosaic.ValueIdx

theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

theorem pay1_apply (contrib acc : Vec Ideal S1x2 .f32) (i : S1x2.Idx) : Gen.k4_pay1 contrib acc i = acc i + contrib i := by
  unfold Gen.k4_pay1
  simp only [shapeCast_self, addf_apply]

theorem pay3_apply (i : S1x2.Idx) : Gen.k4_pay3 (F := Ideal) i = 0 := by
  unfold Gen.k4_pay3
  simp only [shapeCast_self, broadcast_apply]
  exact Ideal.ofBits_zero_f32

theorem pay4_apply (i : S1x1.Idx) : Gen.k4_pay4 (F := Ideal) i = 0 := by
  unfold Gen.k4_pay4
  simp only [shapeCast_self, broadcast_apply]
  exact Ideal.ofBits_zero_f32

theorem pay_p_apply (x0 x1 : Vec Ideal S2000x64 .f32) (y2 y3 : Vec Ideal S64x64 .f32) (y4 : Vec Ideal S64 .f32)
    (y5 : Vec Ideal S64x2 .f32) (y6 : Vec Ideal S2 .f32) (y7 : Vec Ideal S64x64 .f32) (y8 : Vec Ideal S64 .f32)
    (y9 : Vec Ideal S64x2 .f32) (y10 : Vec Ideal S2 .f32) (j : Fin 2) :
    Gen.k4_pay9 (Gen.k4_pay7 x0 x1 y2 y3 y4 y5 y6) (Gen.k4_pay8 x1 y7) y8 y9 y10 (ix2 0 j)
      = ∑ r : Fin 2000,
          Ideal.logistic ((∑ k : Fin 64, Ideal.tanh (((∑ d : Fin 64, x0 (ix2 r d) * y2 (ix2 d k)) + (∑ d : Fin 64, x1 (ix2 r d) * y3 (ix2 d k))) + y4 (ix1 k)) * y5 (ix2 k j)) + y6 (ix1 j))
            * ((∑ k : Fin 64, Ideal.tanh ((∑ d : Fin 64, x1 (ix2 r d) * y7 (ix2 d k)) + y8 (ix1 k)) * y9 (ix2 k j)) + y10 (ix1 j)) := by
  unfold Gen.k4_pay9 Gen.k4_pay7 Gen.k4_pay8 Gen.k4_pay5 Gen.k4_pay6
  simp only [row_apply, shapeCast_self]
  refine (rowsum_apply (n := 2) _ Gen.reduces_S2000x2_S2 _ _ j).trans ?_
  simp only [row_apply, rowsum_apply, mulf_apply, addf_apply, logistic_apply, tanh_apply, truncf_apply, shapeCast_self,
    mm64_apply, mm2_apply, bias_apply]

theorem pay_v_apply (x0 x1 : Vec Ideal S2000x64 .f32) (y11 y12 : Vec Ideal S64x64 .f32) (y13 : Vec Ideal S64 .f32)
    (y14 : Vec Ideal S64x1 .f32) (y15 : Vec Ideal S1 .f32) (y16 : Vec Ideal S64x64 .f32) (y17 : Vec Ideal S64 .f32)
    (y18 : Vec Ideal S64x1 .f32) (y19 : Vec Ideal S1 .f32) (acc : Vec Ideal S1x1 .f32) :
    Gen.k4_pay2 (Gen.k4_pay6 x1) (Gen.k4_pay10 (Gen.k4_pay5 x0) (Gen.k4_pay6 x1) y11 y12 y13 y14 y15) (Gen.k4_pay11 y16) y17 y18 y19 acc (ix2 0 0)
      = acc (ix2 0 0) + ∑ r : Fin 2000,
          Ideal.logistic ((∑ k : Fin 64, Ideal.tanh (((∑ d : Fin 64, x0 (ix2 r d) * y11 (ix2 d k)) + (∑ d : Fin 64, x1 (ix2 r d) * y12 (ix2 d k))) + y13 (ix1 k)) * y14 (ix2 k 0)) + y15 (ix1 0))
            * ((∑ k : Fin 64, Ideal.tanh ((∑ d : Fin 64, x1 (ix2 r d) * y16 (ix2 d k)) + y17 (ix1 k)) * y18 (ix2 k 0)) + y19 (ix1 0)) := by
  unfold Gen.k4_pay2 Gen.k4_pay10 Gen.k4_pay11 Gen.k4_pay5 Gen.k4_pay6
  simp only [row_apply, shapeCast_self, addf_apply]
  refine congrArg (acc (ix2 0 0) + ·) ?_
  refine (rowsum_apply (n := 1) _ Gen.reduces_S2000x1_S1 _ _ 0).trans ?_
  simp only [row_apply, rowsum_apply, mulf_apply, addf_apply, logistic_apply, tanh_apply, truncf_apply, shapeCast_self,
    mm64_apply, mm1_apply, bias_apply]

def tileNode (t : Fin 50) (r : Fin 2000) : Fin Spec.N :=
  ⟨2000 * t.val + r.val, by have := t.isLt; have := r.isLt; show 2000 * t.val + r.val < 100000; omega⟩

theorem tileSum_term_apply {o : Nat} (A H : Spec.Arr Spec.N 64) (w1 : Spec.Arr 64 128) (b1 : Fin 64 → EReal) (w2 : Spec.Arr o 64)
    (b2 : Fin o → EReal) (g1 : Spec.Arr 64 64) (c1 : Fin 64 → EReal) (g2 : Spec.Arr o 64) (c2 : Fin o → EReal) (t : Fin 50) (j : Fin o) :
    Spec.tileSum (Spec.term (Spec.headSplit A H w1 b1 w2 b2) (Spec.head H g1 c1 g2 c2)) t j
      = ∑ r : Fin 2000,
          Ideal.logistic ((∑ k : Fin 64, Ideal.tanh (((∑ d : Fin 64, A (tileNode t r) d * w1 k ⟨d.val, by omega⟩) + (∑ d : Fin 64, H (tileNode t r) d * w1 k ⟨64 + d.val, by omega⟩)) + b1 k) * w2 j k) + b2 j)
            * ((∑ k : Fin 64, Ideal.tanh ((∑ d : Fin 64, H (tileNode t r) d * g1 k d) + c1 k) * g2 j k) + c2 j) := rfl

end Cert.KernelIdeal.ReadH
-- ==== Proof.KI.RegVal4Blocks.lean ====
import proofs.«412786_j57784490000510_2_alg».proof.Proof.KI.Reg4Acc
import proofs.«412786_j57784490000510_2_alg».proof.Proof.KI.HeadsPay
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

abbrev y0 (c : Dev nD) : Vec Ideal S100000x64 .f32 := V c (Pipeline.arrRef spec4 0)
abbrev y1 (c : Dev nD) : Vec Ideal S100000x64 .f32 := V c (Pipeline.arrRef spec4 1)
abbrev y2 (c : Dev nD) : Vec Ideal S64x64 .f32 := V c (Pipeline.arrRef spec4 2)
abbrev y3 (c : Dev nD) : Vec Ideal S64x64 .f32 := V c (Pipeline.arrRef spec4 3)
abbrev y4 (c : Dev nD) : Vec Ideal S64 .f32 := V c (Pipeline.arrRef spec4 4)
abbrev y5 (c : Dev nD) : Vec Ideal S64x2 .f32 := V c (Pipeline.arrRef spec4 5)
abbrev y6 (c : Dev nD) : Vec Ideal S2 .f32 := V c (Pipeline.arrRef spec4 6)
abbrev y7 (c : Dev nD) : Vec Ideal S64x64 .f32 := V c (Pipeline.arrRef spec4 7)
abbrev y8 (c : Dev nD) : Vec Ideal S64 .f32 := V c (Pipeline.arrRef spec4 8)
abbrev y9 (c : Dev nD) : Vec Ideal S64x2 .f32 := V c (Pipeline.arrRef spec4 9)
abbrev y10 (c : Dev nD) : Vec Ideal S2 .f32 := V c (Pipeline.arrRef spec4 10)
abbrev y11 (c : Dev nD) : Vec Ideal S64x64 .f32 := V c (Pipeline.arrRef spec4 11)
abbrev y12 (c : Dev nD) : Vec Ideal S64x64 .f32 := V c (Pipeline.arrRef spec4 12)
abbrev y13 (c : Dev nD) : Vec Ideal S64 .f32 := V c (Pipeline.arrRef spec4 13)
abbrev y14 (c : Dev nD) : Vec Ideal S64x1 .f32 := V c (Pipeline.arrRef spec4 14)
abbrev y15 (c : Dev nD) : Vec Ideal S1 .f32 := V c (Pipeline.arrRef spec4 15)
abbrev y16 (c : Dev nD) : Vec Ideal S64x64 .f32 := V c (Pipeline.arrRef spec4 16)
abbrev y17 (c : Dev nD) : Vec Ideal S64 .f32 := V c (Pipeline.arrRef spec4 17)
abbrev y18 (c : Dev nD) : Vec Ideal S64x1 .f32 := V c (Pipeline.arrRef spec4 18)
abbrev y19 (c : Dev nD) : Vec Ideal S1 .f32 := V c (Pipeline.arrRef spec4 19)

abbrev xb0 (c : Dev nD) (t : Fin cfg4.N) : Vec Ideal S2000x64 .f32 := iblk4 V c 0 t
abbrev xb1 (c : Dev nD) (t : Fin cfg4.N) : Vec Ideal S2000x64 .f32 := iblk4 V c 1 t

theorem hidx4_01 : ∀ t : Fin cfg4.N, ((cfg4.win 0).index t 0 = t.val ∧ (cfg4.win 0).index t 1 = 0) ∧ (cfg4.win 1).index t 0 = t.val ∧ (cfg4.win 1).index t 1 = 0 := by
  decide +kernel

-- An element of a weight block has the same coordinates in its array.
theorem emb4_w : ∀ w : Fin cfg4.W, 2 ≤ w.val ∧ w.val ≤ 19 → ∀ (t : Fin cfg4.N) (a : Fin (cfg4.win w).shape.rank), (cfg4.win w).index t a = 0 := by
  decide +kernel

-- Row r of tile t is node 2000 t + r.
theorem xb0_tile (c : Dev nD) (t : Fin cfg4.N) (s : Fin 50) (hs : s.val = t.val) (r : Fin 2000) (d : Fin 64) :
    xb0 V c t (ix2 r d) = y0 V c (ix2 (ReadH.tileNode s r) d) := by
  refine congrArg (y0 V c) (funext fun a => Fin.ext (((cfg4.win 0).rect_emb_val t _ a).trans ?_))
  match a with
  | ⟨0, _⟩ => show (cfg4.win 0).index t 0 * 2000 + r.val = 2000 * s.val + r.val; rw [(hidx4_01 t).1.1, hs]; omega
  | ⟨1, _⟩ => show (cfg4.win 0).index t 1 * 64 + d.val = d.val; rw [(hidx4_01 t).1.2]; omega
theorem xb1_tile (c : Dev nD) (t : Fin cfg4.N) (s : Fin 50) (hs : s.val = t.val) (r : Fin 2000) (d : Fin 64) :
    xb1 V c t (ix2 r d) = y1 V c (ix2 (ReadH.tileNode s r) d) := by
  refine congrArg (y1 V c) (funext fun a => Fin.ext (((cfg4.win 1).rect_emb_val t _ a).trans ?_))
  match a with
  | ⟨0, _⟩ => show (cfg4.win 1).index t 0 * 2000 + r.val = 2000 * s.val + r.val; rw [(hidx4_01 t).2.1, hs]; omega
  | ⟨1, _⟩ => show (cfg4.win 1).index t 1 * 64 + d.val = d.val; rw [(hidx4_01 t).2.2]; omega

theorem xb2_eq (c : Dev nD) (t : Fin cfg4.N) : (iblk4 V c 2 t : Vec Ideal S64x64 .f32) = y2 V c :=
  funext fun j => congrArg (y2 V c) (funext fun a => Fin.ext ((cfg4.win 2).rect_emb_val_of_index_zero t a (emb4_w 2 (by decide) t a) j))
theorem xb3_eq (c : Dev nD) (t : Fin cfg4.N) : (iblk4 V c 3 t : Vec Ideal S64x64 .f32) = y3 V c :=
  funext fun j => congrArg (y3 V c) (funext fun a => Fin.ext ((cfg4.win 3).rect_emb_val_of_index_zero t a (emb4_w 3 (by decide) t a) j))
theorem xb4_eq (c : Dev nD) (t : Fin cfg4.N) : (iblk4 V c 4 t : Vec Ideal S64 .f32) = y4 V c :=
  funext fun j => congrArg (y4 V c) (funext fun a => Fin.ext ((cfg4.win 4).rect_emb_val_of_index_zero t a (emb4_w 4 (by decide) t a) j))
theorem xb5_eq (c : Dev nD) (t : Fin cfg4.N) : (iblk4 V c 5 t : Vec Ideal S64x2 .f32) = y5 V c :=
  funext fun j => congrArg (y5 V c) (funext fun a => Fin.ext ((cfg4.win 5).rect_emb_val_of_index_zero t a (emb4_w 5 (by decide) t a) j))
theorem xb6_eq (c : Dev nD) (t : Fin cfg4.N) : (iblk4 V c 6 t : Vec Ideal S2 .f32) = y6 V c :=
  funext fun j => congrArg (y6 V c) (funext fun a => Fin.ext ((cfg4.win 6).rect_emb_val_of_index_zero t a (emb4_w 6 (by decide) t a) j))
theorem xb7_eq (c : Dev nD) (t : Fin cfg4.N) : (iblk4 V c 7 t : Vec Ideal S64x64 .f32) = y7 V c :=
  funext fun j => congrArg (y7 V c) (funext fun a => Fin.ext ((cfg4.win 7).rect_emb_val_of_index_zero t a (emb4_w 7 (by decide) t a) j))
theorem xb8_eq (c : Dev nD) (t : Fin cfg4.N) : (iblk4 V c 8 t : Vec Ideal S64 .f32) = y8 V c :=
  funext fun j => congrArg (y8 V c) (funext fun a => Fin.ext ((cfg4.win 8).rect_emb_val_of_index_zero t a (emb4_w 8 (by decide) t a) j))
theorem xb9_eq (c : Dev nD) (t : Fin cfg4.N) : (iblk4 V c 9 t : Vec Ideal S64x2 .f32) = y9 V c :=
  funext fun j => congrArg (y9 V c) (funext fun a => Fin.ext ((cfg4.win 9).rect_emb_val_of_index_zero t a (emb4_w 9 (by decide) t a) j))
theorem xb10_eq (c : Dev nD) (t : Fin cfg4.N) : (iblk4 V c 10 t : Vec Ideal S2 .f32) = y10 V c :=
  funext fun j => congrArg (y10 V c) (funext fun a => Fin.ext ((cfg4.win 10).rect_emb_val_of_index_zero t a (emb4_w 10 (by decide) t a) j))
theorem xb11_eq (c : Dev nD) (t : Fin cfg4.N) : (iblk4 V c 11 t : Vec Ideal S64x64 .f32) = y11 V c :=
  funext fun j => congrArg (y11 V c) (funext fun a => Fin.ext ((cfg4.win 11).rect_emb_val_of_index_zero t a (emb4_w 11 (by decide) t a) j))
theorem xb12_eq (c : Dev nD) (t : Fin cfg4.N) : (iblk4 V c 12 t : Vec Ideal S64x64 .f32) = y12 V c :=
  funext fun j => congrArg (y12 V c) (funext fun a => Fin.ext ((cfg4.win 12).rect_emb_val_of_index_zero t a (emb4_w 12 (by decide) t a) j))
theorem xb13_eq (c : Dev nD) (t : Fin cfg4.N) : (iblk4 V c 13 t : Vec Ideal S64 .f32) = y13 V c :=
  funext fun j => congrArg (y13 V c) (funext fun a => Fin.ext ((cfg4.win 13).rect_emb_val_of_index_zero t a (emb4_w 13 (by decide) t a) j))
theorem xb14_eq (c : Dev nD) (t : Fin cfg4.N) : (iblk4 V c 14 t : Vec Ideal S64x1 .f32) = y14 V c :=
  funext fun j => congrArg (y14 V c) (funext fun a => Fin.ext ((cfg4.win 14).rect_emb_val_of_index_zero t a (emb4_w 14 (by decide) t a) j))
theorem xb15_eq (c : Dev nD) (t : Fin cfg4.N) : (iblk4 V c 15 t : Vec Ideal S1 .f32) = y15 V c :=
  funext fun j => congrArg (y15 V c) (funext fun a => Fin.ext ((cfg4.win 15).rect_emb_val_of_index_zero t a (emb4_w 15 (by decide) t a) j))
theorem xb16_eq (c : Dev nD) (t : Fin cfg4.N) : (iblk4 V c 16 t : Vec Ideal S64x64 .f32) = y16 V c :=
  funext fun j => congrArg (y16 V c) (funext fun a => Fin.ext ((cfg4.win 16).rect_emb_val_of_index_zero t a (emb4_w 16 (by decide) t a) j))
theorem xb17_eq (c : Dev nD) (t : Fin cfg4.N) : (iblk4 V c 17 t : Vec Ideal S64 .f32) = y17 V c :=
  funext fun j => congrArg (y17 V c) (funext fun a => Fin.ext ((cfg4.win 17).rect_emb_val_of_index_zero t a (emb4_w 17 (by decide) t a) j))
theorem xb18_eq (c : Dev nD) (t : Fin cfg4.N) : (iblk4 V c 18 t : Vec Ideal S64x1 .f32) = y18 V c :=
  funext fun j => congrArg (y18 V c) (funext fun a => Fin.ext ((cfg4.win 18).rect_emb_val_of_index_zero t a (emb4_w 18 (by decide) t a) j))
theorem xb19_eq (c : Dev nD) (t : Fin cfg4.N) : (iblk4 V c 19 t : Vec Ideal S1 .f32) = y19 V c :=
  funext fun j => congrArg (y19 V c) (funext fun a => Fin.ext ((cfg4.win 19).rect_emb_val_of_index_zero t a (emb4_w 19 (by decide) t a) j))

end Cert.KernelIdeal.Gen

end
-- ==== Proof.KI.RegVal4Runs.lean ====
import proofs.«412786_j57784490000510_2_alg».proof.Proof.KI.RegVal4Pieces
import proofs.«412786_j57784490000510_2_alg».proof.Proof.KI.RegVal4Blocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

abbrev fP (c : Dev nD) : Spec.Arr Spec.N 2 :=
  Spec.term
    (Spec.headSplit (Spec.cur (y0 V c)) (Spec.cur (y1 V c)) (Spec.joinT (y2 V c) (y3 V c)) (fun k => y4 V c (ix1 k)) (Spec.trT (y5 V c)) (fun j => y6 V c (ix1 j)))
    (Spec.head (Spec.cur (y1 V c)) (Spec.trT (y7 V c)) (fun k => y8 V c (ix1 k)) (Spec.trT (y9 V c)) (fun j => y10 V c (ix1 j)))
abbrev fV (c : Dev nD) : Spec.Arr Spec.N 1 :=
  Spec.term
    (Spec.headSplit (Spec.cur (y0 V c)) (Spec.cur (y1 V c)) (Spec.joinT (y11 V c) (y12 V c)) (fun k => y13 V c (ix1 k)) (Spec.trT (y14 V c)) (fun j => y15 V c (ix1 j)))
    (Spec.head (Spec.cur (y1 V c)) (Spec.trT (y16 V c)) (fun k => y17 V c (ix1 k)) (Spec.trT (y18 V c)) (fun j => y19 V c (ix1 j)))

theorem joinT_lo (y z : (⟨2, ![64, 64]⟩ : Shape).Idx → EReal) (k d : Fin 64) :
    Spec.joinT y z k ⟨d.val, by omega⟩ = y (ix2 d k) := by
  show (if h : d.val < 64 then y (ix2 ⟨d.val, h⟩ k) else z (ix2 ⟨d.val - 64, _⟩ k)) = _
  rw [dif_pos d.isLt]
theorem joinT_hi (y z : (⟨2, ![64, 64]⟩ : Shape).Idx → EReal) (k d : Fin 64) :
    Spec.joinT y z k ⟨64 + d.val, by omega⟩ = z (ix2 d k) := by
  show (if h : 64 + d.val < 64 then y (ix2 ⟨64 + d.val, h⟩ k) else z (ix2 ⟨64 + d.val - 64, _⟩ k)) = _
  rw [dif_neg (by omega)]
  exact congrArg (fun x => z (ix2 x k)) (Fin.ext (by show 64 + d.val - 64 = d.val; omega))

-- A tile's term for the first accumulator, and the second accumulator's update, over the tile's two node blocks and the weight arrays.
abbrev tileP (c : Dev nD) (t : Fin cfg4.N) :=
  k4_pay9 (k4_pay7 (xb0 V c t) (xb1 V c t) (y2 V c) (y3 V c) (y4 V c) (y5 V c) (y6 V c)) (k4_pay8 (xb1 V c t) (y7 V c)) (y8 V c) (y9 V c) (y10 V c)
abbrev updV (c : Dev nD) (t : Fin cfg4.N) :=
  k4_pay2 (k4_pay6 (xb1 V c t)) (k4_pay10 (k4_pay5 (xb0 V c t)) (k4_pay6 (xb1 V c t)) (y11 V c) (y12 V c) (y13 V c) (y14 V c) (y15 V c)) (k4_pay11 (y16 V c)) (y17 V c) (y18 V c) (y19 V c)

theorem contrib_p (c : Dev nD) (t : Fin cfg4.N) (s : Fin 50) (hs : s.val = t.val) (j : Fin 2) :
    tileP V c t (ix2 0 j) = Spec.tileSum (fP V c) s j := by
  refine (ReadH.pay_p_apply _ _ _ _ _ _ _ _ _ _ _ j).trans ?_
  rw [ReadH.tileSum_term_apply]
  refine Finset.sum_congr rfl fun r _ => ?_
  simp only [xb0_tile V c t s hs, xb1_tile V c t s hs, joinT_lo, joinT_hi, Spec.cur, Spec.trT]

theorem contrib_v (c : Dev nD) (t : Fin cfg4.N) (s : Fin 50) (hs : s.val = t.val) (acc : Vec Ideal S1x1 .f32) :
    updV V c t acc (ix2 0 0) = acc (ix2 0 0) + Spec.tileSum (fV V c) s 0 := by
  refine (ReadH.pay_v_apply _ _ _ _ _ _ _ _ _ _ _ acc).trans (congrArg (acc (ix2 0 0) + ·) ?_)
  rw [ReadH.tileSum_term_apply]
  refine Finset.sum_congr rfl fun r _ => ?_
  simp only [xb0_tile V c t s hs, xb1_tile V c t s hs, joinT_lo, joinT_hi, Spec.cur, Spec.trT]

-- A covering list of stores whose contents are an update over the tile's blocks reads as the update over the arrays: the weight blocks are the whole arrays.
theorem rdP (c : Dev nD) (t : Fin cfg4.N) {L : List (View.Piece (Elt Ideal) S1x2 .f32)} {a : Vec Ideal S1x2 .f32} (hcov : ∀ y, ∃ pc ∈ L, y ∈ pc.1.set)
    (h : View.canon L = k4_pay1 (k4_pay9 (k4_pay7 (iblk4 V c 0 t) (iblk4 V c 1 t) (iblk4 V c 2 t) (iblk4 V c 3 t) (iblk4 V c 4 t) (iblk4 V c 5 t) (iblk4 V c 6 t)) (k4_pay8 (iblk4 V c 1 t) (iblk4 V c 7 t)) (iblk4 V c 8 t) (iblk4 V c 9 t) (iblk4 V c 10 t)) a) :
    rd0 L = k4_pay1 (tileP V c t) a :=
  (View.read_writes_eq_canon _ _ _ hcov).trans (h.trans (by rw [xb2_eq V c t, xb3_eq V c t, xb4_eq V c t, xb5_eq V c t, xb6_eq V c t, xb7_eq V c t, xb8_eq V c t, xb9_eq V c t, xb10_eq V c t]))
theorem rdV (c : Dev nD) (t : Fin cfg4.N) {L : List (View.Piece (Elt Ideal) S1x1 .f32)} {a : Vec Ideal S1x1 .f32} (hcov : ∀ y, ∃ pc ∈ L, y ∈ pc.1.set)
    (h : View.canon L = k4_pay2 (k4_pay6 (iblk4 V c 1 t)) (k4_pay10 (k4_pay5 (iblk4 V c 0 t)) (k4_pay6 (iblk4 V c 1 t)) (iblk4 V c 11 t) (iblk4 V c 12 t) (iblk4 V c 13 t) (iblk4 V c 14 t) (iblk4 V c 15 t)) (k4_pay11 (iblk4 V c 16 t)) (iblk4 V c 17 t) (iblk4 V c 18 t) (iblk4 V c 19 t) a) :
    rd1 L = updV V c t a :=
  (View.read_writes_eq_canon _ _ _ hcov).trans (h.trans (by rw [xb11_eq V c t, xb12_eq V c t, xb13_eq V c t, xb14_eq V c t, xb15_eq V c t, xb16_eq V c t, xb17_eq V c t, xb18_eq V c t, xb19_eq V c t]))

theorem first0 (c : Dev nD) (t : Fin cfg4.N) (h0 h1) : rd0 (runFirst4 V c t h0 h1).1 = k4_pay1 (tileP V c t) (k4_pay3 (F := Ideal)) :=
  rdP V c t (cov4_first_0 V c t h0 h1) (first_acc _ rfl).1
theorem first1 (c : Dev nD) (t : Fin cfg4.N) (h0 h1) : rd1 (runFirst4 V c t h0 h1).2.1 = updV V c t (k4_pay4 (F := Ideal)) :=
  rdV V c t (cov4_first_1 V c t h0 h1) (first_acc _ rfl).2
theorem mid0 (c : Dev nD) (t : Fin cfg4.N) (h0 h1 a0 a1) : rd0 (runMid4 V c t h0 h1 a0 a1).1 = k4_pay1 (tileP V c t) a0 :=
  rdP V c t (cov4_mid_0 V c t h0 h1 a0 a1) (mid_acc _ rfl).1
theorem mid1 (c : Dev nD) (t : Fin cfg4.N) (h0 h1 a0 a1) : rd1 (runMid4 V c t h0 h1 a0 a1).2.1 = updV V c t a1 :=
  rdV V c t (cov4_mid_1 V c t h0 h1 a0 a1) (mid_acc _ rfl).2
theorem lastOut20 (c : Dev nD) (t : Fin cfg4.N) (h0 h1 a0 a1) : rd0 (runLast4 V c t h0 h1 a0 a1).1 = k4_pay1 (tileP V c t) a0 :=
  rdP V c t (cov4_last_o20 V c t h0 h1 a0 a1) (last_acc _ rfl).1.1
theorem lastOut21 (c : Dev nD) (t : Fin cfg4.N) (h0 h1 a0 a1) : rd1 (runLast4 V c t h0 h1 a0 a1).2.1 = updV V c t a1 :=
  rdV V c t (cov4_last_o21 V c t h0 h1 a0 a1) (last_acc _ rfl).1.2
theorem last0 (c : Dev nD) (t : Fin cfg4.N) (h0 h1 a0 a1) : rd0 (runLast4 V c t h0 h1 a0 a1).2.2.1 = k4_pay1 (tileP V c t) a0 :=
  rdP V c t (cov4_last_0 V c t h0 h1 a0 a1) (last_acc _ rfl).2.1
theorem last1 (c : Dev nD) (t : Fin cfg4.N) (h0 h1 a0 a1) : rd1 (runLast4 V c t h0 h1 a0 a1).2.2.2.1 = updV V c t a1 :=
  rdV V c t (cov4_last_1 V c t h0 h1 a0 a1) (last_acc _ rfl).2.2

end Cert.KernelIdeal.Gen

end
-- ==== Proof.KI.RegVal4Inv.lean ====
import proofs.«412786_j57784490000510_2_alg».proof.Proof.KI.RegVal4Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem N4 : cfg4.N = 50 := N_4

theorem accTiles_succ {o : Nat} (f : Spec.Arr Spec.N o) (s : ℕ) (h : s + 1 ≤ 50) (j : Fin o) :
    Spec.accTiles f (s + 1) h j = Spec.accTiles f s (by omega) j + Spec.tileSum f ⟨s, by omega⟩ j := rfl
theorem accTiles_zero {o : Nat} (f : Spec.Arr Spec.N o) (h : 0 ≤ 50) (j : Fin o) : Spec.accTiles f 0 h j = 0 := rfl

-- At a later point each accumulator is the tile's update of what the point before left, whichever run the point takes; at a last point the output blocks receive the same.
theorem acc_step (c : Dev nD) (n : ℕ) (h : n + 1 < cfg4.N) :
    ((outsAt4 V c (n + 1) h).2.1 = k4_pay1 (tileP V c ⟨n + 1, h⟩) (outsAt4 V c n (Nat.lt_of_succ_lt h)).2.1
      ∧ (outsAt4 V c (n + 1) h).2.2 = updV V c ⟨n + 1, h⟩ (outsAt4 V c n (Nat.lt_of_succ_lt h)).2.2)
    ∧ ((n + 1) % 50 = 49 → (outsAt4 V c (n + 1) h).1.1 = (outsAt4 V c (n + 1) h).2.1 ∧ (outsAt4 V c (n + 1) h).1.2 = (outsAt4 V c (n + 1) h).2.2) := by
  have hc0 := not_cond4_0_of_ne ⟨n + 1, h⟩ (Nat.succ_ne_zero n)
  by_cases hl : (n + 1) % 50 = 49
  · have hc1 := (hcond4_1 ⟨n + 1, h⟩).mpr hl
    rw [outsAt4_last V c ⟨n + 1, h⟩ (Nat.succ_ne_zero n) hl hc0 hc1]
    dsimp only
    exact ⟨⟨last0 V c ⟨n + 1, h⟩ hc0 hc1 _ _, last1 V c ⟨n + 1, h⟩ hc0 hc1 _ _⟩, fun _ =>
      ⟨(lastOut20 V c ⟨n + 1, h⟩ hc0 hc1 _ _).trans (last0 V c ⟨n + 1, h⟩ hc0 hc1 _ _).symm,
        (lastOut21 V c ⟨n + 1, h⟩ hc0 hc1 _ _).trans (last1 V c ⟨n + 1, h⟩ hc0 hc1 _ _).symm⟩⟩
  · have hc1 : ¬cond4_1 (grid4.coords ⟨n + 1, h⟩) := fun hh => hl ((hcond4_1 ⟨n + 1, h⟩).mp hh)
    rw [outsAt4_mid V c ⟨n + 1, h⟩ (Nat.succ_ne_zero n) hl hc0 hc1]
    dsimp only
    exact ⟨⟨mid0 V c ⟨n + 1, h⟩ hc0 hc1 _ _, mid1 V c ⟨n + 1, h⟩ hc0 hc1 _ _⟩, fun hh => absurd hh hl⟩

-- After point n each accumulator holds the sum of the first n + 1 tiles.
theorem acc0_eq (c : Dev nD) : ∀ (n : ℕ) (h : n < cfg4.N) (j : Fin 2),
    (outsAt4 V c n h).2.1 (ix2 0 j) = Spec.accTiles (fP V c) (n + 1) (by have := N4; omega) j
  | 0, h, j => by
    rw [outsAt4_first V c ⟨0, h⟩ rfl (cond4_0_zero h) (not_cond4_1_zero h)]
    dsimp only
    refine (congrFun (first0 V c ⟨0, h⟩ (cond4_0_zero h) (not_cond4_1_zero h)) (ix2 0 j)).trans ((ReadH.pay1_apply _ _ _).trans ?_)
    rw [ReadH.pay3_apply, contrib_p V c ⟨0, h⟩ ⟨0, by omega⟩ rfl j, accTiles_succ, accTiles_zero]
  | n + 1, h, j => by
    have hN := N4
    refine (congrFun (acc_step V c n h).1.1 (ix2 0 j)).trans ((ReadH.pay1_apply _ _ _).trans ?_)
    rw [contrib_p V c ⟨n + 1, h⟩ ⟨n + 1, by omega⟩ rfl j, acc0_eq c n (Nat.lt_of_succ_lt h) j]
    exact (accTiles_succ (fP V c) (n + 1) (by omega) j).symm
theorem acc1_eq (c : Dev nD) : ∀ (n : ℕ) (h : n < cfg4.N),
    (outsAt4 V c n h).2.2 (ix2 0 0) = Spec.accTiles (fV V c) (n + 1) (by have := N4; omega) 0
  | 0, h => by
    rw [outsAt4_first V c ⟨0, h⟩ rfl (cond4_0_zero h) (not_cond4_1_zero h)]
    dsimp only
    refine (congrFun (first1 V c ⟨0, h⟩ (cond4_0_zero h) (not_cond4_1_zero h)) (ix2 0 0)).trans ((contrib_v V c ⟨0, h⟩ ⟨0, by omega⟩ rfl _).trans ?_)
    rw [ReadH.pay4_apply, accTiles_succ, accTiles_zero]
  | n + 1, h => by
    have hN := N4
    refine (congrFun (acc_step V c n h).1.2 (ix2 0 0)).trans ((contrib_v V c ⟨n + 1, h⟩ ⟨n + 1, by omega⟩ rfl _).trans ?_)
    rw [acc1_eq c n (Nat.lt_of_succ_lt h)]
    exact (accTiles_succ (fV V c) (n + 1) (by omega) 0).symm

abbrev res20 (c : Dev nD) : Buf (Elt Ideal) ((c : Thread nD τ).loc main_v94_0) := fun idx => Spec.accTiles (fP V c) 50 le_rfl (idx 1)
abbrev res21 (c : Dev nD) : Buf (Elt Ideal) ((c : Thread nD τ).loc main_v94_1) := fun idx => Spec.accTiles (fV V c) 50 le_rfl (idx 1)

theorem accTiles_congr {o : Nat} (f : Spec.Arr Spec.N o) {s s' : ℕ} (e : s = s') (h : s ≤ 50) (h' : s' ≤ 50) (j : Fin o) :
    Spec.accTiles f s h j = Spec.accTiles f s' h' j := by subst e; rfl

-- The last point (index 49 modulo 50) leaves the sums over all 50 tiles in the two output blocks.
theorem outs20 (c : Dev nD) (t : Fin cfg4.N) (hl : t.val % 50 = 49) : (outsAt4 V c t.val t.isLt).1.1 = res20 V c := by
  obtain ⟨tv, ht⟩ := t
  have hN := N4
  cases tv with
  | zero => exact absurd hl (by show ¬(0 % 50 = 49); decide)
  | succ n =>
    funext idx
    obtain ⟨a, j, rfl⟩ : ∃ a j, idx = ix2 a j := ⟨idx 0, idx 1, eq_ix2 idx⟩
    obtain rfl : a = 0 := Subsingleton.elim _ _
    have hl' : (n + 1) % 50 = 49 := hl
    exact ((congrFun ((acc_step V c n ht).2 hl').1 _).trans (acc0_eq V c (n + 1) ht j)).trans (accTiles_congr (fP V c) (by omega) _ _ j)
theorem outs21 (c : Dev nD) (t : Fin cfg4.N) (hl : t.val % 50 = 49) : (outsAt4 V c t.val t.isLt).1.2 = res21 V c := by
  obtain ⟨tv, ht⟩ := t
  have hN := N4
  cases tv with
  | zero => exact absurd hl (by show ¬(0 % 50 = 49); decide)
  | succ n =>
    funext idx
    obtain ⟨a, j, rfl⟩ : ∃ a j, idx = ix2 a j := ⟨idx 0, idx 1, eq_ix2 idx⟩
    obtain rfl : a = 0 := Subsingleton.elim _ _
    obtain rfl : j = 0 := Subsingleton.elim _ _
    have hl' : (n + 1) % 50 = 49 := hl
    exact ((congrFun ((acc_step V c n ht).2 hl').2 _).trans (acc1_eq V c (n + 1) ht)).trans (accTiles_congr (fV V c) (by omega) _ _ 0)

end Cert.KernelIdeal.Gen

end
-- ==== Proof.KI.RegVal4.lean ====
import proofs.«412786_j57784490000510_2_alg».proof.Proof.KI.RegVal4Inv
import proofs.«412786_j57784490000510_2_alg».proof.Proof.KI.Reg4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem lt49 : 49 < cfg4.N := by rw [N4]; decide

-- At the last point an output's block is its whole array.
theorem hidx4_20 : ∀ (t : Fin cfg4.N) (a : Fin (cfg4.win 20).shape.rank), (cfg4.win 20).index t a = 0 := by decide +kernel
theorem emb4_20 (i : S1x2.Idx) : ((cfg4.win 20).blk ⟨49, lt49⟩).view.emb i = i :=
  funext fun a => Fin.ext ((cfg4.win 20).rect_emb_val_of_index_zero _ a (hidx4_20 _ a) i)
theorem flushed20_eq (c : Dev nD) (t : Fin cfg4.N) (hf : (cfg4.win 20).flush t = true) :
    (dat4 (F := Ideal) V c).flushed 20 t = ((cfg4.win 20).blk t).view.read (Elt Ideal) (res20 V c) := by
  have hN : cfg4.N = 50 := N4
  have hl : t.val % 50 = 49 := (flush4_20 t).mp hf
  obtain rfl : t = ⟨49, lt49⟩ := Fin.ext (show t.val = 49 by have := t.isLt; omega)
  show (cfg4.win 20).cut (grid4.coords ⟨49, lt49⟩) ((dat4 (F := Ideal) V c).after 20 ⟨49, lt49⟩) = _
  rw [after4_20, outs20 V c ⟨49, lt49⟩ hl]
  exact funext fun i => (congrArg (res20 V c) (emb4_20 i)).symm
theorem hidx4_21 : ∀ (t : Fin cfg4.N) (a : Fin (cfg4.win 21).shape.rank), (cfg4.win 21).index t a = 0 := by decide +kernel
theorem emb4_21 (i : S1x1.Idx) : ((cfg4.win 21).blk ⟨49, lt49⟩).view.emb i = i :=
  funext fun a => Fin.ext ((cfg4.win 21).rect_emb_val_of_index_zero _ a (hidx4_21 _ a) i)
theorem flushed21_eq (c : Dev nD) (t : Fin cfg4.N) (hf : (cfg4.win 21).flush t = true) :
    (dat4 (F := Ideal) V c).flushed 21 t = ((cfg4.win 21).blk t).view.read (Elt Ideal) (res21 V c) := by
  have hN : cfg4.N = 50 := N4
  have hl : t.val % 50 = 49 := (flush4_21 t).mp hf
  obtain rfl : t = ⟨49, lt49⟩ := Fin.ext (show t.val = 49 by have := t.isLt; omega)
  show (cfg4.win 21).cut (grid4.coords ⟨49, lt49⟩) ((dat4 (F := Ideal) V c).after 21 ⟨49, lt49⟩) = _
  rw [after4_21, outs21 V c ⟨49, lt49⟩ hl]
  exact funext fun i => (congrArg (res21 V c) (emb4_21 i)).symm

theorem arrAt4_20 (c : Dev nD) :
    ((dat4 (F := Ideal) V c).arrAt 20 cfg4.N : S1x2.Idx → EReal) = fun idx =>
      Spec.accTiles (Spec.term
    (Spec.headSplit (Spec.cur (y0 V c)) (Spec.cur (y1 V c)) (Spec.joinT (y2 V c) (y3 V c)) (fun k => y4 V c (ix1 k)) (Spec.trT (y5 V c)) (fun j => y6 V c (ix1 j)))
    (Spec.head (Spec.cur (y1 V c)) (Spec.trT (y7 V c)) (fun k => y8 V c (ix1 k)) (Spec.trT (y9 V c)) (fun j => y10 V c (ix1 j)))) 50 le_rfl (idx 1) :=
  (dat4 (F := Ideal) V c).arrAt_eq_of_cover 20 (res20 V c) (flushed20_eq V c) fun i =>
    ⟨⟨49, lt49⟩, (flush4_20 ⟨49, lt49⟩).mpr rfl, by rw [← emb4_20 i]; exact View.emb_mem_set _ i⟩

theorem arrAt4_21 (c : Dev nD) :
    ((dat4 (F := Ideal) V c).arrAt 21 cfg4.N : S1x1.Idx → EReal) = fun idx =>
      Spec.accTiles (Spec.term
    (Spec.headSplit (Spec.cur (y0 V c)) (Spec.cur (y1 V c)) (Spec.joinT (y11 V c) (y12 V c)) (fun k => y13 V c (ix1 k)) (Spec.trT (y14 V c)) (fun j => y15 V c (ix1 j)))
    (Spec.head (Spec.cur (y1 V c)) (Spec.trT (y16 V c)) (fun k => y17 V c (ix1 k)) (Spec.trT (y18 V c)) (fun j => y19 V c (ix1 j)))) 50 le_rfl (idx 1) :=
  (dat4 (F := Ideal) V c).arrAt_eq_of_cover 21 (res21 V c) (flushed21_eq V c) fun i =>
    ⟨⟨49, lt49⟩, (flush4_21 ⟨49, lt49⟩).mpr rfl, by rw [← emb4_21 i]; exact View.emb_mem_set _ i⟩

end Cert.KernelIdeal.Gen

end
-- ==== Proof.KI.Value.lean ====
import proofs.«412786_j57784490000510_2_alg».proof.Proof.KI.ValueStep
import proofs.«412786_j57784490000510_2_alg».proof.Proof.KI.ValueEnd
import proofs.«412786_j57784490000510_2_alg».proof.Proof.KI.RegVal4

set_option maxRecDepth 16384

noncomputable section

namespace Cert.KernelIdeal.ReadH

open Idealize.ShloMosaic Idealize.ShloMosaic.TcCoe Idealize.ShloMosaic.ValueIdx Cert.KernelIdeal

variable (m : (ℓ : Loc nD τ sig) → Buf (Elt Ideal) ℓ)

theorem kvalue (c : Dev nD) :
    (Gen.W17 m c (Proc.devRef .tc main_v97) : S2.Idx → EReal)
        = kerTailP (fun j => Spec.pK (wOf m c) (Spec.H0 (iOf m c).nt) (Spec.finalK (wOf m c) (iOf m c)) (j 0))
      ∧ (Gen.W17 m c (Proc.devRef .tc main_v98) : S1.Idx → EReal)
        = kerTailV (fun j => Spec.vK (wOf m c) (Spec.H0 (iOf m c).nt) (Spec.finalK (wOf m c) (iOf m c)) (j 0)) :=
  value_end m c (e12_v79 m c) (e3_v7 m c) (Gen.arrAt4_20 (Gen.VW13 m) c) (Gen.arrAt4_21 (Gen.VW13 m) c)

end Cert.KernelIdeal.ReadH

end
-- ==== Proof.RI.Tab.lean ====
import proofs.«412786_j57784490000510_2_alg».proof.Proof.Gen.ReferenceIdeal
import Idealize.ShloMosaic.Lib.StableHlo.Run

set_option Elab.async false

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev Arr (T : BufTy) : Type := T.Contents (Elt F)

abbrev st0 : List (HloOp τ sig (Elt F)) :=
  [ StableHlo.nullary main_v0 (iotaInDim S64 32 0),
    StableHlo.unary main_v0 main_v1 (broadcastInDim S1x64 ![1] bcast_S64_S1x64_1 : Arr ⟨S64, .i32⟩ → Arr ⟨S1x64, .i32⟩),
    StableHlo.nullary main_c (constantI S_ 32 3#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S1x64 ![] bcast_S_S1x64),
    StableHlo.TRef.binary (.of main_v1 : StableHlo.TRef sig ⟨S1x64, .i32⟩) main_call0.v3 main_call0.v4 Host.remsi,
    StableHlo.TRef.nullary main_call0.c_1 (constantI S_ 32 0#32),
    StableHlo.TRef.unary main_call0.c_1 main_call0.v5 (broadcastInDim S1x64 ![] bcast_S_S1x64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S1x64 ![] bcast_S_S1x64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S1x64 ![] bcast_S_S1x64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S1x64 ![] bcast_S_S1x64),
    StableHlo.TRef.binary main_call0.v4 main_call0.v13 main_call0.v14 addi,
    StableHlo.TRef.ternary main_call0.v12 main_call0.v14 main_call0.v4 main_call0.v15 select,
    StableHlo.unary main_arg0 main_v3 (broadcastInDim S100000x1 ![0] bcast_S100000_S100000x1_0 : Arr ⟨S100000, .i32⟩ → Arr ⟨S100000x1, .i32⟩),
    StableHlo.unary main_v2 main_v4 (broadcastInDim S100000x64 ![0, 1] bcast_S1x64_S100000x64_0_1 : Arr ⟨S1x64, .i32⟩ → Arr ⟨S100000x64, .i32⟩),
    StableHlo.unary main_v3 main_v5 (broadcastInDim S100000x64 ![0, 1] bcast_S100000x1_S100000x64_0_1 : Arr ⟨S100000x1, .i32⟩ → Arr ⟨S100000x64, .i32⟩),
    StableHlo.binary main_v4 main_v5 main_v6 (cmpi .eq : Arr ⟨S100000x64, .i32⟩ → Arr ⟨S100000x64, .i32⟩ → Arr ⟨S100000x64, .i1⟩),
    StableHlo.unary main_v6 main_v7 (uitofp .f32 : Arr ⟨S100000x64, .i1⟩ → Arr ⟨S100000x64, .f32⟩) ]

abbrev st0_W : List (Ref sig .tc) :=
  [main_v0, main_v1, main_c, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v2, main_v3, main_v4, main_v5, main_v6, main_v7]

structure StepBufs where
  v8 : TRef sig ⟨S4x64x100000, .f32⟩
  v9 : TRef sig ⟨S4x100000x64, .f32⟩
  v10 : TRef sig ⟨S4x1x64, .f32⟩
  v11 : TRef sig ⟨S4x100000x64, .f32⟩
  v12 : TRef sig ⟨S4x100000x64, .f32⟩
  c_0 : TRef sig ⟨S_, .i32⟩
  v13 : TRef sig ⟨S1600000, .i32⟩
  v14 : TRef sig ⟨S1600000, .i1⟩
  c_1 : TRef sig ⟨S_, .i32⟩
  v15 : TRef sig ⟨S1600000, .i32⟩
  v16 : TRef sig ⟨S1600000, .i32⟩
  v17 : TRef sig ⟨S1600000, .i32⟩
  c_2 : TRef sig ⟨S_, .i32⟩
  v18 : TRef sig ⟨S1600000, .i32⟩
  v19 : TRef sig ⟨S1600000, .i1⟩
  c_3 : TRef sig ⟨S_, .i32⟩
  v20 : TRef sig ⟨S1600000, .i32⟩
  v21 : TRef sig ⟨S1600000, .i32⟩
  v22 : TRef sig ⟨S1600000, .i32⟩
  v23 : TRef sig ⟨S1600000x1, .i32⟩
  v24 : TRef sig ⟨S1600000x1, .i32⟩
  v25 : TRef sig ⟨S1600000x2, .i32⟩
  v26 : TRef sig ⟨S1600000x64, .f32⟩
  cst : TRef sig ⟨S_, .f32⟩
  v27 : TRef sig ⟨S100000x64, .f32⟩
  v28 : TRef sig ⟨S1600000x1, .i32⟩
  v29 : TRef sig ⟨S100000x64, .f32⟩
  v30 : TRef sig ⟨S64x192, .f32⟩
  v31 : TRef sig ⟨S100000x192, .f32⟩
  v32 : TRef sig ⟨S1x192, .f32⟩
  v33 : TRef sig ⟨S100000x192, .f32⟩
  v34 : TRef sig ⟨S100000x192, .f32⟩
  v35 : TRef sig ⟨S64x192, .f32⟩
  v36 : TRef sig ⟨S100000x192, .f32⟩
  v37 : TRef sig ⟨S1x192, .f32⟩
  v38 : TRef sig ⟨S100000x192, .f32⟩
  v39 : TRef sig ⟨S100000x192, .f32⟩
  v40 : TRef sig ⟨S100000x64, .f32⟩
  v41 : TRef sig ⟨S100000x64, .f32⟩
  v42 : TRef sig ⟨S100000x64, .f32⟩
  v43 : TRef sig ⟨S100000x64, .f32⟩
  v44 : TRef sig ⟨S100000x64, .f32⟩
  v45 : TRef sig ⟨S100000x64, .f32⟩
  v46 : TRef sig ⟨S100000x64, .f32⟩
  v47 : TRef sig ⟨S100000x64, .f32⟩
  v48 : TRef sig ⟨S100000x64, .f32⟩
  cst_4 : TRef sig ⟨S_, .f32⟩
  v49 : TRef sig ⟨S100000x64, .f32⟩
  v50 : TRef sig ⟨S100000x64, .f32⟩
  cst_5 : TRef sig ⟨S_, .f32⟩
  v51 : TRef sig ⟨S100000x64, .f32⟩
  v52 : TRef sig ⟨S100000x64, .f32⟩
  v53 : TRef sig ⟨S100000x64, .f32⟩
  v54 : TRef sig ⟨S100000x64, .f32⟩
  v55 : TRef sig ⟨S100000x64, .f32⟩
  cst_6 : TRef sig ⟨S_, .f32⟩
  v56 : TRef sig ⟨S100000x64, .f32⟩
  v57 : TRef sig ⟨S100000x64, .f32⟩
  cst_7 : TRef sig ⟨S_, .f32⟩
  v58 : TRef sig ⟨S100000x64, .f32⟩
  v59 : TRef sig ⟨S100000x64, .f32⟩
  v60 : TRef sig ⟨S100000x64, .f32⟩
  v61 : TRef sig ⟨S100000x64, .f32⟩
  v62 : TRef sig ⟨S100000x64, .f32⟩
  cst_8 : TRef sig ⟨S_, .f32⟩
  v63 : TRef sig ⟨S100000x64, .f32⟩
  v64 : TRef sig ⟨S100000x64, .f32⟩
  v65 : TRef sig ⟨S100000x64, .f32⟩
  v66 : TRef sig ⟨S100000x64, .f32⟩
  v67 : TRef sig ⟨S100000x64, .f32⟩

abbrev a1 : TRef sig ⟨S1600000, .i32⟩ := .of main_arg1
abbrev a2 : TRef sig ⟨S1600000, .i32⟩ := .of main_arg2
abbrev a3 : TRef sig ⟨S1600000, .i32⟩ := .of main_arg3
abbrev a4 : TRef sig ⟨S4x64x64, .f32⟩ := .of main_arg4
abbrev a5 : TRef sig ⟨S4x64, .f32⟩ := .of main_arg5
abbrev a6 : TRef sig ⟨S192x64, .f32⟩ := .of main_arg6
abbrev a7 : TRef sig ⟨S192x64, .f32⟩ := .of main_arg7
abbrev a8 : TRef sig ⟨S192, .f32⟩ := .of main_arg8
abbrev a9 : TRef sig ⟨S192, .f32⟩ := .of main_arg9

def stepOps (h : TRef sig ⟨S100000x64, .f32⟩) (φ : StepBufs) : List (HloOp τ sig (Elt F)) :=
  [ TRef.binary a4 h φ.v8 (fun l r => Host.dotGeneral dot_S4x64x64_S100000x64_S4x64x100000_2_1_01_0_n_n none l r),
    TRef.unary φ.v8 φ.v9 (transpose S4x100000x64 [0, 2, 1] · transposes_S4x64x100000_S4x100000x64_0_2_1),
    TRef.unary a5 φ.v10 (broadcastInDim S4x1x64 ![0, 2] bcast_S4x64_S4x1x64_0_2),
    TRef.unary φ.v10 φ.v11 (broadcastInDim S4x100000x64 ![0, 1, 2] bcast_S4x1x64_S4x100000x64_0_1_2),
    TRef.binary φ.v9 φ.v11 φ.v12 addf,
    TRef.nullary φ.c_0 (constantI S_ 32 0#32),
    TRef.unary φ.c_0 φ.v13 (broadcastInDim S1600000 ![] bcast_S_S1600000),
    TRef.binary a3 φ.v13 φ.v14 (cmpi .slt),
    TRef.nullary φ.c_1 (constantI S_ 32 4#32),
    TRef.unary φ.c_1 φ.v15 (broadcastInDim S1600000 ![] bcast_S_S1600000),
    TRef.binary a3 φ.v15 φ.v16 addi,
    TRef.ternary φ.v14 φ.v16 a3 φ.v17 select,
    TRef.nullary φ.c_2 (constantI S_ 32 0#32),
    TRef.unary φ.c_2 φ.v18 (broadcastInDim S1600000 ![] bcast_S_S1600000),
    TRef.binary a1 φ.v18 φ.v19 (cmpi .slt),
    TRef.nullary φ.c_3 (constantI S_ 32 100000#32),
    TRef.unary φ.c_3 φ.v20 (broadcastInDim S1600000 ![] bcast_S_S1600000),
    TRef.binary a1 φ.v20 φ.v21 addi,
    TRef.ternary φ.v19 φ.v21 a1 φ.v22 select,
    TRef.unary φ.v17 φ.v23 (broadcastInDim S1600000x1 ![0] bcast_S1600000_S1600000x1_0),
    TRef.unary φ.v22 φ.v24 (broadcastInDim S1600000x1 ![0] bcast_S1600000_S1600000x1_0),
    TRef.binary φ.v23 φ.v24 φ.v25 (fun a b => concatenate S1600000x2 1 [⟨S1600000x1, a⟩, ⟨S1600000x1, b⟩] concatenates_S1600000x1_S1600000x1_S1600000x2_d1),
    TRef.binary φ.v12 φ.v25 φ.v26 (fun x i => Host.gather gather_S4x100000x64_S1600000x2_S1600000x64_1_01_n_n_01_1_1164 x i),
    TRef.nullary φ.cst (constant S_ .f32 0x00000000#32),
    TRef.unary φ.cst φ.v27 (broadcastInDim S100000x64 ![] bcast_S_S100000x64),
    TRef.unary a2 φ.v28 (broadcastInDim S1600000x1 ![0] bcast_S1600000_S1600000x1_0),
    TRef.ternary φ.v27 φ.v28 φ.v26 φ.v29 (fun x i u => Host.scatterAdd scatter_S100000x64_S1600000x1_S1600000x64_1_0_0_1 x i u),
    TRef.unary a6 φ.v30 (transpose S64x192 [1, 0] · transposes_S192x64_S64x192_1_0),
    TRef.binary h φ.v30 φ.v31 (fun l r => Host.dotGeneral dot_S100000x64_S64x192_S100000x192_1_0_0_1_n_n none l r),
    TRef.unary a8 φ.v32 (broadcastInDim S1x192 ![1] bcast_S192_S1x192_1),
    TRef.unary φ.v32 φ.v33 (broadcastInDim S100000x192 ![0, 1] bcast_S1x192_S100000x192_0_1),
    TRef.binary φ.v31 φ.v33 φ.v34 addf,
    TRef.unary a7 φ.v35 (transpose S64x192 [1, 0] · transposes_S192x64_S64x192_1_0),
    TRef.binary φ.v29 φ.v35 φ.v36 (fun l r => Host.dotGeneral dot_S100000x64_S64x192_S100000x192_1_0_0_1_n_n none l r),
    TRef.unary a9 φ.v37 (broadcastInDim S1x192 ![1] bcast_S192_S1x192_1),
    TRef.unary φ.v37 φ.v38 (broadcastInDim S100000x192 ![0, 1] bcast_S1x192_S100000x192_0_1),
    TRef.binary φ.v36 φ.v38 φ.v39 addf,
    TRef.unary φ.v34 φ.v40 (extractStridedSlice S100000x64 ![0, 0] · slices_S100000x192_S100000x64_0_0),
    TRef.unary φ.v34 φ.v41 (extractStridedSlice S100000x64 ![0, 64] · slices_S100000x192_S100000x64_0_64),
    TRef.unary φ.v34 φ.v42 (extractStridedSlice S100000x64 ![0, 128] · slices_S100000x192_S100000x64_0_128),
    TRef.unary φ.v39 φ.v43 (extractStridedSlice S100000x64 ![0, 0] · slices_S100000x192_S100000x64_0_0),
    TRef.unary φ.v39 φ.v44 (extractStridedSlice S100000x64 ![0, 64] · slices_S100000x192_S100000x64_0_64),
    TRef.unary φ.v39 φ.v45 (extractStridedSlice S100000x64 ![0, 128] · slices_S100000x192_S100000x64_0_128),
    TRef.binary φ.v40 φ.v43 φ.v46 addf,
    TRef.unary φ.v46 φ.v47 Host.negf,
    TRef.unary φ.v47 φ.v48 Host.exp,
    TRef.nullary φ.cst_4 (constant S_ .f32 0x3F800000#32),
    TRef.unary φ.cst_4 φ.v49 (broadcastInDim S100000x64 ![] bcast_S_S100000x64),
    TRef.binary φ.v49 φ.v48 φ.v50 addf,
    TRef.nullary φ.cst_5 (constant S_ .f32 0x3F800000#32),
    TRef.unary φ.cst_5 φ.v51 (broadcastInDim S100000x64 ![] bcast_S_S100000x64),
    TRef.binary φ.v51 φ.v50 φ.v52 Host.divf,
    TRef.binary φ.v41 φ.v44 φ.v53 addf,
    TRef.unary φ.v53 φ.v54 Host.negf,
    TRef.unary φ.v54 φ.v55 Host.exp,
    TRef.nullary φ.cst_6 (constant S_ .f32 0x3F800000#32),
    TRef.unary φ.cst_6 φ.v56 (broadcastInDim S100000x64 ![] bcast_S_S100000x64),
    TRef.binary φ.v56 φ.v55 φ.v57 addf,
    TRef.nullary φ.cst_7 (constant S_ .f32 0x3F800000#32),
    TRef.unary φ.cst_7 φ.v58 (broadcastInDim S100000x64 ![] bcast_S_S100000x64),
    TRef.binary φ.v58 φ.v57 φ.v59 Host.divf,
    TRef.binary φ.v52 φ.v45 φ.v60 mulf,
    TRef.binary φ.v42 φ.v60 φ.v61 addf,
    TRef.unary φ.v61 φ.v62 Host.tanh,
    TRef.nullary φ.cst_8 (constant S_ .f32 0x3F800000#32),
    TRef.unary φ.cst_8 φ.v63 (broadcastInDim S100000x64 ![] bcast_S_S100000x64),
    TRef.binary φ.v63 φ.v59 φ.v64 subf,
    TRef.binary φ.v64 φ.v62 φ.v65 mulf,
    TRef.binary φ.v59 φ.v29 φ.v66 mulf,
    TRef.binary φ.v65 φ.v66 φ.v67 addf ]

def stepW (φ : StepBufs) : List (Ref sig .tc) :=
  [φ.v8.ref, φ.v9.ref, φ.v10.ref, φ.v11.ref, φ.v12.ref, φ.c_0.ref, φ.v13.ref, φ.v14.ref, φ.c_1.ref, φ.v15.ref, φ.v16.ref, φ.v17.ref, φ.c_2.ref, φ.v18.ref, φ.v19.ref, φ.c_3.ref, φ.v20.ref, φ.v21.ref, φ.v22.ref, φ.v23.ref, φ.v24.ref, φ.v25.ref, φ.v26.ref, φ.cst.ref, φ.v27.ref, φ.v28.ref, φ.v29.ref, φ.v30.ref, φ.v31.ref, φ.v32.ref, φ.v33.ref, φ.v34.ref, φ.v35.ref, φ.v36.ref, φ.v37.ref, φ.v38.ref, φ.v39.ref, φ.v40.ref, φ.v41.ref, φ.v42.ref, φ.v43.ref, φ.v44.ref, φ.v45.ref, φ.v46.ref, φ.v47.ref, φ.v48.ref, φ.cst_4.ref, φ.v49.ref, φ.v50.ref, φ.cst_5.ref, φ.v51.ref, φ.v52.ref, φ.v53.ref, φ.v54.ref, φ.v55.ref, φ.cst_6.ref, φ.v56.ref, φ.v57.ref, φ.cst_7.ref, φ.v58.ref, φ.v59.ref, φ.v60.ref, φ.v61.ref, φ.v62.ref, φ.cst_8.ref, φ.v63.ref, φ.v64.ref, φ.v65.ref, φ.v66.ref, φ.v67.ref]

abbrev sb1 : StepBufs :=
  ⟨.of main_v8, .of main_v9, .of main_v10, .of main_v11, .of main_v12, .of main_c_0, .of main_v13, .of main_v14, .of main_c_1, .of main_v15, .of main_v16, .of main_v17, .of main_c_2, .of main_v18, .of main_v19, .of main_c_3, .of main_v20, .of main_v21, .of main_v22, .of main_v23, .of main_v24, .of main_v25, .of main_v26, .of main_cst, .of main_v27, .of main_v28, .of main_v29, .of main_v30, .of main_v31, .of main_v32, .of main_v33, .of main_v34, .of main_v35, .of main_v36, .of main_v37, .of main_v38, .of main_v39, .of main_v40, .of main_v41, .of main_v42, .of main_v43, .of main_v44, .of main_v45, .of main_v46, .of main_v47, .of main_v48, .of main_cst_4, .of main_v49, .of main_v50, .of main_cst_5, .of main_v51, .of main_v52, .of main_v53, .of main_v54, .of main_v55, .of main_cst_6, .of main_v56, .of main_v57, .of main_cst_7, .of main_v58, .of main_v59, .of main_v60, .of main_v61, .of main_v62, .of main_cst_8, .of main_v63, .of main_v64, .of main_v65, .of main_v66, .of main_v67⟩
abbrev st1 : List (HloOp τ sig (Elt F)) := stepOps (.of main_v7) sb1

abbrev sb2 : StepBufs :=
  ⟨.of main_v68, .of main_v69, .of main_v70, .of main_v71, .of main_v72, .of main_c_9, .of main_v73, .of main_v74, .of main_c_10, .of main_v75, .of main_v76, .of main_v77, .of main_c_11, .of main_v78, .of main_v79, .of main_c_12, .of main_v80, .of main_v81, .of main_v82, .of main_v83, .of main_v84, .of main_v85, .of main_v86, .of main_cst_13, .of main_v87, .of main_v88, .of main_v89, .of main_v90, .of main_v91, .of main_v92, .of main_v93, .of main_v94, .of main_v95, .of main_v96, .of main_v97, .of main_v98, .of main_v99, .of main_v100, .of main_v101, .of main_v102, .of main_v103, .of main_v104, .of main_v105, .of main_v106, .of main_v107, .of main_v108, .of main_cst_14, .of main_v109, .of main_v110, .of main_cst_15, .of main_v111, .of main_v112, .of main_v113, .of main_v114, .of main_v115, .of main_cst_16, .of main_v116, .of main_v117, .of main_cst_17, .of main_v118, .of main_v119, .of main_v120, .of main_v121, .of main_v122, .of main_cst_18, .of main_v123, .of main_v124, .of main_v125, .of main_v126, .of main_v127⟩
abbrev st2 : List (HloOp τ sig (Elt F)) := stepOps (.of main_v67) sb2

abbrev sb3 : StepBufs :=
  ⟨.of main_v128, .of main_v129, .of main_v130, .of main_v131, .of main_v132, .of main_c_19, .of main_v133, .of main_v134, .of main_c_20, .of main_v135, .of main_v136, .of main_v137, .of main_c_21, .of main_v138, .of main_v139, .of main_c_22, .of main_v140, .of main_v141, .of main_v142, .of main_v143, .of main_v144, .of main_v145, .of main_v146, .of main_cst_23, .of main_v147, .of main_v148, .of main_v149, .of main_v150, .of main_v151, .of main_v152, .of main_v153, .of main_v154, .of main_v155, .of main_v156, .of main_v157, .of main_v158, .of main_v159, .of main_v160, .of main_v161, .of main_v162, .of main_v163, .of main_v164, .of main_v165, .of main_v166, .of main_v167, .of main_v168, .of main_cst_24, .of main_v169, .of main_v170, .of main_cst_25, .of main_v171, .of main_v172, .of main_v173, .of main_v174, .of main_v175, .of main_cst_26, .of main_v176, .of main_v177, .of main_cst_27, .of main_v178, .of main_v179, .of main_v180, .of main_v181, .of main_v182, .of main_cst_28, .of main_v183, .of main_v184, .of main_v185, .of main_v186, .of main_v187⟩
abbrev st3 : List (HloOp τ sig (Elt F)) := stepOps (.of main_v127) sb3

abbrev sb4 : StepBufs :=
  ⟨.of main_v188, .of main_v189, .of main_v190, .of main_v191, .of main_v192, .of main_c_29, .of main_v193, .of main_v194, .of main_c_30, .of main_v195, .of main_v196, .of main_v197, .of main_c_31, .of main_v198, .of main_v199, .of main_c_32, .of main_v200, .of main_v201, .of main_v202, .of main_v203, .of main_v204, .of main_v205, .of main_v206, .of main_cst_33, .of main_v207, .of main_v208, .of main_v209, .of main_v210, .of main_v211, .of main_v212, .of main_v213, .of main_v214, .of main_v215, .of main_v216, .of main_v217, .of main_v218, .of main_v219, .of main_v220, .of main_v221, .of main_v222, .of main_v223, .of main_v224, .of main_v225, .of main_v226, .of main_v227, .of main_v228, .of main_cst_34, .of main_v229, .of main_v230, .of main_cst_35, .of main_v231, .of main_v232, .of main_v233, .of main_v234, .of main_v235, .of main_cst_36, .of main_v236, .of main_v237, .of main_cst_37, .of main_v238, .of main_v239, .of main_v240, .of main_v241, .of main_v242, .of main_cst_38, .of main_v243, .of main_v244, .of main_v245, .of main_v246, .of main_v247⟩
abbrev st4 : List (HloOp τ sig (Elt F)) := stepOps (.of main_v187) sb4

abbrev st5 : List (HloOp τ sig (Elt F)) :=
  [ StableHlo.binary main_v7 main_v247 main_v248 ((fun a b => concatenate S100000x128 1 [⟨S100000x64, a⟩, ⟨S100000x64, b⟩] concatenates_S100000x64_S100000x64_S100000x128_d1) : Arr ⟨S100000x64, .f32⟩ → Arr ⟨S100000x64, .f32⟩ → Arr ⟨S100000x128, .f32⟩),
    StableHlo.unary main_arg10 main_v249 ((transpose S128x64 [1, 0] · transposes_S64x128_S128x64_1_0) : Arr ⟨S64x128, .f32⟩ → Arr ⟨S128x64, .f32⟩),
    StableHlo.binary main_v248 main_v249 main_v250 ((fun l r => Host.dotGeneral dot_S100000x128_S128x64_S100000x64_1_0_0_1_n_n none l r) : Arr ⟨S100000x128, .f32⟩ → Arr ⟨S128x64, .f32⟩ → Arr ⟨S100000x64, .f32⟩),
    StableHlo.unary main_arg11 main_v251 (broadcastInDim S1x64 ![1] bcast_S64_S1x64_1 : Arr ⟨S64, .f32⟩ → Arr ⟨S1x64, .f32⟩),
    StableHlo.unary main_v251 main_v252 (broadcastInDim S100000x64 ![0, 1] bcast_S1x64_S100000x64_0_1 : Arr ⟨S1x64, .f32⟩ → Arr ⟨S100000x64, .f32⟩),
    StableHlo.binary main_v250 main_v252 main_v253 (addf : Arr ⟨S100000x64, .f32⟩ → Arr ⟨S100000x64, .f32⟩ → Arr ⟨S100000x64, .f32⟩),
    StableHlo.unary main_v253 main_v254 (Host.tanh : Arr ⟨S100000x64, .f32⟩ → Arr ⟨S100000x64, .f32⟩),
    StableHlo.unary main_arg12 main_v255 ((transpose S64x2 [1, 0] · transposes_S2x64_S64x2_1_0) : Arr ⟨S2x64, .f32⟩ → Arr ⟨S64x2, .f32⟩),
    StableHlo.binary main_v254 main_v255 main_v256 ((fun l r => Host.dotGeneral dot_S100000x64_S64x2_S100000x2_1_0_0_1_n_n none l r) : Arr ⟨S100000x64, .f32⟩ → Arr ⟨S64x2, .f32⟩ → Arr ⟨S100000x2, .f32⟩),
    StableHlo.unary main_arg13 main_v257 (broadcastInDim S1x2 ![1] bcast_S2_S1x2_1 : Arr ⟨S2, .f32⟩ → Arr ⟨S1x2, .f32⟩),
    StableHlo.unary main_v257 main_v258 (broadcastInDim S100000x2 ![0, 1] bcast_S1x2_S100000x2_0_1 : Arr ⟨S1x2, .f32⟩ → Arr ⟨S100000x2, .f32⟩),
    StableHlo.binary main_v256 main_v258 main_v259 (addf : Arr ⟨S100000x2, .f32⟩ → Arr ⟨S100000x2, .f32⟩ → Arr ⟨S100000x2, .f32⟩),
    StableHlo.unary main_arg14 main_v260 ((transpose S64x64 [1, 0] · transposes_S64x64_S64x64_1_0) : Arr ⟨S64x64, .f32⟩ → Arr ⟨S64x64, .f32⟩),
    StableHlo.binary main_v247 main_v260 main_v261 ((fun l r => Host.dotGeneral dot_S100000x64_S64x64_S100000x64_1_0_0_1_n_n none l r) : Arr ⟨S100000x64, .f32⟩ → Arr ⟨S64x64, .f32⟩ → Arr ⟨S100000x64, .f32⟩),
    StableHlo.unary main_arg15 main_v262 (broadcastInDim S1x64 ![1] bcast_S64_S1x64_1 : Arr ⟨S64, .f32⟩ → Arr ⟨S1x64, .f32⟩),
    StableHlo.unary main_v262 main_v263 (broadcastInDim S100000x64 ![0, 1] bcast_S1x64_S100000x64_0_1 : Arr ⟨S1x64, .f32⟩ → Arr ⟨S100000x64, .f32⟩),
    StableHlo.binary main_v261 main_v263 main_v264 (addf : Arr ⟨S100000x64, .f32⟩ → Arr ⟨S100000x64, .f32⟩ → Arr ⟨S100000x64, .f32⟩),
    StableHlo.unary main_v264 main_v265 (Host.tanh : Arr ⟨S100000x64, .f32⟩ → Arr ⟨S100000x64, .f32⟩),
    StableHlo.unary main_arg16 main_v266 ((transpose S64x2 [1, 0] · transposes_S2x64_S64x2_1_0) : Arr ⟨S2x64, .f32⟩ → Arr ⟨S64x2, .f32⟩),
    StableHlo.binary main_v265 main_v266 main_v267 ((fun l r => Host.dotGeneral dot_S100000x64_S64x2_S100000x2_1_0_0_1_n_n none l r) : Arr ⟨S100000x64, .f32⟩ → Arr ⟨S64x2, .f32⟩ → Arr ⟨S100000x2, .f32⟩),
    StableHlo.unary main_arg17 main_v268 (broadcastInDim S1x2 ![1] bcast_S2_S1x2_1 : Arr ⟨S2, .f32⟩ → Arr ⟨S1x2, .f32⟩),
    StableHlo.unary main_v268 main_v269 (broadcastInDim S100000x2 ![0, 1] bcast_S1x2_S100000x2_0_1 : Arr ⟨S1x2, .f32⟩ → Arr ⟨S100000x2, .f32⟩),
    StableHlo.binary main_v267 main_v269 main_v270 (addf : Arr ⟨S100000x2, .f32⟩ → Arr ⟨S100000x2, .f32⟩ → Arr ⟨S100000x2, .f32⟩),
    StableHlo.unary main_v259 main_v271 (Host.negf : Arr ⟨S100000x2, .f32⟩ → Arr ⟨S100000x2, .f32⟩),
    StableHlo.unary main_v271 main_v272 (Host.exp : Arr ⟨S100000x2, .f32⟩ → Arr ⟨S100000x2, .f32⟩),
    StableHlo.nullary main_cst_39 (constant S_ .f32 0x3F800000#32),
    StableHlo.unary main_cst_39 main_v273 (broadcastInDim S100000x2 ![] bcast_S_S100000x2 : Arr ⟨S_, .f32⟩ → Arr ⟨S100000x2, .f32⟩),
    StableHlo.binary main_v273 main_v272 main_v274 (addf : Arr ⟨S100000x2, .f32⟩ → Arr ⟨S100000x2, .f32⟩ → Arr ⟨S100000x2, .f32⟩),
    StableHlo.nullary main_cst_40 (constant S_ .f32 0x3F800000#32),
    StableHlo.unary main_cst_40 main_v275 (broadcastInDim S100000x2 ![] bcast_S_S100000x2 : Arr ⟨S_, .f32⟩ → Arr ⟨S100000x2, .f32⟩),
    StableHlo.binary main_v275 main_v274 main_v276 (Host.divf : Arr ⟨S100000x2, .f32⟩ → Arr ⟨S100000x2, .f32⟩ → Arr ⟨S100000x2, .f32⟩),
    StableHlo.binary main_v276 main_v270 main_v277 (mulf : Arr ⟨S100000x2, .f32⟩ → Arr ⟨S100000x2, .f32⟩ → Arr ⟨S100000x2, .f32⟩),
    StableHlo.nullary main_cst_41 (constant S_ .f32 0x00000000#32),
    StableHlo.binary main_v277 main_cst_41 main_v278 ((fun x v => Host.reduceAdd x v reducesTo_S100000x2_S2_d0 h_S_) : Arr ⟨S100000x2, .f32⟩ → Arr ⟨S_, .f32⟩ → Arr ⟨S2, .f32⟩),
    StableHlo.unary main_arg18 main_v279 ((transpose S128x64 [1, 0] · transposes_S64x128_S128x64_1_0) : Arr ⟨S64x128, .f32⟩ → Arr ⟨S128x64, .f32⟩),
    StableHlo.binary main_v248 main_v279 main_v280 ((fun l r => Host.dotGeneral dot_S100000x128_S128x64_S100000x64_1_0_0_1_n_n none l r) : Arr ⟨S100000x128, .f32⟩ → Arr ⟨S128x64, .f32⟩ → Arr ⟨S100000x64, .f32⟩),
    StableHlo.unary main_arg19 main_v281 (broadcastInDim S1x64 ![1] bcast_S64_S1x64_1 : Arr ⟨S64, .f32⟩ → Arr ⟨S1x64, .f32⟩),
    StableHlo.unary main_v281 main_v282 (broadcastInDim S100000x64 ![0, 1] bcast_S1x64_S100000x64_0_1 : Arr ⟨S1x64, .f32⟩ → Arr ⟨S100000x64, .f32⟩),
    StableHlo.binary main_v280 main_v282 main_v283 (addf : Arr ⟨S100000x64, .f32⟩ → Arr ⟨S100000x64, .f32⟩ → Arr ⟨S100000x64, .f32⟩),
    StableHlo.unary main_v283 main_v284 (Host.tanh : Arr ⟨S100000x64, .f32⟩ → Arr ⟨S100000x64, .f32⟩),
    StableHlo.unary main_arg20 main_v285 ((transpose S64x1 [1, 0] · transposes_S1x64_S64x1_1_0) : Arr ⟨S1x64, .f32⟩ → Arr ⟨S64x1, .f32⟩),
    StableHlo.binary main_v284 main_v285 main_v286 ((fun l r => Host.dotGeneral dot_S100000x64_S64x1_S100000x1_1_0_0_1_n_n none l r) : Arr ⟨S100000x64, .f32⟩ → Arr ⟨S64x1, .f32⟩ → Arr ⟨S100000x1, .f32⟩),
    StableHlo.unary main_arg21 main_v287 (broadcastInDim S1x1 ![1] bcast_S1_S1x1_1 : Arr ⟨S1, .f32⟩ → Arr ⟨S1x1, .f32⟩),
    StableHlo.unary main_v287 main_v288 (broadcastInDim S100000x1 ![0, 1] bcast_S1x1_S100000x1_0_1 : Arr ⟨S1x1, .f32⟩ → Arr ⟨S100000x1, .f32⟩),
    StableHlo.binary main_v286 main_v288 main_v289 (addf : Arr ⟨S100000x1, .f32⟩ → Arr ⟨S100000x1, .f32⟩ → Arr ⟨S100000x1, .f32⟩),
    StableHlo.unary main_arg22 main_v290 ((transpose S64x64 [1, 0] · transposes_S64x64_S64x64_1_0) : Arr ⟨S64x64, .f32⟩ → Arr ⟨S64x64, .f32⟩),
    StableHlo.binary main_v247 main_v290 main_v291 ((fun l r => Host.dotGeneral dot_S100000x64_S64x64_S100000x64_1_0_0_1_n_n none l r) : Arr ⟨S100000x64, .f32⟩ → Arr ⟨S64x64, .f32⟩ → Arr ⟨S100000x64, .f32⟩),
    StableHlo.unary main_arg23 main_v292 (broadcastInDim S1x64 ![1] bcast_S64_S1x64_1 : Arr ⟨S64, .f32⟩ → Arr ⟨S1x64, .f32⟩),
    StableHlo.unary main_v292 main_v293 (broadcastInDim S100000x64 ![0, 1] bcast_S1x64_S100000x64_0_1 : Arr ⟨S1x64, .f32⟩ → Arr ⟨S100000x64, .f32⟩),
    StableHlo.binary main_v291 main_v293 main_v294 (addf : Arr ⟨S100000x64, .f32⟩ → Arr ⟨S100000x64, .f32⟩ → Arr ⟨S100000x64, .f32⟩),
    StableHlo.unary main_v294 main_v295 (Host.tanh : Arr ⟨S100000x64, .f32⟩ → Arr ⟨S100000x64, .f32⟩),
    StableHlo.unary main_arg24 main_v296 ((transpose S64x1 [1, 0] · transposes_S1x64_S64x1_1_0) : Arr ⟨S1x64, .f32⟩ → Arr ⟨S64x1, .f32⟩),
    StableHlo.binary main_v295 main_v296 main_v297 ((fun l r => Host.dotGeneral dot_S100000x64_S64x1_S100000x1_1_0_0_1_n_n none l r) : Arr ⟨S100000x64, .f32⟩ → Arr ⟨S64x1, .f32⟩ → Arr ⟨S100000x1, .f32⟩),
    StableHlo.unary main_arg25 main_v298 (broadcastInDim S1x1 ![1] bcast_S1_S1x1_1 : Arr ⟨S1, .f32⟩ → Arr ⟨S1x1, .f32⟩),
    StableHlo.unary main_v298 main_v299 (broadcastInDim S100000x1 ![0, 1] bcast_S1x1_S100000x1_0_1 : Arr ⟨S1x1, .f32⟩ → Arr ⟨S100000x1, .f32⟩),
    StableHlo.binary main_v297 main_v299 main_v300 (addf : Arr ⟨S100000x1, .f32⟩ → Arr ⟨S100000x1, .f32⟩ → Arr ⟨S100000x1, .f32⟩),
    StableHlo.unary main_v289 main_v301 (Host.negf : Arr ⟨S100000x1, .f32⟩ → Arr ⟨S100000x1, .f32⟩),
    StableHlo.unary main_v301 main_v302 (Host.exp : Arr ⟨S100000x1, .f32⟩ → Arr ⟨S100000x1, .f32⟩),
    StableHlo.nullary main_cst_42 (constant S_ .f32 0x3F800000#32),
    StableHlo.unary main_cst_42 main_v303 (broadcastInDim S100000x1 ![] bcast_S_S100000x1 : Arr ⟨S_, .f32⟩ → Arr ⟨S100000x1, .f32⟩),
    StableHlo.binary main_v303 main_v302 main_v304 (addf : Arr ⟨S100000x1, .f32⟩ → Arr ⟨S100000x1, .f32⟩ → Arr ⟨S100000x1, .f32⟩),
    StableHlo.nullary main_cst_43 (constant S_ .f32 0x3F800000#32),
    StableHlo.unary main_cst_43 main_v305 (broadcastInDim S100000x1 ![] bcast_S_S100000x1 : Arr ⟨S_, .f32⟩ → Arr ⟨S100000x1, .f32⟩),
    StableHlo.binary main_v305 main_v304 main_v306 (Host.divf : Arr ⟨S100000x1, .f32⟩ → Arr ⟨S100000x1, .f32⟩ → Arr ⟨S100000x1, .f32⟩),
    StableHlo.binary main_v306 main_v300 main_v307 (mulf : Arr ⟨S100000x1, .f32⟩ → Arr ⟨S100000x1, .f32⟩ → Arr ⟨S100000x1, .f32⟩),
    StableHlo.nullary main_cst_44 (constant S_ .f32 0x00000000#32),
    StableHlo.binary main_v307 main_cst_44 main_v308 ((fun x v => Host.reduceAdd x v reducesTo_S100000x1_S1_d0 h_S_) : Arr ⟨S100000x1, .f32⟩ → Arr ⟨S_, .f32⟩ → Arr ⟨S1, .f32⟩),
    StableHlo.TRef.nullary main_call1.cst (constant S_ .f32 0xFF800000#32),
    StableHlo.TRef.binary (.of main_v278 : StableHlo.TRef sig ⟨S2, .f32⟩) main_call1.cst main_call1.v0 (fun x v => Host.reduce FloatOps.maximumf x v reducesTo_S2_S_d0 h_S_),
    StableHlo.TRef.nullary main_call1.cst_0 (constant S_ .f32 0xFF800000#32),
    StableHlo.TRef.binary main_call1.cst_0 main_call1.v0 main_call1.v1 maximumf,
    StableHlo.TRef.unary main_call1.v1 main_call1.v2 (broadcastInDim S1 ![] bcast_S_S1),
    StableHlo.TRef.unary main_call1.v2 main_call1.v3 (broadcastInDim S2 ![0] bcast_S1_S2_0),
    StableHlo.TRef.binary (.of main_v278 : StableHlo.TRef sig ⟨S2, .f32⟩) main_call1.v3 main_call1.v4 subf,
    StableHlo.TRef.unary main_call1.v4 main_call1.v5 Host.exp,
    StableHlo.TRef.nullary main_call1.cst_1 (constant S_ .f32 0x00000000#32),
    StableHlo.TRef.binary main_call1.v5 main_call1.cst_1 main_call1.v6 (fun x v => Host.reduceAdd x v reducesTo_S2_S_d0 h_S_),
    StableHlo.TRef.unary main_call1.v6 main_call1.v7 (broadcastInDim S1 ![] bcast_S_S1),
    StableHlo.TRef.unary main_call1.v7 main_call1.v8 Host.log,
    StableHlo.TRef.unary main_call1.v8 main_call1.v9 (broadcastInDim S2 ![0] bcast_S1_S2_0),
    StableHlo.TRef.binary main_call1.v4 main_call1.v9 main_call1.v10 subf,
    StableHlo.unary main_v308 main_v310 (Host.tanh : Arr ⟨S1, .f32⟩ → Arr ⟨S1, .f32⟩) ]

abbrev st5_W : List (Ref sig .tc) :=
  [main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_cst_39, main_v273, main_v274, main_cst_40, main_v275, main_v276, main_v277, main_cst_41, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_cst_42, main_v303, main_v304, main_cst_43, main_v305, main_v306, main_v307, main_cst_44, main_v308, main_call1_cst, main_call1_v0, main_call1_cst_0, main_call1_v1, main_call1_v2, main_call1_v3, main_call1_v4, main_call1_v5, main_call1_cst_1, main_call1_v6, main_call1_v7, main_call1_v8, main_call1_v9, main_v309, main_v310]

abbrev ops : List (HloOp τ sig (Elt F)) :=
  st0 ++ (st1 ++ (st2 ++ (st3 ++ (st4 ++ st5))))

end Cert.ReferenceIdeal.RunH

end
-- ==== Proof.RI.StKeep.lean ====
import proofs.«412786_j57784490000510_2_alg».proof.Proof.RI.Tab

set_option Elab.async false

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

-- Each operation writes one buffer: a line whose written buffers are the list W leaves every other buffer as it was.
theorem after_keep {ops : List (HloOp τ sig (Elt F))} {W : List (Ref sig .tc)} (V : Valuation τ sig (Elt F)) {r : Ref sig .tc}
    (e : ops.map (·.writes) = W.map fun y => {Proc.devRef (τ := τ) .tc y}) (hr : r ∉ W) :
    after ops V (no_index (Proc.devRef .tc r)) = V (Proc.devRef .tc r) :=
  after_of_forall_not_mem ops V fun op hop hb => by
    obtain ⟨y, hy, he⟩ := List.mem_map.mp (e ▸ List.mem_map_of_mem (f := HloOp.writes) hop)
    rw [← he, Finset.mem_singleton] at hb
    exact hr (Proc.devRef_injective _ hb ▸ hy)

theorem keepSt0 (V : Valuation τ sig (Elt F)) {r : Ref sig .tc} (h : r ∉ st0_W) :
    after st0 V (no_index (Proc.devRef .tc r)) = V (Proc.devRef .tc r) :=
  after_keep V rfl h

theorem keepStep (s : TRef sig ⟨S100000x64, .f32⟩) (φ : StepBufs) (V : Valuation τ sig (Elt F)) {r : Ref sig .tc}
    (h : r ∉ stepW φ) : after (stepOps s φ) V (no_index (Proc.devRef .tc r)) = V (Proc.devRef .tc r) :=
  after_keep V rfl h

theorem keepSt5 (V : Valuation τ sig (Elt F)) {r : Ref sig .tc} (h : r ∉ st5_W) :
    after st5 V (no_index (Proc.devRef .tc r)) = V (Proc.devRef .tc r) :=
  after_keep V rfl h

theorem st0_sub : (st0 : List (HloOp τ sig (Elt F))).Forall fun op => op.bufs ⊆ tcRefs τ sig := by
  simp only [List.Forall, nullary_bufs_sub, unary_bufs_sub, binary_bufs_sub, ternary_bufs_sub, and_self]

theorem step_sub (s : TRef sig ⟨S100000x64, .f32⟩) (φ : StepBufs) :
    (stepOps (F := F) s φ).Forall fun op => op.bufs ⊆ tcRefs τ sig := by
  simp only [stepOps, List.Forall, nullary_bufs_sub, unary_bufs_sub, binary_bufs_sub, ternary_bufs_sub, and_self]

theorem st5_sub : (st5 : List (HloOp τ sig (Elt F))).Forall fun op => op.bufs ⊆ tcRefs τ sig := by
  simp only [List.Forall, nullary_bufs_sub, unary_bufs_sub, binary_bufs_sub, ternary_bufs_sub, and_self]

end Cert.ReferenceIdeal.RunH

end
-- ==== Proof.RI.Run.lean ====
import proofs.«412786_j57784490000510_2_alg».proof.Proof.RI.StKeep
import Idealize.ShloMosaic.Lib.Pipeline.Frame

set_option Elab.async false

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev r1 : List (HloOp τ sig (Elt F)) := ops.drop 80
abbrev r2 : List (HloOp τ sig (Elt F)) := r1.drop 60
abbrev r3 : List (HloOp τ sig (Elt F)) := r2.drop 60
abbrev r4 : List (HloOp τ sig (Elt F)) := r3.drop 60

theorem part0_eq (c : Dev nD) : main_part0 (F := F) c = seq (ops.take 80) := by
  simp only [main_part0, fn_remainder.body, fn_where.body, bind_assoc, pure_bind]
  rfl

theorem part1_eq (c : Dev nD) : main_part1 (F := F) c = seq (r1.take 60) := by
  simp only [main_part1, bind_assoc, pure_bind]
  rfl

theorem part2_eq (c : Dev nD) : main_part2 (F := F) c = seq (r2.take 60) := by
  simp only [main_part2, bind_assoc, pure_bind]
  rfl

theorem part3_eq (c : Dev nD) : main_part3 (F := F) c = seq (r3.take 60) := by
  simp only [main_part3, bind_assoc, pure_bind]
  rfl

theorem part4_eq (c : Dev nD) : main_part4 (F := F) c = seq (r4.take 60) := by
  simp only [main_part4, bind_assoc, pure_bind]
  rfl

theorem part5_eq (c : Dev nD) : main_part5 (F := F) c = seq (r4.drop 60) := by
  simp only [main_part5, fn_log_softmax.body, bind_assoc, pure_bind]
  rfl

-- @main's six parts are consecutive slices of the one line.
theorem main_eq (c : Dev nD) : main (F := F) c = seq ops := by
  have e : (ops : List (HloOp τ sig (Elt F)))
      = ops.take 80 ++ (r1.take 60 ++ (r2.take 60 ++ (r3.take 60 ++ (r4.take 60 ++ r4.drop 60)))) := by
    simp only [List.take_append_drop]
  rw [e]
  simp only [seq_append, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp st0_sub op h, List.forall_iff_forall_mem.mp (step_sub _ _) op h,
      List.forall_iff_forall_mem.mp (step_sub _ _) op h, List.forall_iff_forall_mem.mp (step_sub _ _) op h,
      List.forall_iff_forall_mem.mp (step_sub _ _) op h, List.forall_iff_forall_mem.mp st5_sub op h]

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

theorem args_not_W :
    ∀ r ∈ argRefs, r ∉ st0_W ∧ r ∉ stepW sb1 ∧ r ∉ stepW sb2 ∧ r ∉ stepW sb3 ∧ r ∉ stepW sb4 ∧ r ∉ st5_W := by
  decide

-- No operation writes an argument buffer.
theorem after_ops_arg (V : Valuation τ sig (Elt F)) {r : Ref sig .tc} (hr : r ∈ argRefs) :
    after ops V (Proc.devRef .tc r) = V (Proc.devRef .tc r) := by
  obtain ⟨h0, h1, h2, h3, h4, h5⟩ := args_not_W r hr
  simp only [ops, after_append]
  rw [keepSt5 _ h5, keepStep _ _ _ h4, keepStep _ _ _ h3, keepStep _ _ _ h2, keepStep _ _ _ h1, keepSt0 _ h0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v309) = after ops (fun b => m (c, b)) (Proc.devRef .tc main_v309)
      ∧ r.2.mem ((c.tc : Thread nD τ).loc main_v310) = after ops (fun b => m (c, b)) (Proc.devRef .tc main_v310)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => by
      refine ⟨h c _, h c _, ?_⟩
      repeat' apply And.intro
      all_goals exact (h c _).trans (after_ops_arg _ (by decide)))
    (run_seq scopedRefs_eq scopedSems_eq defs main (fun _ => ops) main_eq (fun _ => ops_sub) m ρ)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => (h c).2.2) (run m ρ)

end Cert.ReferenceIdeal.RunH

end
-- ==== Proof.RI.Init.lean ====
import proofs.«412786_j57784490000510_2_alg».proof.ReferenceIdeal
import proofs.«412786_j57784490000510_2_alg».proof.Proof.Spec
import Idealize.ShloMosaic.Lib.ValueIdx
import Idealize.ShloMosaic.Lib.Pipeline.Value

noncomputable section

namespace Cert.ReferenceIdeal.ReadH

open Idealize.ShloMosaic Idealize.ShloMosaic.ValueIdx Cert.ReferenceIdeal Cert.ReferenceIdeal.Facts₀

variable [Facts₀]

def refRem : IVec S1x64 32 :=
  let v0 : IVec S64 32 := iotaInDim S64 32 0
  let v1 : IVec S1x64 32 := broadcastInDim S1x64 ![1] bcast_S64_S1x64_1 v0
  let c : IVec S_ 32 := constantI S_ 32 3#32
  let r0 : IVec S_ 32 := id c
  let rc : IVec S_ 32 := constantI S_ 32 0#32
  let r1 : IVec S_ 1 := (cmpi .eq) r0 rc
  let rc_0 : IVec S_ 32 := constantI S_ 32 1#32
  let r2 : IVec S_ 32 := select r1 rc_0 r0
  let r3 : IVec S1x64 32 := (broadcastInDim S1x64 ![] bcast_S_S1x64) r2
  let r4 : IVec S1x64 32 := Host.remsi v1 r3
  let rc_1 : IVec S_ 32 := constantI S_ 32 0#32
  let r5 : IVec S1x64 32 := (broadcastInDim S1x64 ![] bcast_S_S1x64) rc_1
  let r6 : IVec S1x64 1 := (cmpi .ne) r4 r5
  let rc_2 : IVec S_ 32 := constantI S_ 32 0#32
  let r7 : IVec S1x64 32 := (broadcastInDim S1x64 ![] bcast_S_S1x64) rc_2
  let r8 : IVec S1x64 1 := (cmpi .slt) r4 r7
  let rc_3 : IVec S_ 32 := constantI S_ 32 0#32
  let r9 : IVec S_ 1 := (cmpi .slt) r2 rc_3
  let r10 : IVec S1x64 1 := (broadcastInDim S1x64 ![] bcast_S_S1x64) r9
  let r11 : IVec S1x64 1 := (cmpi .ne) r8 r10
  let r12 : IVec S1x64 1 := andi r11 r6
  let r13 : IVec S1x64 32 := (broadcastInDim S1x64 ![] bcast_S_S1x64) r2
  let r14 : IVec S1x64 32 := addi r4 r13
  let r15 : IVec S1x64 32 := select r12 r14 r4
  r15

def refH0 (a0 : IVec S100000 32) : FVec Ideal S100000x64 .f32 :=
  let v2 : IVec S1x64 32 := refRem
  let v3 : IVec S100000x1 32 := broadcastInDim S100000x1 ![0] bcast_S100000_S100000x1_0 a0
  let v4 : IVec S100000x64 32 := broadcastInDim S100000x64 ![0, 1] bcast_S1x64_S100000x64_0_1 v2
  let v5 : IVec S100000x64 32 := broadcastInDim S100000x64 ![0, 1] bcast_S100000x1_S100000x64_0_1 v3
  let v6 : IVec S100000x64 1 := (cmpi .eq) v4 v5
  let v7 : FVec Ideal S100000x64 .f32 := uitofp (F := Ideal) .f32 v6
  v7

def remWord (x : BitVec 32) : BitVec 32 :=
  let d : BitVec 32 := Scalar.select (IntOp.cmpi .eq 3#32 0#32) 1#32 3#32
  let r : BitVec 32 := IntOp.remsi .host x d
  Scalar.select (IntOp.andi (IntOp.cmpi .ne (IntOp.cmpi .slt r 0#32) (IntOp.cmpi .slt d 0#32)) (IntOp.cmpi .ne r 0#32))
    (IntOp.addi r d) r

theorem remWord_eq : ∀ k : Fin 64, remWord (BitVec.ofNat 32 k.val) = BitVec.ofNat 32 (k.val % 3) := by
  decide +kernel

theorem refRem_apply (k : Fin 64) : refRem (ix2 (0 : Fin 1) k) = remWord (BitVec.ofNat 32 k.val) := rfl

theorem uitofp_bit (b : Bool) : FloatOps.uitofp (F := Ideal) .f32 (BitVec.ofBool b) = if b then 1 else 0 := by
  cases b
  · show (((0 : Nat) : ℝ) : EReal) = 0
    simp
  · show (((1 : Nat) : ℝ) : EReal) = 1
    simp

theorem refH0_eq (a0 : IVec S100000 32) : refH0 a0 = Spec.unc (Spec.H0 (fun n => a0 (ValueIdx.ix1 n))) := by
  funext i
  obtain ⟨n, k, rfl⟩ : ∃ (n : Fin 100000) (k : Fin 64), i = ix2 n k := ⟨i 0, i 1, eq_ix2 i⟩
  show FloatOps.uitofp (F := Ideal) .f32 (IntOp.cmpi .eq
      (broadcastInDim S100000x64 ![0, 1] bcast_S1x64_S100000x64_0_1 refRem (ix2 n k))
      (broadcastInDim S100000x64 ![0, 1] bcast_S100000x1_S100000x64_0_1
        (broadcastInDim S100000x1 ![0] bcast_S100000_S100000x1_0 a0) (ix2 n k)))
    = if BitVec.ofNat 32 (k.val % 3) = a0 (ix1 n) then 1 else 0
  rw [broadcastInDim_apply _ bcast_S1x64_S100000x64_0_1 _ (ix2 n k) (ix2 (0 : Fin 1) k) (fun a => match a with
      | ⟨0, _⟩ => by show 0 = if (1 : Nat) = 1 then 0 else n.val; rw [if_pos rfl]
      | ⟨1, _⟩ => by show k.val = if (64 : Nat) = 1 then 0 else k.val; rw [if_neg (by decide)]),
    broadcastInDim_apply _ bcast_S100000x1_S100000x64_0_1 _ (ix2 n k) (ix2 n (0 : Fin 1)) (fun a => match a with
      | ⟨0, _⟩ => by show n.val = if (100000 : Nat) = 1 then 0 else n.val; rw [if_neg (by decide)]
      | ⟨1, _⟩ => by show 0 = if (1 : Nat) = 1 then 0 else k.val; rw [if_pos rfl]),
    broadcastInDim_apply _ bcast_S100000_S100000x1_0 _ (ix2 n (0 : Fin 1)) (ix1 n) (fun a => match a with
      | ⟨0, _⟩ => by show n.val = if (100000 : Nat) = 1 then 0 else n.val; rw [if_neg (by decide)]),
    refRem_apply, remWord_eq]
  unfold IntOp.cmpi
  rw [uitofp_bit]
  simp only [beq_iff_eq]

end Cert.ReferenceIdeal.ReadH

end
-- ==== Proof.RI.Val0.lean ====
import proofs.«412786_j57784490000510_2_alg».proof.Proof.RI.Tab
import proofs.«412786_j57784490000510_2_alg».proof.Proof.RI.Init

set_option Elab.async false

noncomputable section

namespace Cert.ReferenceIdeal.ReadH

open Cert.ReferenceIdeal Cert.ReferenceIdeal.Gen Cert.ReferenceIdeal.RunH Idealize.ShloMosaic Idealize.ShloMosaic.TcCoe Idealize.SL.Sem Idealize.ShloMosaic.StableHlo

theorem st0_val (W : Valuation τ sig (Elt Ideal)) :
    (after (st0 (F := Ideal)) W (no_index (Proc.devRef .tc main_v7)) : FVec Ideal S100000x64 .f32)
      = refH0 (W (Proc.devRef .tc main_arg0)) := by
  after_results_simp
  simp only [cast_eq]
  rfl

end Cert.ReferenceIdeal.ReadH

end
-- ==== Proof.RI.X.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.ValueLayout

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- The four typed linear maps of every node's row, plus the type's bias.
def xOf (H : FVec Ideal S100000x64 .f32) (a4 : FVec Ideal S4x64x64 .f32) (a5 : FVec Ideal S4x64 .f32) : FVec Ideal S4x100000x64 .f32 :=
  addf (transpose S4x100000x64 [0, 2, 1] (Host.dotGeneral (F := Ideal) (φ₁ := .f32) (φ₂ := .f32) dot_S4x64x64_S100000x64_S4x64x100000_2_1_01_0_n_n none a4 H) transposes_S4x64x100000_S4x100000x64_0_2_1)
    (broadcastInDim S4x100000x64 ![0, 1, 2] bcast_S4x1x64_S4x100000x64_0_1_2 (broadcastInDim S4x1x64 ![0, 2] bcast_S4x64_S4x1x64_0_2 a5))

theorem lhs_X_0 (t : Fin 4) (k : Fin 64) (n : Fin 100000) (q : dot_S4x64x64_S100000x64_S4x64x100000_2_1_01_0_n_n.contr.Idx) :
    (dot_S4x64x64_S100000x64_S4x64x100000_2_1_01_0_n_n.lhsIdx (ix3 t k n) q 0).val = t.val := by
  simp [DotDims.lhsIdx, dot_S4x64x64_S100000x64_S4x64x100000_2_1_01_0_n_n]; rfl
theorem lhs_X_1 (t : Fin 4) (k : Fin 64) (n : Fin 100000) (q : dot_S4x64x64_S100000x64_S4x64x100000_2_1_01_0_n_n.contr.Idx) :
    (dot_S4x64x64_S100000x64_S4x64x100000_2_1_01_0_n_n.lhsIdx (ix3 t k n) q 1).val = k.val := by
  simp [DotDims.lhsIdx, dot_S4x64x64_S100000x64_S4x64x100000_2_1_01_0_n_n]; rfl
theorem lhs_X_2 (t : Fin 4) (k : Fin 64) (n : Fin 100000) (c : Fin 64) :
    (dot_S4x64x64_S100000x64_S4x64x100000_2_1_01_0_n_n.lhsIdx (ix3 t k n) ((contrEquiv1 dot_S4x64x64_S100000x64_S4x64x100000_2_1_01_0_n_n 64 rfl rfl).symm c) 2).val = c.val := by
  have c3 := contrEquiv1_symm_val dot_S4x64x64_S100000x64_S4x64x100000_2_1_01_0_n_n 64 rfl rfl c
  simp [DotDims.lhsIdx, dot_S4x64x64_S100000x64_S4x64x100000_2_1_01_0_n_n]; exact c3

theorem rhs_X_0 (t : Fin 4) (k : Fin 64) (n : Fin 100000) (q : dot_S4x64x64_S100000x64_S4x64x100000_2_1_01_0_n_n.contr.Idx) :
    (dot_S4x64x64_S100000x64_S4x64x100000_2_1_01_0_n_n.rhsIdx (ix3 t k n) q 0).val = n.val := by
  simp [DotDims.rhsIdx, dot_S4x64x64_S100000x64_S4x64x100000_2_1_01_0_n_n]; rfl
theorem rhs_X_1 (t : Fin 4) (k : Fin 64) (n : Fin 100000) (c : Fin 64) :
    (dot_S4x64x64_S100000x64_S4x64x100000_2_1_01_0_n_n.rhsIdx (ix3 t k n) ((contrEquiv1 dot_S4x64x64_S100000x64_S4x64x100000_2_1_01_0_n_n 64 rfl rfl).symm c) 1).val = c.val := by
  have c3 := contrEquiv1_symm_val dot_S4x64x64_S100000x64_S4x64x100000_2_1_01_0_n_n 64 rfl rfl c
  simp [DotDims.rhsIdx, dot_S4x64x64_S100000x64_S4x64x100000_2_1_01_0_n_n]; exact c3

theorem dotX_apply (A : FVec Ideal S4x64x64 .f32) (H : FVec Ideal S100000x64 .f32) (t : Fin 4) (k : Fin 64) (n : Fin 100000) :
    Host.dotGeneral (F := Ideal) (φ₁ := .f32) (φ₂ := .f32) dot_S4x64x64_S100000x64_S4x64x100000_2_1_01_0_n_n none A H (ix3 t k n)
      = ∑ d : Fin 64, A (ix3 t k d) * H (ix2 n d) := by
  show FloatOps.dotGeneral _ none _ A H (ix3 t k n) = _
  rw [Ideal.dotGeneral_apply, ← Equiv.sum_comp (contrEquiv1 dot_S4x64x64_S100000x64_S4x64x100000_2_1_01_0_n_n 64 rfl rfl).symm]
  refine Finset.sum_congr rfl fun c _ => ?_
  have l3 : dot_S4x64x64_S100000x64_S4x64x100000_2_1_01_0_n_n.lhsIdx (ix3 t k n) ((contrEquiv1 dot_S4x64x64_S100000x64_S4x64x100000_2_1_01_0_n_n 64 rfl rfl).symm c) = ix3 t k c := by
    funext ax; apply Fin.ext
    match ax with
    | ⟨0, _⟩ => exact lhs_X_0 t k n _
    | ⟨1, _⟩ => exact lhs_X_1 t k n _
    | ⟨2, _⟩ => exact lhs_X_2 t k n c
  have r2 : dot_S4x64x64_S100000x64_S4x64x100000_2_1_01_0_n_n.rhsIdx (ix3 t k n) ((contrEquiv1 dot_S4x64x64_S100000x64_S4x64x100000_2_1_01_0_n_n 64 rfl rfl).symm c) = ix2 n c := by
    funext ax; apply Fin.ext
    match ax with
    | ⟨0, _⟩ => exact rhs_X_0 t k n _
    | ⟨1, _⟩ => exact rhs_X_1 t k n c
  rw [l3, r2]

theorem biasX_apply (b : FVec Ideal S4x64 .f32) (t : Fin 4) (n : Fin 100000) (k : Fin 64) :
    broadcastInDim S4x100000x64 ![0, 1, 2] bcast_S4x1x64_S4x100000x64_0_1_2 (broadcastInDim S4x1x64 ![0, 2] bcast_S4x64_S4x1x64_0_2 b) (ix3 t n k)
      = b (ix2 t k) := by
  refine (broadcastInDim_apply _ _ _ (ix3 t n k) (ix3 t (0 : Fin 1) k) (fun a => ?_)).trans ?_
  · match a with
    | ⟨0, _⟩ => rfl
    | ⟨1, _⟩ => rfl
    | ⟨2, _⟩ => rfl
  · exact broadcastInDim_apply _ _ b (ix3 t (0 : Fin 1) k) (ix2 t k) (fun a => by
      match a with
      | ⟨0, _⟩ => rfl
      | ⟨1, _⟩ => rfl)

theorem xOf_apply (H : FVec Ideal S100000x64 .f32) (a4 : FVec Ideal S4x64x64 .f32) (a5 : FVec Ideal S4x64 .f32)
    (t : Fin 4) (n : Fin 100000) (k : Fin 64) :
    xOf H a4 a5 (ix3 t n k) = (∑ d : Fin 64, a4 (ix3 t k d) * H (ix2 n d)) + a5 (ix2 t k) := by
  show transpose S4x100000x64 [0, 2, 1]
        (Host.dotGeneral (F := Ideal) (φ₁ := .f32) (φ₂ := .f32) dot_S4x64x64_S100000x64_S4x64x100000_2_1_01_0_n_n none a4 H) transposes_S4x64x100000_S4x100000x64_0_2_1 (ix3 t n k)
      + broadcastInDim S4x100000x64 ![0, 1, 2] bcast_S4x1x64_S4x100000x64_0_1_2 (broadcastInDim S4x1x64 ![0, 2] bcast_S4x64_S4x1x64_0_2 a5) (ix3 t n k)
      = _
  rw [biasX_apply, transpose_ix3_021_apply, dotX_apply]

end Cert.ReferenceIdeal.ReadH

end
-- ==== Proof.RI.Gather.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.ValueLayout

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- The edge's type and source as gather indices, side by side: a word below zero wraps once by the extent.
def idxOf (a1 a3 : IVec S1600000 32) : IVec S1600000x2 32 :=
  concatenate S1600000x2 1
    [⟨S1600000x1, broadcastInDim S1600000x1 ![0] bcast_S1600000_S1600000x1_0 (select (cmpi .slt a3 (broadcastInDim S1600000 ![] bcast_S_S1600000 (constantI S_ 32 0#32))) (addi a3 (broadcastInDim S1600000 ![] bcast_S_S1600000 (constantI S_ 32 4#32))) a3)⟩,
     ⟨S1600000x1, broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)⟩]
    concatenates_S1600000x1_S1600000x1_S1600000x2_d1

def gatherOf (v12 : FVec Ideal S4x100000x64 .f32) (v25 : IVec S1600000x2 32) : FVec Ideal S1600000x64 .f32 :=
  Host.gather gather_S4x100000x64_S1600000x2_S1600000x64_1_01_n_n_01_1_1164 v12 v25

theorem wrap_eq (x c : BitVec 32) :
    Scalar.select (IntOp.cmpi .slt x 0#32) (IntOp.addi x c) x = if x.slt 0#32 then x + c else x := by
  unfold Scalar.select IntOp.cmpi IntOp.addi
  cases h : x.slt 0#32 <;> simp

theorem bcastE_apply (c : IVec S_ 32) (e : S1600000.Idx) : broadcastInDim S1600000 ![] bcast_S_S1600000 c e = c ix0 :=
  broadcastInDim_apply _ _ c e ix0 (fun a => a.elim0)

theorem colE_apply (x : IVec S1600000 32) (e : Fin 1600000) :
    broadcastInDim S1600000x1 ![0] bcast_S1600000_S1600000x1_0 x (ix2 e (0 : Fin 1)) = x (ix1 e) :=
  broadcastInDim_apply _ _ x (ix2 e (0 : Fin 1)) (ix1 e) (fun a => by match a with | ⟨0, _⟩ => rfl)

theorem idxOf_apply0 (a1 a3 : IVec S1600000 32) (e : Fin 1600000) :
    idxOf a1 a3 (ix2 e (0 : Fin 2)) = if (a3 (ix1 e)).slt 0#32 then a3 (ix1 e) + 4#32 else a3 (ix1 e) := by
  unfold idxOf
  refine (concatenate_pair_apply_left (t := S1600000x2) (s₁ := S1600000x1) (s₂ := S1600000x1) (1 : Fin 2) _ _ concatenates_S1600000x1_S1600000x1_S1600000x2_d1 (ix2 e (0 : Fin 2)) rfl
    (ix2 e (0 : Fin 1)) (fun b => by match b with | ⟨0, _⟩ => rfl | ⟨1, _⟩ => rfl)).trans ?_
  rw [colE_apply]
  show Scalar.select (IntOp.cmpi .slt (a3 (ix1 e)) (broadcastInDim S1600000 ![] bcast_S_S1600000 (constantI S_ 32 0#32) (ix1 e)))
      (IntOp.addi (a3 (ix1 e)) (broadcastInDim S1600000 ![] bcast_S_S1600000 (constantI S_ 32 4#32) (ix1 e))) (a3 (ix1 e)) = _
  rw [bcastE_apply, bcastE_apply]
  exact wrap_eq _ _
theorem idxOf_apply1 (a1 a3 : IVec S1600000 32) (e : Fin 1600000) :
    idxOf a1 a3 (ix2 e (1 : Fin 2)) = if (a1 (ix1 e)).slt 0#32 then a1 (ix1 e) + 100000#32 else a1 (ix1 e) := by
  unfold idxOf
  refine (concatenate_pair_apply_right (t := S1600000x2) (s₁ := S1600000x1) (s₂ := S1600000x1) (1 : Fin 2) _ _ concatenates_S1600000x1_S1600000x1_S1600000x2_d1 (ix2 e (1 : Fin 2)) rfl rfl
    (ix2 e (0 : Fin 1)) (fun b hb => by
      match b with
      | ⟨0, _⟩ => rfl
      | ⟨1, _⟩ => exact absurd rfl hb) rfl).trans ?_
  rw [colE_apply]
  show Scalar.select (IntOp.cmpi .slt (a1 (ix1 e)) (broadcastInDim S1600000 ![] bcast_S_S1600000 (constantI S_ 32 0#32) (ix1 e)))
      (IntOp.addi (a1 (ix1 e)) (broadcastInDim S1600000 ![] bcast_S_S1600000 (constantI S_ 32 100000#32) (ix1 e))) (a1 (ix1 e)) = _
  rw [bcastE_apply, bcastE_apply]
  exact wrap_eq _ _

theorem clamp_eq (n : Nat) (hn : 0 < n) (x : BitVec 32) :
    min x.toInt.toNat (n - 1) = (max 0 (min ((n : Int) - 1) x.toInt)).toNat := by
  omega

theorem siIdx_eq (e : Fin 1600000) (k : Fin 64) (c : Fin gather_S4x100000x64_S1600000x2_S1600000x64_1_01_n_n_01_1_1164.startIndexMap.length) :
    gather_S4x100000x64_S1600000x2_S1600000x64_1_01_n_n_01_1_1164.siIdx (ix2 e k) c = ix2 e (⟨c.val, c.isLt⟩ : Fin 2) := by
  funext b; refine Fin.ext ?_
  match b with
  | ⟨0, _⟩ => rfl
  | ⟨1, _⟩ => rfl

theorem start_0 (idx : IVec S1600000x2 32) (e : Fin 1600000) (k : Fin 64) :
    gather_S4x100000x64_S1600000x2_S1600000x64_1_01_n_n_01_1_1164.start (ix2 e k) idx (0 : Fin 3) = min (idx (ix2 e (0 : Fin 2))).toInt.toNat (4 - 1) := by
  unfold GatherDims.start
  rw [dif_pos (by simp [gather_S4x100000x64_S1600000x2_S1600000x64_1_01_n_n_01_1_1164] : (0 : Fin 3) ∈ gather_S4x100000x64_S1600000x2_S1600000x64_1_01_n_n_01_1_1164.startIndexMap), siIdx_eq]
  rfl
theorem start_1 (idx : IVec S1600000x2 32) (e : Fin 1600000) (k : Fin 64) :
    gather_S4x100000x64_S1600000x2_S1600000x64_1_01_n_n_01_1_1164.start (ix2 e k) idx (1 : Fin 3) = min (idx (ix2 e (1 : Fin 2))).toInt.toNat (100000 - 1) := by
  unfold GatherDims.start
  rw [dif_pos (by simp [gather_S4x100000x64_S1600000x2_S1600000x64_1_01_n_n_01_1_1164] : (1 : Fin 3) ∈ gather_S4x100000x64_S1600000x2_S1600000x64_1_01_n_n_01_1_1164.startIndexMap), siIdx_eq]
  rfl
theorem start_2 (idx : IVec S1600000x2 32) (e : Fin 1600000) (k : Fin 64) :
    gather_S4x100000x64_S1600000x2_S1600000x64_1_01_n_n_01_1_1164.start (ix2 e k) idx (2 : Fin 3) = 0 := by
  unfold GatherDims.start
  rw [dif_neg (by simp [gather_S4x100000x64_S1600000x2_S1600000x64_1_01_n_n_01_1_1164] : ¬ (2 : Fin 3) ∈ gather_S4x100000x64_S1600000x2_S1600000x64_1_01_n_n_01_1_1164.startIndexMap)]

theorem off_2 (e : Fin 1600000) (k : Fin 64) : gather_S4x100000x64_S1600000x2_S1600000x64_1_01_n_n_01_1_1164.offCoord (ix2 e k) (2 : Fin 3) = k.val := by
  unfold GatherDims.offCoord
  rw [dif_pos (by simp [gather_S4x100000x64_S1600000x2_S1600000x64_1_01_n_n_01_1_1164, GatherDims.sKept, Shape.kept, List.finRange] : (2 : Fin 3) ∈ gather_S4x100000x64_S1600000x2_S1600000x64_1_01_n_n_01_1_1164.sKept)]
  rfl

theorem operandIdx_eq (idx : IVec S1600000x2 32) (e : Fin 1600000) (k : Fin 64) :
    gather_S4x100000x64_S1600000x2_S1600000x64_1_01_n_n_01_1_1164.operandIdx (ix2 e k) idx
      = ix3 ⟨min (idx (ix2 e (0 : Fin 2))).toInt.toNat (4 - 1), by omega⟩
          ⟨min (idx (ix2 e (1 : Fin 2))).toInt.toNat (100000 - 1), by omega⟩ k := by
  funext a
  refine Fin.ext ?_
  show gather_S4x100000x64_S1600000x2_S1600000x64_1_01_n_n_01_1_1164.start (ix2 e k) idx a + gather_S4x100000x64_S1600000x2_S1600000x64_1_01_n_n_01_1_1164.batchCoord (ix2 e k) a + gather_S4x100000x64_S1600000x2_S1600000x64_1_01_n_n_01_1_1164.offCoord (ix2 e k) a = _
  rw [GatherDims.batchCoord_eq_zero _ _ _ List.not_mem_nil]
  match a with
  | ⟨0, _⟩ =>
    show gather_S4x100000x64_S1600000x2_S1600000x64_1_01_n_n_01_1_1164.start (ix2 e k) idx (0 : Fin 3) + 0 + gather_S4x100000x64_S1600000x2_S1600000x64_1_01_n_n_01_1_1164.offCoord (ix2 e k) (0 : Fin 3) = _
    rw [GatherDims.offCoord_eq_zero _ _ _ (fun h => ((GatherDims.mem_sKept _ _).mp h).1 (by simp [gather_S4x100000x64_S1600000x2_S1600000x64_1_01_n_n_01_1_1164])), start_0]
    rfl
  | ⟨1, _⟩ =>
    show gather_S4x100000x64_S1600000x2_S1600000x64_1_01_n_n_01_1_1164.start (ix2 e k) idx (1 : Fin 3) + 0 + gather_S4x100000x64_S1600000x2_S1600000x64_1_01_n_n_01_1_1164.offCoord (ix2 e k) (1 : Fin 3) = _
    rw [GatherDims.offCoord_eq_zero _ _ _ (fun h => ((GatherDims.mem_sKept _ _).mp h).1 (by simp [gather_S4x100000x64_S1600000x2_S1600000x64_1_01_n_n_01_1_1164])), start_1]
    rfl
  | ⟨2, _⟩ =>
    show gather_S4x100000x64_S1600000x2_S1600000x64_1_01_n_n_01_1_1164.start (ix2 e k) idx (2 : Fin 3) + 0 + gather_S4x100000x64_S1600000x2_S1600000x64_1_01_n_n_01_1_1164.offCoord (ix2 e k) (2 : Fin 3) = _
    rw [start_2, off_2]
    show 0 + 0 + k.val = k.val
    omega

theorem gatherOf_apply (X : FVec Ideal S4x100000x64 .f32) (a1 a3 : IVec S1600000 32) (e : Fin 1600000) (k : Fin 64) :
    gatherOf X (idxOf a1 a3) (ix2 e k)
      = X (ix3 (Spec.rowOf 4 (by decide) (a3 (ix1 e))) (Spec.rowOf Spec.N (by decide) (a1 (ix1 e))) k) := by
  show X (gather_S4x100000x64_S1600000x2_S1600000x64_1_01_n_n_01_1_1164.operandIdx (ix2 e k) (idxOf a1 a3)) = _
  rw [operandIdx_eq]
  congr 1
  funext a
  refine Fin.ext ?_
  match a with
  | ⟨0, _⟩ =>
    show min (idxOf a1 a3 (ix2 e (0 : Fin 2))).toInt.toNat (4 - 1) = _
    rw [idxOf_apply0]
    exact clamp_eq 4 (by decide) _
  | ⟨1, _⟩ =>
    show min (idxOf a1 a3 (ix2 e (1 : Fin 2))).toInt.toNat (100000 - 1) = _
    rw [idxOf_apply1]
    exact clamp_eq 100000 (by decide) _
  | ⟨2, _⟩ => rfl

end Cert.ReferenceIdeal.ReadH

end
-- ==== Proof.RI.Scatter.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.ValueLayout
import proofs.«412786_j57784490000510_2_alg».proof.Proof.KI.HostIdx

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- Every edge's message summed into its target row, from zero.
def scatOf (a2 : IVec S1600000 32) (v26 : FVec Ideal S1600000x64 .f32) : FVec Ideal S100000x64 .f32 :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 a2) v26

theorem zeroV_apply (i : S100000x64.Idx) :
    broadcastInDim S100000x64 ![] bcast_S_S100000x64 (constant (F := Ideal) S_ .f32 0x00000000#32) i = (0 : EReal) := by
  refine (broadcastInDim_apply _ _ _ i ix0 (fun a => a.elim0)).trans ?_
  exact Ideal.ofBits_zero_f32

theorem tgtCol_apply (x : IVec S1600000 32) (e : Fin 1600000) :
    broadcastInDim S1600000x1 ![0] bcast_S1600000_S1600000x1_0 x (ix2 e (0 : Fin 1)) = x (ix1 e) :=
  broadcastInDim_apply _ _ x (ix2 e (0 : Fin 1)) (ix1 e) (fun a => by match a with | ⟨0, _⟩ => rfl)

theorem scatterAdd_ideal (x : FVec Ideal S100000x64 .f32) (idx : IVec S1600000x1 32) (upd : FVec Ideal S1600000x64 .f32)
    (i : S100000x64.Idx) :
    Host.scatterAdd (F := Ideal) (φ := .f32) scatter_S100000x64_S1600000x1_S1600000x64_1_0_0_1 x idx upd i = Ideal.hostScatterAdd scatter_S100000x64_S1600000x1_S1600000x64_1_0_0_1 x idx upd i := by
  show FloatOps.hostScatterAdd (F := Ideal) (φ := .f32) scatter_S100000x64_S1600000x1_S1600000x64_1_0_0_1 .single x idx upd i = _
  rw [Ideal.hostScatterAdd_def]

theorem dims_eq : scatter_S100000x64_S1600000x1_S1600000x64_1_0_0_1 = (Cert.KernelIdeal.ReadH.rowScatter 100000 1600000 64 scatter_S100000x64_S1600000x1_S1600000x64_1_0_0_1_wf) := by
  unfold scatter_S100000x64_S1600000x1_S1600000x64_1_0_0_1
  rfl

theorem scatterAdd_rows (x : FVec Ideal S100000x64 .f32) (idx : IVec S1600000x1 32) (upd : FVec Ideal S1600000x64 .f32)
    (n : Fin 100000) (k : Fin 64) :
    Host.scatterAdd (F := Ideal) (φ := .f32) scatter_S100000x64_S1600000x1_S1600000x64_1_0_0_1 x idx upd (ix2 n k)
      = x (ix2 n k) + ∑ e ∈ Finset.univ.filter (fun e => Spec.targetOf 100000 (idx (ix2 e (0 : Fin 1))) = some n), upd (ix2 e k) := by
  refine (scatterAdd_ideal x idx upd (ix2 n k)).trans ?_
  refine (congrArg (fun d => Ideal.hostScatterAdd d x idx upd (ix2 n k)) dims_eq).trans ?_
  exact Cert.KernelIdeal.ReadH.rowScatter_add_apply scatter_S100000x64_S1600000x1_S1600000x64_1_0_0_1_wf x idx upd n k

theorem scatOf_apply (a2 : IVec S1600000 32) (upd : FVec Ideal S1600000x64 .f32) (n : Fin 100000) (k : Fin 64) :
    scatOf a2 upd (ix2 n k)
      = ∑ e ∈ Finset.univ.filter (fun e => Spec.targetOf Spec.N (a2 (ix1 e)) = some n), upd (ix2 e k) := by
  refine (scatterAdd_rows _ _ upd n k).trans ?_
  rw [zeroV_apply, zero_add]
  exact Finset.sum_congr (Finset.filter_congr fun e _ => by rw [tgtCol_apply]) (fun _ _ => rfl)

end Cert.ReferenceIdeal.ReadH

end
-- ==== Proof.RI.Lin.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.ValueLayout
import Idealize.ShloMosaic.Lib.StackMember

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- A row's affine map: the state times the transposed weight, plus the bias on every row.
def linOf (X : FVec Ideal S100000x64 .f32) (w : FVec Ideal S192x64 .f32) (b : FVec Ideal S192 .f32) : FVec Ideal S100000x192 .f32 :=
  addf (Host.dotGeneral (F := Ideal) (φ₁ := .f32) (φ₂ := .f32) dot_S100000x64_S64x192_S100000x192_1_0_0_1_n_n none X (transpose S64x192 [1, 0] w transposes_S192x64_S64x192_1_0))
    (broadcastInDim S100000x192 ![0, 1] bcast_S1x192_S100000x192_0_1 (broadcastInDim S1x192 ![1] bcast_S192_S1x192_1 b))

theorem dot192_apply (X : FVec Ideal S100000x64 .f32) (Wt : FVec Ideal S64x192 .f32) (n : Fin 100000) (j : Fin 192) :
    Host.dotGeneral (F := Ideal) (φ₁ := .f32) (φ₂ := .f32) dot_S100000x64_S64x192_S100000x192_1_0_0_1_n_n none X Wt (ix2 n j)
      = ∑ d : Fin 64, X (ix2 n d) * Wt (ix2 d j) :=
  StackMember.dotGeneral_plain_apply (m := 100000) (n := 192) (k := 64) none X Wt n j

theorem bias192_apply (b : FVec Ideal S192 .f32) (n : Fin 100000) (j : Fin 192) :
    broadcastInDim S100000x192 ![0, 1] bcast_S1x192_S100000x192_0_1 (broadcastInDim S1x192 ![1] bcast_S192_S1x192_1 b) (ix2 n j)
      = b (ix1 j) := by
  refine (broadcastInDim_apply _ _ _ (ix2 n j) (ix2 (0 : Fin 1) j) (fun a => ?_)).trans ?_
  · match a with
    | ⟨0, _⟩ => rfl
    | ⟨1, _⟩ => rfl
  · exact broadcastInDim_apply _ _ b (ix2 (0 : Fin 1) j) (ix1 j) (fun a => by match a with | ⟨0, _⟩ => rfl)

theorem linOf_apply (X : FVec Ideal S100000x64 .f32) (w : FVec Ideal S192x64 .f32) (b : FVec Ideal S192 .f32)
    (n : Fin 100000) (j : Fin 192) :
    linOf X w b (ix2 n j) = Spec.lin (Spec.cur X) (fun j d => w (ix2 j d)) (fun j => b (ix1 j)) n j := by
  show Host.dotGeneral (F := Ideal) (φ₁ := .f32) (φ₂ := .f32) dot_S100000x64_S64x192_S100000x192_1_0_0_1_n_n none X
        (transpose S64x192 [1, 0] w transposes_S192x64_S64x192_1_0) (ix2 n j)
      + broadcastInDim S100000x192 ![0, 1] bcast_S1x192_S100000x192_0_1 (broadcastInDim S1x192 ![1] bcast_S192_S1x192_1 b) (ix2 n j)
      = (∑ d : Fin 64, X (ix2 n d) * w (ix2 j d)) + b (ix1 j)
  rw [bias192_apply, dot192_apply]
  refine congrArg (· + b (ix1 j)) (Finset.sum_congr rfl fun d _ => ?_)
  rw [transpose_ix2_apply]

end Cert.ReferenceIdeal.ReadH

end
-- ==== Proof.RI.Gru.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.ValueLayout
import Idealize.ShloMosaic.Lib.IdealHost

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- The gated update: two logistic gates of the summed first and second thirds, a tanh of the gated last third, and the mix with the message.
def gruTail (gi gh : FVec Ideal S100000x192 .f32) (m : FVec Ideal S100000x64 .f32) : FVec Ideal S100000x64 .f32 :=
  let one : FVec Ideal S100000x64 .f32 := broadcastInDim S100000x64 ![] bcast_S_S100000x64 (constant (F := Ideal) S_ .f32 0x3F800000#32)
  let sg (x : FVec Ideal S100000x64 .f32) : FVec Ideal S100000x64 .f32 := Host.divf one (addf one (Host.exp (Host.negf x)))
  let r := sg (addf (extractStridedSlice S100000x64 ![0, 0] gi slices_S100000x192_S100000x64_0_0) (extractStridedSlice S100000x64 ![0, 0] gh slices_S100000x192_S100000x64_0_0))
  let z := sg (addf (extractStridedSlice S100000x64 ![0, 64] gi slices_S100000x192_S100000x64_0_64) (extractStridedSlice S100000x64 ![0, 64] gh slices_S100000x192_S100000x64_0_64))
  let n := Host.tanh (addf (extractStridedSlice S100000x64 ![0, 128] gi slices_S100000x192_S100000x64_0_128) (mulf r (extractStridedSlice S100000x64 ![0, 128] gh slices_S100000x192_S100000x64_0_128)))
  addf (mulf (subf one z) n) (mulf z m)

theorem bcast0_apply (c : FVec Ideal S_ .f32) (i : S100000x64.Idx) :
    broadcastInDim S100000x64 ![] bcast_S_S100000x64 c i = c ix0 :=
  broadcastInDim_apply _ _ c i ix0 (fun a => a.elim0)

theorem one_apply (i : S100000x64.Idx) :
    (broadcastInDim S100000x64 ![] bcast_S_S100000x64 : (⟨S_, .f32⟩ : BufTy).Contents (Elt Ideal) → (⟨S100000x64, .f32⟩ : BufTy).Contents (Elt Ideal)) (constant (F := Ideal) S_ .f32 0x3F800000#32 : (⟨S_, .f32⟩ : BufTy).Contents (Elt Ideal)) i = (1 : EReal) := by
  refine (broadcastInDim_apply _ _ _ i ix0 (fun a => a.elim0)).trans ?_
  exact Ideal.ofBits_one_f32

theorem logistic_spelt (x : EReal) :
    Ideal.div (Ideal.ofBits .f32 0x3F800000#32) (Ideal.ofBits .f32 0x3F800000#32 + Ideal.exp (-x)) = Ideal.logistic x := by
  rw [Ideal.ofBits_one_f32]; rfl

theorem slice0_apply (X : FVec Ideal S100000x192 .f32) (n : Fin 100000) (k : Fin 64) :
    extractStridedSlice S100000x64 ![0, 0] X slices_S100000x192_S100000x64_0_0 (ix2 n k) = X (ix2 n (Spec.g0 k)) :=
  slice2_axis1_apply 0 X _ n k (Spec.g0 k) (by show k.val = 0 + k.val; omega)
theorem slice1_apply (X : FVec Ideal S100000x192 .f32) (n : Fin 100000) (k : Fin 64) :
    extractStridedSlice S100000x64 ![0, 64] X slices_S100000x192_S100000x64_0_64 (ix2 n k) = X (ix2 n (Spec.g1 k)) :=
  slice2_axis1_apply 64 X _ n k (Spec.g1 k) rfl
theorem slice2_apply (X : FVec Ideal S100000x192 .f32) (n : Fin 100000) (k : Fin 64) :
    extractStridedSlice S100000x64 ![0, 128] X slices_S100000x192_S100000x64_0_128 (ix2 n k) = X (ix2 n (Spec.g2 k)) :=
  slice2_axis1_apply 128 X _ n k (Spec.g2 k) rfl

theorem gruTail_apply (gi gh : FVec Ideal S100000x192 .f32) (m : FVec Ideal S100000x64 .f32) (n : Fin 100000) (k : Fin 64) :
    gruTail gi gh m (ix2 n k)
      = (1 - Ideal.logistic (gi (ix2 n (Spec.g1 k)) + gh (ix2 n (Spec.g1 k))))
          * Ideal.tanh (gi (ix2 n (Spec.g2 k))
              + Ideal.logistic (gi (ix2 n (Spec.g0 k)) + gh (ix2 n (Spec.g0 k))) * gh (ix2 n (Spec.g2 k)))
        + Ideal.logistic (gi (ix2 n (Spec.g1 k)) + gh (ix2 n (Spec.g1 k))) * m (ix2 n k) := by
  unfold gruTail
  simp only [addf_apply, mulf_apply, subf_apply, Host.divf, Host.exp, Host.negf, Host.tanh, bcast0_apply, slice0_apply,
    slice1_apply, slice2_apply, constant_apply, Ideal.hostDivf_def, Ideal.hostUnary_exp_def, Ideal.hostUnary_tanh_def,
    Ideal.hostNegf_def, Ideal.negf_def, one_apply]
  rw [one_apply (ix2 n k)]
  rfl

end Cert.ReferenceIdeal.ReadH

end
-- ==== Proof.RI.Step.lean ====
import proofs.«412786_j57784490000510_2_alg».proof.Proof.RI.X
import proofs.«412786_j57784490000510_2_alg».proof.Proof.RI.Gather
import proofs.«412786_j57784490000510_2_alg».proof.Proof.RI.Scatter
import proofs.«412786_j57784490000510_2_alg».proof.Proof.RI.Lin
import proofs.«412786_j57784490000510_2_alg».proof.Proof.RI.Gru

noncomputable section

namespace Cert.ReferenceIdeal.ReadH

open Idealize.ShloMosaic Idealize.ShloMosaic.ValueIdx
open Cert.ReferenceIdeal Cert.ReferenceIdeal.Facts₀ Cert.ReferenceIdeal.Facts

variable [Facts]

-- One step of the reference: every edge's message summed into its target row, then the gated update of the state.
def refStep (H : FVec Ideal S100000x64 .f32) (a1 a2 a3 : IVec S1600000 32) (a4 : FVec Ideal S4x64x64 .f32)
    (a5 : FVec Ideal S4x64 .f32) (a6 a7 : FVec Ideal S192x64 .f32) (a8 a9 : FVec Ideal S192 .f32) :
    FVec Ideal S100000x64 .f32 :=
  gruTail (linOf H a6 a8) (linOf (scatOf a2 (gatherOf (xOf H a4 a5) (idxOf a1 a3))) a7 a9) (scatOf a2 (gatherOf (xOf H a4 a5) (idxOf a1 a3)))

end Cert.ReferenceIdeal.ReadH

end
-- ==== Proof.RI.ValStep.lean ====
import proofs.«412786_j57784490000510_2_alg».proof.Proof.RI.Tab
import proofs.«412786_j57784490000510_2_alg».proof.Proof.RI.Step

set_option Elab.async false

noncomputable section

namespace Cert.ReferenceIdeal.ReadH

open Cert.ReferenceIdeal Cert.ReferenceIdeal.Gen Cert.ReferenceIdeal.RunH Idealize.ShloMosaic Idealize.ShloMosaic.TcCoe Idealize.SL.Sem Idealize.ShloMosaic.StableHlo

-- One step of the reference on a state, its other operands read off the argument buffers.
abbrev stepOf (W : Valuation τ sig (Elt Ideal)) (H : FVec Ideal S100000x64 .f32) : FVec Ideal S100000x64 .f32 :=
  refStep H (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9))

theorem st1_val (W : Valuation τ sig (Elt Ideal)) :
    (after (st1 (F := Ideal)) W (no_index (Proc.devRef .tc main_v67)) : FVec Ideal S100000x64 .f32)
      = stepOf W (W (Proc.devRef .tc main_v7)) := by
  simp only [st1, stepOps, TRef.nullary, TRef.unary, TRef.binary, TRef.ternary, cast_eq]
  after_results_simp
  rfl

theorem st2_val (W : Valuation τ sig (Elt Ideal)) :
    (after (st2 (F := Ideal)) W (no_index (Proc.devRef .tc main_v127)) : FVec Ideal S100000x64 .f32)
      = stepOf W (W (Proc.devRef .tc main_v67)) := by
  simp only [st2, stepOps, TRef.nullary, TRef.unary, TRef.binary, TRef.ternary, cast_eq]
  after_results_simp
  rfl

theorem st3_val (W : Valuation τ sig (Elt Ideal)) :
    (after (st3 (F := Ideal)) W (no_index (Proc.devRef .tc main_v187)) : FVec Ideal S100000x64 .f32)
      = stepOf W (W (Proc.devRef .tc main_v127)) := by
  simp only [st3, stepOps, TRef.nullary, TRef.unary, TRef.binary, TRef.ternary, cast_eq]
  after_results_simp
  rfl

theorem st4_val (W : Valuation τ sig (Elt Ideal)) :
    (after (st4 (F := Ideal)) W (no_index (Proc.devRef .tc main_v247)) : FVec Ideal S100000x64 .f32)
      = stepOf W (W (Proc.devRef .tc main_v187)) := by
  simp only [st4, stepOps, TRef.nullary, TRef.unary, TRef.binary, TRef.ternary, cast_eq]
  after_results_simp
  rfl

end Cert.ReferenceIdeal.ReadH

end
-- ==== Proof.RI.HeadsDef.lean ====
import proofs.«412786_j57784490000510_2_alg».proof.ReferenceIdeal
import proofs.«412786_j57784490000510_2_alg».proof.Proof.Spec

noncomputable section

namespace Cert.ReferenceIdeal.ReadH

open Idealize.ShloMosaic Cert.ReferenceIdeal Cert.ReferenceIdeal.Facts₀

variable [Facts₀]

def refP (A H : FVec Ideal S100000x64 .f32) (a10 : FVec Ideal S64x128 .f32) (a11 : FVec Ideal S64 .f32)
    (a12 : FVec Ideal S2x64 .f32) (a13 : FVec Ideal S2 .f32) (a14 : FVec Ideal S64x64 .f32) (a15 : FVec Ideal S64 .f32)
    (a16 : FVec Ideal S2x64 .f32) (a17 : FVec Ideal S2 .f32) : FVec Ideal S2 .f32 :=
  let v248 : FVec Ideal S100000x128 .f32 := (fun a b => concatenate S100000x128 1 [⟨S100000x64, a⟩, ⟨S100000x64, b⟩] concatenates_S100000x64_S100000x64_S100000x128_d1) A H
  let v249 : FVec Ideal S128x64 .f32 := (transpose S128x64 [1, 0] · transposes_S64x128_S128x64_1_0) a10
  let v250 : FVec Ideal S100000x64 .f32 := (fun l r => Host.dotGeneral (F := Ideal) dot_S100000x128_S128x64_S100000x64_1_0_0_1_n_n none l r) v248 v249
  let v251 : FVec Ideal S1x64 .f32 := broadcastInDim S1x64 ![1] bcast_S64_S1x64_1 a11
  let v252 : FVec Ideal S100000x64 .f32 := broadcastInDim S100000x64 ![0, 1] bcast_S1x64_S100000x64_0_1 v251
  let v253 : FVec Ideal S100000x64 .f32 := addf (F := Ideal) v250 v252
  let v254 : FVec Ideal S100000x64 .f32 := Host.tanh (F := Ideal) v253
  let v255 : FVec Ideal S64x2 .f32 := (transpose S64x2 [1, 0] · transposes_S2x64_S64x2_1_0) a12
  let v256 : FVec Ideal S100000x2 .f32 := (fun l r => Host.dotGeneral (F := Ideal) dot_S100000x64_S64x2_S100000x2_1_0_0_1_n_n none l r) v254 v255
  let v257 : FVec Ideal S1x2 .f32 := broadcastInDim S1x2 ![1] bcast_S2_S1x2_1 a13
  let v258 : FVec Ideal S100000x2 .f32 := broadcastInDim S100000x2 ![0, 1] bcast_S1x2_S100000x2_0_1 v257
  let v259 : FVec Ideal S100000x2 .f32 := addf (F := Ideal) v256 v258
  let v260 : FVec Ideal S64x64 .f32 := (transpose S64x64 [1, 0] · transposes_S64x64_S64x64_1_0) a14
  let v261 : FVec Ideal S100000x64 .f32 := (fun l r => Host.dotGeneral (F := Ideal) dot_S100000x64_S64x64_S100000x64_1_0_0_1_n_n none l r) H v260
  let v262 : FVec Ideal S1x64 .f32 := broadcastInDim S1x64 ![1] bcast_S64_S1x64_1 a15
  let v263 : FVec Ideal S100000x64 .f32 := broadcastInDim S100000x64 ![0, 1] bcast_S1x64_S100000x64_0_1 v262
  let v264 : FVec Ideal S100000x64 .f32 := addf (F := Ideal) v261 v263
  let v265 : FVec Ideal S100000x64 .f32 := Host.tanh (F := Ideal) v264
  let v266 : FVec Ideal S64x2 .f32 := (transpose S64x2 [1, 0] · transposes_S2x64_S64x2_1_0) a16
  let v267 : FVec Ideal S100000x2 .f32 := (fun l r => Host.dotGeneral (F := Ideal) dot_S100000x64_S64x2_S100000x2_1_0_0_1_n_n none l r) v265 v266
  let v268 : FVec Ideal S1x2 .f32 := broadcastInDim S1x2 ![1] bcast_S2_S1x2_1 a17
  let v269 : FVec Ideal S100000x2 .f32 := broadcastInDim S100000x2 ![0, 1] bcast_S1x2_S100000x2_0_1 v268
  let v270 : FVec Ideal S100000x2 .f32 := addf (F := Ideal) v267 v269
  let v271 : FVec Ideal S100000x2 .f32 := Host.negf (F := Ideal) v259
  let v272 : FVec Ideal S100000x2 .f32 := Host.exp (F := Ideal) v271
  let c39 : FVec Ideal S_ .f32 := (constant (F := Ideal) S_ .f32 0x3F800000#32)
  let v273 : FVec Ideal S100000x2 .f32 := broadcastInDim S100000x2 ![] bcast_S_S100000x2 c39
  let v274 : FVec Ideal S100000x2 .f32 := addf (F := Ideal) v273 v272
  let c40 : FVec Ideal S_ .f32 := (constant (F := Ideal) S_ .f32 0x3F800000#32)
  let v275 : FVec Ideal S100000x2 .f32 := broadcastInDim S100000x2 ![] bcast_S_S100000x2 c40
  let v276 : FVec Ideal S100000x2 .f32 := Host.divf (F := Ideal) v275 v274
  let v277 : FVec Ideal S100000x2 .f32 := mulf (F := Ideal) v276 v270
  let c41 : FVec Ideal S_ .f32 := (constant (F := Ideal) S_ .f32 0x00000000#32)
  let v278 : FVec Ideal S2 .f32 := (fun x v => Host.reduceAdd (F := Ideal) x v reducesTo_S100000x2_S2_d0 h_S_) v277 c41
  v278

def refV (A H : FVec Ideal S100000x64 .f32) (a18 : FVec Ideal S64x128 .f32) (a19 : FVec Ideal S64 .f32)
    (a20 : FVec Ideal S1x64 .f32) (a21 : FVec Ideal S1 .f32) (a22 : FVec Ideal S64x64 .f32) (a23 : FVec Ideal S64 .f32)
    (a24 : FVec Ideal S1x64 .f32) (a25 : FVec Ideal S1 .f32) : FVec Ideal S1 .f32 :=
  let v248 : FVec Ideal S100000x128 .f32 := (fun a b => concatenate S100000x128 1 [⟨S100000x64, a⟩, ⟨S100000x64, b⟩] concatenates_S100000x64_S100000x64_S100000x128_d1) A H
  let v279 : FVec Ideal S128x64 .f32 := (transpose S128x64 [1, 0] · transposes_S64x128_S128x64_1_0) a18
  let v280 : FVec Ideal S100000x64 .f32 := (fun l r => Host.dotGeneral (F := Ideal) dot_S100000x128_S128x64_S100000x64_1_0_0_1_n_n none l r) v248 v279
  let v281 : FVec Ideal S1x64 .f32 := broadcastInDim S1x64 ![1] bcast_S64_S1x64_1 a19
  let v282 : FVec Ideal S100000x64 .f32 := broadcastInDim S100000x64 ![0, 1] bcast_S1x64_S100000x64_0_1 v281
  let v283 : FVec Ideal S100000x64 .f32 := addf (F := Ideal) v280 v282
  let v284 : FVec Ideal S100000x64 .f32 := Host.tanh (F := Ideal) v283
  let v285 : FVec Ideal S64x1 .f32 := (transpose S64x1 [1, 0] · transposes_S1x64_S64x1_1_0) a20
  let v286 : FVec Ideal S100000x1 .f32 := (fun l r => Host.dotGeneral (F := Ideal) dot_S100000x64_S64x1_S100000x1_1_0_0_1_n_n none l r) v284 v285
  let v287 : FVec Ideal S1x1 .f32 := broadcastInDim S1x1 ![1] bcast_S1_S1x1_1 a21
  let v288 : FVec Ideal S100000x1 .f32 := broadcastInDim S100000x1 ![0, 1] bcast_S1x1_S100000x1_0_1 v287
  let v289 : FVec Ideal S100000x1 .f32 := addf (F := Ideal) v286 v288
  let v290 : FVec Ideal S64x64 .f32 := (transpose S64x64 [1, 0] · transposes_S64x64_S64x64_1_0) a22
  let v291 : FVec Ideal S100000x64 .f32 := (fun l r => Host.dotGeneral (F := Ideal) dot_S100000x64_S64x64_S100000x64_1_0_0_1_n_n none l r) H v290
  let v292 : FVec Ideal S1x64 .f32 := broadcastInDim S1x64 ![1] bcast_S64_S1x64_1 a23
  let v293 : FVec Ideal S100000x64 .f32 := broadcastInDim S100000x64 ![0, 1] bcast_S1x64_S100000x64_0_1 v292
  let v294 : FVec Ideal S100000x64 .f32 := addf (F := Ideal) v291 v293
  let v295 : FVec Ideal S100000x64 .f32 := Host.tanh (F := Ideal) v294
  let v296 : FVec Ideal S64x1 .f32 := (transpose S64x1 [1, 0] · transposes_S1x64_S64x1_1_0) a24
  let v297 : FVec Ideal S100000x1 .f32 := (fun l r => Host.dotGeneral (F := Ideal) dot_S100000x64_S64x1_S100000x1_1_0_0_1_n_n none l r) v295 v296
  let v298 : FVec Ideal S1x1 .f32 := broadcastInDim S1x1 ![1] bcast_S1_S1x1_1 a25
  let v299 : FVec Ideal S100000x1 .f32 := broadcastInDim S100000x1 ![0, 1] bcast_S1x1_S100000x1_0_1 v298
  let v300 : FVec Ideal S100000x1 .f32 := addf (F := Ideal) v297 v299
  let v301 : FVec Ideal S100000x1 .f32 := Host.negf (F := Ideal) v289
  let v302 : FVec Ideal S100000x1 .f32 := Host.exp (F := Ideal) v301
  let c42 : FVec Ideal S_ .f32 := (constant (F := Ideal) S_ .f32 0x3F800000#32)
  let v303 : FVec Ideal S100000x1 .f32 := broadcastInDim S100000x1 ![] bcast_S_S100000x1 c42
  let v304 : FVec Ideal S100000x1 .f32 := addf (F := Ideal) v303 v302
  let c43 : FVec Ideal S_ .f32 := (constant (F := Ideal) S_ .f32 0x3F800000#32)
  let v305 : FVec Ideal S100000x1 .f32 := broadcastInDim S100000x1 ![] bcast_S_S100000x1 c43
  let v306 : FVec Ideal S100000x1 .f32 := Host.divf (F := Ideal) v305 v304
  let v307 : FVec Ideal S100000x1 .f32 := mulf (F := Ideal) v306 v300
  let c44 : FVec Ideal S_ .f32 := (constant (F := Ideal) S_ .f32 0x00000000#32)
  let v308 : FVec Ideal S1 .f32 := (fun x v => Host.reduceAdd (F := Ideal) x v reducesTo_S100000x1_S1_d0 h_S_) v307 c44
  v308

def tailP (p : FVec Ideal S2 .f32) : FVec Ideal S2 .f32 :=
  let cst : FVec Ideal S_ .f32 := constant (F := Ideal) S_ .f32 0xFF800000#32
  let v0 : FVec Ideal S_ .f32 := (fun x v => Host.reduce (FloatOps.maximumf (F := Ideal) (φ := .f32)) x v reducesTo_S2_S_d0 h_S_) p cst
  let cst_0 : FVec Ideal S_ .f32 := constant (F := Ideal) S_ .f32 0xFF800000#32
  let v1 : FVec Ideal S_ .f32 := maximumf (F := Ideal) cst_0 v0
  let v2 : FVec Ideal S1 .f32 := (broadcastInDim S1 ![] bcast_S_S1) v1
  let v3 : FVec Ideal S2 .f32 := (broadcastInDim S2 ![0] bcast_S1_S2_0) v2
  let v4 : FVec Ideal S2 .f32 := subf (F := Ideal) p v3
  let v5 : FVec Ideal S2 .f32 := Host.exp (F := Ideal) v4
  let cst_1 : FVec Ideal S_ .f32 := constant (F := Ideal) S_ .f32 0x00000000#32
  let v6 : FVec Ideal S_ .f32 := (fun x v => Host.reduceAdd (F := Ideal) x v reducesTo_S2_S_d0 h_S_) v5 cst_1
  let v7 : FVec Ideal S1 .f32 := (broadcastInDim S1 ![] bcast_S_S1) v6
  let v8 : FVec Ideal S1 .f32 := Host.log (F := Ideal) v7
  let v9 : FVec Ideal S2 .f32 := (broadcastInDim S2 ![0] bcast_S1_S2_0) v8
  let v10 : FVec Ideal S2 .f32 := subf (F := Ideal) v4 v9
  v10

def tailV (v : FVec Ideal S1 .f32) : FVec Ideal S1 .f32 := Host.tanh (F := Ideal) v

end Cert.ReferenceIdeal.ReadH

end
-- ==== Proof.RI.Val5.lean ====
import proofs.«412786_j57784490000510_2_alg».proof.Proof.RI.Tab
import proofs.«412786_j57784490000510_2_alg».proof.Proof.RI.HeadsDef

set_option Elab.async false

noncomputable section

namespace Cert.ReferenceIdeal.ReadH

open Cert.ReferenceIdeal Cert.ReferenceIdeal.Gen Cert.ReferenceIdeal.RunH Idealize.ShloMosaic Idealize.ShloMosaic.TcCoe Idealize.SL.Sem Idealize.ShloMosaic.StableHlo

theorem st5_valP (W : Valuation τ sig (Elt Ideal)) :
    (after (st5 (F := Ideal)) W (no_index (Proc.devRef .tc main_v309)) : FVec Ideal S2 .f32)
      = tailP (refP (W (Proc.devRef .tc main_v7)) (W (Proc.devRef .tc main_v247)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17))) := by
  after_results_simp
  simp only [cast_eq]
  rfl

set_option maxHeartbeats 2000000 in
set_option maxRecDepth 8192 in
theorem st5_valV (W : Valuation τ sig (Elt Ideal)) :
    (after (st5 (F := Ideal)) W (no_index (Proc.devRef .tc main_v310)) : FVec Ideal S1 .f32)
      = tailV (refV (W (Proc.devRef .tc main_v7)) (W (Proc.devRef .tc main_v247)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25))) := by
  after_results_simp
  rfl

end Cert.ReferenceIdeal.ReadH

end
-- ==== Proof.RI.StepGru.lean ====
import proofs.«412786_j57784490000510_2_alg».proof.Proof.RI.Lin
import proofs.«412786_j57784490000510_2_alg».proof.Proof.RI.Gru

noncomputable section

namespace Cert.ReferenceIdeal.ReadH

open Idealize.ShloMosaic Idealize.ShloMosaic.ValueIdx
open Cert.ReferenceIdeal Cert.ReferenceIdeal.Facts₀ Cert.ReferenceIdeal.Facts

variable [Facts]

theorem gruStage_eq (H m : FVec Ideal S100000x64 .f32) (a6 a7 : FVec Ideal S192x64 .f32) (a8 a9 : FVec Ideal S192 .f32) :
    gruTail (linOf H a6 a8) (linOf m a7 a9) m
      = Spec.unc (Spec.gru (Spec.cur H) (Spec.cur m) (fun j d => a6 (ix2 j d)) (fun j d => a7 (ix2 j d))
          (fun j => a8 (ix1 j)) (fun j => a9 (ix1 j))) := by
  funext i
  obtain ⟨n, k, rfl⟩ : ∃ (n : Fin 100000) (k : Fin 64), i = ix2 n k := ⟨i 0, i 1, eq_ix2 i⟩
  rw [gruTail_apply]
  simp only [linOf_apply]
  rfl

end Cert.ReferenceIdeal.ReadH

end
-- ==== Proof.RI.StepEq.lean ====
import proofs.«412786_j57784490000510_2_alg».proof.Proof.RI.Step
import proofs.«412786_j57784490000510_2_alg».proof.Proof.RI.StepGru

noncomputable section

namespace Cert.ReferenceIdeal.ReadH

open Idealize.ShloMosaic Idealize.ShloMosaic.ValueIdx
open Cert.ReferenceIdeal Cert.ReferenceIdeal.Facts₀ Cert.ReferenceIdeal.Facts

variable [Facts]

theorem msg_eq (H : FVec Ideal S100000x64 .f32) (a1 a2 a3 : IVec S1600000 32) (a4 : FVec Ideal S4x64x64 .f32)
    (a5 : FVec Ideal S4x64 .f32) :
    Spec.cur (scatOf a2 (gatherOf (xOf H a4 a5) (idxOf a1 a3)))
      = (Spec.msgR (Spec.cur H) (fun t k d => a4 (ValueIdx.ix3 t k d)) (fun t k => a5 (ValueIdx.ix2 t k))
            (fun e => Spec.rowOf Spec.N (by decide) (a1 (ValueIdx.ix1 e)))
            (fun e => Spec.rowOf 4 (by decide) (a3 (ValueIdx.ix1 e)))
            (fun e => Spec.targetOf Spec.N (a2 (ValueIdx.ix1 e)))) := by
  funext n k
  refine (scatOf_apply a2 _ n k).trans ?_
  refine Finset.sum_congr rfl fun e _ => ?_
  rw [gatherOf_apply, xOf_apply]
  rfl

theorem refStep_eq (H : FVec Ideal S100000x64 .f32) (a1 a2 a3 : IVec S1600000 32) (a4 : FVec Ideal S4x64x64 .f32)
    (a5 : FVec Ideal S4x64 .f32) (a6 a7 : FVec Ideal S192x64 .f32) (a8 a9 : FVec Ideal S192 .f32) :
    refStep H a1 a2 a3 a4 a5 a6 a7 a8 a9
      = Spec.unc (Spec.gru (Spec.cur H)
          (Spec.msgR (Spec.cur H) (fun t k d => a4 (ValueIdx.ix3 t k d)) (fun t k => a5 (ValueIdx.ix2 t k))
            (fun e => Spec.rowOf Spec.N (by decide) (a1 (ValueIdx.ix1 e)))
            (fun e => Spec.rowOf 4 (by decide) (a3 (ValueIdx.ix1 e)))
            (fun e => Spec.targetOf Spec.N (a2 (ValueIdx.ix1 e))))
          (fun j d => a6 (ValueIdx.ix2 j d)) (fun j d => a7 (ValueIdx.ix2 j d))
          (fun j => a8 (ValueIdx.ix1 j)) (fun j => a9 (ValueIdx.ix1 j))) := by
  rw [refStep, gruStage_eq, msg_eq]

end Cert.ReferenceIdeal.ReadH

end
-- ==== Proof.RI.HeadsLin.lean ====
import proofs.«412786_j57784490000510_2_alg».proof.ReferenceIdeal
import proofs.«412786_j57784490000510_2_alg».proof.Proof.Spec
import Idealize.ShloMosaic.PureOps.Ideal.Laws
import Idealize.ShloMosaic.Lib.ValueIdx
import Idealize.ShloMosaic.Lib.Pipeline.Value

noncomputable section

namespace Cert.ReferenceIdeal.ReadH

open Idealize.ShloMosaic Idealize.ShloMosaic.ValueIdx Cert.ReferenceIdeal Cert.ReferenceIdeal.Facts₀

variable [Facts₀]

-- A product contracting the left operand's second axis with the right operand's first, read at an index.
theorem dot2_apply {m k p : ℕ} (D : DotDims ⟨2, ![m, k]⟩ ⟨2, ![k, p]⟩ ⟨2, ![m, p]⟩) (hr : D.contr.rank = 1) (hs : D.contr.size ⟨0, by omega⟩ = k)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (X : FVec Ideal ⟨2, ![m, k]⟩ .f32) (Y : FVec Ideal ⟨2, ![k, p]⟩ .f32) (n : Fin m) (j : Fin p) :
    Host.dotGeneral (F := Ideal) D none X Y (ix2 n j) = ∑ q : Fin k, X (ix2 n q) * Y (ix2 q j) := by
  simp only [Host.dotGeneral]
  rw [Ideal.dotGeneral_apply, ← Equiv.sum_comp (ValueIdx.contrEquiv1 D k hr hs).symm]
  refine Finset.sum_congr rfl fun q _ => ?_
  have hq := ValueIdx.contrEquiv1_symm_val D k hr hs q
  have el : D.lhsIdx (ix2 n j) ((ValueIdx.contrEquiv1 D k hr hs).symm q) = ix2 n q := funext fun a => Fin.ext (by
    match a with
    | ⟨0, _⟩ => exact l0 _ _
    | ⟨1, _⟩ => exact (l1 _ _).trans hq)
  have er : D.rhsIdx (ix2 n j) ((ValueIdx.contrEquiv1 D k hr hs).symm q) = ix2 q j := funext fun a => Fin.ext (by
    match a with
    | ⟨0, _⟩ => exact (r0 _ _).trans hq
    | ⟨1, _⟩ => exact r1 _ _)
  rw [el, er]

-- Swapping the two axes of a matrix swaps the two coordinates.
theorem tr2_apply {a b : ℕ} (W : FVec Ideal ⟨2, ![a, b]⟩ .f32) (h : (⟨2, ![a, b]⟩ : Shape).Transposes [1, 0] ⟨2, ![b, a]⟩) (x : Fin b) (y : Fin a) :
    transpose ⟨2, ![b, a]⟩ [1, 0] W h (ix2 x y) = W (ix2 y x) :=
  transpose_apply [1, 0] W h (ix2 x y) (ix2 y x) (fun c => match c with
    | ⟨0, _⟩ => rfl
    | ⟨1, _⟩ => rfl)

-- A linear layer of the reference (product with the transposed weights, plus a bias that reads `b` along the rows) is `Spec.lin`.
theorem lin2_apply {k p : ℕ} (D : DotDims ⟨2, ![100000, k]⟩ ⟨2, ![k, p]⟩ ⟨2, ![100000, p]⟩) (hr : D.contr.rank = 1) (hs : D.contr.size ⟨0, by omega⟩ = k)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (h : (⟨2, ![p, k]⟩ : Shape).Transposes [1, 0] ⟨2, ![k, p]⟩)
    (X : FVec Ideal ⟨2, ![100000, k]⟩ .f32) (W : FVec Ideal ⟨2, ![p, k]⟩ .f32) (B : FVec Ideal ⟨2, ![100000, p]⟩ .f32) (b : Fin p → EReal)
    (hB : ∀ n j, B (ix2 n j) = b j) (n : Fin 100000) (j : Fin p) :
    addf (F := Ideal) (Host.dotGeneral (F := Ideal) D none X (transpose ⟨2, ![k, p]⟩ [1, 0] W h)) B (ix2 n j)
      = Spec.lin (Spec.cur X) (fun j d => W (ix2 j d)) b n j := by
  rw [addf_apply, dot2_apply D hr hs l0 l1 r0 r1, hB]
  refine congrArg (· + b j) (Finset.sum_congr rfl fun d _ => ?_)
  rw [tr2_apply]
  rfl

-- A bias broadcast along the rows reads its own entry at every row.
theorem bias2_apply {w : ℕ} (b : FVec Ideal ⟨1, ![w]⟩ .f32) (h1 : (⟨1, ![w]⟩ : Shape).BroadcastsInDim ⟨2, ![1, w]⟩ ![1])
    (h2 : (⟨2, ![1, w]⟩ : Shape).BroadcastsInDim ⟨2, ![100000, w]⟩ ![0, 1]) (n : Fin 100000) (k : Fin w) :
    broadcastInDim ⟨2, ![100000, w]⟩ ![0, 1] h2 (broadcastInDim ⟨2, ![1, w]⟩ ![1] h1 b) (ix2 n k) = b (ix1 k) := by
  have hk : k.val = if w = 1 then 0 else k.val := by
    split
    · have := k.isLt; omega
    · rfl
  rw [broadcastInDim_apply _ h2 _ (ix2 n k) (ix2 (0 : Fin 1) k) (fun a => match a with
      | ⟨0, _⟩ => by show 0 = if (1 : Nat) = 1 then 0 else n.val; rw [if_pos rfl]
      | ⟨1, _⟩ => hk),
    broadcastInDim_apply _ h1 _ (ix2 (0 : Fin 1) k) (ix1 k) (fun a => match a with
      | ⟨0, _⟩ => hk)]

theorem lin_128_apply (X : FVec Ideal S100000x128 .f32) (W : FVec Ideal S64x128 .f32) (b : FVec Ideal S64 .f32) (n : Fin 100000) (j : Fin 64) :
    addf (F := Ideal) (Host.dotGeneral (F := Ideal) dot_S100000x128_S128x64_S100000x64_1_0_0_1_n_n none X (transpose S128x64 [1, 0] W transposes_S64x128_S128x64_1_0))
        (broadcastInDim S100000x64 ![0, 1] bcast_S1x64_S100000x64_0_1 (broadcastInDim S1x64 ![1] bcast_S64_S1x64_1 b)) (ix2 n j)
      = Spec.lin (Spec.cur X) (fun j d => W (ix2 j d)) (fun j => b (ix1 j)) n j :=
  lin2_apply dot_S100000x128_S128x64_S100000x64_1_0_0_1_n_n rfl rfl (fun _ _ => rfl) (fun _ _ => rfl) (fun _ _ => rfl) (fun _ _ => rfl) transposes_S64x128_S128x64_1_0 X W _ _ (bias2_apply b _ _) n j

theorem lin_64x2_apply (X : FVec Ideal S100000x64 .f32) (W : FVec Ideal S2x64 .f32) (b : FVec Ideal S2 .f32) (n : Fin 100000) (j : Fin 2) :
    addf (F := Ideal) (Host.dotGeneral (F := Ideal) dot_S100000x64_S64x2_S100000x2_1_0_0_1_n_n none X (transpose S64x2 [1, 0] W transposes_S2x64_S64x2_1_0))
        (broadcastInDim S100000x2 ![0, 1] bcast_S1x2_S100000x2_0_1 (broadcastInDim S1x2 ![1] bcast_S2_S1x2_1 b)) (ix2 n j)
      = Spec.lin (Spec.cur X) (fun j d => W (ix2 j d)) (fun j => b (ix1 j)) n j :=
  lin2_apply dot_S100000x64_S64x2_S100000x2_1_0_0_1_n_n rfl rfl (fun _ _ => rfl) (fun _ _ => rfl) (fun _ _ => rfl) (fun _ _ => rfl) transposes_S2x64_S64x2_1_0 X W _ _ (bias2_apply b _ _) n j

theorem lin_64x64_apply (X : FVec Ideal S100000x64 .f32) (W : FVec Ideal S64x64 .f32) (b : FVec Ideal S64 .f32) (n : Fin 100000) (j : Fin 64) :
    addf (F := Ideal) (Host.dotGeneral (F := Ideal) dot_S100000x64_S64x64_S100000x64_1_0_0_1_n_n none X (transpose S64x64 [1, 0] W transposes_S64x64_S64x64_1_0))
        (broadcastInDim S100000x64 ![0, 1] bcast_S1x64_S100000x64_0_1 (broadcastInDim S1x64 ![1] bcast_S64_S1x64_1 b)) (ix2 n j)
      = Spec.lin (Spec.cur X) (fun j d => W (ix2 j d)) (fun j => b (ix1 j)) n j :=
  lin2_apply dot_S100000x64_S64x64_S100000x64_1_0_0_1_n_n rfl rfl (fun _ _ => rfl) (fun _ _ => rfl) (fun _ _ => rfl) (fun _ _ => rfl) transposes_S64x64_S64x64_1_0 X W _ _ (bias2_apply b _ _) n j

theorem lin_64x1_apply (X : FVec Ideal S100000x64 .f32) (W : FVec Ideal S1x64 .f32) (b : FVec Ideal S1 .f32) (n : Fin 100000) (j : Fin 1) :
    addf (F := Ideal) (Host.dotGeneral (F := Ideal) dot_S100000x64_S64x1_S100000x1_1_0_0_1_n_n none X (transpose S64x1 [1, 0] W transposes_S1x64_S64x1_1_0))
        (broadcastInDim S100000x1 ![0, 1] bcast_S1x1_S100000x1_0_1 (broadcastInDim S1x1 ![1] bcast_S1_S1x1_1 b)) (ix2 n j)
      = Spec.lin (Spec.cur X) (fun j d => W (ix2 j d)) (fun j => b (ix1 j)) n j :=
  lin2_apply dot_S100000x64_S64x1_S100000x1_1_0_0_1_n_n rfl rfl (fun _ _ => rfl) (fun _ _ => rfl) (fun _ _ => rfl) (fun _ _ => rfl) transposes_S1x64_S64x1_1_0 X W _ _ (bias2_apply b _ _) n j

end Cert.ReferenceIdeal.ReadH

end
-- ==== Proof.RI.HeadsSum.lean ====
import proofs.«412786_j57784490000510_2_alg».proof.Proof.RI.HeadsLin

noncomputable section

namespace Cert.ReferenceIdeal.ReadH

open Idealize.ShloMosaic Idealize.ShloMosaic.ValueIdx Cert.ReferenceIdeal Cert.ReferenceIdeal.Facts₀

variable [Facts₀]

theorem one_f32 : Ideal.ofBits .f32 0x3F800000#32 = 1 := by
  simp [Ideal.ofBits, Ideal.ieee, -EReal.coe_mul]; norm_num

theorem gate_apply {s : Shape} (h : S_.BroadcastsInDim s (![] : Fin 0 → Fin s.rank)) (x : FVec Ideal s .f32) (i : s.Idx) :
    Host.divf (F := Ideal) (broadcastInDim s ![] h (constant (F := Ideal) S_ .f32 0x3F800000#32))
        (addf (F := Ideal) (broadcastInDim s ![] h (constant (F := Ideal) S_ .f32 0x3F800000#32))
          (Host.exp (F := Ideal) (Host.negf (F := Ideal) x))) i
      = Ideal.logistic (x i) := by
  show Ideal.div (Ideal.ofBits .f32 0x3F800000#32) (Ideal.ofBits .f32 0x3F800000#32 + Ideal.exp (-(x i))) = _
  rw [one_f32]
  rfl

theorem sumNodes2_apply (x : FVec Ideal S100000x2 .f32) (o : Fin 2) :
    Host.reduceAdd (F := Ideal) x (constant (F := Ideal) S_ .f32 0x00000000#32) reducesTo_S100000x2_S2_d0 h_S_ (ix1 o)
      = ∑ n : Fin 100000, x (ix2 n o) := by
  simp only [Host.reduceAdd, Ideal.hostReduceAdd_def]
  rw [Ideal.hostReduceAdd_single reducesTo_S100000x2_S2_d0 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

theorem sumNodes1_apply (x : FVec Ideal S100000x1 .f32) (o : Fin 1) :
    Host.reduceAdd (F := Ideal) x (constant (F := Ideal) S_ .f32 0x00000000#32) reducesTo_S100000x1_S1_d0 h_S_ (ix1 o)
      = ∑ n : Fin 100000, x (ix2 n o) := by
  simp only [Host.reduceAdd, Ideal.hostReduceAdd_def]
  rw [Ideal.hostReduceAdd_single reducesTo_S100000x1_S1_d0 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

theorem concat_apply (A H : FVec Ideal S100000x64 .f32) (n : Fin 100000) (j : Fin 128) :
    concatenate S100000x128 1 [⟨S100000x64, A⟩, ⟨S100000x64, H⟩] concatenates_S100000x64_S100000x64_S100000x128_d1 (ix2 n j)
      = Spec.concat2 (Spec.cur A) (Spec.cur H) n j := by
  unfold Spec.concat2
  by_cases hj : j.val < 64
  · rw [dif_pos hj]
    exact concatenate_pair_apply_left 1 A H concatenates_S100000x64_S100000x64_S100000x128_d1 (ix2 n j) rfl (ix2 n ⟨j.val, hj⟩)
      (fun b => match b with | ⟨0, _⟩ => rfl | ⟨1, _⟩ => rfl)
  · rw [dif_neg hj]
    refine concatenate_pair_apply_right 1 A H concatenates_S100000x64_S100000x64_S100000x128_d1 (ix2 n j) rfl rfl
      (ix2 n ⟨j.val - 64, by have := j.isLt; omega⟩) (fun b hb => ?_) ?_
    · match b with
      | ⟨0, _⟩ => rfl
      | ⟨1, _⟩ => exact absurd rfl hb
    · show j.val - 64 + 64 = j.val
      omega

theorem lin_congr {a o : Nat} (X Y : Spec.Arr Spec.N a) (w : Spec.Arr o a) (b : Fin o → EReal) (n : Fin Spec.N) (j : Fin o)
    (h : ∀ d, X n d = Y n d) : Spec.lin X w b n j = Spec.lin Y w b n j := by
  unfold Spec.lin
  rw [Finset.sum_congr rfl fun d _ => by rw [h d]]

theorem hid_128_apply (A H : FVec Ideal S100000x64 .f32) (W : FVec Ideal S64x128 .f32) (b : FVec Ideal S64 .f32) (n : Fin 100000) (k : Fin 64) :
    Spec.cur (Host.tanh (F := Ideal) (addf (F := Ideal) (Host.dotGeneral (F := Ideal) dot_S100000x128_S128x64_S100000x64_1_0_0_1_n_n none (concatenate S100000x128 1 [⟨S100000x64, A⟩, ⟨S100000x64, H⟩] concatenates_S100000x64_S100000x64_S100000x128_d1) (transpose S128x64 [1, 0] W transposes_S64x128_S128x64_1_0))
        (broadcastInDim S100000x64 ![0, 1] bcast_S1x64_S100000x64_0_1 (broadcastInDim S1x64 ![1] bcast_S64_S1x64_1 b)))) n k
      = Ideal.tanh (Spec.lin (Spec.concat2 (Spec.cur A) (Spec.cur H)) (fun k j => W (ix2 k j)) (fun k => b (ix1 k)) n k) :=
  (congrArg Ideal.tanh (lin_128_apply _ W b n k)).trans (congrArg Ideal.tanh (lin_congr _ _ _ _ n k fun d => concat_apply A H n d))

theorem hid_64_apply (H : FVec Ideal S100000x64 .f32) (W : FVec Ideal S64x64 .f32) (b : FVec Ideal S64 .f32) (n : Fin 100000) (k : Fin 64) :
    Spec.cur (Host.tanh (F := Ideal) (addf (F := Ideal) (Host.dotGeneral (F := Ideal) dot_S100000x64_S64x64_S100000x64_1_0_0_1_n_n none H (transpose S64x64 [1, 0] W transposes_S64x64_S64x64_1_0))
        (broadcastInDim S100000x64 ![0, 1] bcast_S1x64_S100000x64_0_1 (broadcastInDim S1x64 ![1] bcast_S64_S1x64_1 b)))) n k
      = Ideal.tanh (Spec.lin (Spec.cur H) (fun k d => W (ix2 k d)) (fun k => b (ix1 k)) n k) :=
  congrArg Ideal.tanh (lin_64x64_apply H W b n k)

theorem headF2_apply (A H : FVec Ideal S100000x64 .f32) (W1 : FVec Ideal S64x128 .f32) (b1 : FVec Ideal S64 .f32)
    (W2 : FVec Ideal S2x64 .f32) (b2 : FVec Ideal S2 .f32) (n : Fin 100000) (o : Fin 2) :
    (addf (F := Ideal) (Host.dotGeneral (F := Ideal) dot_S100000x64_S64x2_S100000x2_1_0_0_1_n_n none (Host.tanh (F := Ideal) (addf (F := Ideal) (Host.dotGeneral (F := Ideal) dot_S100000x128_S128x64_S100000x64_1_0_0_1_n_n none (concatenate S100000x128 1 [⟨S100000x64, A⟩, ⟨S100000x64, H⟩] concatenates_S100000x64_S100000x64_S100000x128_d1) (transpose S128x64 [1, 0] W1 transposes_S64x128_S128x64_1_0))
        (broadcastInDim S100000x64 ![0, 1] bcast_S1x64_S100000x64_0_1 (broadcastInDim S1x64 ![1] bcast_S64_S1x64_1 b1)))) (transpose S64x2 [1, 0] W2 transposes_S2x64_S64x2_1_0))
        (broadcastInDim S100000x2 ![0, 1] bcast_S1x2_S100000x2_0_1 (broadcastInDim S1x2 ![1] bcast_S2_S1x2_1 b2))) (ix2 n o)
      = Spec.head (Spec.concat2 (Spec.cur A) (Spec.cur H)) (fun k j => W1 (ix2 k j)) (fun k => b1 (ix1 k))
          (fun j k => W2 (ix2 j k)) (fun j => b2 (ix1 j)) n o := by
  rw [lin_64x2_apply]
  exact lin_congr _ _ _ _ n o fun d => hid_128_apply A H W1 b1 n d

theorem headG2_apply (H : FVec Ideal S100000x64 .f32) (W1 : FVec Ideal S64x64 .f32) (b1 : FVec Ideal S64 .f32)
    (W2 : FVec Ideal S2x64 .f32) (b2 : FVec Ideal S2 .f32) (n : Fin 100000) (o : Fin 2) :
    (addf (F := Ideal) (Host.dotGeneral (F := Ideal) dot_S100000x64_S64x2_S100000x2_1_0_0_1_n_n none (Host.tanh (F := Ideal) (addf (F := Ideal) (Host.dotGeneral (F := Ideal) dot_S100000x64_S64x64_S100000x64_1_0_0_1_n_n none H (transpose S64x64 [1, 0] W1 transposes_S64x64_S64x64_1_0))
        (broadcastInDim S100000x64 ![0, 1] bcast_S1x64_S100000x64_0_1 (broadcastInDim S1x64 ![1] bcast_S64_S1x64_1 b1)))) (transpose S64x2 [1, 0] W2 transposes_S2x64_S64x2_1_0))
        (broadcastInDim S100000x2 ![0, 1] bcast_S1x2_S100000x2_0_1 (broadcastInDim S1x2 ![1] bcast_S2_S1x2_1 b2))) (ix2 n o)
      = Spec.head (Spec.cur H) (fun k d => W1 (ix2 k d)) (fun k => b1 (ix1 k))
          (fun j k => W2 (ix2 j k)) (fun j => b2 (ix1 j)) n o := by
  rw [lin_64x2_apply]
  exact lin_congr _ _ _ _ n o fun d => hid_64_apply H W1 b1 n d

theorem headF1_apply (A H : FVec Ideal S100000x64 .f32) (W1 : FVec Ideal S64x128 .f32) (b1 : FVec Ideal S64 .f32)
    (W2 : FVec Ideal S1x64 .f32) (b2 : FVec Ideal S1 .f32) (n : Fin 100000) (o : Fin 1) :
    (addf (F := Ideal) (Host.dotGeneral (F := Ideal) dot_S100000x64_S64x1_S100000x1_1_0_0_1_n_n none (Host.tanh (F := Ideal) (addf (F := Ideal) (Host.dotGeneral (F := Ideal) dot_S100000x128_S128x64_S100000x64_1_0_0_1_n_n none (concatenate S100000x128 1 [⟨S100000x64, A⟩, ⟨S100000x64, H⟩] concatenates_S100000x64_S100000x64_S100000x128_d1) (transpose S128x64 [1, 0] W1 transposes_S64x128_S128x64_1_0))
        (broadcastInDim S100000x64 ![0, 1] bcast_S1x64_S100000x64_0_1 (broadcastInDim S1x64 ![1] bcast_S64_S1x64_1 b1)))) (transpose S64x1 [1, 0] W2 transposes_S1x64_S64x1_1_0))
        (broadcastInDim S100000x1 ![0, 1] bcast_S1x1_S100000x1_0_1 (broadcastInDim S1x1 ![1] bcast_S1_S1x1_1 b2))) (ix2 n o)
      = Spec.head (Spec.concat2 (Spec.cur A) (Spec.cur H)) (fun k j => W1 (ix2 k j)) (fun k => b1 (ix1 k))
          (fun j k => W2 (ix2 j k)) (fun j => b2 (ix1 j)) n o := by
  rw [lin_64x1_apply]
  exact lin_congr _ _ _ _ n o fun d => hid_128_apply A H W1 b1 n d

theorem headG1_apply (H : FVec Ideal S100000x64 .f32) (W1 : FVec Ideal S64x64 .f32) (b1 : FVec Ideal S64 .f32)
    (W2 : FVec Ideal S1x64 .f32) (b2 : FVec Ideal S1 .f32) (n : Fin 100000) (o : Fin 1) :
    (addf (F := Ideal) (Host.dotGeneral (F := Ideal) dot_S100000x64_S64x1_S100000x1_1_0_0_1_n_n none (Host.tanh (F := Ideal) (addf (F := Ideal) (Host.dotGeneral (F := Ideal) dot_S100000x64_S64x64_S100000x64_1_0_0_1_n_n none H (transpose S64x64 [1, 0] W1 transposes_S64x64_S64x64_1_0))
        (broadcastInDim S100000x64 ![0, 1] bcast_S1x64_S100000x64_0_1 (broadcastInDim S1x64 ![1] bcast_S64_S1x64_1 b1)))) (transpose S64x1 [1, 0] W2 transposes_S1x64_S64x1_1_0))
        (broadcastInDim S100000x1 ![0, 1] bcast_S1x1_S100000x1_0_1 (broadcastInDim S1x1 ![1] bcast_S1_S1x1_1 b2))) (ix2 n o)
      = Spec.head (Spec.cur H) (fun k d => W1 (ix2 k d)) (fun k => b1 (ix1 k))
          (fun j k => W2 (ix2 j k)) (fun j => b2 (ix1 j)) n o := by
  rw [lin_64x1_apply]
  exact lin_congr _ _ _ _ n o fun d => hid_64_apply H W1 b1 n d

end Cert.ReferenceIdeal.ReadH

end
-- ==== Proof.RI.HeadsP.lean ====
import proofs.«412786_j57784490000510_2_alg».proof.Proof.RI.HeadsSum
import proofs.«412786_j57784490000510_2_alg».proof.Proof.RI.HeadsDef

noncomputable section

namespace Cert.ReferenceIdeal.ReadH

open Idealize.ShloMosaic Idealize.ShloMosaic.ValueIdx Cert.ReferenceIdeal Cert.ReferenceIdeal.Facts₀

variable [Facts₀]

theorem refP_eq (A H : FVec Ideal S100000x64 .f32) (a10 : FVec Ideal S64x128 .f32) (a11 : FVec Ideal S64 .f32)
    (a12 : FVec Ideal S2x64 .f32) (a13 : FVec Ideal S2 .f32) (a14 : FVec Ideal S64x64 .f32) (a15 : FVec Ideal S64 .f32)
    (a16 : FVec Ideal S2x64 .f32) (a17 : FVec Ideal S2 .f32) :
    refP A H a10 a11 a12 a13 a14 a15 a16 a17 = fun j => Spec.sumAll (Spec.term
      (Spec.head (Spec.concat2 (Spec.cur A) (Spec.cur H)) (fun k j => a10 (ValueIdx.ix2 k j)) (fun k => a11 (ValueIdx.ix1 k))
        (fun j k => a12 (ValueIdx.ix2 j k)) (fun j => a13 (ValueIdx.ix1 j)))
      (Spec.head (Spec.cur H) (fun k d => a14 (ValueIdx.ix2 k d)) (fun k => a15 (ValueIdx.ix1 k))
        (fun j k => a16 (ValueIdx.ix2 j k)) (fun j => a17 (ValueIdx.ix1 j)))) (j 0) := by
  funext j
  obtain ⟨o, rfl⟩ : ∃ o : Fin 2, j = ix1 o := ⟨j 0, eq_ix1 j⟩
  simp only [refP]
  rw [sumNodes2_apply]
  show _ = ∑ n : Fin 100000, _
  refine Finset.sum_congr rfl fun n _ => ?_
  rw [mulf_apply, gate_apply, headF2_apply, headG2_apply]
  rfl

theorem refV_eq (A H : FVec Ideal S100000x64 .f32) (a18 : FVec Ideal S64x128 .f32) (a19 : FVec Ideal S64 .f32)
    (a20 : FVec Ideal S1x64 .f32) (a21 : FVec Ideal S1 .f32) (a22 : FVec Ideal S64x64 .f32) (a23 : FVec Ideal S64 .f32)
    (a24 : FVec Ideal S1x64 .f32) (a25 : FVec Ideal S1 .f32) :
    refV A H a18 a19 a20 a21 a22 a23 a24 a25 = fun j => Spec.sumAll (Spec.term
      (Spec.head (Spec.concat2 (Spec.cur A) (Spec.cur H)) (fun k j => a18 (ValueIdx.ix2 k j)) (fun k => a19 (ValueIdx.ix1 k))
        (fun j k => a20 (ValueIdx.ix2 j k)) (fun j => a21 (ValueIdx.ix1 j)))
      (Spec.head (Spec.cur H) (fun k d => a22 (ValueIdx.ix2 k d)) (fun k => a23 (ValueIdx.ix1 k))
        (fun j k => a24 (ValueIdx.ix2 j k)) (fun j => a25 (ValueIdx.ix1 j)))) (j 0) := by
  funext j
  obtain ⟨o, rfl⟩ : ∃ o : Fin 1, j = ix1 o := ⟨j 0, eq_ix1 j⟩
  simp only [refV]
  rw [sumNodes1_apply]
  show _ = ∑ n : Fin 100000, _
  refine Finset.sum_congr rfl fun n _ => ?_
  rw [mulf_apply, gate_apply, headF1_apply, headG1_apply]
  rfl

end Cert.ReferenceIdeal.ReadH

end
-- ==== Proof.RI.Value.lean ====
import proofs.«412786_j57784490000510_2_alg».proof.Proof.RI.Run
import proofs.«412786_j57784490000510_2_alg».proof.Proof.RI.Val0
import proofs.«412786_j57784490000510_2_alg».proof.Proof.RI.ValStep
import proofs.«412786_j57784490000510_2_alg».proof.Proof.RI.Val5
import proofs.«412786_j57784490000510_2_alg».proof.Proof.RI.StepEq
import proofs.«412786_j57784490000510_2_alg».proof.Proof.RI.HeadsP

set_option Elab.async false

noncomputable section

namespace Cert.ReferenceIdeal.ReadH

open Cert.ReferenceIdeal Cert.ReferenceIdeal.Gen Cert.ReferenceIdeal.RunH Idealize.ShloMosaic Idealize.ShloMosaic.TcCoe Idealize.SL.Sem Idealize.ShloMosaic.StableHlo

abbrev wOf (V : Valuation τ sig (Elt Ideal)) : Spec.Wts :=
  Spec.wtsOf (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
    (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25))

abbrev iOf (V : Valuation τ sig (Elt Ideal)) : Spec.Ints :=
  Spec.intsOf (V (Proc.devRef .tc main_arg0)) (V (Proc.devRef .tc main_arg1)) (V (Proc.devRef .tc main_arg2)) (V (Proc.devRef .tc main_arg3))

theorem after_ops_stages {F : FTy → Type} [FloatOps F] (V : Valuation τ sig (Elt F)) :
    after RunH.ops V = after st5 (after st4 (after st3 (after st2 (after st1 (after st0 V))))) := by
  simp only [RunH.ops, after_append]

-- Stage by stage: a stage's result is its function of the buffers it reads, and a buffer it does not write is read through it.
theorem after_v309 (V : Valuation τ sig (Elt Ideal)) :
    (after RunH.ops V (Proc.devRef .tc main_v309) : FVec Ideal S2 .f32)
      = tailP (refP (refH0 (V (Proc.devRef .tc main_arg0))) (stepOf V (stepOf V (stepOf V (stepOf V (refH0 (V (Proc.devRef .tc main_arg0))))))) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17))) := by
  rw [after_ops_stages]
  simp (disch := decide) only [stepOf, st5_valP, st4_val, st3_val, st2_val, st1_val, st0_val, keepStep, keepSt0]

theorem after_v310 (V : Valuation τ sig (Elt Ideal)) :
    (after RunH.ops V (Proc.devRef .tc main_v310) : FVec Ideal S1 .f32)
      = tailV (refV (refH0 (V (Proc.devRef .tc main_arg0))) (stepOf V (stepOf V (stepOf V (stepOf V (refH0 (V (Proc.devRef .tc main_arg0))))))) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25))) := by
  rw [after_ops_stages]
  simp (disch := decide) only [stepOf, st5_valV, st4_val, st3_val, st2_val, st1_val, st0_val, keepStep, keepSt0]

theorem h0_spec (V : Valuation τ sig (Elt Ideal)) : refH0 (V (Proc.devRef .tc main_arg0)) = Spec.unc (Spec.H0 (iOf V).nt) :=
  (refH0_eq _).trans rfl

theorem step_spec (V : Valuation τ sig (Elt Ideal)) (X : Spec.Arr Spec.N 64) :
    stepOf V (Spec.unc X) = Spec.unc (Spec.stepR (wOf V) (iOf V) X) :=
  (refStep_eq _ _ _ _ _ _ _ _ _ _).trans rfl

theorem rvalue (V : Valuation τ sig (Elt Ideal)) :
    (after RunH.ops V (Proc.devRef .tc main_v309) : S2.Idx → EReal)
        = tailP (fun j => Spec.pR (wOf V) (Spec.H0 (iOf V).nt) (Spec.finalR (wOf V) (iOf V)) (j 0))
    ∧ (after RunH.ops V (Proc.devRef .tc main_v310) : S1.Idx → EReal)
        = tailV (fun j => Spec.vR (wOf V) (Spec.H0 (iOf V).nt) (Spec.finalR (wOf V) (iOf V)) (j 0)) := by
  refine ⟨(after_v309 V).trans ?_, (after_v310 V).trans ?_⟩
  · rw [h0_spec, step_spec, step_spec, step_spec, step_spec, refP_eq]
    rfl
  · rw [h0_spec, step_spec, step_spec, step_spec, step_spec, refV_eq]
    rfl

end Cert.ReferenceIdeal.ReadH

end
-- ==== Proof.PreDecode.lean ====
import proofs.«412786_j57784490000510_2_alg».proof.Pre_finite_inputs
import proofs.«412786_j57784490000510_2_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic Cert.Pre_finite_inputs

instance : Subsingleton S_.Idx := ⟨fun a b => funext fun d => d.elim0⟩

abbrev AllReal {s : Shape} (x : FVec Ideal s .f32) : Prop := ∀ i, ∃ r : ℝ, x i = (r : EReal)

abbrev InRange {s : Shape} (x : IVec s 32) (lo hi : Int) : Prop := ∀ i, lo ≤ (x i).toInt ∧ (x i).toInt < hi

theorem inf_bits : Ideal.ofBits .f32 0x7F800000#32 = (⊤ : EReal) := by simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | coe r => exact ⟨r, rfl⟩
  | top => exact absurd h (by simp [Ideal.cmp])

theorem allReal_of_test {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) :
    AllReal x := fun i => real_of_abs_lt_inf (x i) (h i)

theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant (F := Ideal) S_ .f32 0x7F800000#32)))
      init hr hu j = 1#1) : AllReal x :=
  allReal_of_test x hb (Host.reduce_andi_all _ init hr hu j e)

theorem inRange_of_tests {s : Shape} (x : IVec s 32) (lo hi : BitVec 32)
    (hb : S_.BroadcastsInDim s (![] : Fin 0 → Fin s.rank)) (l u : Int) (hl : lo.toInt = l) (hh : hi.toInt = u)
    (h : ∀ i, cmpi .sge x (broadcastInDim s ![] hb (constantI S_ 32 lo)) i = 1#1
      ∧ IntOp.cmpi .slt (x i) (broadcastInDim s ![] hb (constantI S_ 32 hi) i) = 1#1) : InRange x l u := fun i => by
  obtain ⟨h1, h2⟩ := h i
  have h1' : lo.toInt ≤ (x i).toInt := IntOp.cmpi_sge.1 h1
  have h2' : (x i).toInt < hi.toInt := IntOp.cmpi_slt.1 h2
  exact ⟨by omega, by omega⟩

theorem inRange_of_all {s : Shape} {axes : List (Fin s.rank)} (x : IVec s 32) (lo hi : BitVec 32)
    (hb : S_.BroadcastsInDim s (![] : Fin 0 → Fin s.rank)) (hr : s.ReducesTo axes S_) (hu : 0 < S_.numel)
    (init : IVec S_ 1) (j : S_.Idx) (l u : Int) (hl : lo.toInt = l) (hh : hi.toInt = u)
    (e : Host.reduce IntOp.andi
      (andi (cmpi .sge x (broadcastInDim s ![] hb (constantI S_ 32 lo))) (cmpi .slt x (broadcastInDim s ![] hb (constantI S_ 32 hi))))
      init hr hu j = 1#1) : InRange x l u :=
  inRange_of_tests x lo hi hb l u hl hh fun i => IntOp.andi_eq_one.1 (Host.reduce_andi_all _ init hr hu j e i)

variable [Facts]
variable (a0 : IVec S100000 32) (a1 a2 a3 : IVec S1600000 32) (a4 : FVec Ideal S4x64x64 .f32) (a5 : FVec Ideal S4x64 .f32)
  (a6 a7 : FVec Ideal S192x64 .f32) (a8 a9 : FVec Ideal S192 .f32) (a10 : FVec Ideal S64x128 .f32) (a11 : FVec Ideal S64 .f32)
  (a12 : FVec Ideal S2x64 .f32) (a13 : FVec Ideal S2 .f32) (a14 : FVec Ideal S64x64 .f32) (a15 : FVec Ideal S64 .f32)
  (a16 : FVec Ideal S2x64 .f32) (a17 : FVec Ideal S2 .f32) (a18 : FVec Ideal S64x128 .f32) (a19 : FVec Ideal S64 .f32)
  (a20 : FVec Ideal S1x64 .f32) (a21 : FVec Ideal S1 .f32) (a22 : FVec Ideal S64x64 .f32) (a23 : FVec Ideal S64 .f32)
  (a24 : FVec Ideal S1x64 .f32) (a25 : FVec Ideal S1 .f32)

theorem part7 (v115 : IVec S_ 1) (v117 : IVec S1600000 1) (v118 : IVec S1600000 32)
    (h : fn_part7 (F := Ideal) a2 v115 v117 v118 ValueIdx.ix0 = 1#1) :
    v115 ValueIdx.ix0 = 1#1 ∧ ∀ i, v117 i = 1#1 ∧ IntOp.cmpi .slt (a2 i) (v118 i) = 1#1 := by
  obtain ⟨h1, h2⟩ := IntOp.andi_eq_one.1 h
  exact ⟨h1, fun i => IntOp.andi_eq_one.1 (Host.reduce_andi_all _ _ _ _ _ h2 i)⟩

abbrev Tail6 : Prop :=
  AllReal a25 ∧ InRange a3 0 4 ∧ InRange a2 0 100000

theorem part6 (v98 : IVec S_ 1) (v101 : IVec S1x64 1) (c39 : IVec S_ 1)
    (h : fn_part6 (F := Ideal) a2 a3 a25 v98 v101 c39 ValueIdx.ix0 = 1#1) :
    v98 ValueIdx.ix0 = 1#1 ∧ (∀ i, v101 i = 1#1) ∧ Tail6 a2 a3 a25 := by
  obtain ⟨h115, hdst⟩ := part7 _ _ _ _ h
  obtain ⟨h108, h114⟩ := IntOp.andi_eq_one.1 h115
  obtain ⟨h103, h107⟩ := IntOp.andi_eq_one.1 h108
  obtain ⟨h98, h102⟩ := IntOp.andi_eq_one.1 h103
  exact ⟨h98, Host.reduce_andi_all _ _ _ _ _ h102, allReal_of_all a25 _ _ _ _ _ h107,
    inRange_of_all a3 0#32 4#32 _ _ _ _ _ 0 4 (by decide) (by decide) h114,
    inRange_of_tests a2 0#32 100000#32 _ 0 100000 (by decide) (by decide) hdst⟩

abbrev Tail5 : Prop :=
  AllReal a22 ∧ AllReal a23 ∧ AllReal a24 ∧ Tail6 a2 a3 a25

theorem part5 (v83 : IVec S_ 1) (v84 : FVec Ideal S1 .f32)
    (c32 : FVec Ideal S_ .f32)
    (h : fn_part5 (F := Ideal) a2 a3 a22 a23 a24 a25 v83 v84 c32 ValueIdx.ix0 = 1#1) :
    v83 ValueIdx.ix0 = 1#1 ∧ (∀ i, cmpf .olt v84 (broadcastInDim S1 ![] Facts.bcast_S_S1 c32) i = 1#1)
      ∧ Tail5 a2 a3 a22 a23 a24 a25 := by
  obtain ⟨h98, h101, t6⟩ := part6 _ _ _ _ _ _ h
  obtain ⟨h93, h97⟩ := IntOp.andi_eq_one.1 h98
  obtain ⟨h88, h92⟩ := IntOp.andi_eq_one.1 h93
  obtain ⟨h83, h87⟩ := IntOp.andi_eq_one.1 h88
  exact ⟨h83, Host.reduce_andi_all _ _ _ _ _ h87, allReal_of_all a22 _ _ _ _ _ h92, allReal_of_all a23 _ _ _ _ _ h97,
    allReal_of_test a24 _ h101, t6⟩

abbrev Tail4 : Prop :=
  AllReal a18 ∧ AllReal a19 ∧ AllReal a20 ∧ AllReal a21 ∧ Tail5 a2 a3 a22 a23 a24 a25

theorem part4 (v63 v67 : IVec S_ 1)
    (h : fn_part4 (F := Ideal) a2 a3 a18 a19 a20 a21 a22 a23 a24 a25 v63 v67 ValueIdx.ix0 = 1#1) :
    v63 ValueIdx.ix0 = 1#1 ∧ v67 ValueIdx.ix0 = 1#1 ∧ Tail4 a2 a3 a18 a19 a20 a21 a22 a23 a24 a25 := by
  obtain ⟨h83, h86, t5⟩ := part5 _ _ _ _ _ _ _ _ _ h
  obtain ⟨h78, h82⟩ := IntOp.andi_eq_one.1 h83
  obtain ⟨h73, h77⟩ := IntOp.andi_eq_one.1 h78
  obtain ⟨h68, h72⟩ := IntOp.andi_eq_one.1 h73
  obtain ⟨h63, h67⟩ := IntOp.andi_eq_one.1 h68
  exact ⟨h63, h67, allReal_of_all a18 _ _ _ _ _ h72, allReal_of_all a19 _ _ _ _ _ h77, allReal_of_all a20 _ _ _ _ _ h82,
    allReal_of_test a21 _ h86, t5⟩

abbrev Tail3 : Prop :=
  AllReal a15 ∧ AllReal a16 ∧ AllReal a17 ∧ Tail4 a2 a3 a18 a19 a20 a21 a22 a23 a24 a25

theorem part3 (v48 : IVec S_ 1) (v49 v50 : FVec Ideal S64x64 .f32)
    (h : fn_part3 (F := Ideal) a2 a3 a15 a16 a17 a18 a19 a20 a21 a22 a23 a24 a25 v48 v49 v50 ValueIdx.ix0 = 1#1) :
    v48 ValueIdx.ix0 = 1#1 ∧ (∀ i, cmpf .olt v49 v50 i = 1#1)
      ∧ Tail3 a2 a3 a15 a16 a17 a18 a19 a20 a21 a22 a23 a24 a25 := by
  obtain ⟨h63, h67, t4⟩ := part4 _ _ _ _ _ _ _ _ _ _ _ _ h
  obtain ⟨h58, h62⟩ := IntOp.andi_eq_one.1 h63
  obtain ⟨h53, h57⟩ := IntOp.andi_eq_one.1 h58
  obtain ⟨h48, h52⟩ := IntOp.andi_eq_one.1 h53
  exact ⟨h48, Host.reduce_andi_all _ _ _ _ _ h52, allReal_of_all a15 _ _ _ _ _ h57, allReal_of_all a16 _ _ _ _ _ h62,
    allReal_of_all a17 _ _ _ _ _ h67, t4⟩

abbrev Tail2 : Prop :=
  AllReal a11 ∧ AllReal a12 ∧ AllReal a13 ∧ AllReal a14 ∧ Tail3 a2 a3 a15 a16 a17 a18 a19 a20 a21 a22 a23 a24 a25

theorem part2 (v33 : IVec S_ 1)
    (h : fn_part2 (F := Ideal) a2 a3 a11 a12 a13 a14 a15 a16 a17 a18 a19 a20 a21 a22 a23 a24 a25 v33 ValueIdx.ix0 = 1#1) :
    v33 ValueIdx.ix0 = 1#1 ∧ Tail2 a2 a3 a11 a12 a13 a14 a15 a16 a17 a18 a19 a20 a21 a22 a23 a24 a25 := by
  obtain ⟨h48, h51, t3⟩ := part3 _ _ _ _ _ _ _ _ _ _ _ _ _ _ _ _ h
  obtain ⟨h43, h47⟩ := IntOp.andi_eq_one.1 h48
  obtain ⟨h38, h42⟩ := IntOp.andi_eq_one.1 h43
  obtain ⟨h33, h37⟩ := IntOp.andi_eq_one.1 h38
  exact ⟨h33, allReal_of_all a11 _ _ _ _ _ h37, allReal_of_all a12 _ _ _ _ _ h42, allReal_of_all a13 _ _ _ _ _ h47,
    allReal_of_test a14 _ h51, t3⟩

abbrev Tail1 : Prop :=
  AllReal a8 ∧ AllReal a9 ∧ AllReal a10 ∧ Tail2 a2 a3 a11 a12 a13 a14 a15 a16 a17 a18 a19 a20 a21 a22 a23 a24 a25

theorem part1 (v13 : IVec S_ 1) (v16 : IVec S192x64 1)
    (h : fn_part1 (F := Ideal) a2 a3 a8 a9 a10 a11 a12 a13 a14 a15 a16 a17 a18 a19 a20 a21 a22 a23 a24 a25 v13 v16
      ValueIdx.ix0 = 1#1) :
    v13 ValueIdx.ix0 = 1#1 ∧ (∀ i, v16 i = 1#1)
      ∧ Tail1 a2 a3 a8 a9 a10 a11 a12 a13 a14 a15 a16 a17 a18 a19 a20 a21 a22 a23 a24 a25 := by
  obtain ⟨h33, t2⟩ := part2 _ _ _ _ _ _ _ _ _ _ _ _ _ _ _ _ _ _ h
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  exact ⟨h13, Host.reduce_andi_all _ _ _ _ _ h17, allReal_of_all a8 _ _ _ _ _ h22, allReal_of_all a9 _ _ _ _ _ h27,
    allReal_of_all a10 _ _ _ _ _ h32, t2⟩

theorem decode
    (h : Cert.Pre_finite_inputs.fn (F := Ideal) a0 a1 a2 a3 a4 a5 a6 a7 a8 a9 a10 a11 a12 a13 a14 a15 a16 a17 a18 a19 a20
      a21 a22 a23 a24 a25 = fun _ => 1#1) :
    AllReal a4 ∧ AllReal a5 ∧ AllReal a6 ∧ AllReal a7
      ∧ Tail1 a2 a3 a8 a9 a10 a11 a12 a13 a14 a15 a16 a17 a18 a19 a20 a21 a22 a23 a24 a25 := by
  obtain ⟨h13, h16, t1⟩ := part1 _ _ _ _ _ _ _ _ _ _ _ _ _ _ _ _ _ _ _ _ _ _ (congrFun h ValueIdx.ix0)
  obtain ⟨h8, h12⟩ := IntOp.andi_eq_one.1 h13
  obtain ⟨h3, h7⟩ := IntOp.andi_eq_one.1 h8
  exact ⟨allReal_of_all a4 _ _ _ _ _ h3, allReal_of_all a5 _ _ _ _ _ h7, allReal_of_all a6 _ _ _ _ _ h12,
    allReal_of_test a7 _ h16, t1⟩

end Cert.PreDecode
-- ==== Proof.Laws.Basic.lean ====
import proofs.«412786_j57784490000510_2_alg».proof.Proof.Spec
import Mathlib.Algebra.BigOperators.Ring.Finset
import Mathlib.Data.EReal.Operations

namespace Cert.Spec.Laws

open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe_mul_coe {ι : Type*} (s : Finset ι) (f : ι → ℝ) (c : ℝ) :
    (∑ i ∈ s, (f i : EReal)) * (c : EReal) = ∑ i ∈ s, (f i : EReal) * (c : EReal) := by
  rw [← coe_sum, ← EReal.coe_mul, Finset.sum_mul, coe_sum]
  exact Finset.sum_congr rfl fun i _ => EReal.coe_mul _ _

theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

end Cert.Spec.Laws
-- ==== Proof.Laws.Finite.lean ====
import proofs.«412786_j57784490000510_2_alg».proof.Proof.Spec
import proofs.«412786_j57784490000510_2_alg».proof.Proof.Laws.Basic
import Mathlib.Data.EReal.Operations

namespace Cert.Spec.Laws

open Idealize.ShloMosaic

theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

theorem tanh_real (x : EReal) : ∃ r : ℝ, Ideal.tanh x = (r : EReal) := by
  induction x using EReal.rec with
  | bot => exact ⟨-1, by simp⟩
  | coe r => exact ⟨_, Ideal.tanh_coe r⟩
  | top => exact ⟨1, by simp⟩

theorem one_sub_real {x : EReal} (hx : ∃ r : ℝ, x = (r : EReal)) : ∃ r : ℝ, 1 - x = (r : EReal) := by
  obtain ⟨a, rfl⟩ := hx
  exact ⟨1 - a, by rw [EReal.coe_sub, EReal.coe_one]⟩

theorem gru_finite (H m : Arr N 64) (wi wh : Arr 192 64) (bi bh : Fin 192 → EReal) (hm : Fin2 m) :
    Fin2 (gru H m wi wh bi bh) := by
  intro n k
  unfold gru
  exact add_real (mul_real (one_sub_real (logistic_real _)) (tanh_real _)) (mul_real (logistic_real _) (hm n k))

theorem msgR_finite (H : Arr N 64) (W : Fin 4 → Arr 64 64) (b : Arr 4 64) (src : Fin E → Fin N) (et : Fin E → Fin 4)
    (dst : Fin E → Option (Fin N)) (hH : Fin2 H) (hW : ∀ t, Fin2 (W t)) (hb : Fin2 b) :
    Fin2 (msgR H W b src et dst) := by
  intro n k
  unfold msgR
  exact sum_real _ _ fun e _ => add_real (sum_real _ _ fun d _ => mul_real (hW _ _ _) (hH _ _)) (hb _ _)

theorem H0_finite (nt : Fin N → BitVec 32) : Fin2 (H0 nt) := by
  intro n k
  unfold H0
  split
  · exact ⟨1, EReal.coe_one.symm⟩
  · exact ⟨0, EReal.coe_zero.symm⟩

theorem stepR_finite (w : Wts) (i : Ints) (H : Arr N 64) (hH : Fin2 H) (hW : ∀ t, Fin2 (w.W t)) (hb : Fin2 w.b) :
    Fin2 (stepR w i H) := by
  unfold stepR
  exact gru_finite _ _ _ _ _ _ (msgR_finite _ _ _ _ _ _ hH hW hb)

end Cert.Spec.Laws
-- ==== Proof.Laws.Msg.lean ====
import proofs.«412786_j57784490000510_2_alg».proof.Proof.Spec
import proofs.«412786_j57784490000510_2_alg».proof.Proof.Laws.Basic
import Mathlib.Algebra.BigOperators.Group.Finset.Basic
import Mathlib.Algebra.BigOperators.Group.Finset.Sigma
import Mathlib.Data.Fintype.BigOperators
import Mathlib.Logic.Equiv.Fin.Basic

namespace Cert.Spec.Laws

open Idealize.ShloMosaic

theorem sum_256 (F : Fin 256 → EReal) :
    ∑ j : Fin 256, F j = ∑ t : Fin 4, ∑ d : Fin 64, F ⟨64 * t.val + d.val, by have := t.isLt; have := d.isLt; omega⟩ := by
  rw [← Fintype.sum_prod_type']
  refine (Fintype.sum_equiv (finProdFinEquiv (m := 4) (n := 64)) _ _ fun p => ?_).symm
  congr 1
  apply Fin.ext
  simp [finProdFinEquiv]
  omega

theorem flatK_at (S : Arr (4 * N) 64) (n : Fin N) (t : Fin 4) (d : Fin 64) :
    flatK S n ⟨64 * t.val + d.val, by have := t.isLt; have := d.isLt; omega⟩
      = S ⟨4 * n.val + t.val, by have := n.isLt; have := t.isLt; omega⟩ d := by
  have h1 : (64 * t.val + d.val) / 64 = t.val := by have := d.isLt; omega
  have h2 : (64 * t.val + d.val) % 64 = d.val := by have := d.isLt; omega
  unfold flatK
  simp only [h1, h2, Fin.eta]

theorem wcat_at (W : Fin 4 → Arr 64 64) (t : Fin 4) (d k : Fin 64) :
    wcat W ⟨64 * t.val + d.val, by have := t.isLt; have := d.isLt; omega⟩ k = W t k d := by
  have h1 : (64 * t.val + d.val) / 64 = t.val := by have := d.isLt; omega
  have h2 : (64 * t.val + d.val) % 64 = d.val := by have := d.isLt; omega
  unfold wcat
  simp only [h1, h2, Fin.eta]

theorem msgK_eq_msgR (H : Arr N 64) (W : Fin 4 → Arr 64 64) (b : Arr 4 64) (src : Fin E → Fin N) (et : Fin E → Fin 4)
    (dstN : Fin E → Fin N) (key : Fin E → Option (Fin (4 * N))) (oh : Fin E → Fin 4 → EReal)
    (dst : Fin E → Option (Fin N)) (hH : Fin2 H) (hW : ∀ t, Fin2 (W t)) (hb : Fin2 b)
    (hdst : ∀ e, dst e = some (dstN e))
    (hkey : ∀ e, key e = some ⟨4 * (dstN e).val + (et e).val, by have := (dstN e).isLt; have := (et e).isLt; omega⟩)
    (hoh : ∀ e t, oh e t = if et e = t then 1 else 0) :
    msgK H W b src key oh dst = msgR H W b src et dst := by
  classical
  choose Hr hHr using hH
  choose Wr hWr using hW
  choose br hbr using hb
  funext n k

  have hfilter : ∀ t : Fin 4,
      Finset.univ.filter (fun e => key e = some ⟨4 * n.val + t.val, by have := n.isLt; have := t.isLt; omega⟩)
        = (Finset.univ.filter (fun e => dst e = some n)).filter (fun e => et e = t) := by
    intro t
    ext e
    simp only [Finset.mem_filter, Finset.mem_univ, true_and, hkey, hdst, Option.some.injEq, Fin.ext_iff]
    have := (et e).isLt; have := t.isLt
    omega

  have h1 : (∑ j : Fin 256, flatK (segK H src key) n j * wcat W j k)
      = ∑ e ∈ Finset.univ.filter (fun e => dst e = some n), ∑ d : Fin 64, W (et e) k d * H (src e) d := by
    rw [sum_256]
    calc _ = ∑ t : Fin 4, ∑ d : Fin 64,
              (∑ e ∈ (Finset.univ.filter (fun e => dst e = some n)).filter (fun e => et e = t), H (src e) d) * W t k d := by
            refine Finset.sum_congr rfl fun t _ => Finset.sum_congr rfl fun d _ => ?_
            rw [flatK_at, wcat_at, segK, hfilter]
      _ = ∑ t : Fin 4, ∑ d : Fin 64,
              ∑ e ∈ (Finset.univ.filter (fun e => dst e = some n)).filter (fun e => et e = t), W (et e) k d * H (src e) d := by
            refine Finset.sum_congr rfl fun t _ => Finset.sum_congr rfl fun d _ => ?_
            simp only [hHr, hWr]
            rw [sum_coe_mul_coe]
            refine Finset.sum_congr rfl fun e he => ?_
            rw [(Finset.mem_filter.mp he).2, mul_comm]
      _ = ∑ t : Fin 4,
              ∑ e ∈ (Finset.univ.filter (fun e => dst e = some n)).filter (fun e => et e = t), ∑ d : Fin 64, W (et e) k d * H (src e) d := by
            refine Finset.sum_congr rfl fun t _ => Finset.sum_comm
      _ = _ := Finset.sum_fiberwise _ et _

  have h2 : (∑ t : Fin 4, degK oh dst n t * b t k)
      = ∑ e ∈ Finset.univ.filter (fun e => dst e = some n), b (et e) k := by
    calc _ = ∑ t : Fin 4,
              ∑ e ∈ (Finset.univ.filter (fun e => dst e = some n)).filter (fun e => et e = t), b (et e) k := by
            refine Finset.sum_congr rfl fun t _ => ?_
            unfold degK
            simp only [hoh, hbr]
            rw [← Finset.sum_filter]
            have hone : (∑ e ∈ (Finset.univ.filter (fun e => dst e = some n)).filter (fun e => et e = t), (1 : EReal))
                = ∑ e ∈ (Finset.univ.filter (fun e => dst e = some n)).filter (fun e => et e = t), (((fun _ => (1 : ℝ)) e : ℝ) : EReal) :=
              Finset.sum_congr rfl fun _ _ => EReal.coe_one.symm
            rw [hone, sum_coe_mul_coe]
            refine Finset.sum_congr rfl fun e he => ?_
            rw [(Finset.mem_filter.mp he).2]
            show ((1 : ℝ) : EReal) * _ = _
            rw [EReal.coe_one, one_mul]
      _ = _ := Finset.sum_fiberwise _ et _
  show (∑ j : Fin 256, flatK (segK H src key) n j * wcat W j k) + ∑ t : Fin 4, degK oh dst n t * b t k = _
  rw [h1, h2, ← Finset.sum_add_distrib]
  rfl

end Cert.Spec.Laws
-- ==== Proof.Laws.Words.lean ====
import proofs.«412786_j57784490000510_2_alg».proof.Proof.Spec
import Mathlib.Order.Lattice
import Mathlib.Order.MinMax

namespace Cert.Spec.Laws

open Idealize.ShloMosaic

theorem toNat_of_nonneg (x : BitVec 32) (h : 0 ≤ x.toInt) : x.toInt = (x.toNat : Int) ∧ x.toNat < 2147483648 := by
  have hc := BitVec.toInt_eq_toNat_cond x
  have hlt : x.toNat < 2 ^ 32 := x.isLt
  by_cases h2 : 2 * x.toNat < 2 ^ 32
  · rw [if_pos h2] at hc
    exact ⟨hc, by omega⟩
  · rw [if_neg h2] at hc
    exfalso
    omega

theorem rowOf_val (n : Nat) (hn : 0 < n) (x : BitVec 32) (h0 : 0 ≤ x.toInt) (h1 : x.toInt < (n : Int)) :
    (rowOf n hn x).val = x.toInt.toNat := by
  have hs : x.slt 0#32 = false := by
    rw [BitVec.slt_eq_decide, BitVec.toInt_zero]
    exact decide_eq_false (by omega)
  unfold rowOf
  simp only [hs, Bool.false_eq_true, if_false]
  rw [min_eq_right (by omega), max_eq_right h0]

theorem targetOf_some (n : Nat) (x : BitVec 32) (h : 0 ≤ x.toInt ∧ x.toInt < (n : Int)) :
    targetOf n x = some ⟨x.toInt.toNat, by omega⟩ := by
  unfold targetOf
  rw [dif_pos h]

theorem keyWord_toInt (d t : BitVec 32) (hd0 : 0 ≤ d.toInt) (hd1 : d.toInt < 100000) (ht0 : 0 ≤ t.toInt)
    (ht1 : t.toInt < 4) : (keyWord d t).toInt = 4 * d.toInt + t.toInt := by
  obtain ⟨hd, _⟩ := toNat_of_nonneg d hd0
  obtain ⟨ht, _⟩ := toNat_of_nonneg t ht0
  have h4 : (4#32).toNat = 4 := rfl
  have hk : (keyWord d t).toNat = d.toNat * 4 + t.toNat := by
    unfold keyWord
    rw [BitVec.toNat_add, BitVec.toNat_mul, h4]
    omega
  rw [BitVec.toInt_eq_toNat_of_lt (by rw [hk]; omega), hk]
  omega

theorem oneHot_eq (t : BitVec 32) (h0 : 0 ≤ t.toInt) (h1 : t.toInt < 4) (j : Fin 4) :
    oneHot t j = if rowOf 4 (by decide) t = j then 1 else 0 := by
  obtain ⟨ht, _⟩ := toNat_of_nonneg t h0
  have hv := rowOf_val 4 (by decide) t h0 (by omega)
  have hiff : (t = BitVec.ofNat 32 j.val) ↔ (rowOf 4 (by decide) t = j) := by
    rw [BitVec.toNat_eq, BitVec.toNat_ofNat, Fin.ext_iff, hv]
    have := j.isLt
    omega
  unfold oneHot
  exact if_congr hiff rfl rfl

end Cert.Spec.Laws
-- ==== Proof.Laws.Step.lean ====
import proofs.«412786_j57784490000510_2_alg».proof.Proof.Spec
import proofs.«412786_j57784490000510_2_alg».proof.Proof.Laws.Msg
import proofs.«412786_j57784490000510_2_alg».proof.Proof.Laws.Words

namespace Cert.Spec.Laws

open Idealize.ShloMosaic

theorem stepK_eq_stepR (w : Wts) (i : Ints) (H : Arr N 64) (hH : Fin2 H) (hW : ∀ t, Fin2 (w.W t)) (hb : Fin2 w.b)
    (het : ∀ e, 0 ≤ (i.et e).toInt ∧ (i.et e).toInt < 4)
    (hdst : ∀ e, 0 ≤ (i.dst e).toInt ∧ (i.dst e).toInt < 100000) : stepK w i H = stepR w i H := by
  have hdN : ∀ e, 0 ≤ (i.dst e).toInt ∧ (i.dst e).toInt < ((N : Nat) : Int) := fun e =>
    ⟨(hdst e).1, by have := (hdst e).2; show _ < ((100000 : Nat) : Int); omega⟩
  have hm := msgK_eq_msgR H w.W w.b (fun e => rowOf N (by decide) (i.src e)) (fun e => rowOf 4 (by decide) (i.et e))
    (fun e => ⟨(i.dst e).toInt.toNat, by have := hdN e; omega⟩)
    (fun e => targetOf (4 * N) (keyWord (i.dst e) (i.et e))) (fun e => oneHot (i.et e))
    (fun e => targetOf N (i.dst e)) hH hW hb
    (fun e => targetOf_some N (i.dst e) (hdN e))
    (fun e => by
      have hk := keyWord_toInt (i.dst e) (i.et e) (hdst e).1 (hdst e).2 (het e).1 (het e).2
      have hv := rowOf_val 4 (by decide) (i.et e) (het e).1 (by have := (het e).2; omega)
      have h1 := (hdst e).1; have h2 := (hdst e).2; have h3 := (het e).1; have h4 := (het e).2
      rw [targetOf_some (4 * N) _ ⟨by omega, by show _ < ((4 * 100000 : Nat) : Int); omega⟩]
      refine congrArg some (Fin.ext ?_)
      show (keyWord (i.dst e) (i.et e)).toInt.toNat = 4 * (i.dst e).toInt.toNat + (rowOf 4 (by decide) (i.et e)).val
      rw [hk, hv]
      omega)
    (fun e t => oneHot_eq (i.et e) (het e).1 (het e).2 t)
  unfold stepK stepR
  rw [hm]

end Cert.Spec.Laws
-- ==== Proof.Laws.Final.lean ====
import proofs.«412786_j57784490000510_2_alg».proof.Proof.Spec
import proofs.«412786_j57784490000510_2_alg».proof.Proof.Laws.Finite
import proofs.«412786_j57784490000510_2_alg».proof.Proof.Laws.Step

namespace Cert.Spec.Laws

open Idealize.ShloMosaic

theorem finalK_eq_finalR (w : Wts) (i : Ints) (hW : ∀ t, Fin2 (w.W t)) (hb : Fin2 w.b)
    (het : ∀ e, 0 ≤ (i.et e).toInt ∧ (i.et e).toInt < 4)
    (hdst : ∀ e, 0 ≤ (i.dst e).toInt ∧ (i.dst e).toInt < 100000) : finalK w i = finalR w i := by
  have f0 := H0_finite i.nt
  have f1 := stepR_finite w i _ f0 hW hb
  have f2 := stepR_finite w i _ f1 hW hb
  have f3 := stepR_finite w i _ f2 hW hb
  unfold finalK finalR
  rw [stepK_eq_stepR w i _ f0 hW hb het hdst, stepK_eq_stepR w i _ f1 hW hb het hdst,
    stepK_eq_stepR w i _ f2 hW hb het hdst, stepK_eq_stepR w i _ f3 hW hb het hdst]

end Cert.Spec.Laws
-- ==== Proof.Laws.Tiles.lean ====
import proofs.«412786_j57784490000510_2_alg».proof.Proof.Spec
import Mathlib.Algebra.BigOperators.Group.Finset.Basic
import Mathlib.Data.Fintype.BigOperators

namespace Cert.Spec.Laws

open Idealize.ShloMosaic

noncomputable def colNat {o : Nat} (f : Arr N o) (j : Fin o) (n : Nat) : EReal := if h : n < N then f ⟨n, h⟩ j else 0

theorem sumAll_eq_range {o : Nat} (f : Arr N o) (j : Fin o) : sumAll f j = ∑ n ∈ Finset.range N, colNat f j n := by
  rw [← Fin.sum_univ_eq_sum_range]
  unfold sumAll
  refine Finset.sum_congr rfl fun n _ => ?_
  simp [colNat, n.isLt]

theorem tileSum_eq_range {o : Nat} (f : Arr N o) (t : Fin 50) (j : Fin o) :
    tileSum f t j = ∑ r ∈ Finset.range 2000, colNat f j (2000 * t.val + r) := by
  rw [← Fin.sum_univ_eq_sum_range (fun r => colNat f j (2000 * t.val + r))]
  unfold tileSum
  refine Finset.sum_congr rfl fun r _ => ?_
  have h : 2000 * t.val + r.val < N := by have := t.isLt; have := r.isLt; show 2000 * t.val + r.val < 100000; omega
  simp [colNat, h]

theorem accTiles_eq_range {o : Nat} (f : Arr N o) (j : Fin o) :
    ∀ (s : Nat) (h : s ≤ 50), accTiles f s h j = ∑ n ∈ Finset.range (2000 * s), colNat f j n
  | 0, _ => by simp [accTiles]
  | s + 1, h => by
    have ih := accTiles_eq_range f j s (by omega)
    show accTiles f s _ j + tileSum f ⟨s, _⟩ j = _
    rw [ih, tileSum_eq_range, Nat.mul_succ, Finset.sum_range_add]

theorem accTiles_eq_sumAll {o : Nat} (f : Arr N o) : accTiles f 50 le_rfl = sumAll f := by
  funext j
  rw [accTiles_eq_range, sumAll_eq_range]

end Cert.Spec.Laws
-- ==== Proof.Laws.Heads.lean ====
import proofs.«412786_j57784490000510_2_alg».proof.Proof.Spec
import proofs.«412786_j57784490000510_2_alg».proof.Proof.Laws.Tiles
import Mathlib.Algebra.BigOperators.Fin

namespace Cert.Spec.Laws

open Idealize.ShloMosaic

theorem concat_sum (X Y : Arr N 64) (w : Fin 128 → EReal) (n : Fin N) :
    ∑ d : Fin 128, concat2 X Y n d * w d
      = (∑ d : Fin 64, X n d * w ⟨d.val, by omega⟩) + ∑ d : Fin 64, Y n d * w ⟨64 + d.val, by omega⟩ := by
  have h := Fin.sum_univ_add (a := 64) (b := 64) (fun d : Fin (64 + 64) => concat2 X Y n d * w d)
  refine h.trans (congrArg₂ (· + ·) ?_ ?_)
  · refine Finset.sum_congr rfl fun d _ => ?_
    have hd : (Fin.castAdd 64 d : Fin (64 + 64)).val < 64 := d.isLt
    show concat2 X Y n (Fin.castAdd 64 d) * w (Fin.castAdd 64 d) = _
    unfold concat2
    rw [dif_pos hd]
    rfl
  · refine Finset.sum_congr rfl fun d _ => ?_
    have hd : ¬ (Fin.natAdd 64 d : Fin (64 + 64)).val < 64 := by simp [Fin.natAdd]
    show concat2 X Y n (Fin.natAdd 64 d) * w (Fin.natAdd 64 d) = _
    unfold concat2
    rw [dif_neg hd]
    congr 1
    congr 1
    apply Fin.ext
    simp [Fin.natAdd]

theorem headSplit_eq_head {o : Nat} (X Y : Arr N 64) (w1 : Arr 64 128) (b1 : Fin 64 → EReal) (w2 : Arr o 64)
    (b2 : Fin o → EReal) : headSplit X Y w1 b1 w2 b2 = head (concat2 X Y) w1 b1 w2 b2 := by
  unfold headSplit head
  congr 1
  funext n k
  unfold lin
  rw [concat_sum]

theorem pK_eq_pR (w : Wts) (A H : Arr N 64) : pK w A H = pR w A H := by
  unfold pK pR
  rw [accTiles_eq_sumAll, headSplit_eq_head]

theorem vK_eq_vR (w : Wts) (A H : Arr N 64) : vK w A H = vR w A H := by
  unfold vK vR
  rw [accTiles_eq_sumAll, headSplit_eq_head]

end Cert.Spec.Laws
-- ==== Proof.Bridge.lean ====
import proofs.«412786_j57784490000510_2_alg».proof.Defs
import proofs.«412786_j57784490000510_2_alg».proof.Proof.Gen.KernelIdeal
import proofs.«412786_j57784490000510_2_alg».proof.Proof.Gen.ReferenceIdeal
import proofs.«412786_j57784490000510_2_alg».proof.Proof.Gen.Pre_finite_inputs
import proofs.«412786_j57784490000510_2_alg».proof.Proof.KI.Vals
import proofs.«412786_j57784490000510_2_alg».proof.Proof.KI.ValueDefs
import proofs.«412786_j57784490000510_2_alg».proof.Proof.RI.Run
import proofs.«412786_j57784490000510_2_alg».proof.Proof.RI.HeadsDef
import proofs.«412786_j57784490000510_2_alg».proof.Proof.PreDecode
import proofs.«412786_j57784490000510_2_alg».proof.Proof.Laws.Final
import proofs.«412786_j57784490000510_2_alg».proof.Proof.Laws.Heads

noncomputable section

namespace Cert.Proof

open Idealize.ShloMosaic Idealize.SL.Sem Idealize.ShloMosaic.ValueIdx

open Cert.ReferenceIdeal in
abbrev rwOf (V : Valuation τ sig (Elt Ideal)) : Spec.Wts :=
  Spec.wtsOf (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25))

open Cert.ReferenceIdeal in
abbrev riOf (V : Valuation τ sig (Elt Ideal)) : Spec.Ints :=
  Spec.intsOf (V (Proc.devRef .tc main_arg0)) (V (Proc.devRef .tc main_arg1)) (V (Proc.devRef .tc main_arg2)) (V (Proc.devRef .tc main_arg3))

theorem wtsOf_congr {x4 y4} {x5 y5} {x6 y6} {x7 y7} {x8 y8} {x9 y9} {x10 y10} {x11 y11} {x12 y12} {x13 y13} {x14 y14} {x15 y15} {x16 y16} {x17 y17} {x18 y18} {x19 y19} {x20 y20} {x21 y21} {x22 y22} {x23 y23} {x24 y24} {x25 y25}
    (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) :
    Spec.wtsOf x4 x5 x6 x7 x8 x9 x10 x11 x12 x13 x14 x15 x16 x17 x18 x19 x20 x21 x22 x23 x24 x25 = Spec.wtsOf y4 y5 y6 y7 y8 y9 y10 y11 y12 y13 y14 y15 y16 y17 y18 y19 y20 y21 y22 y23 y24 y25 := by
  subst_vars; rfl

theorem intsOf_congr {x0 y0} {x1 y1 x2 y2 x3 y3} (h0 : x0 = y0) (h1 : x1 = y1) (h2 : x2 = y2) (h3 : x3 = y3) :
    Spec.intsOf x0 x1 x2 x3 = Spec.intsOf y0 y1 y2 y3 := by
  subst_vars; rfl

theorem tailP_eq : (Cert.KernelIdeal.ReadH.kerTailP : FVec Ideal Cert.KernelIdeal.S2 .f32 → _) = Cert.ReferenceIdeal.ReadH.tailP := by
  funext p; rfl
theorem tailV_eq : (Cert.KernelIdeal.ReadH.kerTailV : FVec Ideal Cert.KernelIdeal.S1 .f32 → _) = Cert.ReferenceIdeal.ReadH.tailV := by
  funext v; rfl

theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (hk : (Cert.KernelIdeal.Gen.W17 m c (Proc.devRef .tc Cert.KernelIdeal.main_v97) : Cert.KernelIdeal.S2.Idx → EReal)
          = Cert.KernelIdeal.ReadH.kerTailP (fun j => Spec.pK (Cert.KernelIdeal.ReadH.wOf m c) (Spec.H0 (Cert.KernelIdeal.ReadH.iOf m c).nt) (Spec.finalK (Cert.KernelIdeal.ReadH.wOf m c) (Cert.KernelIdeal.ReadH.iOf m c)) (j 0))
        ∧ (Cert.KernelIdeal.Gen.W17 m c (Proc.devRef .tc Cert.KernelIdeal.main_v98) : Cert.KernelIdeal.S1.Idx → EReal)
          = Cert.KernelIdeal.ReadH.kerTailV (fun j => Spec.vK (Cert.KernelIdeal.ReadH.wOf m c) (Spec.H0 (Cert.KernelIdeal.ReadH.iOf m c).nt) (Spec.finalK (Cert.KernelIdeal.ReadH.wOf m c) (Cert.KernelIdeal.ReadH.iOf m c)) (j 0)))
    (hr : (StableHlo.after (Cert.ReferenceIdeal.RunH.ops (F := Ideal)) (fun b => m' (c, b)) (Proc.devRef .tc Cert.ReferenceIdeal.main_v309) : Cert.ReferenceIdeal.S2.Idx → EReal)
          = Cert.ReferenceIdeal.ReadH.tailP (fun j => Spec.pR (rwOf (fun b => m' (c, b))) (Spec.H0 (riOf (fun b => m' (c, b))).nt) (Spec.finalR (rwOf (fun b => m' (c, b))) (riOf (fun b => m' (c, b)))) (j 0))
        ∧ (StableHlo.after (Cert.ReferenceIdeal.RunH.ops (F := Ideal)) (fun b => m' (c, b)) (Proc.devRef .tc Cert.ReferenceIdeal.main_v310) : Cert.ReferenceIdeal.S1.Idx → EReal)
          = Cert.ReferenceIdeal.ReadH.tailV (fun j => Spec.vR (rwOf (fun b => m' (c, b))) (Spec.H0 (riOf (fun b => m' (c, b))).nt) (Spec.finalR (rwOf (fun b => m' (c, b))) (riOf (fun b => m' (c, b)))) (j 0))) :
    (StableHlo.after (Cert.ReferenceIdeal.RunH.ops (F := Ideal)) (fun b => m' (c, b)) (Proc.devRef .tc Cert.ReferenceIdeal.main_v309) : Cert.ReferenceIdeal.S2.Idx → EReal)
        = Cert.KernelIdeal.Gen.W17 m c (Proc.devRef .tc Cert.KernelIdeal.main_v97)
      ∧ (StableHlo.after (Cert.ReferenceIdeal.RunH.ops (F := Ideal)) (fun b => m' (c, b)) (Proc.devRef .tc Cert.ReferenceIdeal.main_v310) : Cert.ReferenceIdeal.S1.Idx → EReal)
        = Cert.KernelIdeal.Gen.W17 m c (Proc.devRef .tc Cert.KernelIdeal.main_v98) := by
  obtain ⟨e0, e1, e2, e3, e4, e5, e6, e7, e8, e9, e10, e11, e12, e13, e14, e15, e16, e17, e18, e19, e20, e21, e22, e23, e24, e25⟩ := hagree
  have hw : rwOf (fun b => m' (c, b)) = Cert.KernelIdeal.ReadH.wOf m c :=
    wtsOf_congr e4 e5 e6 e7 e8 e9 e10 e11 e12 e13 e14 e15 e16 e17 e18 e19 e20 e21 e22 e23 e24 e25
  have hi : riOf (fun b => m' (c, b)) = Cert.KernelIdeal.ReadH.iOf m c := intsOf_congr e0 e1 e2 e3
  obtain ⟨d4, d5, _, _, _, _, _, _, _, _, _, _, _, _, _, _, _, _, _, _, _, _, het, hdst⟩ :=
    Cert.PreDecode.decode _ _ _ _ _ _ _ _ _ _ _ _ _ _ _ _ _ _ _ _ _ _ _ _ _ _ (hpre c)
  have hW : ∀ t, Spec.Fin2 ((Cert.KernelIdeal.ReadH.wOf m c).W t) := fun t k d => d4 (ix3 t k d)
  have hb : Spec.Fin2 (Cert.KernelIdeal.ReadH.wOf m c).b := fun t k => d5 (ix2 t k)
  have hfin := Spec.Laws.finalK_eq_finalR (Cert.KernelIdeal.ReadH.wOf m c) (Cert.KernelIdeal.ReadH.iOf m c) hW hb
    (fun e => het (ix1 e)) (fun e => hdst (ix1 e))
  refine ⟨?_, ?_⟩
  · rw [hr.1, hk.1, hw, hi, tailP_eq, hfin, Spec.Laws.pK_eq_pR]
  · rw [hr.2, hk.2, hw, hi, tailV_eq, hfin, Spec.Laws.vK_eq_vR]

end Cert.Proof

end
-- ==== Proof.lean ====
import proofs.«412786_j57784490000510_2_alg».proof.Defs
import proofs.«412786_j57784490000510_2_alg».proof.Proof.Gen.Kernel
import proofs.«412786_j57784490000510_2_alg».proof.Proof.Gen.KernelIdeal
import proofs.«412786_j57784490000510_2_alg».proof.Proof.Gen.ReferenceIdeal
import proofs.«412786_j57784490000510_2_alg».proof.Proof.Gen.Pre_finite_inputs
import proofs.«412786_j57784490000510_2_alg».proof.Proof.KB.Run
import proofs.«412786_j57784490000510_2_alg».proof.Proof.KI.Run
import proofs.«412786_j57784490000510_2_alg».proof.Proof.KI.Value
import proofs.«412786_j57784490000510_2_alg».proof.Proof.RI.Run
import proofs.«412786_j57784490000510_2_alg».proof.Proof.RI.Value
import proofs.«412786_j57784490000510_2_alg».proof.Proof.Bridge

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

-- The run that names both results also keeps every argument array; the frame forgets the results.
theorem frame_k : Cert.frame_Kernel := fun m ρ _ =>
  (θ_run (Cert.Kernel.defs (F := Bits)) _ _).mono (fun _ h c => (h c).2.2) (Cert.Kernel.Gen.run_named m ρ)

theorem frame_ki : Cert.frame_KernelIdeal := fun m ρ _ =>
  (θ_run (Cert.KernelIdeal.defs (F := Ideal)) _ _).mono (fun _ h c => (h c).2.2) (Cert.KernelIdeal.Gen.run_named m ρ)

theorem frame_ri : Cert.frame_ReferenceIdeal := fun m ρ _ => Cert.ReferenceIdeal.RunH.frame (F := Ideal) m ρ

-- Both runs end at the kernel program's last valuation of its two results: the two programs' results are one function of arguments that agree.
theorem algebraic : Cert.algebraic_KernelIdeal_ReferenceIdeal := by
  intro m g m' g' hpre hagree
  refine ⟨fun c => Cert.KernelIdeal.Gen.W17 m c (Proc.devRef .tc Cert.KernelIdeal.main_v97),
    fun c => Cert.KernelIdeal.Gen.W17 m c (Proc.devRef .tc Cert.KernelIdeal.main_v98),
    Cert.KernelIdeal.Gen.run_named m g, ?_⟩
  refine (θ_run (Cert.ReferenceIdeal.defs (F := Ideal)) _ _).mono (fun r h c => ?_)
    (Cert.ReferenceIdeal.RunH.run (F := Ideal) m' g')
  obtain ⟨h1, h2⟩ := bridge m m' c hpre (hagree c) (Cert.KernelIdeal.ReadH.kvalue m c)
    (Cert.ReferenceIdeal.ReadH.rvalue (fun b => m' (c, b)))
  exact ⟨(h c).1.trans h1, (h c).2.1.trans h2, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
